-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v59)) (v1 : (c : Dev Cert.KernelIdeal.nD) → Buf (Elt Ideal) ((c.tc : Thread Cert.KernelIdeal.nD Cert.KernelIdeal.τ).loc Cert.KernelIdeal.main_v119)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_v119) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S60000x64 : Shape := ⟨2, ![60000, 64]⟩
abbrev S40000x64 : Shape := ⟨2, ![40000, 64]⟩
abbrev S720000 : Shape := ⟨1, ![720000]⟩
abbrev S480000 : Shape := ⟨1, ![480000]⟩
abbrev S1200000 : Shape := ⟨1, ![1200000]⟩
abbrev S_ : Shape := ⟨0, ![]⟩

class Facts : Prop where
  bcast_S_S60000x64 : S_.BroadcastsInDim S60000x64 (![] : Fin 0 → Fin S60000x64.rank)
  reducesTo_S60000x64_S_d0_1 : S60000x64.ReducesTo [0, 1] S_
  h_S_ : 0 < S_.numel
  bcast_S_S40000x64 : S_.BroadcastsInDim S40000x64 (![] : Fin 0 → Fin S40000x64.rank)
  reducesTo_S40000x64_S_d0_1 : S40000x64.ReducesTo [0, 1] S_
  bcast_S_S720000 : S_.BroadcastsInDim S720000 (![] : Fin 0 → Fin S720000.rank)
  reducesTo_S720000_S_d0 : S720000.ReducesTo [0] S_
  bcast_S_S480000 : S_.BroadcastsInDim S480000 (![] : Fin 0 → Fin S480000.rank)
  reducesTo_S480000_S_d0 : S480000.ReducesTo [0] S_
  bcast_S_S1200000 : S_.BroadcastsInDim S1200000 (![] : Fin 0 → Fin S1200000.rank)
  reducesTo_S1200000_S_d0 : S1200000.ReducesTo [0] S_

variable [Facts]

def fn_part3 {F : FTy → Type} [FloatOps F] (main_v44 : IVec S_ 1) (main_v49 : IVec S480000 1) (main_c_19 : IVec S_ 1) : IVec S_ 1 :=
  let main_v50 : IVec S_ 1 := (fun x v => Host.reduce IntOp.andi x v reducesTo_S480000_S_d0 h_S_) main_v49 main_c_19
  let main_v51 : IVec S_ 1 := andi main_v44 main_v50
  main_v51

def fn_part2 {F : FTy → Type} [FloatOps F] (main_arg3 : IVec S720000 32) (main_arg5 : IVec S480000 32) (main_arg6 : IVec S480000 32) (main_v30 : IVec S_ 1) (main_v32 : IVec S720000 1) (main_c_12 : IVec S_ 32) : IVec S_ 1 :=
  let main_v33 : IVec S720000 32 := broadcastInDim S720000 ![] bcast_S_S720000 main_c_12
  let main_v34 : IVec S720000 1 := cmpi .slt main_arg3 main_v33
  let main_v35 : IVec S720000 1 := andi main_v32 main_v34
  let main_c_13 : IVec S_ 1 := constantI S_ 1 1#1
  let main_v36 : IVec S_ 1 := (fun x v => Host.reduce IntOp.andi x v reducesTo_S720000_S_d0 h_S_) main_v35 main_c_13
  let main_v37 : IVec S_ 1 := andi main_v30 main_v36
  let main_c_14 : IVec S_ 32 := constantI S_ 32 0#32
  let main_v38 : IVec S480000 32 := broadcastInDim S480000 ![] bcast_S_S480000 main_c_14
  let main_v39 : IVec S480000 1 := cmpi .sge main_arg5 main_v38
  let main_c_15 : IVec S_ 32 := constantI S_ 32 40000#32
  let main_v40 : IVec S480000 32 := broadcastInDim S480000 ![] bcast_S_S480000 main_c_15
  let main_v41 : IVec S480000 1 := cmpi .slt main_arg5 main_v40
  let main_v42 : IVec S480000 1 := andi main_v39 main_v41
  let main_c_16 : IVec S_ 1 := constantI S_ 1 1#1
  let main_v43 : IVec S_ 1 := (fun x v => Host.reduce IntOp.andi x v reducesTo_S480000_S_d0 h_S_) main_v42 main_c_16
  let main_v44 : IVec S_ 1 := andi main_v37 main_v43
  let main_c_17 : IVec S_ 32 := constantI S_ 32 0#32
  let main_v45 : IVec S480000 32 := broadcastInDim S480000 ![] bcast_S_S480000 main_c_17
  let main_v46 : IVec S480000 1 := cmpi .sge main_arg6 main_v45
  let main_c_18 : IVec S_ 32 := constantI S_ 32 40000#32
  let main_v47 : IVec S480000 32 := broadcastInDim S480000 ![] bcast_S_S480000 main_c_18
  let main_v48 : IVec S480000 1 := cmpi .slt main_arg6 main_v47
  let main_v49 : IVec S480000 1 := andi main_v46 main_v48
  let main_c_19 : IVec S_ 1 := constantI S_ 1 1#1
  fn_part3 (F := F) main_v44 main_v49 main_c_19

def fn_part1 {F : FTy → Type} [FloatOps F] (main_arg2 : IVec S720000 32) (main_arg3 : IVec S720000 32) (main_arg5 : IVec S480000 32) (main_arg6 : IVec S480000 32) (main_arg10 : FVec F S1200000 .f32) (main_v13 : IVec S_ 1) (main_v16 : IVec S480000 1) : IVec S_ 1 :=
  let main_c_5 : IVec S_ 1 := constantI S_ 1 1#1
  let main_v17 : IVec S_ 1 := (fun x v => Host.reduce IntOp.andi x v reducesTo_S480000_S_d0 h_S_) main_v16 main_c_5
  let main_v18 : IVec S_ 1 := andi main_v13 main_v17
  let main_v19 : FVec F S1200000 .f32 := Host.absf main_arg10
  let main_cst_6 : FVec F S_ .f32 := constant S_ .f32 0x7F800000#32
  let main_v20 : FVec F S1200000 .f32 := broadcastInDim S1200000 ![] bcast_S_S1200000 main_cst_6
  let main_v21 : IVec S1200000 1 := cmpf .olt main_v19 main_v20
  let main_c_7 : IVec S_ 1 := constantI S_ 1 1#1
  let main_v22 : IVec S_ 1 := (fun x v => Host.reduce IntOp.andi x v reducesTo_S1200000_S_d0 h_S_) main_v21 main_c_7
  let main_v23 : IVec S_ 1 := andi main_v18 main_v22
  let main_c_8 : IVec S_ 32 := constantI S_ 32 0#32
  let main_v24 : IVec S720000 32 := broadcastInDim S720000 ![] bcast_S_S720000 main_c_8
  let main_v25 : IVec S720000 1 := cmpi .sge main_arg2 main_v24
  let main_c_9 : IVec S_ 32 := constantI S_ 32 60000#32
  let main_v26 : IVec S720000 32 := broadcastInDim S720000 ![] bcast_S_S720000 main_c_9
  let main_v27 : IVec S720000 1 := cmpi .slt main_arg2 main_v26
  let main_v28 : IVec S720000 1 := andi main_v25 main_v27
  let main_c_10 : IVec S_ 1 := constantI S_ 1 1#1
  let main_v29 : IVec S_ 1 := (fun x v => Host.reduce IntOp.andi x v reducesTo_S720000_S_d0 h_S_) main_v28 main_c_10
  let main_v30 : IVec S_ 1 := andi main_v23 main_v29
  let main_c_11 : IVec S_ 32 := constantI S_ 32 0#32
  let main_v31 : IVec S720000 32 := broadcastInDim S720000 ![] bcast_S_S720000 main_c_11
  let main_v32 : IVec S720000 1 := cmpi .sge main_arg3 main_v31
  let main_c_12 : IVec S_ 32 := constantI S_ 32 60000#32
  fn_part2 (F := F) main_arg3 main_arg5 main_arg6 main_v30 main_v32 main_c_12

def fn {F : FTy → Type} [FloatOps F] (main_arg0 : FVec F S60000x64 .f32) (main_arg1 : FVec F S40000x64 .f32) (main_arg2 : IVec S720000 32) (main_arg3 : IVec S720000 32) (main_arg4 : FVec F S720000 .f32) (main_arg5 : IVec S480000 32) (main_arg6 : IVec S480000 32) (main_arg7 : FVec F S480000 .f32) (main_arg8 : IVec S1200000 32) (main_arg9 : IVec S1200000 32) (main_arg10 : FVec F S1200000 .f32) : IVec S_ 1 :=
  let main_v0 : FVec F S60000x64 .f32 := Host.absf main_arg0
  let main_cst : FVec F S_ .f32 := constant S_ .f32 0x7F800000#32
  let main_v1 : FVec F S60000x64 .f32 := broadcastInDim S60000x64 ![] bcast_S_S60000x64 main_cst
  let main_v2 : IVec S60000x64 1 := cmpf .olt main_v0 main_v1
  let main_c : IVec S_ 1 := constantI S_ 1 1#1
  let main_v3 : IVec S_ 1 := (fun x v => Host.reduce IntOp.andi x v reducesTo_S60000x64_S_d0_1 h_S_) main_v2 main_c
  let main_v4 : FVec F S40000x64 .f32 := Host.absf main_arg1
  let main_cst_0 : FVec F S_ .f32 := constant S_ .f32 0x7F800000#32
  let main_v5 : FVec F S40000x64 .f32 := broadcastInDim S40000x64 ![] bcast_S_S40000x64 main_cst_0
  let main_v6 : IVec S40000x64 1 := cmpf .olt main_v4 main_v5
  let main_c_1 : IVec S_ 1 := constantI S_ 1 1#1
  let main_v7 : IVec S_ 1 := (fun x v => Host.reduce IntOp.andi x v reducesTo_S40000x64_S_d0_1 h_S_) main_v6 main_c_1
  let main_v8 : IVec S_ 1 := andi main_v3 main_v7
  let main_v9 : FVec F S720000 .f32 := Host.absf main_arg4
  let main_cst_2 : FVec F S_ .f32 := constant S_ .f32 0x7F800000#32
  let main_v10 : FVec F S720000 .f32 := broadcastInDim S720000 ![] bcast_S_S720000 main_cst_2
  let main_v11 : IVec S720000 1 := cmpf .olt main_v9 main_v10
  let main_c_3 : IVec S_ 1 := constantI S_ 1 1#1
  let main_v12 : IVec S_ 1 := (fun x v => Host.reduce IntOp.andi x v reducesTo_S720000_S_d0 h_S_) main_v11 main_c_3
  let main_v13 : IVec S_ 1 := andi main_v8 main_v12
  let main_v14 : FVec F S480000 .f32 := Host.absf main_arg7
  let main_cst_4 : FVec F S_ .f32 := constant S_ .f32 0x7F800000#32
  let main_v15 : FVec F S480000 .f32 := broadcastInDim S480000 ![] bcast_S_S480000 main_cst_4
  let main_v16 : IVec S480000 1 := cmpf .olt main_v14 main_v15
  fn_part1 (F := F) main_arg2 main_arg3 main_arg5 main_arg6 main_arg10 main_v13 main_v16
-- ==== Kernel.lean ====
abbrev S60000x64 : Shape := ⟨2, ![60000, 64]⟩
abbrev S40000x64 : Shape := ⟨2, ![40000, 64]⟩
abbrev S720000 : Shape := ⟨1, ![720000]⟩
abbrev S480000 : Shape := ⟨1, ![480000]⟩
abbrev S1200000 : Shape := ⟨1, ![1200000]⟩
abbrev S_ : Shape := ⟨0, ![]⟩
abbrev S896 : Shape := ⟨1, ![896]⟩
abbrev S720896 : Shape := ⟨1, ![720896]⟩
abbrev S61440x64 : Shape := ⟨2, ![61440, 64]⟩
abbrev S720896x1 : Shape := ⟨2, ![720896, 1]⟩
abbrev S352x2048 : Shape := ⟨2, ![352, 2048]⟩
abbrev S352 : Shape := ⟨1, ![352]⟩
abbrev S720896x64 : Shape := ⟨2, ![720896, 64]⟩
abbrev S2048x1 : Shape := ⟨2, ![2048, 1]⟩
abbrev S4096x64 : Shape := ⟨2, ![4096, 64]⟩
abbrev S2048x64 : Shape := ⟨2, ![2048, 64]⟩
abbrev S1 : Shape := ⟨1, ![1]⟩
abbrev S1x4096 : Shape := ⟨2, ![1, 4096]⟩
abbrev S2048x4096 : Shape := ⟨2, ![2048, 4096]⟩
abbrev S1x720896 : Shape := ⟨2, ![1, 720896]⟩
abbrev S1x2048 : Shape := ⟨2, ![1, 2048]⟩
abbrev S4096x1 : Shape := ⟨2, ![4096, 1]⟩
abbrev S4096x2048 : Shape := ⟨2, ![4096, 2048]⟩
abbrev S1280 : Shape := ⟨1, ![1280]⟩
abbrev S481280 : Shape := ⟨1, ![481280]⟩
abbrev S40960x64 : Shape := ⟨2, ![40960, 64]⟩
abbrev S481280x1 : Shape := ⟨2, ![481280, 1]⟩
abbrev S235x2048 : Shape := ⟨2, ![235, 2048]⟩
abbrev S235 : Shape := ⟨1, ![235]⟩
abbrev S481280x64 : Shape := ⟨2, ![481280, 64]⟩
abbrev S1x481280 : Shape := ⟨2, ![1, 481280]⟩

abbrev nBuf : Space → Nat
  | .hbm => 305
  | .vmem => 32
  | .smem => 8
  | _ => 0

abbrev hbmTy0_0 (i : Nat) : BufTy := match i % 128 with
  | 0 => ⟨S60000x64, .f32⟩
  | 1 => ⟨S40000x64, .f32⟩
  | 2 => ⟨S720000, .i32⟩
  | 3 => ⟨S720000, .i32⟩
  | 4 => ⟨S720000, .f32⟩
  | 5 => ⟨S480000, .i32⟩
  | 6 => ⟨S480000, .i32⟩
  | 7 => ⟨S480000, .f32⟩
  | 8 => ⟨S1200000, .i32⟩
  | 9 => ⟨S1200000, .i32⟩
  | 10 => ⟨S1200000, .f32⟩
  | 11 => ⟨S_, .i32⟩
  | 12 => ⟨S896, .i32⟩
  | 13 => ⟨S720896, .i32⟩
  | 14 => ⟨S_, .i32⟩
  | 15 => ⟨S896, .i32⟩
  | 16 => ⟨S720896, .i32⟩
  | 17 => ⟨S_, .f32⟩
  | 18 => ⟨S896, .f32⟩
  | 19 => ⟨S720896, .f32⟩
  | 20 => ⟨S_, .f32⟩
  | 21 => ⟨S_, .f32⟩
  | 22 => ⟨S61440x64, .f32⟩
  | 23 => ⟨S720896, .i32⟩
  | 24 => ⟨S720896, .i32⟩
  | 25 => ⟨S720896, .i32⟩
  | 26 => ⟨S_, .i32⟩
  | 27 => ⟨S720896, .i32⟩
  | 28 => ⟨S720896, .i1⟩
  | 29 => ⟨S_, .i32⟩
  | 30 => ⟨S720896, .i32⟩
  | 31 => ⟨S720896, .i32⟩
  | 32 => ⟨S720896, .i32⟩
  | 33 => ⟨S720896x1, .i32⟩
  | 34 => ⟨S720896, .i32⟩
  | 35 => ⟨S_, .i32⟩
  | 36 => ⟨S720896, .i32⟩
  | 37 => ⟨S720896, .i1⟩
  | 38 => ⟨S_, .i32⟩
  | 39 => ⟨S720896, .i32⟩
  | 40 => ⟨S720896, .i32⟩
  | 41 => ⟨S720896, .i32⟩
  | 42 => ⟨S720896x1, .i32⟩
  | 43 => ⟨S720896, .i32⟩
  | 44 => ⟨S_, .i32⟩
  | 45 => ⟨S720896, .i32⟩
  | 46 => ⟨S720896, .i1⟩
  | 47 => ⟨S_, .i32⟩
  | 48 => ⟨S720896, .i32⟩
  | 49 => ⟨S720896, .i32⟩
  | 50 => ⟨S720896, .i32⟩
  | 51 => ⟨S720896x1, .i32⟩
  | 52 => ⟨S720896, .f32⟩
  | 53 => ⟨S352x2048, .i32⟩
  | 54 => ⟨S_, .i32⟩
  | 55 => ⟨S352, .i32⟩
  | 56 => ⟨S_, .i32⟩
  | 57 => ⟨S_, .i32⟩
  | 58 => ⟨S352, .i32⟩
  | 59 => ⟨S352, .i32⟩
  | 60 => ⟨S352, .i32⟩
  | 61 => ⟨S_, .i32⟩
  | 62 => ⟨S352, .i32⟩
  | 63 => ⟨S352, .i1⟩
  | 64 => ⟨S352, .i32⟩
  | 65 => ⟨S352, .i32⟩
  | 66 => ⟨S_, .i32⟩
  | 67 => ⟨S352, .i32⟩
  | 68 => ⟨S352, .i1⟩
  | 69 => ⟨S352, .i1⟩
  | 70 => ⟨S_, .i32⟩
  | 71 => ⟨S352, .i32⟩
  | 72 => ⟨S352, .i32⟩
  | 73 => ⟨S_, .i32⟩
  | 74 => ⟨S352, .i32⟩
  | 75 => ⟨S_, .i32⟩
  | 76 => ⟨S_, .i32⟩
  | 77 => ⟨S352, .i32⟩
  | 78 => ⟨S352, .i32⟩
  | 79 => ⟨S352, .i32⟩
  | 80 => ⟨S_, .i32⟩
  | 81 => ⟨S352, .i32⟩
  | 82 => ⟨S352, .i1⟩
  | 83 => ⟨S352, .i32⟩
  | 84 => ⟨S352, .i32⟩
  | 85 => ⟨S_, .i32⟩
  | 86 => ⟨S352, .i32⟩
  | 87 => ⟨S352, .i1⟩
  | 88 => ⟨S352, .i1⟩
  | 89 => ⟨S_, .i32⟩
  | 90 => ⟨S352, .i32⟩
  | 91 => ⟨S352, .i32⟩
  | 92 => ⟨S720896x1, .i32⟩
  | 93 => ⟨S720896x1, .f32⟩
  | 94 => ⟨S720896x64, .f32⟩
  | 95 => ⟨S720896, .i32⟩
  | 96 => ⟨S720896, .i32⟩
  | 97 => ⟨S720896, .i32⟩
  | 98 => ⟨S_, .i32⟩
  | 99 => ⟨S720896, .i32⟩
  | 100 => ⟨S720896, .i1⟩
  | 101 => ⟨S_, .i32⟩
  | 102 => ⟨S720896, .i32⟩
  | 103 => ⟨S720896, .i32⟩
  | 104 => ⟨S720896, .i32⟩
  | 105 => ⟨S720896x1, .i32⟩
  | 106 => ⟨S720896, .i32⟩
  | 107 => ⟨S_, .i32⟩
  | 108 => ⟨S720896, .i32⟩
  | 109 => ⟨S720896, .i1⟩
  | 110 => ⟨S_, .i32⟩
  | 111 => ⟨S720896, .i32⟩
  | 112 => ⟨S720896, .i32⟩
  | 113 => ⟨S720896, .i32⟩
  | 114 => ⟨S720896x1, .i32⟩
  | 115 => ⟨S720896x64, .f32⟩
  | 116 => ⟨S352x2048, .i32⟩
  | 117 => ⟨S_, .i32⟩
  | 118 => ⟨S352, .i32⟩
  | 119 => ⟨S_, .i32⟩
  | 120 => ⟨S_, .i32⟩
  | 121 => ⟨S352, .i32⟩
  | 122 => ⟨S352, .i32⟩
  | 123 => ⟨S352, .i32⟩
  | 124 => ⟨S_, .i32⟩
  | 125 => ⟨S352, .i32⟩
  | 126 => ⟨S352, .i1⟩
  | 127 => ⟨S352, .i32⟩
  | _ => ⟨S60000x64, .f32⟩

abbrev hbmTy0_1 (i : Nat) : BufTy := match i % 128 with
  | 0 => ⟨S352, .i32⟩
  | 1 => ⟨S_, .i32⟩
  | 2 => ⟨S352, .i32⟩
  | 3 => ⟨S352, .i1⟩
  | 4 => ⟨S352, .i1⟩
  | 5 => ⟨S_, .i32⟩
  | 6 => ⟨S352, .i32⟩
  | 7 => ⟨S352, .i32⟩
  | 8 => ⟨S_, .i32⟩
  | 9 => ⟨S352, .i32⟩
  | 10 => ⟨S_, .i32⟩
  | 11 => ⟨S_, .i32⟩
  | 12 => ⟨S352, .i32⟩
  | 13 => ⟨S352, .i32⟩
  | 14 => ⟨S352, .i32⟩
  | 15 => ⟨S_, .i32⟩
  | 16 => ⟨S352, .i32⟩
  | 17 => ⟨S352, .i1⟩
  | 18 => ⟨S352, .i32⟩
  | 19 => ⟨S352, .i32⟩
  | 20 => ⟨S_, .i32⟩
  | 21 => ⟨S352, .i32⟩
  | 22 => ⟨S352, .i1⟩
  | 23 => ⟨S352, .i1⟩
  | 24 => ⟨S_, .i32⟩
  | 25 => ⟨S352, .i32⟩
  | 26 => ⟨S352, .i32⟩
  | 27 => ⟨S1x720896, .i32⟩
  | 28 => ⟨S61440x64, .f32⟩
  | 29 => ⟨S60000x64, .f32⟩
  | 30 => ⟨S_, .i32⟩
  | 31 => ⟨S1280, .i32⟩
  | 32 => ⟨S481280, .i32⟩
  | 33 => ⟨S_, .i32⟩
  | 34 => ⟨S1280, .i32⟩
  | 35 => ⟨S481280, .i32⟩
  | 36 => ⟨S_, .f32⟩
  | 37 => ⟨S1280, .f32⟩
  | 38 => ⟨S481280, .f32⟩
  | 39 => ⟨S_, .f32⟩
  | 40 => ⟨S_, .f32⟩
  | 41 => ⟨S40960x64, .f32⟩
  | 42 => ⟨S481280, .i32⟩
  | 43 => ⟨S481280, .i32⟩
  | 44 => ⟨S481280, .i32⟩
  | 45 => ⟨S_, .i32⟩
  | 46 => ⟨S481280, .i32⟩
  | 47 => ⟨S481280, .i1⟩
  | 48 => ⟨S_, .i32⟩
  | 49 => ⟨S481280, .i32⟩
  | 50 => ⟨S481280, .i32⟩
  | 51 => ⟨S481280, .i32⟩
  | 52 => ⟨S481280x1, .i32⟩
  | 53 => ⟨S481280, .i32⟩
  | 54 => ⟨S_, .i32⟩
  | 55 => ⟨S481280, .i32⟩
  | 56 => ⟨S481280, .i1⟩
  | 57 => ⟨S_, .i32⟩
  | 58 => ⟨S481280, .i32⟩
  | 59 => ⟨S481280, .i32⟩
  | 60 => ⟨S481280, .i32⟩
  | 61 => ⟨S481280x1, .i32⟩
  | 62 => ⟨S481280, .i32⟩
  | 63 => ⟨S_, .i32⟩
  | 64 => ⟨S481280, .i32⟩
  | 65 => ⟨S481280, .i1⟩
  | 66 => ⟨S_, .i32⟩
  | 67 => ⟨S481280, .i32⟩
  | 68 => ⟨S481280, .i32⟩
  | 69 => ⟨S481280, .i32⟩
  | 70 => ⟨S481280x1, .i32⟩
  | 71 => ⟨S481280, .f32⟩
  | 72 => ⟨S235x2048, .i32⟩
  | 73 => ⟨S_, .i32⟩
  | 74 => ⟨S235, .i32⟩
  | 75 => ⟨S_, .i32⟩
  | 76 => ⟨S_, .i32⟩
  | 77 => ⟨S235, .i32⟩
  | 78 => ⟨S235, .i32⟩
  | 79 => ⟨S235, .i32⟩
  | 80 => ⟨S_, .i32⟩
  | 81 => ⟨S235, .i32⟩
  | 82 => ⟨S235, .i1⟩
  | 83 => ⟨S235, .i32⟩
  | 84 => ⟨S235, .i32⟩
  | 85 => ⟨S_, .i32⟩
  | 86 => ⟨S235, .i32⟩
  | 87 => ⟨S235, .i1⟩
  | 88 => ⟨S235, .i1⟩
  | 89 => ⟨S_, .i32⟩
  | 90 => ⟨S235, .i32⟩
  | 91 => ⟨S235, .i32⟩
  | 92 => ⟨S_, .i32⟩
  | 93 => ⟨S235, .i32⟩
  | 94 => ⟨S_, .i32⟩
  | 95 => ⟨S_, .i32⟩
  | 96 => ⟨S235, .i32⟩
  | 97 => ⟨S235, .i32⟩
  | 98 => ⟨S235, .i32⟩
  | 99 => ⟨S_, .i32⟩
  | 100 => ⟨S235, .i32⟩
  | 101 => ⟨S235, .i1⟩
  | 102 => ⟨S235, .i32⟩
  | 103 => ⟨S235, .i32⟩
  | 104 => ⟨S_, .i32⟩
  | 105 => ⟨S235, .i32⟩
  | 106 => ⟨S235, .i1⟩
  | 107 => ⟨S235, .i1⟩
  | 108 => ⟨S_, .i32⟩
  | 109 => ⟨S235, .i32⟩
  | 110 => ⟨S235, .i32⟩
  | 111 => ⟨S481280x1, .i32⟩
  | 112 => ⟨S481280x1, .f32⟩
  | 113 => ⟨S481280x64, .f32⟩
  | 114 => ⟨S481280, .i32⟩
  | 115 => ⟨S481280, .i32⟩
  | 116 => ⟨S481280, .i32⟩
  | 117 => ⟨S_, .i32⟩
  | 118 => ⟨S481280, .i32⟩
  | 119 => ⟨S481280, .i1⟩
  | 120 => ⟨S_, .i32⟩
  | 121 => ⟨S481280, .i32⟩
  | 122 => ⟨S481280, .i32⟩
  | 123 => ⟨S481280, .i32⟩
  | 124 => ⟨S481280x1, .i32⟩
  | 125 => ⟨S481280, .i32⟩
  | 126 => ⟨S_, .i32⟩
  | 127 => ⟨S481280, .i32⟩
  | _ => ⟨S60000x64, .f32⟩

abbrev hbmTy0_2 (i : Nat) : BufTy := match i % 128 with
  | 0 => ⟨S481280, .i1⟩
  | 1 => ⟨S_, .i32⟩
  | 2 => ⟨S481280, .i32⟩
  | 3 => ⟨S481280, .i32⟩
  | 4 => ⟨S481280, .i32⟩
  | 5 => ⟨S481280x1, .i32⟩
  | 6 => ⟨S481280x64, .f32⟩
  | 7 => ⟨S235x2048, .i32⟩
  | 8 => ⟨S_, .i32⟩
  | 9 => ⟨S235, .i32⟩
  | 10 => ⟨S_, .i32⟩
  | 11 => ⟨S_, .i32⟩
  | 12 => ⟨S235, .i32⟩
  | 13 => ⟨S235, .i32⟩
  | 14 => ⟨S235, .i32⟩
  | 15 => ⟨S_, .i32⟩
  | 16 => ⟨S235, .i32⟩
  | 17 => ⟨S235, .i1⟩
  | 18 => ⟨S235, .i32⟩
  | 19 => ⟨S235, .i32⟩
  | 20 => ⟨S_, .i32⟩
  | 21 => ⟨S235, .i32⟩
  | 22 => ⟨S235, .i1⟩
  | 23 => ⟨S235, .i1⟩
  | 24 => ⟨S_, .i32⟩
  | 25 => ⟨S235, .i32⟩
  | 26 => ⟨S235, .i32⟩
  | 27 => ⟨S_, .i32⟩
  | 28 => ⟨S235, .i32⟩
  | 29 => ⟨S_, .i32⟩
  | 30 => ⟨S_, .i32⟩
  | 31 => ⟨S235, .i32⟩
  | 32 => ⟨S235, .i32⟩
  | 33 => ⟨S235, .i32⟩
  | 34 => ⟨S_, .i32⟩
  | 35 => ⟨S235, .i32⟩
  | 36 => ⟨S235, .i1⟩
  | 37 => ⟨S235, .i32⟩
  | 38 => ⟨S235, .i32⟩
  | 39 => ⟨S_, .i32⟩
  | 40 => ⟨S235, .i32⟩
  | 41 => ⟨S235, .i1⟩
  | 42 => ⟨S235, .i1⟩
  | 43 => ⟨S_, .i32⟩
  | 44 => ⟨S235, .i32⟩
  | 45 => ⟨S235, .i32⟩
  | 46 => ⟨S1x481280, .i32⟩
  | 47 => ⟨S40960x64, .f32⟩
  | 48 => ⟨S40000x64, .f32⟩
  | _ => ⟨S60000x64, .f32⟩

abbrev hbmTy (i : Nat) : BufTy := match i / 128 with
  | 0 => hbmTy0_0 i
  | 1 => hbmTy0_1 i
  | 2 => hbmTy0_2 i
  | _ => ⟨S60000x64, .f32⟩

abbrev bufTy : (tb : Table) → Fin (tcTables nBuf tb) → BufTy
  | .hbm, ⟨i, _⟩ => hbmTy i
  | .local _ .vmem, ⟨0, _⟩ => ⟨S2048x1, .i32⟩
  | .local _ .vmem, ⟨1, _⟩ => ⟨S2048x1, .i32⟩
  | .local _ .vmem, ⟨2, _⟩ => ⟨S2048x1, .f32⟩
  | .local _ .vmem, ⟨3, _⟩ => ⟨S2048x1, .f32⟩
  | .local _ .vmem, ⟨4, _⟩ => ⟨S4096x64, .f32⟩
  | .local _ .vmem, ⟨5, _⟩ => ⟨S4096x64, .f32⟩
  | .local _ .vmem, ⟨6, _⟩ => ⟨S2048x64, .f32⟩
  | .local _ .vmem, ⟨7, _⟩ => ⟨S2048x64, .f32⟩
  | .local _ .vmem, ⟨8, _⟩ => ⟨S2048x64, .f32⟩
  | .local _ .vmem, ⟨9, _⟩ => ⟨S1x2048, .i32⟩
  | .local _ .vmem, ⟨10, _⟩ => ⟨S1x2048, .i32⟩
  | .local _ .vmem, ⟨11, _⟩ => ⟨S2048x64, .f32⟩
  | .local _ .vmem, ⟨12, _⟩ => ⟨S2048x64, .f32⟩
  | .local _ .vmem, ⟨13, _⟩ => ⟨S4096x64, .f32⟩
  | .local _ .vmem, ⟨14, _⟩ => ⟨S4096x64, .f32⟩
  | .local _ .vmem, ⟨15, _⟩ => ⟨S4096x64, .f32⟩
  | .local _ .vmem, ⟨16, _⟩ => ⟨S2048x1, .i32⟩
  | .local _ .vmem, ⟨17, _⟩ => ⟨S2048x1, .i32⟩
  | .local _ .vmem, ⟨18, _⟩ => ⟨S2048x1, .f32⟩
  | .local _ .vmem, ⟨19, _⟩ => ⟨S2048x1, .f32⟩
  | .local _ .vmem, ⟨20, _⟩ => ⟨S4096x64, .f32⟩
  | .local _ .vmem, ⟨21, _⟩ => ⟨S4096x64, .f32⟩
  | .local _ .vmem, ⟨22, _⟩ => ⟨S2048x64, .f32⟩
  | .local _ .vmem, ⟨23, _⟩ => ⟨S2048x64, .f32⟩
  | .local _ .vmem, ⟨24, _⟩ => ⟨S2048x64, .f32⟩
  | .local _ .vmem, ⟨25, _⟩ => ⟨S1x2048, .i32⟩
  | .local _ .vmem, ⟨26, _⟩ => ⟨S1x2048, .i32⟩
  | .local _ .vmem, ⟨27, _⟩ => ⟨S2048x64, .f32⟩
  | .local _ .vmem, ⟨28, _⟩ => ⟨S2048x64, .f32⟩
  | .local _ .vmem, ⟨29, _⟩ => ⟨S4096x64, .f32⟩
  | .local _ .vmem, ⟨30, _⟩ => ⟨S4096x64, .f32⟩
  | .local _ .vmem, ⟨31, _⟩ => ⟨S4096x64, .f32⟩
  | .local _ .smem, ⟨0, _⟩ => ⟨S352, .i32⟩
  | .local _ .smem, ⟨1, _⟩ => ⟨S352, .i32⟩
  | .local _ .smem, ⟨2, _⟩ => ⟨S352, .i32⟩
  | .local _ .smem, ⟨3, _⟩ => ⟨S352, .i32⟩
  | .local _ .smem, ⟨4, _⟩ => ⟨S235, .i32⟩
  | .local _ .smem, ⟨5, _⟩ => ⟨S235, .i32⟩
  | .local _ .smem, ⟨6, _⟩ => ⟨S235, .i32⟩
  | .local _ .smem, ⟨7, _⟩ => ⟨S235, .i32⟩
  | _, _ => ⟨S60000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_call0_v0 : Ref sig .tc := ⟨.hbm, 21, rfl⟩
abbrev main_v6 : Ref sig .tc := ⟨.hbm, 22, rfl⟩
abbrev main_call1_v0 : Ref sig .tc := ⟨.hbm, 23, rfl⟩
abbrev main_call1_v1_0 : Ref sig .tc := ⟨.hbm, 24, rfl⟩
abbrev main_v7 : Ref sig .tc := ⟨.hbm, 25, rfl⟩
abbrev main_c_2 : Ref sig .tc := ⟨.hbm, 26, rfl⟩
abbrev main_v8 : Ref sig .tc := ⟨.hbm, 27, rfl⟩
abbrev main_v9 : Ref sig .tc := ⟨.hbm, 28, rfl⟩
abbrev main_c_3 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c_4 : Ref sig .tc := ⟨.hbm, 35, rfl⟩
abbrev main_v15 : Ref sig .tc := ⟨.hbm, 36, rfl⟩
abbrev main_v16 : Ref sig .tc := ⟨.hbm, 37, rfl⟩
abbrev main_c_5 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_6 : Ref sig .tc := ⟨.hbm, 44, rfl⟩
abbrev main_v22 : Ref sig .tc := ⟨.hbm, 45, rfl⟩
abbrev main_v23 : Ref sig .tc := ⟨.hbm, 46, rfl⟩
abbrev main_c_7 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_8 : Ref sig .tc := ⟨.hbm, 54, rfl⟩
abbrev main_v30 : Ref sig .tc := ⟨.hbm, 55, rfl⟩
abbrev main_c_9 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_c : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_0 : Ref sig .tc := ⟨.hbm, 70, rfl⟩
abbrev main_call2_v12 : Ref sig .tc := ⟨.hbm, 71, rfl⟩
abbrev main_call2_v13 : Ref sig .tc := ⟨.hbm, 72, rfl⟩
abbrev main_c_10 : Ref sig .tc := ⟨.hbm, 73, rfl⟩
abbrev main_v32 : Ref sig .tc := ⟨.hbm, 74, rfl⟩
abbrev main_c_11 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_v5 : Ref sig .tc := ⟨.hbm, 81, rfl⟩
abbrev main_call3_v6 : Ref sig .tc := ⟨.hbm, 82, rfl⟩
abbrev main_call3_v7 : Ref sig .tc := ⟨.hbm, 83, rfl⟩
abbrev main_call3_v8 : Ref sig .tc := ⟨.hbm, 84, rfl⟩
abbrev main_call3_c : Ref sig .tc := ⟨.hbm, 85, rfl⟩
abbrev main_call3_v9 : Ref sig .tc := ⟨.hbm, 86, rfl⟩
abbrev main_call3_v10 : Ref sig .tc := ⟨.hbm, 87, rfl⟩
abbrev main_call3_v11 : Ref sig .tc := ⟨.hbm, 88, rfl⟩
abbrev main_call3_c_0 : Ref sig .tc := ⟨.hbm, 89, rfl⟩
abbrev main_call3_v12 : Ref sig .tc := ⟨.hbm, 90, rfl⟩
abbrev main_call3_v13 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_call4_v0 : Ref sig .tc := ⟨.hbm, 95, rfl⟩
abbrev main_call4_v1_0 : Ref sig .tc := ⟨.hbm, 96, rfl⟩
abbrev main_v37 : Ref sig .tc := ⟨.hbm, 97, rfl⟩
abbrev main_c_12 : Ref sig .tc := ⟨.hbm, 98, rfl⟩
abbrev main_v38 : Ref sig .tc := ⟨.hbm, 99, rfl⟩
abbrev main_v39 : Ref sig .tc := ⟨.hbm, 100, rfl⟩
abbrev main_c_13 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_c_14 : Ref sig .tc := ⟨.hbm, 107, rfl⟩
abbrev main_v45 : Ref sig .tc := ⟨.hbm, 108, rfl⟩
abbrev main_v46 : Ref sig .tc := ⟨.hbm, 109, rfl⟩
abbrev main_c_15 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_c_16 : Ref sig .tc := ⟨.hbm, 117, rfl⟩
abbrev main_v53 : Ref sig .tc := ⟨.hbm, 118, rfl⟩
abbrev main_c_17 : Ref sig .tc := ⟨.hbm, 119, rfl⟩
abbrev main_call5_v0 : Ref sig .tc := ⟨.hbm, 120, rfl⟩
abbrev main_call5_v1 : Ref sig .tc := ⟨.hbm, 121, rfl⟩
abbrev main_call5_v2 : Ref sig .tc := ⟨.hbm, 122, rfl⟩
abbrev main_call5_v3 : Ref sig .tc := ⟨.hbm, 123, rfl⟩
abbrev main_call5_v4 : Ref sig .tc := ⟨.hbm, 124, rfl⟩
abbrev main_call5_v5 : Ref sig .tc := ⟨.hbm, 125, rfl⟩
abbrev main_call5_v6 : Ref sig .tc := ⟨.hbm, 126, rfl⟩
abbrev main_call5_v7 : Ref sig .tc := ⟨.hbm, 127, rfl⟩
abbrev main_call5_v8 : Ref sig .tc := ⟨.hbm, 128, rfl⟩
abbrev main_call5_c : Ref sig .tc := ⟨.hbm, 129, rfl⟩
abbrev main_call5_v9 : Ref sig .tc := ⟨.hbm, 130, rfl⟩
abbrev main_call5_v10 : Ref sig .tc := ⟨.hbm, 131, rfl⟩
abbrev main_call5_v11 : Ref sig .tc := ⟨.hbm, 132, rfl⟩
abbrev main_call5_c_0 : Ref sig .tc := ⟨.hbm, 133, rfl⟩
abbrev main_call5_v12 : Ref sig .tc := ⟨.hbm, 134, rfl⟩
abbrev main_call5_v13 : Ref sig .tc := ⟨.hbm, 135, rfl⟩
abbrev main_c_18 : Ref sig .tc := ⟨.hbm, 136, rfl⟩
abbrev main_v55 : Ref sig .tc := ⟨.hbm, 137, rfl⟩
abbrev main_c_19 : Ref sig .tc := ⟨.hbm, 138, rfl⟩
abbrev main_call6_v0 : Ref sig .tc := ⟨.hbm, 139, rfl⟩
abbrev main_call6_v1 : Ref sig .tc := ⟨.hbm, 140, rfl⟩
abbrev main_call6_v2 : Ref sig .tc := ⟨.hbm, 141, rfl⟩
abbrev main_call6_v3 : Ref sig .tc := ⟨.hbm, 142, rfl⟩
abbrev main_call6_v4 : Ref sig .tc := ⟨.hbm, 143, rfl⟩
abbrev main_call6_v5 : Ref sig .tc := ⟨.hbm, 144, rfl⟩
abbrev main_call6_v6 : Ref sig .tc := ⟨.hbm, 145, rfl⟩
abbrev main_call6_v7 : Ref sig .tc := ⟨.hbm, 146, rfl⟩
abbrev main_call6_v8 : Ref sig .tc := ⟨.hbm, 147, rfl⟩
abbrev main_call6_c : Ref sig .tc := ⟨.hbm, 148, rfl⟩
abbrev main_call6_v9 : Ref sig .tc := ⟨.hbm, 149, rfl⟩
abbrev main_call6_v10 : Ref sig .tc := ⟨.hbm, 150, rfl⟩
abbrev main_call6_v11 : Ref sig .tc := ⟨.hbm, 151, rfl⟩
abbrev main_call6_c_0 : Ref sig .tc := ⟨.hbm, 152, rfl⟩
abbrev main_call6_v12 : Ref sig .tc := ⟨.hbm, 153, rfl⟩
abbrev main_call6_v13 : Ref sig .tc := ⟨.hbm, 154, rfl⟩
abbrev main_v57 : Ref sig .tc := ⟨.hbm, 155, rfl⟩
abbrev main_v58 : Ref sig .tc := ⟨.hbm, 156, rfl⟩
abbrev main_v59 : Ref sig .tc := ⟨.hbm, 157, rfl⟩
abbrev main_c_20 : Ref sig .tc := ⟨.hbm, 158, rfl⟩
abbrev main_v60 : Ref sig .tc := ⟨.hbm, 159, rfl⟩
abbrev main_v61 : Ref sig .tc := ⟨.hbm, 160, rfl⟩
abbrev main_c_21 : Ref sig .tc := ⟨.hbm, 161, rfl⟩
abbrev main_v62 : Ref sig .tc := ⟨.hbm, 162, rfl⟩
abbrev main_v63 : Ref sig .tc := ⟨.hbm, 163, rfl⟩
abbrev main_cst_22 : Ref sig .tc := ⟨.hbm, 164, rfl⟩
abbrev main_v64 : Ref sig .tc := ⟨.hbm, 165, rfl⟩
abbrev main_v65 : Ref sig .tc := ⟨.hbm, 166, rfl⟩
abbrev main_cst_23 : Ref sig .tc := ⟨.hbm, 167, rfl⟩
abbrev main_call7_v0 : Ref sig .tc := ⟨.hbm, 168, rfl⟩
abbrev main_v66 : Ref sig .tc := ⟨.hbm, 169, rfl⟩
abbrev main_call8_v0 : Ref sig .tc := ⟨.hbm, 170, rfl⟩
abbrev main_call8_v1_0 : Ref sig .tc := ⟨.hbm, 171, rfl⟩
abbrev main_v67 : Ref sig .tc := ⟨.hbm, 172, rfl⟩
abbrev main_c_24 : Ref sig .tc := ⟨.hbm, 173, rfl⟩
abbrev main_v68 : Ref sig .tc := ⟨.hbm, 174, rfl⟩
abbrev main_v69 : Ref sig .tc := ⟨.hbm, 175, rfl⟩
abbrev main_c_25 : Ref sig .tc := ⟨.hbm, 176, rfl⟩
abbrev main_v70 : Ref sig .tc := ⟨.hbm, 177, rfl⟩
abbrev main_v71 : Ref sig .tc := ⟨.hbm, 178, rfl⟩
abbrev main_v72 : Ref sig .tc := ⟨.hbm, 179, rfl⟩
abbrev main_v73 : Ref sig .tc := ⟨.hbm, 180, rfl⟩
abbrev main_v74 : Ref sig .tc := ⟨.hbm, 181, rfl⟩
abbrev main_c_26 : Ref sig .tc := ⟨.hbm, 182, rfl⟩
abbrev main_v75 : Ref sig .tc := ⟨.hbm, 183, rfl⟩
abbrev main_v76 : Ref sig .tc := ⟨.hbm, 184, rfl⟩
abbrev main_c_27 : Ref sig .tc := ⟨.hbm, 185, rfl⟩
abbrev main_v77 : Ref sig .tc := ⟨.hbm, 186, rfl⟩
abbrev main_v78 : Ref sig .tc := ⟨.hbm, 187, rfl⟩
abbrev main_v79 : Ref sig .tc := ⟨.hbm, 188, rfl⟩
abbrev main_v80 : Ref sig .tc := ⟨.hbm, 189, rfl⟩
abbrev main_v81 : Ref sig .tc := ⟨.hbm, 190, rfl⟩
abbrev main_c_28 : Ref sig .tc := ⟨.hbm, 191, rfl⟩
abbrev main_v82 : Ref sig .tc := ⟨.hbm, 192, rfl⟩
abbrev main_v83 : Ref sig .tc := ⟨.hbm, 193, rfl⟩
abbrev main_c_29 : Ref sig .tc := ⟨.hbm, 194, rfl⟩
abbrev main_v84 : Ref sig .tc := ⟨.hbm, 195, rfl⟩
abbrev main_v85 : Ref sig .tc := ⟨.hbm, 196, rfl⟩
abbrev main_v86 : Ref sig .tc := ⟨.hbm, 197, rfl⟩
abbrev main_v87 : Ref sig .tc := ⟨.hbm, 198, rfl⟩
abbrev main_v88 : Ref sig .tc := ⟨.hbm, 199, rfl⟩
abbrev main_v89 : Ref sig .tc := ⟨.hbm, 200, rfl⟩
abbrev main_c_30 : Ref sig .tc := ⟨.hbm, 201, rfl⟩
abbrev main_v90 : Ref sig .tc := ⟨.hbm, 202, rfl⟩
abbrev main_c_31 : Ref sig .tc := ⟨.hbm, 203, rfl⟩
abbrev main_call9_v0 : Ref sig .tc := ⟨.hbm, 204, rfl⟩
abbrev main_call9_v1 : Ref sig .tc := ⟨.hbm, 205, rfl⟩
abbrev main_call9_v2 : Ref sig .tc := ⟨.hbm, 206, rfl⟩
abbrev main_call9_v3 : Ref sig .tc := ⟨.hbm, 207, rfl⟩
abbrev main_call9_v4 : Ref sig .tc := ⟨.hbm, 208, rfl⟩
abbrev main_call9_v5 : Ref sig .tc := ⟨.hbm, 209, rfl⟩
abbrev main_call9_v6 : Ref sig .tc := ⟨.hbm, 210, rfl⟩
abbrev main_call9_v7 : Ref sig .tc := ⟨.hbm, 211, rfl⟩
abbrev main_call9_v8 : Ref sig .tc := ⟨.hbm, 212, rfl⟩
abbrev main_call9_c : Ref sig .tc := ⟨.hbm, 213, rfl⟩
abbrev main_call9_v9 : Ref sig .tc := ⟨.hbm, 214, rfl⟩
abbrev main_call9_v10 : Ref sig .tc := ⟨.hbm, 215, rfl⟩
abbrev main_call9_v11 : Ref sig .tc := ⟨.hbm, 216, rfl⟩
abbrev main_call9_c_0 : Ref sig .tc := ⟨.hbm, 217, rfl⟩
abbrev main_call9_v12 : Ref sig .tc := ⟨.hbm, 218, rfl⟩
abbrev main_call9_v13 : Ref sig .tc := ⟨.hbm, 219, rfl⟩
abbrev main_c_32 : Ref sig .tc := ⟨.hbm, 220, rfl⟩
abbrev main_v92 : Ref sig .tc := ⟨.hbm, 221, rfl⟩
abbrev main_c_33 : Ref sig .tc := ⟨.hbm, 222, rfl⟩
abbrev main_call10_v0 : Ref sig .tc := ⟨.hbm, 223, rfl⟩
abbrev main_call10_v1 : Ref sig .tc := ⟨.hbm, 224, rfl⟩
abbrev main_call10_v2 : Ref sig .tc := ⟨.hbm, 225, rfl⟩
abbrev main_call10_v3 : Ref sig .tc := ⟨.hbm, 226, rfl⟩
abbrev main_call10_v4 : Ref sig .tc := ⟨.hbm, 227, rfl⟩
abbrev main_call10_v5 : Ref sig .tc := ⟨.hbm, 228, rfl⟩
abbrev main_call10_v6 : Ref sig .tc := ⟨.hbm, 229, rfl⟩
abbrev main_call10_v7 : Ref sig .tc := ⟨.hbm, 230, rfl⟩
abbrev main_call10_v8 : Ref sig .tc := ⟨.hbm, 231, rfl⟩
abbrev main_call10_c : Ref sig .tc := ⟨.hbm, 232, rfl⟩
abbrev main_call10_v9 : Ref sig .tc := ⟨.hbm, 233, rfl⟩
abbrev main_call10_v10 : Ref sig .tc := ⟨.hbm, 234, rfl⟩
abbrev main_call10_v11 : Ref sig .tc := ⟨.hbm, 235, rfl⟩
abbrev main_call10_c_0 : Ref sig .tc := ⟨.hbm, 236, rfl⟩
abbrev main_call10_v12 : Ref sig .tc := ⟨.hbm, 237, rfl⟩
abbrev main_call10_v13 : Ref sig .tc := ⟨.hbm, 238, rfl⟩
abbrev main_v94 : Ref sig .tc := ⟨.hbm, 239, rfl⟩
abbrev main_v95 : Ref sig .tc := ⟨.hbm, 240, rfl⟩
abbrev main_v96 : Ref sig .tc := ⟨.hbm, 241, rfl⟩
abbrev main_call11_v0 : Ref sig .tc := ⟨.hbm, 242, rfl⟩
abbrev main_call11_v1_0 : Ref sig .tc := ⟨.hbm, 243, rfl⟩
abbrev main_v97 : Ref sig .tc := ⟨.hbm, 244, rfl⟩
abbrev main_c_34 : Ref sig .tc := ⟨.hbm, 245, rfl⟩
abbrev main_v98 : Ref sig .tc := ⟨.hbm, 246, rfl⟩
abbrev main_v99 : Ref sig .tc := ⟨.hbm, 247, rfl⟩
abbrev main_c_35 : Ref sig .tc := ⟨.hbm, 248, rfl⟩
abbrev main_v100 : Ref sig .tc := ⟨.hbm, 249, rfl⟩
abbrev main_v101 : Ref sig .tc := ⟨.hbm, 250, rfl⟩
abbrev main_v102 : Ref sig .tc := ⟨.hbm, 251, rfl⟩
abbrev main_v103 : Ref sig .tc := ⟨.hbm, 252, rfl⟩
abbrev main_v104 : Ref sig .tc := ⟨.hbm, 253, rfl⟩
abbrev main_c_36 : Ref sig .tc := ⟨.hbm, 254, rfl⟩
abbrev main_v105 : Ref sig .tc := ⟨.hbm, 255, rfl⟩
abbrev main_v106 : Ref sig .tc := ⟨.hbm, 256, rfl⟩
abbrev main_c_37 : Ref sig .tc := ⟨.hbm, 257, rfl⟩
abbrev main_v107 : Ref sig .tc := ⟨.hbm, 258, rfl⟩
abbrev main_v108 : Ref sig .tc := ⟨.hbm, 259, rfl⟩
abbrev main_v109 : Ref sig .tc := ⟨.hbm, 260, rfl⟩
abbrev main_v110 : Ref sig .tc := ⟨.hbm, 261, rfl⟩
abbrev main_v111 : Ref sig .tc := ⟨.hbm, 262, rfl⟩
abbrev main_v112 : Ref sig .tc := ⟨.hbm, 263, rfl⟩
abbrev main_c_38 : Ref sig .tc := ⟨.hbm, 264, rfl⟩
abbrev main_v113 : Ref sig .tc := ⟨.hbm, 265, rfl⟩
abbrev main_c_39 : Ref sig .tc := ⟨.hbm, 266, rfl⟩
abbrev main_call12_v0 : Ref sig .tc := ⟨.hbm, 267, rfl⟩
abbrev main_call12_v1 : Ref sig .tc := ⟨.hbm, 268, rfl⟩
abbrev main_call12_v2 : Ref sig .tc := ⟨.hbm, 269, rfl⟩
abbrev main_call12_v3 : Ref sig .tc := ⟨.hbm, 270, rfl⟩
abbrev main_call12_v4 : Ref sig .tc := ⟨.hbm, 271, rfl⟩
abbrev main_call12_v5 : Ref sig .tc := ⟨.hbm, 272, rfl⟩
abbrev main_call12_v6 : Ref sig .tc := ⟨.hbm, 273, rfl⟩
abbrev main_call12_v7 : Ref sig .tc := ⟨.hbm, 274, rfl⟩
abbrev main_call12_v8 : Ref sig .tc := ⟨.hbm, 275, rfl⟩
abbrev main_call12_c : Ref sig .tc := ⟨.hbm, 276, rfl⟩
abbrev main_call12_v9 : Ref sig .tc := ⟨.hbm, 277, rfl⟩
abbrev main_call12_v10 : Ref sig .tc := ⟨.hbm, 278, rfl⟩
abbrev main_call12_v11 : Ref sig .tc := ⟨.hbm, 279, rfl⟩
abbrev main_call12_c_0 : Ref sig .tc := ⟨.hbm, 280, rfl⟩
abbrev main_call12_v12 : Ref sig .tc := ⟨.hbm, 281, rfl⟩
abbrev main_call12_v13 : Ref sig .tc := ⟨.hbm, 282, rfl⟩
abbrev main_c_40 : Ref sig .tc := ⟨.hbm, 283, rfl⟩
abbrev main_v115 : Ref sig .tc := ⟨.hbm, 284, rfl⟩
abbrev main_c_41 : Ref sig .tc := ⟨.hbm, 285, rfl⟩
abbrev main_call13_v0 : Ref sig .tc := ⟨.hbm, 286, rfl⟩
abbrev main_call13_v1 : Ref sig .tc := ⟨.hbm, 287, rfl⟩
abbrev main_call13_v2 : Ref sig .tc := ⟨.hbm, 288, rfl⟩
abbrev main_call13_v3 : Ref sig .tc := ⟨.hbm, 289, rfl⟩
abbrev main_call13_v4 : Ref sig .tc := ⟨.hbm, 290, rfl⟩
abbrev main_call13_v5 : Ref sig .tc := ⟨.hbm, 291, rfl⟩
abbrev main_call13_v6 : Ref sig .tc := ⟨.hbm, 292, rfl⟩
abbrev main_call13_v7 : Ref sig .tc := ⟨.hbm, 293, rfl⟩
abbrev main_call13_v8 : Ref sig .tc := ⟨.hbm, 294, rfl⟩
abbrev main_call13_c : Ref sig .tc := ⟨.hbm, 295, rfl⟩
abbrev main_call13_v9 : Ref sig .tc := ⟨.hbm, 296, rfl⟩
abbrev main_call13_v10 : Ref sig .tc := ⟨.hbm, 297, rfl⟩
abbrev main_call13_v11 : Ref sig .tc := ⟨.hbm, 298, rfl⟩
abbrev main_call13_c_0 : Ref sig .tc := ⟨.hbm, 299, rfl⟩
abbrev main_call13_v12 : Ref sig .tc := ⟨.hbm, 300, rfl⟩
abbrev main_call13_v13 : Ref sig .tc := ⟨.hbm, 301, rfl⟩
abbrev main_v117 : Ref sig .tc := ⟨.hbm, 302, rfl⟩
abbrev main_v118 : Ref sig .tc := ⟨.hbm, 303, rfl⟩
abbrev main_v119 : Ref sig .tc := ⟨.hbm, 304, rfl⟩
abbrev main_v31 : Ref sig .tc := ⟨.smem, 0, rfl⟩
abbrev main_v33 : Ref sig .tc := ⟨.smem, 1, rfl⟩
abbrev main_v54 : Ref sig .tc := ⟨.smem, 2, rfl⟩
abbrev main_v56 : Ref sig .tc := ⟨.smem, 3, rfl⟩
abbrev main_v91 : Ref sig .tc := ⟨.smem, 4, rfl⟩
abbrev main_v93 : Ref sig .tc := ⟨.smem, 5, rfl⟩
abbrev main_v114 : Ref sig .tc := ⟨.smem, 6, rfl⟩
abbrev main_v116 : Ref sig .tc := ⟨.smem, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_scratch0 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27

abbrev nD : Nat := 1
abbrev τ : Topo := Topo.v7x

variable {F : FTy → Type} [FloatOps F]

abbrev grid0 : Pipeline.Grid := ⟨2, ![352, 15], ![false, false]⟩

abbrev pre0 : Pipeline.Prefetch sig := ⟨2, ![main_v31.idx, main_v33.idx], fun | 0 => main_v31.names | 1 => main_v33.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v3 : Index := Scalar.indexCast arg0
  ![v3.toNat]
def k0_cond3 (i : grid0.Coords) : BitVec 1 :=
  let arg1 : BitVec 32 := BitVec.ofNat 32 (i 1).val
  let c14_i32 : BitVec 32 := 14#32
  let v12 : BitVec 1 := Scalar.cmpi .eq arg1 c14_i32
  let v13 : BitVec 32 := Scalar.extui v12
  let c0_i32_2 : BitVec 32 := 0#32
  let v14 : BitVec 1 := Scalar.cmpi .ne v13 c0_i32_2
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![15, 352], ![false, false]⟩

abbrev pre1 : Pipeline.Prefetch sig := ⟨2, ![main_v54.idx, main_v56.idx], fun | 0 => main_v54.names | 1 => main_v56.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg1 : BitVec 32 := BitVec.ofNat 32 (i 1).val
  let v3 : Index := Scalar.indexCast arg1
  ![v3.toNat]
def k1_cond3 (i : grid1.Coords) : BitVec 1 :=
  let arg1 : BitVec 32 := BitVec.ofNat 32 (i 1).val
  let c351_i32 : BitVec 32 := 351#32
  let v12 : BitVec 1 := Scalar.cmpi .eq arg1 c351_i32
  let v13 : BitVec 32 := Scalar.extui v12
  let c0_i32_2 : BitVec 32 := 0#32
  let v14 : BitVec 1 := Scalar.cmpi .ne v13 c0_i32_2
  v14

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x2048 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4096x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![235, 10], ![false, false]⟩

abbrev pre2 : Pipeline.Prefetch sig := ⟨2, ![main_v91.idx, main_v93.idx], fun | 0 => main_v91.names | 1 => main_v93.names | ⟨_ + 2, h⟩ => absurd h (Nat.not_lt.2 (Nat.le_add_left _ _)), fun | 0 => rfl | 1 => rfl | ⟨_ + 2, h⟩ => absurd h (Nat.not_lt.2 (Nat.le_add_left _ _))⟩

def k2_off1 (i : grid2.Coords) : Fin 1 → Nat :=
  let arg0 : BitVec 32 := BitVec.ofNat 32 (i 0).val
  let v3 : Index := Scalar.indexCast arg0
  ![v3.toNat]
def k2_cond3 (i : grid2.Coords) : BitVec 1 :=
  let arg1 : BitVec 32 := BitVec.ofNat 32 (i 1).val
  let c9_i32 : BitVec 32 := 9#32
  let v12 : BitVec 1 := Scalar.cmpi .eq arg1 c9_i32
  let v13 : BitVec 32 := Scalar.extui v12
  let c0_i32_2 : BitVec 32 := 0#32
  let v14 : BitVec 1 := Scalar.cmpi .ne v13 c0_i32_2
  v14

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S4096x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S2048x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![10, 235], ![false, false]⟩

abbrev pre3 : Pipeline.Prefetch sig := ⟨2, ![main_v114.idx, main_v116.idx], fun | 0 => main_v114.names | 1 => main_v116.names | ⟨_ + 2, h⟩ => absurd h (Nat.not_lt.2 (Nat.le_add_left _ _)), fun | 0 => rfl | 1 => rfl | ⟨_ + 2, h⟩ => absurd h (Nat.not_lt.2 (Nat.le_add_left _ _))⟩

def k3_off1 (i : grid3.Coords) : Fin 1 → Nat :=
  let arg1 : BitVec 32 := BitVec.ofNat 32 (i 1).val
  let v3 : Index := Scalar.indexCast arg1
  ![v3.toNat]
def k3_cond3 (i : grid3.Coords) : BitVec 1 :=
  let arg1 : BitVec 32 := BitVec.ofNat 32 (i 1).val
  let c234_i32 : BitVec 32 := 234#32
  let v12 : BitVec 1 := Scalar.cmpi .eq arg1 c234_i32
  let v13 : BitVec 32 := Scalar.extui v12
  let c0_i32_2 : BitVec 32 := 0#32
  let v14 : BitVec 1 := Scalar.cmpi .ne v13 c0_i32_2
  v14

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1x2048 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S2048x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S4096x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

class Facts₀ : Prop where
  bcast_S_S896 : S_.BroadcastsInDim S896 (![] : Fin 0 → Fin S896.rank)
  concatenates_S720000_S896_S720896_d0 : Shape.Concatenates [S720000, S896] S720896 0
  pads_S60000x64_S61440x64_014400_000 : S60000x64.Pads (![0, 0] : Fin 2 → Nat) ![1440, 0] ![0, 0] S61440x64
  h_S_ : 0 < S_.numel
  bcast_S_S720896 : S_.BroadcastsInDim S720896 (![] : Fin 0 → Fin S720896.rank)
  bcast_S720896_S720896x1_0 : S720896.BroadcastsInDim S720896x1 (![0] : Fin 1 → Fin S720896x1.rank)
  shapeCasts_S720896_S352x2048 : S720896.ShapeCasts S352x2048
  reducesTo_S352x2048_S352_d1 : S352x2048.ReducesTo [1] S352
  bcast_S_S352 : S_.BroadcastsInDim S352 (![] : Fin 0 → Fin S352.rank)
  shapeCasts_S720896_S720896x1 : S720896.ShapeCasts S720896x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  numel1_S1 : S1.numel = 1
  iota_S1x4096_d1_w32 : S1x4096.Iotas .tc 32 [1]
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x4096 : S2048x1.Broadcasts S2048x4096
  broadcasts_S1x4096_S2048x4096 : S1x4096.Broadcasts S2048x4096
  natLt_1_32 : 1 < 32
  bitsLt_bf16_f32 : FTy.bits .bf16 < FTy.bits .f32
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  broadcasts_S2048x1_S2048x64 : S2048x1.Broadcasts S2048x64
  shapeCasts_S720896_S1x720896 : S720896.ShapeCasts S1x720896
  iota_S4096x1_d0_w32 : S4096x1.Iotas .tc 32 [0]
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S4096x1_S4096x2048 : S4096x1.Broadcasts S4096x2048
  broadcasts_S1x2048_S4096x2048 : S1x2048.Broadcasts S4096x2048
  slices_S61440x64_S60000x64_0_0 : S61440x64.Slices ![0, 0] S60000x64
  bcast_S_S1280 : S_.BroadcastsInDim S1280 (![] : Fin 0 → Fin S1280.rank)
  concatenates_S480000_S1280_S481280_d0 : Shape.Concatenates [S480000, S1280] S481280 0
  pads_S40000x64_S40960x64_09600_000 : S40000x64.Pads (![0, 0] : Fin 2 → Nat) ![960, 0] ![0, 0] S40960x64
  bcast_S_S481280 : S_.BroadcastsInDim S481280 (![] : Fin 0 → Fin S481280.rank)
  bcast_S481280_S481280x1_0 : S481280.BroadcastsInDim S481280x1 (![0] : Fin 1 → Fin S481280x1.rank)
  shapeCasts_S481280_S235x2048 : S481280.ShapeCasts S235x2048
  reducesTo_S235x2048_S235_d1 : S235x2048.ReducesTo [1] S235
  bcast_S_S235 : S_.BroadcastsInDim S235 (![] : Fin 0 → Fin S235.rank)
  shapeCasts_S481280_S481280x1 : S481280.ShapeCasts S481280x1
  shapeCasts_S481280_S1x481280 : S481280.ShapeCasts S1x481280
  slices_S40960x64_S40000x64_0_0 : S40960x64.Slices ![0, 0] S40000x64
  gather_S720896_S720896x1_S720896_n_0_n_n_0_1_1_wf : GatherDims.WF S720896 S720896x1 S720896 [] [0] [] [0] [] 1 ![1]
  dot_S2048x4096_S4096x64_S2048x64_1_0_0_1_n_n_wf : DotDims.WF S2048x4096 S4096x64 S2048x64 [1] [0] [0] [1] [] []
  gather_S720896x64_S720896x1_S720896x64_1_0_n_n_0_1_164_wf : GatherDims.WF S720896x64 S720896x1 S720896x64 [1] [0] [] [0] [] 1 ![1, 64]
  dot_S4096x2048_S2048x64_S4096x64_1_0_0_1_n_n_wf : DotDims.WF S4096x2048 S2048x64 S4096x64 [1] [0] [0] [1] [] []
  gather_S481280_S481280x1_S481280_n_0_n_n_0_1_1_wf : GatherDims.WF S481280 S481280x1 S481280 [] [0] [] [0] [] 1 ![1]
  gather_S481280x64_S481280x1_S481280x64_1_0_n_n_0_1_164_wf : GatherDims.WF S481280x64 S481280x1 S481280x64 [1] [0] [] [0] [] 1 ![1, 64]
  hrank0 : 0 < grid0.rank
  k0_off1_inb : ∀ i : grid0.Coords, ∀ a, (k0_off1 i) a + S1.size a ≤ S352.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S720896x1.size a
  hwx0_0 : ∀ i : grid0.Coords, EltTy.bits .i32 = 32 ∨ (Rect.block (s := S720896x1) S2048x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S720896x1.size a
  hwx0_1 : ∀ i : grid0.Coords, EltTy.bits .f32 = 32 ∨ (Rect.block (s := S720896x1) S2048x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S61440x64.size a
  hwx0_2 : ∀ i : grid0.Coords, EltTy.bits .f32 = 32 ∨ (Rect.block (s := S61440x64) S4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S720896x64.size a
  hwx0_3 : ∀ i : grid0.Coords, EltTy.bits .f32 = 32 ∨ (Rect.block (s := S720896x64) S2048x64.size (cc0_transform_3 i) (hinb0_3 i)).WholeWords (EltTy.packing .f32)
  hrank1 : 0 < grid1.rank
  k1_off1_inb : ∀ i : grid1.Coords, ∀ a, (k1_off1 i) a + S1.size a ≤ S352.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048.size a ≤ S1x720896.size a
  hwx1_0 : ∀ i : grid1.Coords, EltTy.bits .i32 = 32 ∨ (Rect.block (s := S1x720896) S1x2048.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S720896x64.size a
  hwx1_1 : ∀ i : grid1.Coords, EltTy.bits .f32 = 32 ∨ (Rect.block (s := S720896x64) S2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x64.size a ≤ S61440x64.size a
  hwx1_2 : ∀ i : grid1.Coords, EltTy.bits .f32 = 32 ∨ (Rect.block (s := S61440x64) S4096x64.size (cc1_transform_2 i) (hinb1_2 i)).WholeWords (EltTy.packing .f32)
  hrank2 : 0 < grid2.rank
  k2_off1_inb : ∀ i : grid2.Coords, ∀ a, (k2_off1 i) a + S1.size a ≤ S235.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1.size a ≤ S481280x1.size a
  hwx2_0 : ∀ i : grid2.Coords, EltTy.bits .i32 = 32 ∨ (Rect.block (s := S481280x1) S2048x1.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1.size a ≤ S481280x1.size a
  hwx2_1 : ∀ i : grid2.Coords, EltTy.bits .f32 = 32 ∨ (Rect.block (s := S481280x1) S2048x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x64.size a ≤ S40960x64.size a
  hwx2_2 : ∀ i : grid2.Coords, EltTy.bits .f32 = 32 ∨ (Rect.block (s := S40960x64) S4096x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x64.size a ≤ S481280x64.size a
  hwx2_3 : ∀ i : grid2.Coords, EltTy.bits .f32 = 32 ∨ (Rect.block (s := S481280x64) S2048x64.size (cc2_transform_3 i) (hinb2_3 i)).WholeWords (EltTy.packing .f32)
  hrank3 : 0 < grid3.rank
  k3_off1_inb : ∀ i : grid3.Coords, ∀ a, (k3_off1 i) a + S1.size a ≤ S235.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x2048.size a ≤ S1x481280.size a
  hwx3_0 : ∀ i : grid3.Coords, EltTy.bits .i32 = 32 ∨ (Rect.block (s := S1x481280) S1x2048.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x64.size a ≤ S481280x64.size a
  hwx3_1 : ∀ i : grid3.Coords, EltTy.bits .f32 = 32 ∨ (Rect.block (s := S481280x64) S2048x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4096x64.size a ≤ S40960x64.size a
  hwx3_2 : ∀ i : grid3.Coords, EltTy.bits .f32 = 32 ∨ (Rect.block (s := S40960x64) S4096x64.size (cc3_transform_2 i) (hinb3_2 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S720896_S720896x1_S720896_n_0_n_n_0_1_1 : GatherDims S720896 S720896x1 S720896 where
  offsetDims := []
  collapsedSliceDims := [0]
  operandBatchingDims := []
  startIndicesBatchingDims := []
  startIndexMap := [0]
  indexVectorDim := 1
  sliceSizes := ![1]
  wf := gather_S720896_S720896x1_S720896_n_0_n_n_0_1_1_wf
def dot_S2048x4096_S4096x64_S2048x64_1_0_0_1_n_n : DotDims S2048x4096 S4096x64 S2048x64 where
  lhsContracting := [1]
  rhsContracting := [0]
  lhsNonContracting := [0]
  rhsNonContracting := [1]
  lhsBatch := []
  rhsBatch := []
  wf := dot_S2048x4096_S4096x64_S2048x64_1_0_0_1_n_n_wf
def gather_S720896x64_S720896x1_S720896x64_1_0_n_n_0_1_164 : GatherDims S720896x64 S720896x1 S720896x64 where
  offsetDims := [1]
  collapsedSliceDims := [0]
  operandBatchingDims := []
  startIndicesBatchingDims := []
  startIndexMap := [0]
  indexVectorDim := 1
  sliceSizes := ![1, 64]
  wf := gather_S720896x64_S720896x1_S720896x64_1_0_n_n_0_1_164_wf
def dot_S4096x2048_S2048x64_S4096x64_1_0_0_1_n_n : DotDims S4096x2048 S2048x64 S4096x64 where
  lhsContracting := [1]
  rhsContracting := [0]
  lhsNonContracting := [0]
  rhsNonContracting := [1]
  lhsBatch := []
  rhsBatch := []
  wf := dot_S4096x2048_S2048x64_S4096x64_1_0_0_1_n_n_wf
def gather_S481280_S481280x1_S481280_n_0_n_n_0_1_1 : GatherDims S481280 S481280x1 S481280 where
  offsetDims := []
  collapsedSliceDims := [0]
  operandBatchingDims := []
  startIndicesBatchingDims := []
  startIndexMap := [0]
  indexVectorDim := 1
  sliceSizes := ![1]
  wf := gather_S481280_S481280x1_S481280_n_0_n_n_0_1_1_wf
def gather_S481280x64_S481280x1_S481280x64_1_0_n_n_0_1_164 : GatherDims S481280x64 S481280x1 S481280x64 where
  offsetDims := [1]
  collapsedSliceDims := [0]
  operandBatchingDims := []
  startIndicesBatchingDims := []
  startIndexMap := [0]
  indexVectorDim := 1
  sliceSizes := ![1, 64]
  wf := gather_S481280x64_S481280x1_S481280x64_1_0_n_n_0_1_164_wf

abbrev spec0_0 : Pipeline.WinSpec sig grid0.rank :=
  Pipeline.WinSpec.ofSpec (Memref.whole main_v34) S2048x1.size reads0_0 false false 2 stage0_0 sem0_0 nbuf0_0 hstage0_0

abbrev spec0_1 : Pipeline.WinSpec sig grid0.rank :=
  Pipeline.WinSpec.ofSpec (Memref.whole main_v35) S2048x1.size reads0_1 false false 2 stage0_1 sem0_1 nbuf0_1 hstage0_1

abbrev spec0_2 : Pipeline.WinSpec sig grid0.rank :=
  Pipeline.WinSpec.ofSpec (Memref.whole main_v6) S4096x64.size reads0_2 false false 2 stage0_2 sem0_2 nbuf0_2 hstage0_2

abbrev spec0_3 : Pipeline.WinSpec sig grid0.rank :=
  Pipeline.WinSpec.ofSpec (Memref.whole main_v36) S2048x64.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | ⟨_ + 4, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | ⟨_ + 4, h⟩ => absurd h (Nat.not_lt.2 (Nat.le_add_left _ _))
abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

abbrev spec1_0 : Pipeline.WinSpec sig grid1.rank :=
  Pipeline.WinSpec.ofSpec (Memref.whole main_v57) S1x2048.size reads1_0 false false 2 stage1_0 sem1_0 nbuf1_0 hstage1_0

abbrev spec1_1 : Pipeline.WinSpec sig grid1.rank :=
  Pipeline.WinSpec.ofSpec (Memref.whole main_v51) S2048x64.size reads1_1 false false 2 stage1_1 sem1_1 nbuf1_1 hstage1_1

abbrev spec1_2 : Pipeline.WinSpec sig grid1.rank :=
  Pipeline.WinSpec.ofSpec (Memref.whole main_v58) S4096x64.size reads1_2 true false 2 stage1_2 sem1_2 nbuf1_2 hstage1_2

abbrev spec1 : Fin 3 → Pipeline.WinSpec sig grid1.rank := fun | 0 => spec1_0 | 1 => spec1_1 | 2 => spec1_2 | ⟨_ + 3, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | ⟨_ + 3, h⟩ => absurd h (Nat.not_lt.2 (Nat.le_add_left _ _))
abbrev ix1 (pf : pre1.Contents (Elt F)) : (w : Fin 3) → grid1.Coords → Fin (spec1 w).shape.rank → Nat := fun | 0 => cc1_transform_0 | 1 => cc1_transform_1 | 2 => cc1_transform_2 | ⟨_ + 3, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | 2 => hreads1_2 | ⟨_ + 3, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | 2 => hinb1_2 | ⟨_ + 3, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | 2 => hwx1_2 | ⟨_ + 3, h⟩ => absurd h (Nat.not_lt.2 (Nat.le_add_left _ _))
abbrev idle1 : Fin 3 → grid1.Coords → Bool := fun | 0 => fun _ => false | 1 => fun _ => false | 2 => fun i => !(k1_cond3 i == 1#1) | ⟨_ + 3, h⟩ => absurd h (Nat.not_lt.2 (Nat.le_add_left _ _))

abbrev spec2_0 : Pipeline.WinSpec sig grid2.rank :=
  Pipeline.WinSpec.ofSpec (Memref.whole main_v94) S2048x1.size reads2_0 false false 2 stage2_0 sem2_0 nbuf2_0 hstage2_0

abbrev spec2_1 : Pipeline.WinSpec sig grid2.rank :=
  Pipeline.WinSpec.ofSpec (Memref.whole main_v95) S2048x1.size reads2_1 false false 2 stage2_1 sem2_1 nbuf2_1 hstage2_1

abbrev spec2_2 : Pipeline.WinSpec sig grid2.rank :=
  Pipeline.WinSpec.ofSpec (Memref.whole main_v66) S4096x64.size reads2_2 false false 2 stage2_2 sem2_2 nbuf2_2 hstage2_2

abbrev spec2_3 : Pipeline.WinSpec sig grid2.rank :=
  Pipeline.WinSpec.ofSpec (Memref.whole main_v96) S2048x64.size reads2_3 true false 2 stage2_3 sem2_3 nbuf2_3 hstage2_3

abbrev spec2 : Fin 4 → Pipeline.WinSpec sig grid2.rank := fun | 0 => spec2_0 | 1 => spec2_1 | 2 => spec2_2 | 3 => spec2_3 | ⟨_ + 4, h⟩ => absurd h (Nat.not_lt.2 (Nat.le_add_left _ _))
theorem hcount2 : ∀ w, grid2.bufCount (spec2 w).reads (spec2 w).sync = (spec2 w).nbuf := fun | 0 => nbuf2_0 | 1 => nbuf2_1 | 2 => nbuf2_2 | 3 => nbuf2_3 | ⟨_ + 4, h⟩ => absurd h (Nat.not_lt.2 (Nat.le_add_left _ _))
abbrev ix2 (pf : pre2.Contents (Elt F)) : (w : Fin 4) → grid2.Coords → Fin (spec2 w).shape.rank → Nat := fun | 0 => cc2_transform_0 | 1 => cc2_transform_1 | 2 => cc2_transform_2 | 3 => cc2_transform_3 | ⟨_ + 4, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 | 1 => hreads2_1 | 2 => hreads2_2 | 3 => hreads2_3 | ⟨_ + 4, h⟩ => absurd h (Nat.not_lt.2 (Nat.le_add_left _ _))
def ok2 (_ : pre2.Contents (Elt F)) : Prop :=
  True
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun _ _ => fun | 0 => hinb2_0 | 1 => hinb2_1 | 2 => hinb2_2 | 3 => hinb2_3 | ⟨_ + 4, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun _ _ => fun | 0 => hwx2_0 | 1 => hwx2_1 | 2 => hwx2_2 | 3 => hwx2_3 | ⟨_ + 4, h⟩ => absurd h (Nat.not_lt.2 (Nat.le_add_left _ _))
abbrev idle2 : Fin 4 → grid2.Coords → Bool := fun | 0 => fun _ => false | 1 => fun _ => false | 2 => fun _ => false | 3 => fun i => !(k2_cond3 i == 1#1) | ⟨_ + 4, h⟩ => absurd h (Nat.not_lt.2 (Nat.le_add_left _ _))

abbrev spec3_0 : Pipeline.WinSpec sig grid3.rank :=
  Pipeline.WinSpec.ofSpec (Memref.whole main_v117) S1x2048.size reads3_0 false false 2 stage3_0 sem3_0 nbuf3_0 hstage3_0

abbrev spec3_1 : Pipeline.WinSpec sig grid3.rank :=
  Pipeline.WinSpec.ofSpec (Memref.whole main_v111) S2048x64.size reads3_1 false false 2 stage3_1 sem3_1 nbuf3_1 hstage3_1

abbrev spec3_2 : Pipeline.WinSpec sig grid3.rank :=
  Pipeline.WinSpec.ofSpec (Memref.whole main_v118) S4096x64.size reads3_2 true false 2 stage3_2 sem3_2 nbuf3_2 hstage3_2

abbrev spec3 : Fin 3 → Pipeline.WinSpec sig grid3.rank := fun | 0 => spec3_0 | 1 => spec3_1 | 2 => spec3_2 | ⟨_ + 3, h⟩ => absurd h (Nat.not_lt.2 (Nat.le_add_left _ _))
theorem hcount3 : ∀ w, grid3.bufCount (spec3 w).reads (spec3 w).sync = (spec3 w).nbuf := fun | 0 => nbuf3_0 | 1 => nbuf3_1 | 2 => nbuf3_2 | ⟨_ + 3, h⟩ => absurd h (Nat.not_lt.2 (Nat.le_add_left _ _))
abbrev ix3 (pf : pre3.Contents (Elt F)) : (w : Fin 3) → grid3.Coords → Fin (spec3 w).shape.rank → Nat := fun | 0 => cc3_transform_0 | 1 => cc3_transform_1 | 2 => cc3_transform_2 | ⟨_ + 3, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 | 1 => hreads3_1 | 2 => hreads3_2 | ⟨_ + 3, h⟩ => absurd h (Nat.not_lt.2 (Nat.le_add_left _ _))
def ok3 (_ : pre3.Contents (Elt F)) : Prop :=
  True
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun _ _ => fun | 0 => hinb3_0 | 1 => hinb3_1 | 2 => hinb3_2 | ⟨_ + 3, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun _ _ => fun | 0 => hwx3_0 | 1 => hwx3_1 | 2 => hwx3_2 | ⟨_ + 3, h⟩ => absurd h (Nat.not_lt.2 (Nat.le_add_left _ _))
abbrev idle3 : Fin 3 → grid3.Coords → Bool := fun | 0 => fun _ => false | 1 => fun _ => false | 2 => fun i => !(k3_cond3 i == 1#1) | ⟨_ + 3, h⟩ => absurd h (Nat.not_lt.2 (Nat.le_add_left _ _))

class Facts : Prop extends Facts₀ where
  harr0 : ∀ w, (spec0 w).arr.IsWhole
  harr1 : ∀ w, (spec1 w).arr.IsWhole
  harr2 : ∀ w, (spec2 w).arr.IsWhole
  harr3 : ∀ w, (spec3 w).arr.IsWhole

variable [Facts]
-- ==== ReferenceIdeal.lean ====
abbrev S60000x64 : Shape := ⟨2, ![60000, 64]⟩
abbrev S40000x64 : Shape := ⟨2, ![40000, 64]⟩
abbrev S720000 : Shape := ⟨1, ![720000]⟩
abbrev S480000 : Shape := ⟨1, ![480000]⟩
abbrev S1200000 : Shape := ⟨1, ![1200000]⟩
abbrev S720000x1 : Shape := ⟨2, ![720000, 1]⟩
abbrev S_ : Shape := ⟨0, ![]⟩
abbrev S720000x64 : Shape := ⟨2, ![720000, 64]⟩
abbrev S480000x1 : Shape := ⟨2, ![480000, 1]⟩
abbrev S480000x64 : Shape := ⟨2, ![480000, 64]⟩
abbrev S100000x64 : Shape := ⟨2, ![100000, 64]⟩
abbrev S1200000x1 : Shape := ⟨2, ![1200000, 1]⟩
abbrev S1200000x64 : Shape := ⟨2, ![1200000, 64]⟩

abbrev nBuf : Space → Nat
  | .hbm => 62
  | .vmem => 0
  | .smem => 0
  | _ => 0

abbrev bufTy : (tb : Table) → Fin (tcTables nBuf tb) → BufTy
  | .hbm, ⟨0, _⟩ => ⟨S60000x64, .f32⟩
  | .hbm, ⟨1, _⟩ => ⟨S40000x64, .f32⟩
  | .hbm, ⟨2, _⟩ => ⟨S720000, .i32⟩
  | .hbm, ⟨3, _⟩ => ⟨S720000, .i32⟩
  | .hbm, ⟨4, _⟩ => ⟨S720000, .f32⟩
  | .hbm, ⟨5, _⟩ => ⟨S480000, .i32⟩
  | .hbm, ⟨6, _⟩ => ⟨S480000, .i32⟩
  | .hbm, ⟨7, _⟩ => ⟨S480000, .f32⟩
  | .hbm, ⟨8, _⟩ => ⟨S1200000, .i32⟩
  | .hbm, ⟨9, _⟩ => ⟨S1200000, .i32⟩
  | .hbm, ⟨10, _⟩ => ⟨S1200000, .f32⟩
  | .hbm, ⟨11, _⟩ => ⟨S720000x1, .f32⟩
  | .hbm, ⟨12, _⟩ => ⟨S_, .i32⟩
  | .hbm, ⟨13, _⟩ => ⟨S720000, .i32⟩
  | .hbm, ⟨14, _⟩ => ⟨S720000, .i1⟩
  | .hbm, ⟨15, _⟩ => ⟨S_, .i32⟩
  | .hbm, ⟨16, _⟩ => ⟨S720000, .i32⟩
  | .hbm, ⟨17, _⟩ => ⟨S720000, .i32⟩
  | .hbm, ⟨18, _⟩ => ⟨S720000, .i32⟩
  | .hbm, ⟨19, _⟩ => ⟨S720000x1, .i32⟩
  | .hbm, ⟨20, _⟩ => ⟨S720000x64, .f32⟩
  | .hbm, ⟨21, _⟩ => ⟨S720000x64, .f32⟩
  | .hbm, ⟨22, _⟩ => ⟨S720000x64, .f32⟩
  | .hbm, ⟨23, _⟩ => ⟨S_, .f32⟩
  | .hbm, ⟨24, _⟩ => ⟨S60000x64, .f32⟩
  | .hbm, ⟨25, _⟩ => ⟨S720000x1, .i32⟩
  | .hbm, ⟨26, _⟩ => ⟨S60000x64, .f32⟩
  | .hbm, ⟨27, _⟩ => ⟨S480000x1, .f32⟩
  | .hbm, ⟨28, _⟩ => ⟨S_, .i32⟩
  | .hbm, ⟨29, _⟩ => ⟨S480000, .i32⟩
  | .hbm, ⟨30, _⟩ => ⟨S480000, .i1⟩
  | .hbm, ⟨31, _⟩ => ⟨S_, .i32⟩
  | .hbm, ⟨32, _⟩ => ⟨S480000, .i32⟩
  | .hbm, ⟨33, _⟩ => ⟨S480000, .i32⟩
  | .hbm, ⟨34, _⟩ => ⟨S480000, .i32⟩
  | .hbm, ⟨35, _⟩ => ⟨S480000x1, .i32⟩
  | .hbm, ⟨36, _⟩ => ⟨S480000x64, .f32⟩
  | .hbm, ⟨37, _⟩ => ⟨S480000x64, .f32⟩
  | .hbm, ⟨38, _⟩ => ⟨S480000x64, .f32⟩
  | .hbm, ⟨39, _⟩ => ⟨S_, .f32⟩
  | .hbm, ⟨40, _⟩ => ⟨S40000x64, .f32⟩
  | .hbm, ⟨41, _⟩ => ⟨S480000x1, .i32⟩
  | .hbm, ⟨42, _⟩ => ⟨S40000x64, .f32⟩
  | .hbm, ⟨43, _⟩ => ⟨S100000x64, .f32⟩
  | .hbm, ⟨44, _⟩ => ⟨S1200000x1, .f32⟩
  | .hbm, ⟨45, _⟩ => ⟨S_, .i32⟩
  | .hbm, ⟨46, _⟩ => ⟨S1200000, .i32⟩
  | .hbm, ⟨47, _⟩ => ⟨S1200000, .i1⟩
  | .hbm, ⟨48, _⟩ => ⟨S_, .i32⟩
  | .hbm, ⟨49, _⟩ => ⟨S1200000, .i32⟩
  | .hbm, ⟨50, _⟩ => ⟨S1200000, .i32⟩
  | .hbm, ⟨51, _⟩ => ⟨S1200000, .i32⟩
  | .hbm, ⟨52, _⟩ => ⟨S1200000x1, .i32⟩
  | .hbm, ⟨53, _⟩ => ⟨S1200000x64, .f32⟩
  | .hbm, ⟨54, _⟩ => ⟨S1200000x64, .f32⟩
  | .hbm, ⟨55, _⟩ => ⟨S1200000x64, .f32⟩
  | .hbm, ⟨56, _⟩ => ⟨S_, .f32⟩
  | .hbm, ⟨57, _⟩ => ⟨S100000x64, .f32⟩
  | .hbm, ⟨58, _⟩ => ⟨S1200000x1, .i32⟩
  | .hbm, ⟨59, _⟩ => ⟨S100000x64, .f32⟩
  | .hbm, ⟨60, _⟩ => ⟨S60000x64, .f32⟩
  | .hbm, ⟨61, _⟩ => ⟨S40000x64, .f32⟩
  | _, _ => ⟨S60000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]

class Facts₀ : Prop where
  bcast_S720000_S720000x1_0 : S720000.BroadcastsInDim S720000x1 (![0] : Fin 1 → Fin S720000x1.rank)
  bcast_S_S720000 : S_.BroadcastsInDim S720000 (![] : Fin 0 → Fin S720000.rank)
  bcast_S720000x1_S720000x64_0_1 : S720000x1.BroadcastsInDim S720000x64 (![0, 1] : Fin 2 → Fin S720000x64.rank)
  bcast_S_S60000x64 : S_.BroadcastsInDim S60000x64 (![] : Fin 0 → Fin S60000x64.rank)
  bcast_S480000_S480000x1_0 : S480000.BroadcastsInDim S480000x1 (![0] : Fin 1 → Fin S480000x1.rank)
  bcast_S_S480000 : S_.BroadcastsInDim S480000 (![] : Fin 0 → Fin S480000.rank)
  bcast_S480000x1_S480000x64_0_1 : S480000x1.BroadcastsInDim S480000x64 (![0, 1] : Fin 2 → Fin S480000x64.rank)
  bcast_S_S40000x64 : S_.BroadcastsInDim S40000x64 (![] : Fin 0 → Fin S40000x64.rank)
  concatenates_S60000x64_S40000x64_S100000x64_d0 : Shape.Concatenates [S60000x64, S40000x64] S100000x64 0
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  slices_S100000x64_S60000x64_0_0 : S100000x64.Slices ![0, 0] S60000x64
  slices_S100000x64_S40000x64_60000_0 : S100000x64.Slices ![60000, 0] S40000x64
  gather_S60000x64_S720000x1_S720000x64_1_0_n_n_0_1_164_wf : GatherDims.WF S60000x64 S720000x1 S720000x64 [1] [0] [] [0] [] 1 ![1, 64]
  scatter_S60000x64_S720000x1_S720000x64_1_0_0_1_wf : ScatterDims.WF S60000x64 S720000x1 S720000x64 [1] [0] [0] 1
  gather_S40000x64_S480000x1_S480000x64_1_0_n_n_0_1_164_wf : GatherDims.WF S40000x64 S480000x1 S480000x64 [1] [0] [] [0] [] 1 ![1, 64]
  scatter_S40000x64_S480000x1_S480000x64_1_0_0_1_wf : ScatterDims.WF S40000x64 S480000x1 S480000x64 [1] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1

variable [Facts₀]

def gather_S60000x64_S720000x1_S720000x64_1_0_n_n_0_1_164 : GatherDims S60000x64 S720000x1 S720000x64 where
  offsetDims := [1]
  collapsedSliceDims := [0]
  operandBatchingDims := []
  startIndicesBatchingDims := []
  startIndexMap := [0]
  indexVectorDim := 1
  sliceSizes := ![1, 64]
  wf := gather_S60000x64_S720000x1_S720000x64_1_0_n_n_0_1_164_wf
def scatter_S60000x64_S720000x1_S720000x64_1_0_0_1 : ScatterDims S60000x64 S720000x1 S720000x64 where
  updateWindowDims := [1]
  insertedWindowDims := [0]
  scatterDimsToOperandDims := [0]
  indexVectorDim := 1
  wf := scatter_S60000x64_S720000x1_S720000x64_1_0_0_1_wf
def gather_S40000x64_S480000x1_S480000x64_1_0_n_n_0_1_164 : GatherDims S40000x64 S480000x1 S480000x64 where
  offsetDims := [1]
  collapsedSliceDims := [0]
  operandBatchingDims := []
  startIndicesBatchingDims := []
  startIndexMap := [0]
  indexVectorDim := 1
  sliceSizes := ![1, 64]
  wf := gather_S40000x64_S480000x1_S480000x64_1_0_n_n_0_1_164_wf
def scatter_S40000x64_S480000x1_S480000x64_1_0_0_1 : ScatterDims S40000x64 S480000x1 S480000x64 where
  updateWindowDims := [1]
  insertedWindowDims := [0]
  scatterDimsToOperandDims := [0]
  indexVectorDim := 1
  wf := scatter_S40000x64_S480000x1_S480000x64_1_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

class Facts : Prop extends Facts₀ where

variable [Facts]
-- ==== Proof.K.Reg0Defs.lean ====
import proofs.«430818_j23493471109148_2_alg».proof.Proof.Gen.Kernel.Launch
import proofs.«430818_j23493471109148_2_alg».proof.Proof.Gen.Kernel.Skeleton
import Idealize.ShloMosaic.Lib.Pipeline.FrameBody
import Idealize.ShloMosaic.Lib.Pipeline.Regions
import Idealize.ShloMosaic.Lib.Pipeline.Kit

set_option maxRecDepth 16384

noncomputable section

namespace Cert.Kernel.R0

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (a : (pcfgs (F := F) 0).Adm)
variable (V : (c : Dev nD) → (b : Ref sig .tc) → Buf (Elt F) ((c : Thread nD τ).loc b))

abbrev cfg : Cfg sig Λ₀ := (pcfgs (F := F) 0).at a

def iblk (c : Dev nD) (w : Fin (cfg a).W) (t : Fin (cfg a).N) : (((cfg a).win w).xblock ((cfg a).grid.coords t)).Idx → Elt F ((cfg a).win w).elt :=
  (((cfg a).win w).blk t).view.read (Elt F) (V c (Pipeline.arrRef spec0 w))

def inBand (n v4 v6 : BitVec 32) : Prop :=
  Scalar.cmpi .ne (Scalar.extui (Scalar.andi (Scalar.cmpi .sge n v4) (Scalar.cmpi .sle n v6)) : BitVec 32) 0#32 = 1#1

instance (n v4 v6 : BitVec 32) : Decidable (inBand n v4 v6) := by unfold inBand; infer_instance

def lo (i : grid0.Coords) : BitVec 32 :=
  (a.1 0 : S352.Idx → BitVec 32) ((Rect.unit (s := S352) (k0_off1 i) S1.size (k0_off1_inb i)).idx (Shape.Idx.first (s := S1) (numel1_S1.symm ▸ Nat.one_pos)))

def hi (i : grid0.Coords) : BitVec 32 :=
  (a.1 1 : S352.Idx → BitVec 32) ((Rect.unit (s := S352) (k0_off1 i) S1.size (k0_off1_inb i)).idx (Shape.Idx.first (s := S1) (numel1_S1.symm ▸ Nat.one_pos)))

abbrev srcblk (c : Dev nD) (t : Fin (cfg a).N) : Vec F S2048x1 .i32 := iblk a V c 0 t
abbrev valblk (c : Dev nD) (t : Fin (cfg a).N) : Vec F S2048x1 .f32 := iblk a V c 1 t
abbrev embblk (c : Dev nD) (t : Fin (cfg a).N) : Vec F S4096x64 .f32 := iblk a V c 2 t

def accStep (i : grid0.Coords) (l h : BitVec 32) (x4 : Vec F S2048x1 .i32) (x6 : Vec F S4096x64 .f32) (prev : Vec F S2048x64 .f32) :
    Vec F S2048x64 .f32 :=
  if inBand (BitVec.ofNat 32 (i 1).val) l h then k0_pay2 i x4 x6 (if (i 1).val = 0 then k0_pay1 (F := F) else prev)
  else (if (i 1).val = 0 then k0_pay1 (F := F) else prev)

def accAt (c : Dev nD) : (n : ℕ) → n < (cfg a).N → Vec F S2048x64 .f32
  | 0, h => accStep ((cfg a).grid.coords ⟨0, h⟩) (lo a ((cfg a).grid.coords ⟨0, h⟩)) (hi a ((cfg a).grid.coords ⟨0, h⟩))
      (srcblk a V c ⟨0, h⟩) (embblk a V c ⟨0, h⟩) (k0_pay1 (F := F))
  | n + 1, h => accStep ((cfg a).grid.coords ⟨n + 1, h⟩) (lo a ((cfg a).grid.coords ⟨n + 1, h⟩)) (hi a ((cfg a).grid.coords ⟨n + 1, h⟩))
      (srcblk a V c ⟨n + 1, h⟩) (embblk a V c ⟨n + 1, h⟩) (accAt c n (Nat.lt_of_succ_lt h))

def outAt (c : Dev nD) (t : Fin (cfg a).N) : Vec F S2048x64 .f32 :=
  k0_pay3 (accAt a V c t.val t.isLt) (valblk a V c t)

abbrev scM : Memref sig .tc .vmem S2048x64 .f32 := Memref.whole cc0_scratch0

def Phi (c : Dev nD) : (n : ℕ) → n ≤ (cfg a).N → sProp 𝕄
  | 0, _ => iprop(((∃ r, prngReg c r) ∗ Pipeline.prefHeld pre0 c (fun _ => fullShare) a.1) ∗ Pipeline.scopedRest (cfg a).spec c)
  | n + 1, hn => iprop(((∃ r, prngReg c r) ∗ Pipeline.prefHeld pre0 c (fun _ => fullShare) a.1)
      ∗ owns (c : Thread nD τ) scM fullShare (accAt a V c n hn) ∗ Pipeline.scopedRestBut (Ix := Unit) (Name := ℕ) (U := UR sig nD τ) (Lvl := ℕ) (Val := Elt F) spec0 c [cc0_scratch0])

theorem scopedRest_split (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f))
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

def dat (c : Dev nD) : Dat τ (Elt F) Unit ℕ (UR sig nD τ) ℕ (cfg a) c where
  A w := V c (Pipeline.arrRef spec0 w)
  after w t := match w with
    | ⟨0, _⟩ => iblk a V c 0 t
    | ⟨1, _⟩ => iblk a V c 1 t
    | ⟨2, _⟩ => iblk a V c 2 t
    | ⟨3, _⟩ => outAt a V c t
  Φ t := Phi a V c t.val (Nat.le_of_lt_succ t.isLt)
  q _ := fullShare
  owed _ := 0

end Cert.Kernel.R0

end
-- ==== Proof.K.Reg0Frame.lean ====
import proofs.«430818_j23493471109148_2_alg».proof.Proof.K.Reg0Defs
import Idealize.ShloMosaic.Lib.Tactic
import Idealize.ShloMosaic.Lib.Ring
import Idealize.ShloMosaic.Lib.Pipeline.Value

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfgs (F := F) 0).Adm)
variable (V : (c : Dev nD) → (b : Ref sig .tc) → Buf (Elt F) ((c : Thread nD τ).loc b))

def wordAt (i : grid0.Coords) (T : Vec F S352 .i32) : BitVec 32 :=
  (T : S352.Idx → BitVec 32) ((Rect.unit (s := S352) (k0_off1 i) S1.size (k0_off1_inb i)).idx (Shape.Idx.first (s := S1) (numel1_S1.symm ▸ Nat.one_pos)))

theorem hz2 : (![0, 0] : Fin 2 → ℕ) = fun _ => 0 := by funext a; fin_cases a <;> rfl

/-- A store through the whole rectangle made under a condition reads back as its payload where the condition holds, else as what was there. -/
theorem read_dite {sp : Space} (v : View sig .tc sp S2048x64 .f32) (P : Prop) [Decidable P] (f : v.ty.Contents (Elt F)) (w : Vec F S2048x64 .f32) :
    v.read (Elt F) (if _ : P then v.writes (Elt F) f [⟨Rect.unit (s := S2048x64) ![0, 0] S2048x64.size inb_S2048x64_S2048x64_0_0, w⟩] else f)
      = if P then w else v.read (Elt F) f := by
  by_cases h : P
  · rw [dif_pos h, if_pos h, View.read_writes_eq_canon _ _ _ (fun y => ⟨_, List.mem_cons.mpr (Or.inl rfl), View.mem_set_unit_zero hz2 inb_S2048x64_S2048x64_0_0 y⟩),
      View.canon_cons_unit_zero hz2]
  · rw [dif_neg h, if_neg h]

theorem first_iff (j : Fin 15) :
    (Scalar.cmpi .ne (Scalar.extui (Scalar.cmpi .eq (BitVec.ofNat 32 j.val) 0#32) : BitVec 32) 0#32 = 1#1) ↔ j.val = 0 := by
  revert j; decide

section
variable (c : Dev nD) (E : Set ℕ) (i : grid0.Coords)
  (arg2 arg3 : Memref sig .tc .smem S352 .i32) (arg4 : Memref sig .tc .vmem S2048x1 .i32) (arg5 : Memref sig .tc .vmem S2048x1 .f32)
  (arg6 : Memref sig .tc .vmem S4096x64 .f32) (arg7 arg8 : Memref sig .tc .vmem S2048x64 .f32)
  (t2 t3 : Vec F S352 .i32) (x4 : Vec F S2048x1 .i32) (x5 : Vec F S2048x1 .f32) (x6 : Vec F S4096x64 .f32)

/-- The seven memrefs the body touches, each owned whole at named contents. -/
def held (y7 y8 : Vec F S2048x64 .f32) : sProp 𝕄 :=
  iprop(owns (c : Thread nD τ) arg2 fullShare t2 ∗ owns (c : Thread nD τ) arg3 fullShare t3
    ∗ owns (c : Thread nD τ) arg4 fullShare x4 ∗ owns (c : Thread nD τ) arg5 fullShare x5 ∗ owns (c : Thread nD τ) arg6 fullShare x6
    ∗ owns (c : Thread nD τ) arg7 fullShare y7 ∗ owns (c : Thread nD τ) arg8 fullShare y8)

set_option maxHeartbeats 1000000 in
/-- One run of the body at any coordinates: tables and inputs are left as found, the accumulator takes its step, the output is written at the last row tile only. -/
theorem sound_kernel (harg2 : arg2.IsWhole) (harg3 : arg3.IsWhole) (harg4 : arg4.IsWhole) (harg5 : arg5.IsWhole) (harg6 : arg6.IsWhole)
    (harg7 : arg7.IsWhole) (harg8 : arg8.IsWhole) (x7 acc y7 y8 : Vec F S2048x64 .f32)
    (h8 : y8 = accStep i (wordAt i t2) (wordAt i t3) x4 x6 acc) (h7 : y7 = if k0_cond3 i = 1#1 then k0_pay3 y8 x5 else x7) (K : PUnit → sProp 𝕄) :
    iprop(held c arg2 arg3 arg4 arg5 arg6 arg7 arg8 t2 t3 x4 x5 x6 x7 acc
        ∗ (held c arg2 arg3 arg4 arg5 arg6 arg7 arg8 t2 t3 x4 x5 x6 y7 y8 -∗ K ⟨⟩))
      ⊢ wp frame (wpE (defs₀ (F := F)) Variants.none c none) E (cc0_kernel i arg2 harg2 arg3 harg3 arg4 harg4 arg5 harg5 arg6 harg6 arg7 harg7 arg8 harg8) K := by
  subst h7 h8
  simp only [cc0_kernel_eq_skeleton]; unfold cc0_kernel_skel held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  subst hf2 hf3 hf4 hf5 hf6 hf7 hf8
  sl_exec
  sl_step
  iapply Hk
  isplitl [H2]; swap; isplitl [H3]; swap; isplitl [H4]; swap; isplitl [H5]; swap; isplitl [H6]; swap; isplitl [H7]; swap
  all_goals iexists _; isplitr; swap; iassumption; ipureintro
  rotate_left 2; iterate 5 rfl
  all_goals unfold accStep; sl_unfold_run_names; rw [read_dite]
  all_goals simp only [View.readAt_eq_ld, View.ld_unit_zero (S := S2048x1) hz2, View.ld_unit_zero (S := S4096x64) hz2, View.ld_unit_zero (S := S2048x64) hz2]
  all_goals repeat rw [read_dite]
  all_goals simp only [first_iff (i 1)]
  all_goals rfl
end

abbrev bodyAt (t : Fin (cfg a).N) : Prog (TpuEff nD τ sig (Elt F) Λ₀ .tc) PUnit :=
  cc0_kernel (grid0.coords t) (Memref.whole main_v31) (Memref.isWhole_whole _) (Memref.whole main_v33) (Memref.isWhole_whole _)
    (spec0_0.stage ((cfg a).slots t 0)) (hstage0_0 (((cfg a).slots t 0).cast nbuf0_0))
    (spec0_1.stage ((cfg a).slots t 1)) (hstage0_1 (((cfg a).slots t 1).cast nbuf0_1))
    (spec0_2.stage ((cfg a).slots t 2)) (hstage0_2 (((cfg a).slots t 2).cast nbuf0_2))
    (spec0_3.stage ((cfg a).slots t 3)) (hstage0_3 (((cfg a).slots t 3).cast nbuf0_3))
    (Memref.whole cc0_scratch0) (Memref.isWhole_whole _)

abbrev stepAt (c : Dev nD) (t : Fin (cfg a).N) (prev : Vec F S2048x64 .f32) : Vec F S2048x64 .f32 :=
  accStep ((cfg a).grid.coords t) (lo a ((cfg a).grid.coords t)) (hi a ((cfg a).grid.coords t)) (srcblk a V c t) (embblk a V c t) prev

theorem prefHeld_eq (c : Dev nD) :
    (Pipeline.prefHeld (Ix := Unit) (Name := ℕ) (U := UR sig nD τ) (Lvl := ℕ) pre0 c (fun _ => fullShare) a.1 : sProp 𝕄)
      = iprop(owns (c : Thread nD τ) (Memref.whole main_v31) fullShare (a.1 0) ∗ owns (c : Thread nD τ) (Memref.whole main_v33) fullShare (a.1 1)) := by
  unfold Pipeline.prefHeld
  rw [BI.bigSep_fin_two]
  exact congrArg₂ BI.sep (owns_whole (c : Thread nD τ) main_v31 fullShare (a.1 0)).symm (owns_whole (c : Thread nD τ) main_v33 fullShare (a.1 1)).symm

variable (c : Dev nD) (t : Fin (cfg a).N)

theorem A_eq (w : Fin (cfg a).W) : (dat a V c).A w = V c (Pipeline.arrRef spec0 w) := by
  dsimp only [dat]

theorem after0 : (dat a V c).after 0 t = iblk a V c 0 t := by dsimp only [dat]; rfl
theorem after1 : (dat a V c).after 1 t = iblk a V c 1 t := by dsimp only [dat]; rfl
theorem after2 : (dat a V c).after 2 t = iblk a V c 2 t := by dsimp only [dat]; rfl

theorem before0 (d) : (dat a V c).before 0 t d = iblk a V c 0 t :=
  ((dat a V c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (d) : (dat a V c).before 1 t d = iblk a V c 1 t :=
  ((dat a V c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (d) : (dat a V c).before 2 t d = iblk a V c 2 t :=
  ((dat a V c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

theorem leaves0 : (dat a V c).leavesExact 0 t = owns (c : Thread nD τ) (((cfg a).win 0).stage ((cfg a).slots t 0)) fullShare (iblk a V c 0 t) := by
  rw [← after0]; rfl
theorem leaves1 : (dat a V c).leavesExact 1 t = owns (c : Thread nD τ) (((cfg a).win 1).stage ((cfg a).slots t 1)) fullShare (iblk a V c 1 t) := by
  rw [← after1]; rfl
theorem leaves2 : (dat a V c).leavesExact 2 t = owns (c : Thread nD τ) (((cfg a).win 2).stage ((cfg a).slots t 2)) fullShare (iblk a V c 2 t) := by
  rw [← after2]; rfl

def flushF (t : Fin grid0.N) : Bool :=
  true && (decide (t.val + 1 = grid0.N) || decide (∃ h : t.val + 1 < grid0.N, cc0_transform_3 (grid0.coords ⟨t.val + 1, h⟩) ≠ cc0_transform_3 (grid0.coords t)))

theorem noFlushF : ∀ t : Fin grid0.N, ¬ (k0_cond3 (grid0.coords t) = 1#1) → flushF t = false := by decide +kernel

/-- The output window's post from its contents: the stored block at the last row tile, what was found elsewhere. -/
theorem leaves3_of (d) (X : Vec F S2048x64 .f32)
    (h1 : k0_cond3 ((cfg a).grid.coords t) = 1#1 → X = outAt a V c t) (h2 : ¬ k0_cond3 ((cfg a).grid.coords t) = 1#1 → X = (dat a V c).before 3 t d) :
    owns (c : Thread nD τ) (((cfg a).win 3).stage ((cfg a).slots t 3)) fullShare X ⊢ (dat a V c).leavesExact 3 t := by
  by_cases hc3 : k0_cond3 ((cfg a).grid.coords t) = 1#1
  · obtain rfl := h1 hc3
    have hi : (cfg a).idle 3 ((cfg a).grid.coords t) = false := by
      show (!(k0_cond3 ((cfg a).grid.coords t) == 1#1)) = false
      rw [hc3]; rfl
    unfold Dat.leavesExact; rw [hi]; dsimp only [dat]; exact .rfl
  · obtain rfl := h2 hc3
    have hi : (cfg a).idle 3 ((cfg a).grid.coords t) = true := by
      show (!(k0_cond3 ((cfg a).grid.coords t) == 1#1)) = true
      rw [Bool.not_eq_true', beq_eq_false_iff_ne]; exact hc3
    rw [Dat.leavesExact_idle (dat a V c) 3 t hi (noFlushF t hc3)]
    iintro H; iexists d; iexact H

/-- At every position the invariant yields accumulator contents from which the point's step gives accAt: anything at position 0 (the step clears it), accAt of the point before afterwards. -/
theorem Phi_open : ∀ n h, Phi a V c n h ⊢ iprop(∃ p, ⌜∀ h', accAt a V c n h' = stepAt a V c ⟨n, h'⟩ p⌝
      ∗ ((∃ r, prngReg c r) ∗ Pipeline.prefHeld pre0 c (fun _ => fullShare) a.1) ∗ owns (c : Thread nD τ) scM fullShare p
      ∗ Pipeline.scopedRestBut (Ix := Unit) (Name := ℕ) (U := UR sig nD τ) (Lvl := ℕ) (Val := Elt F) spec0 c [cc0_scratch0])
  | 0, _ => by
    rw [Phi, show Pipeline.scopedRest (cfg a).spec c = _ from scopedRest_split c]
    iintro ⟨Hgp, ⟨%f, Hs⟩, Hrb⟩
    iexists f; rw [owns_whole]; iframe
    ipureintro; intro h'
    have h0 : ((cfg a).grid.coords ⟨0, h'⟩ 1).val = 0 := by
      show 0 / grid0.stride 1 % grid0.bound 1 = 0
      rw [Nat.zero_div, Nat.zero_mod]
    show accStep _ _ _ _ _ _ = accStep _ _ _ _ _ _
    unfold accStep; rw [if_pos h0, if_pos h0]
  | n + 1, h => by
    rw [Phi]; iintro H; iexists accAt a V c n h; isplitr; · ipureintro; exact fun _ => rfl
    iexact H

/-- What the body is handed for window w. -/
def stg (w : Fin (cfg a).W) : sProp 𝕄 :=
  iprop(∃ d, owns (c : Thread nD τ) (((cfg a).win w).stage ((cfg a).slots t w)) fullShare ((dat a V c).before w t d))

set_option maxHeartbeats 1600000 in
/-- The body obligation at point t, the four windows written out. -/
theorem sound_body :
    iprop((dat a V c).Φ t.castSucc ∗ (dat a V c).owesAt () t.castSucc ∗ stg a V c t 0 ∗ stg a V c t 1 ∗ stg a V c t 2 ∗ stg a V c t 3)
      ⊢ wp frame (wpE (defs₀ (F := F)) Variants.none c none) Set.univ (bodyAt a t) fun _ =>
        iprop((dat a V c).Φ t.succ ∗ (dat a V c).owesAt () t.succ ∗ (dat a V c).leavesExact 0 t ∗ (dat a V c).leavesExact 1 t
          ∗ (dat a V c).leavesExact 2 t ∗ (dat a V c).leavesExact 3 t) := by
  unfold stg
  simp only [before0, before1, before2]
  rw [show (dat a V c).owesAt () t.succ = (dat a V c).owesAt () t.castSucc from rfl,
    show (dat a V c).Φ t.succ = Phi a V c (t.val + 1) t.isLt from rfl, Phi, leaves0, leaves1, leaves2]
  refine (sep_mono_left (Phi_open a V c t.val _)).trans ?_
  rw [prefHeld_eq]
  iintro ⟨⟨%p, %hp, ⟨Hg, Ht2, Ht3⟩, Hs, Hrb⟩, Ho, ⟨%_, H0⟩, ⟨%_, H1⟩, ⟨%_, H2⟩, ⟨%d, H3⟩⟩
  iapply sound_kernel (i := grid0.coords t) (t2 := a.1 0) (t3 := a.1 1) (x5 := iblk a V c 1 t) (x7 := (dat a V c).before 3 t d) (acc := p)
    (y7 := if k0_cond3 ((cfg a).grid.coords t) = 1#1 then outAt a V c t else (dat a V c).before 3 t d) (h8 := hp t.isLt) (h7 := rfl)
  unfold held
  iframe Ht2 Ht3 Hs
  isplitl [H0 H1 H2 H3]
  · isplitl [H0]; · iexact H0
    isplitl [H1]; · iexact H1
    isplitl [H2]; · iexact H2
    iexact H3
  iintro ⟨Ht2, Ht3, H0, H1, H2, H3, Hs⟩
  iframe Hg Ht2 Ht3 Hs Hrb Ho
  isplitl [H0]; · iexact H0
  isplitl [H1]; · iexact H1
  isplitl [H2]; · iexact H2
  iapply leaves3_of a V c t d _ (fun h => if_pos h) (fun h => if_neg h)
  iexact H3

theorem body_obligation : Pipeline.BodyObligation (dat a V c) (defs₀ (F := F)) Variants.none () Set.univ := fun t => by
  rw [bigSep_W0, bigSep_W0]
  exact sound_body a V c t

theorem hin : iprop((∃ r, prngReg c r) ∗ Pipeline.prefHeld pre0 c (fun _ => fullShare) a.1 ∗ Pipeline.scopedRest (cfg a).spec c) ⊢ (dat a V c).Φ 0 :=
  sep_assoc.2

theorem hout : (dat a V c).Φ (Fin.last (cfg a).N) ⊢ iprop(((∃ r, prngReg c r) ∗ Pipeline.prefHeld pre0 c (fun _ => fullShare) a.1) ∗ Pipeline.scopedRest (cfg a).spec c) := by
  refine (Phi_open a V c (cfg a).N le_rfl).trans ?_
  rw [show Pipeline.scopedRest (cfg a).spec c = _ from scopedRest_split c]
  iintro ⟨%p, -, Hgp, Hs, Hrb⟩
  iframe Hgp Hrb
  iexists p; rw [← owns_whole]; iexact Hs

end Cert.Kernel.R0

end
-- ==== Proof.K.Reg1Defs.lean ====
import proofs.«430818_j23493471109148_2_alg».proof.Proof.Gen.Kernel.Launch
import proofs.«430818_j23493471109148_2_alg».proof.Proof.Gen.Kernel.Skeleton
import Idealize.ShloMosaic.Lib.Pipeline.FrameBody
import Idealize.ShloMosaic.Lib.Pipeline.Regions
import Idealize.ShloMosaic.Lib.Pipeline.Kit

set_option maxRecDepth 16384

noncomputable section

namespace Cert.Kernel.R1

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfgs (F := F) 1).Adm)
variable (V : (c : Dev nD) → (b : Ref sig .tc) → Buf (Elt F) ((c : Thread nD τ).loc b))

abbrev cfg : Cfg sig Λ₀ := (pcfgs (F := F) 1).at a

def iblk (c : Dev nD) (w : Fin (cfg a).W) (t : Fin (cfg a).N) : (((cfg a).win w).xblock ((cfg a).grid.coords t)).Idx → Elt F ((cfg a).win w).elt :=
  (((cfg a).win w).blk t).view.read (Elt F) (V c (Pipeline.arrRef spec1 w))

def inBand (n v4 v6 : BitVec 32) : Prop :=
  Scalar.cmpi .ne (Scalar.extui (Scalar.andi (Scalar.cmpi .sge n v4) (Scalar.cmpi .sle n v6)) : BitVec 32) 0#32 = 1#1

instance (n v4 v6 : BitVec 32) : Decidable (inBand n v4 v6) := by unfold inBand; infer_instance

def lo (i : grid1.Coords) : BitVec 32 :=
  (a.1 0 : S352.Idx → BitVec 32) ((Rect.unit (s := S352) (k1_off1 i) S1.size (k1_off1_inb i)).idx (Shape.Idx.first (s := S1) (numel1_S1.symm ▸ Nat.one_pos)))

def hi (i : grid1.Coords) : BitVec 32 :=
  (a.1 1 : S352.Idx → BitVec 32) ((Rect.unit (s := S352) (k1_off1 i) S1.size (k1_off1_inb i)).idx (Shape.Idx.first (s := S1) (numel1_S1.symm ▸ Nat.one_pos)))

abbrev dstblk (c : Dev nD) (t : Fin (cfg a).N) : Vec F S1x2048 .i32 := iblk a V c 0 t
abbrev sclblk (c : Dev nD) (t : Fin (cfg a).N) : Vec F S2048x64 .f32 := iblk a V c 1 t

def accStep (i : grid1.Coords) (l h : BitVec 32) (x4 : Vec F S1x2048 .i32) (x5 : Vec F S2048x64 .f32) (prev : Vec F S4096x64 .f32) :
    Vec F S4096x64 .f32 :=
  if inBand (BitVec.ofNat 32 (i 0).val) l h then k1_pay2 i x4 x5 (if (i 1).val = 0 then k1_pay1 (F := F) else prev)
  else (if (i 1).val = 0 then k1_pay1 (F := F) else prev)

def accAt (c : Dev nD) : (n : ℕ) → n < (cfg a).N → Vec F S4096x64 .f32
  | 0, h => accStep ((cfg a).grid.coords ⟨0, h⟩) (lo a ((cfg a).grid.coords ⟨0, h⟩)) (hi a ((cfg a).grid.coords ⟨0, h⟩))
      (dstblk a V c ⟨0, h⟩) (sclblk a V c ⟨0, h⟩) (k1_pay1 (F := F))
  | n + 1, h => accStep ((cfg a).grid.coords ⟨n + 1, h⟩) (lo a ((cfg a).grid.coords ⟨n + 1, h⟩)) (hi a ((cfg a).grid.coords ⟨n + 1, h⟩))
      (dstblk a V c ⟨n + 1, h⟩) (sclblk a V c ⟨n + 1, h⟩) (accAt c n (Nat.lt_of_succ_lt h))

def outAt (c : Dev nD) (t : Fin (cfg a).N) : Vec F S4096x64 .f32 :=
  accAt a V c t.val t.isLt

abbrev scM : Memref sig .tc .vmem S4096x64 .f32 := Memref.whole cc1_scratch0

def Phi (c : Dev nD) : (n : ℕ) → n ≤ (cfg a).N → sProp 𝕄
  | 0, _ => iprop(((∃ r, prngReg c r) ∗ Pipeline.prefHeld pre1 c (fun _ => fullShare) a.1) ∗ Pipeline.scopedRest (cfg a).spec c)
  | n + 1, hn => iprop(((∃ r, prngReg c r) ∗ Pipeline.prefHeld pre1 c (fun _ => fullShare) a.1)
      ∗ owns (c : Thread nD τ) scM fullShare (accAt a V c n hn) ∗ Pipeline.scopedRestBut (Ix := Unit) (Name := ℕ) (U := UR sig nD τ) (Lvl := ℕ) (Val := Elt F) spec1 c [cc1_scratch0])

theorem scopedRest_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f))
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

def dat (c : Dev nD) : Dat τ (Elt F) Unit ℕ (UR sig nD τ) ℕ (cfg a) c where
  A w := V c (Pipeline.arrRef spec1 w)
  after w t := match w with
    | ⟨0, _⟩ => iblk a V c 0 t
    | ⟨1, _⟩ => iblk a V c 1 t
    | ⟨2, _⟩ => outAt a V c t
  Φ t := Phi a V c t.val (Nat.le_of_lt_succ t.isLt)
  q _ := fullShare
  owed _ := 0

end Cert.Kernel.R1

end
-- ==== Proof.K.Reg1Frame.lean ====
import proofs.«430818_j23493471109148_2_alg».proof.Proof.K.Reg1Defs
import Idealize.ShloMosaic.Lib.Pipeline.Value
import Idealize.ShloMosaic.Lib.Pipeline.TableIdle
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev RA : Rect S4096x64 := Rect.unit (s := S4096x64) ![0, 0] S4096x64.size inb_S4096x64_S4096x64_0_0

theorem off0 : (![0, 0] : Fin 2 → Nat) = fun _ => 0 := by
  funext x; fin_cases x <;> rfl

theorem read_if_store {P : Prop} [Decidable P] {κ : Kind} {sp : Space} (v : View sig κ sp S4096x64 .f32) (f : v.ty.Contents (Elt F))
    (w : Vec F S4096x64 .f32) :
    v.read (Elt F) (if _ : P then v.writes (Elt F) f [⟨RA, w⟩] else f) = if P then w else v.read (Elt F) f := by
  split
  · rw [View.read_writes_eq_canon _ _ _ (View.cover_of_tiled [⟨RA, w⟩] S4096x64.size (by rfl)), View.canon_unit_zero off0]
  · rfl

theorem readAt_unit {κ : Kind} {sp : Space} {S : Shape} {e : EltTy} (v : View sig κ sp S e) {off : Fin S.rank → Nat} (h : off = fun _ => 0)
    {inb : ∀ a, off a + S.size a ≤ S.size a} (f : v.ty.Contents (Elt F)) :
    v.readAt (Elt F) (Rect.unit off S.size inb).toLoadRect f = v.read (Elt F) f := by
  rw [View.readAt_eq_ld, View.ld_unit_zero h]

def wordAt (i : grid1.Coords) (tb : Vec F S352 .i32) : BitVec 32 :=
  tb ((Rect.unit (s := S352) (k1_off1 i) S1.size (k1_off1_inb i)).idx (Shape.Idx.first (s := S1) (numel1_S1.symm ▸ Nat.one_pos)))

theorem cond1_iff_aux : ∀ j : Fin 352,
    (Scalar.cmpi .ne (Scalar.extui (Scalar.cmpi .eq (BitVec.ofNat 32 j.val) 0#32) : BitVec 32) 0#32 = 1#1) ↔ j.val = 0 := by
  decide +kernel

-- accStep with its two tests under any decision procedure.
theorem accStep_eq {P Q : Prop} [Decidable P] [Decidable Q] (i : grid1.Coords) (l h : BitVec 32)
    (hP : P ↔ inBand (BitVec.ofNat 32 (i 0).val) l h) (hQ : Q ↔ (i 1).val = 0)
    (x4 : Vec F S1x2048 .i32) (x5 : Vec F S2048x64 .f32) (prev : Vec F S4096x64 .f32) :
    (if P then k1_pay2 i x4 x5 (if Q then k1_pay1 (F := F) else prev) else if Q then k1_pay1 (F := F) else prev)
      = accStep i l h x4 x5 prev := by
  unfold accStep; simp only [hP, hQ]

set_option maxHeartbeats 2000000 in
-- No guard is decided beforehand, so one statement serves every point of a row.
theorem sound_kernel (c : Dev nD) (E : Set ℕ) (i : grid1.Coords)
    {arg2 : Memref sig .tc .smem S352 .i32} {harg2 : arg2.IsWhole} {arg3 : Memref sig .tc .smem S352 .i32} {harg3 : arg3.IsWhole}
    {arg4 : Memref sig .tc .vmem S1x2048 .i32} {harg4 : arg4.IsWhole} {arg5 : Memref sig .tc .vmem S2048x64 .f32} {harg5 : arg5.IsWhole}
    {arg6 : Memref sig .tc .vmem S4096x64 .f32} {harg6 : arg6.IsWhole} {arg7 : Memref sig .tc .vmem S4096x64 .f32} {harg7 : arg7.IsWhole}
    (t2 t3 : Vec F S352 .i32) (x4 : Vec F S1x2048 .i32) (x5 : Vec F S2048x64 .f32) (d6 p7 : Vec F S4096x64 .f32)
    (K : PUnit → sProp 𝕄) :
    iprop(owns (c : Thread nD τ) arg2 fullShare t2 ∗ owns (c : Thread nD τ) arg3 fullShare t3
        ∗ owns (c : Thread nD τ) arg4 fullShare x4 ∗ owns (c : Thread nD τ) arg5 fullShare x5
        ∗ owns (c : Thread nD τ) arg6 fullShare d6 ∗ owns (c : Thread nD τ) arg7 fullShare p7
        ∗ (iprop(owns (c : Thread nD τ) arg2 fullShare t2 ∗ owns (c : Thread nD τ) arg3 fullShare t3
            ∗ owns (c : Thread nD τ) arg4 fullShare x4 ∗ owns (c : Thread nD τ) arg5 fullShare x5
            ∗ owns (c : Thread nD τ) arg6 fullShare (if k1_cond3 i = 1#1 then accStep i (wordAt i t2) (wordAt i t3) x4 x5 p7 else d6)
            ∗ owns (c : Thread nD τ) arg7 fullShare (accStep i (wordAt i t2) (wordAt i t3) x4 x5 p7)) -∗ K ⟨⟩))
      ⊢ wp frame (wpE (defs₀ (F := F)) Variants.none c none) E (cc1_kernel i arg2 harg2 arg3 harg3 arg4 harg4 arg5 harg5 arg6 harg6 arg7 harg7) K := by
  simp only [cc1_kernel_eq_skeleton]; unfold cc1_kernel_skel
  rw [owns_eq_rep (c : Thread nD τ) arg2, owns_eq_rep (c : Thread nD τ) arg3, owns_eq_rep (c : Thread nD τ) arg4,
    owns_eq_rep (c : Thread nD τ) arg5, owns_eq_rep (c : Thread nD τ) arg6 _ d6, owns_eq_rep (c : Thread nD τ) arg7 _ p7]
  unfold owns
  iintro ⟨H2, H3, H4, H5, H6, H7, Hk⟩
  sl_exec
  sl_step
  sl_unfold_run_names
  iapply Hk
  iframe H2 H3 H4 H5
  isplitl [H6] <;>
    (iexists _; isplitr; swap; iassumption; ipureintro
     try rw [read_if_store arg6.view, readAt_unit arg7.view off0]
     rw [read_if_store, readAt_unit arg7.view off0, read_if_store, readAt_unit arg4.view off0, readAt_unit arg5.view off0,
       View.readAt_eq_ld arg2.view, View.readAt_eq_ld arg3.view]
     simp only [View.read_rep])
  · congr 1
    refine accStep_eq i _ _ ?_ (cond1_iff_aux (i 1)) x4 x5 p7; exact Iff.rfl
  · refine accStep_eq i _ _ ?_ (cond1_iff_aux (i 1)) x4 x5 p7; exact Iff.rfl

variable (a : (pcfgs (F := F) 1).Adm)

theorem flush2_aux : ∀ t : Fin grid1.N,
    (t.val + 1 = grid1.N || decide (∃ h : t.val + 1 < grid1.N, cc1_transform_2 (grid1.coords ⟨t.val + 1, h⟩) ≠ cc1_transform_2 (grid1.coords t))) = true
      ↔ k1_cond3 (grid1.coords t) = 1#1 := by
  decide +kernel

theorem coords_zero (t : Fin (cfg a).N) (hz : t.val = 0) : (((cfg a).grid.coords t) 1).val = 0 := by
  show t.val / _ % _ = 0
  rw [hz, Nat.zero_div, Nat.zero_mod]

variable (V : (c : Dev nD) → (b : Ref sig .tc) → Buf (Elt F) ((c : Thread nD τ).loc b))

theorem A_eq (c : Dev nD) (w : Fin (cfg a).W) : (dat a V c).A w = V c (Pipeline.arrRef spec1 w) := by
  dsimp only [dat]

theorem after0 (c : Dev nD) (t : Fin (cfg a).N) : (dat a V c).after 0 t = iblk a V c 0 t := by dsimp only [dat]; rfl
theorem after1 (c : Dev nD) (t : Fin (cfg a).N) : (dat a V c).after 1 t = iblk a V c 1 t := by dsimp only [dat]; rfl

theorem before0 (c : Dev nD) (t : Fin (cfg a).N) (d) : (dat a V c).before 0 t d = iblk a V c 0 t :=
  ((dat a V c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin (cfg a).N) (d) : (dat a V c).before 1 t d = iblk a V c 1 t :=
  ((dat a V c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)

abbrev restBut (c : Dev nD) : sProp 𝕄 :=
  Pipeline.scopedRestBut (Ix := Unit) (Name := ℕ) (U := UR sig nD τ) (Lvl := ℕ) (Val := Elt F) spec1 c [cc1_scratch0]

theorem prefHeld_eq (c : Dev nD) :
    (Pipeline.prefHeld pre1 c (fun _ => fullShare) a.1 : sProp 𝕄)
      = iprop(owns (c : Thread nD τ) (pre1.buf 0) fullShare (a.1 0) ∗ owns (c : Thread nD τ) (pre1.buf 1) fullShare (a.1 1)) := by
  unfold Pipeline.prefHeld
  rw [bigSep_univ_eq_bigSepL [(0 : Fin 2), (1 : Fin 2)] (by decide) (by decide)]
  simp only [owns_whole]
  rfl

theorem rest_eq (c : Dev nD) :
    (Pipeline.scopedRest (cfg a).spec c : sProp 𝕄) = iprop((∃ d, owns (c : Thread nD τ) scM fullShare d) ∗ restBut (F := F) c) :=
  (scopedRest_split (F := F) c).trans (by simp only [owns_whole]; rfl)

-- At the first point the step clears the carried block, so its contents do not matter.
theorem accAt_step (c : Dev nD) (t : Fin (cfg a).N) (p : Vec F S4096x64 .f32) (hp : ∀ hz : t.val ≠ 0, p = accAt a V c (t.val - 1) (by omega)) :
    accAt a V c t.val t.isLt = accStep ((cfg a).grid.coords t) (wordAt ((cfg a).grid.coords t) (a.1 0)) (wordAt ((cfg a).grid.coords t) (a.1 1))
      (iblk a V c 0 t) (iblk a V c 1 t) p := by
  obtain ⟨n, hn⟩ := t
  cases n with
  | zero => show accStep _ _ _ _ _ (k1_pay1 (F := F)) = _; unfold accStep; simp only [coords_zero a ⟨0, hn⟩ rfl, if_true]; rfl
  | succ n => rw [hp (Nat.succ_ne_zero n)]; rfl

-- Both cases of the invariant in one shape: the carried block at some contents, known past the first point.
theorem Phi_open (c : Dev nD) : (n : ℕ) → (h : n ≤ (cfg a).N) →
    Phi a V c n h ⊢ iprop(((∃ r, prngReg c r) ∗ Pipeline.prefHeld pre1 c (fun _ => fullShare) a.1)
      ∗ (∃ p, ⌜∀ hz : n ≠ 0, p = accAt a V c (n - 1) (by omega)⌝ ∗ owns (c : Thread nD τ) scM fullShare p) ∗ restBut (F := F) c)
  | 0, _ => by
    simp only [Phi, rest_eq]
    iintro ⟨HP, ⟨%d, HS⟩, HR⟩
    iframe HP HR
    iexists d; isplitr; · ipureintro; exact fun hz => absurd rfl hz
    iexact HS
  | n + 1, _ => by
    simp only [Phi]
    iintro ⟨HP, HS, HR⟩
    iframe HP HR
    iexists _; isplitr; swap; iexact HS
    ipureintro; exact fun _ => rfl

abbrev st (t : Fin (cfg a).N) (w : Fin (cfg a).W) := ((cfg a).win w).stage ((cfg a).slots t w)

theorem leaves2 (c : Dev nD) (t : Fin (cfg a).N) (d) (p : Vec F S4096x64 .f32) (hp : ∀ hz : t.val ≠ 0, p = accAt a V c (t.val - 1) (by omega)) :
    owns (c : Thread nD τ) (st a t 2) fullShare
        (if k1_cond3 ((cfg a).grid.coords t) = 1#1 then accStep ((cfg a).grid.coords t) (wordAt ((cfg a).grid.coords t) (a.1 0))
          (wordAt ((cfg a).grid.coords t) (a.1 1)) (iblk a V c 0 t) (iblk a V c 1 t) p else (dat a V c).before 2 t d)
      ⊢ (dat a V c).leavesExact 2 t := by
  have hi : (cfg a).idle 2 ((cfg a).grid.coords t) = !(k1_cond3 ((cfg a).grid.coords t) == 1#1) := rfl
  by_cases h3 : k1_cond3 ((cfg a).grid.coords t) = 1#1
  · refine (Entails.of_eq (congrArg (owns (c : Thread nD τ) (st a t 2) fullShare) ((if_pos h3).trans (accAt_step a V c t p hp).symm))).trans ?_
    unfold Dat.leavesExact; rw [show (cfg a).idle 2 ((cfg a).grid.coords t) = false from by rw [hi, h3]; rfl]
    exact .rfl
  · refine (Entails.of_eq (congrArg (owns (c : Thread nD τ) (st a t 2) fullShare) (if_neg h3))).trans ?_
    rw [Dat.leavesExact_idle _ 2 t (by rw [hi, Bool.not_eq_true', beq_eq_false_iff_ne]; exact h3)
      (by rw [← Bool.not_eq_true]; exact fun hf => h3 ((flush2_aux t).mp hf))]
    iintro H; iexists d; iexact H

abbrev bodyAt (t : Fin (cfg a).N) : Prog (TpuEff nD τ sig (Elt F) Λ₀ .tc) PUnit :=
  cc1_kernel ((cfg a).grid.coords t) (pre1.buf 0) (Memref.isWhole_whole _) (pre1.buf 1) (Memref.isWhole_whole _)
    (spec1_0.stage ((cfg a).slots t 0)) (hstage1_0 (((cfg a).slots t 0).cast nbuf1_0))
    (spec1_1.stage ((cfg a).slots t 1)) (hstage1_1 (((cfg a).slots t 1).cast nbuf1_1))
    (spec1_2.stage ((cfg a).slots t 2)) (hstage1_2 (((cfg a).slots t 2).cast nbuf1_2))
    scM (Memref.isWhole_whole _)

set_option maxHeartbeats 4000000 in
theorem sound_body (c : Dev nD) (t : Fin (cfg a).N) :
    iprop((dat a V c).Φ t.castSucc ∗ (dat a V c).owesAt () t.castSucc
      ∗ (∃ d, owns (c : Thread nD τ) (st a t 0) fullShare ((dat a V c).before 0 t d))
      ∗ (∃ d, owns (c : Thread nD τ) (st a t 1) fullShare ((dat a V c).before 1 t d))
      ∗ (∃ d, owns (c : Thread nD τ) (st a t 2) fullShare ((dat a V c).before 2 t d)))
    ⊢ wp frame (wpE (defs₀ (F := F)) Variants.none c none) Set.univ (bodyAt a t) (fun _ =>
      iprop((dat a V c).Φ t.succ ∗ (dat a V c).owesAt () t.succ
        ∗ (dat a V c).leavesExact 0 t ∗ (dat a V c).leavesExact 1 t ∗ (dat a V c).leavesExact 2 t)) := by
  simp only [before0, before1]
  rw [show (dat a V c).owesAt () t.succ = (dat a V c).owesAt () t.castSucc from rfl]
  rw [show (dat a V c).Φ t.succ = Phi a V c (t.val + 1) t.isLt from rfl,
    show Phi a V c (t.val + 1) t.isLt = iprop(((∃ r, prngReg c r) ∗ Pipeline.prefHeld pre1 c (fun _ => fullShare) a.1)
      ∗ owns (c : Thread nD τ) scM fullShare (accAt a V c t.val t.isLt) ∗ restBut (F := F) c) from rfl]
  rw [show (dat a V c).leavesExact 0 t = owns (c : Thread nD τ) (st a t 0) fullShare ((dat a V c).after 0 t) from rfl, after0]
  rw [show (dat a V c).leavesExact 1 t = owns (c : Thread nD τ) (st a t 1) fullShare ((dat a V c).after 1 t) from rfl, after1]
  rw [show (dat a V c).Φ t.castSucc = Phi a V c t.val (Nat.le_of_lt t.isLt) from by dsimp only [dat]; simp only [Fin.coe_castSucc]]
  refine (Laws.sep_mono_left (Phi_open a V c t.val _)).trans ?_
  rw [prefHeld_eq]
  iintro ⟨⟨⟨Hg, HT0, HT1⟩, ⟨%p, %hp, HS⟩, HR⟩, Ho, ⟨%d0, H0⟩, ⟨%d1, H1⟩, ⟨%d2, H2⟩⟩
  iapply (sound_kernel c Set.univ _ (a.1 0) (a.1 1) (iblk a V c 0 t) (iblk a V c 1 t) ((dat a V c).before 2 t d2) p _)
  isplitl [HT0]; · iexact HT0
  isplitl [HT1]; · iexact HT1
  isplitl [H0]; · iexact H0
  isplitl [H1]; · iexact H1
  isplitl [H2]; · iexact H2
  isplitl [HS]; · iexact HS
  iintro ⟨HT0, HT1, H0, H1, H2, HS⟩
  rw [accAt_step a V c t p hp]
  isplitl [Hg HT0 HT1 HS HR]
  · isplitl [Hg HT0 HT1]
    · isplitl [Hg]; · iexact Hg
      isplitl [HT0]; · iexact HT0
      iexact HT1
    isplitl [HS]; · iexact HS
    iexact HR
  isplitl [Ho]; · iexact Ho
  isplitl [H0]; · iexact H0
  isplitl [H1]; · iexact H1
  iapply (leaves2 a V c t d2 p hp)
  iexact H2

theorem body_obligation (c : Dev nD) : Pipeline.BodyObligation (dat a V c) (defs₀ (F := F)) Variants.none () Set.univ := fun t => by
  rw [bigSep_W1, bigSep_W1]
  exact sound_body a V c t

theorem hin (c : Dev nD) :
    iprop((∃ r, prngReg c r) ∗ Pipeline.prefHeld pre1 c (fun _ => fullShare) a.1 ∗ Pipeline.scopedRest (cfg a).spec c) ⊢ (dat a V c).Φ 0 := by
  rw [show (dat a V c).Φ 0 = Phi a V c 0 (Nat.zero_le _) from rfl]
  exact Laws.sep_assoc.2

-- The accumulator's contents are forgotten.
theorem hout (c : Dev nD) :
    (dat a V c).Φ (Fin.last (cfg a).N)
      ⊢ iprop(((∃ r, prngReg c r) ∗ Pipeline.prefHeld pre1 c (fun _ => fullShare) a.1) ∗ Pipeline.scopedRest (cfg a).spec c) := by
  rw [show (dat a V c).Φ (Fin.last (cfg a).N) = Phi a V c (cfg a).N le_rfl from rfl, rest_eq]
  refine (Phi_open a V c _ _).trans ?_
  iintro ⟨HP, ⟨%p, -, HS⟩, HR⟩
  iframe HP HR
  iexists p; iexact HS

end Cert.Kernel.R1

end
-- ==== Proof.K.Reg2Defs.lean ====
import proofs.«430818_j23493471109148_2_alg».proof.Proof.Gen.Kernel.Launch
import proofs.«430818_j23493471109148_2_alg».proof.Proof.Gen.Kernel.Skeleton
import Idealize.ShloMosaic.Lib.Pipeline.FrameBody
import Idealize.ShloMosaic.Lib.Pipeline.Regions
import Idealize.ShloMosaic.Lib.Pipeline.Kit

set_option maxRecDepth 16384

noncomputable section

namespace Cert.Kernel.R2

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (a : (pcfgs (F := F) 2).Adm)
variable (V : (c : Dev nD) → (b : Ref sig .tc) → Buf (Elt F) ((c : Thread nD τ).loc b))

abbrev cfg : Cfg sig Λ₀ := (pcfgs (F := F) 2).at a

def iblk (c : Dev nD) (w : Fin (cfg a).W) (t : Fin (cfg a).N) : (((cfg a).win w).xblock ((cfg a).grid.coords t)).Idx → Elt F ((cfg a).win w).elt :=
  (((cfg a).win w).blk t).view.read (Elt F) (V c (Pipeline.arrRef spec2 w))

def inBand (n v4 v6 : BitVec 32) : Prop :=
  Scalar.cmpi .ne (Scalar.extui (Scalar.andi (Scalar.cmpi .sge n v4) (Scalar.cmpi .sle n v6)) : BitVec 32) 0#32 = 1#1

instance (n v4 v6 : BitVec 32) : Decidable (inBand n v4 v6) := by unfold inBand; infer_instance

def lo (i : grid2.Coords) : BitVec 32 :=
  (a.1 0 : S235.Idx → BitVec 32) ((Rect.unit (s := S235) (k2_off1 i) S1.size (k2_off1_inb i)).idx (Shape.Idx.first (s := S1) (numel1_S1.symm ▸ Nat.one_pos)))

def hi (i : grid2.Coords) : BitVec 32 :=
  (a.1 1 : S235.Idx → BitVec 32) ((Rect.unit (s := S235) (k2_off1 i) S1.size (k2_off1_inb i)).idx (Shape.Idx.first (s := S1) (numel1_S1.symm ▸ Nat.one_pos)))

abbrev srcblk (c : Dev nD) (t : Fin (cfg a).N) : Vec F S2048x1 .i32 := iblk a V c 0 t
abbrev valblk (c : Dev nD) (t : Fin (cfg a).N) : Vec F S2048x1 .f32 := iblk a V c 1 t
abbrev embblk (c : Dev nD) (t : Fin (cfg a).N) : Vec F S4096x64 .f32 := iblk a V c 2 t

def accStep (i : grid2.Coords) (l h : BitVec 32) (x4 : Vec F S2048x1 .i32) (x6 : Vec F S4096x64 .f32) (prev : Vec F S2048x64 .f32) :
    Vec F S2048x64 .f32 :=
  if inBand (BitVec.ofNat 32 (i 1).val) l h then k2_pay2 i x4 x6 (if (i 1).val = 0 then k2_pay1 (F := F) else prev)
  else (if (i 1).val = 0 then k2_pay1 (F := F) else prev)

def accAt (c : Dev nD) : (n : ℕ) → n < (cfg a).N → Vec F S2048x64 .f32
  | 0, h => accStep ((cfg a).grid.coords ⟨0, h⟩) (lo a ((cfg a).grid.coords ⟨0, h⟩)) (hi a ((cfg a).grid.coords ⟨0, h⟩))
      (srcblk a V c ⟨0, h⟩) (embblk a V c ⟨0, h⟩) (k2_pay1 (F := F))
  | n + 1, h => accStep ((cfg a).grid.coords ⟨n + 1, h⟩) (lo a ((cfg a).grid.coords ⟨n + 1, h⟩)) (hi a ((cfg a).grid.coords ⟨n + 1, h⟩))
      (srcblk a V c ⟨n + 1, h⟩) (embblk a V c ⟨n + 1, h⟩) (accAt c n (Nat.lt_of_succ_lt h))

def outAt (c : Dev nD) (t : Fin (cfg a).N) : Vec F S2048x64 .f32 :=
  k2_pay3 (accAt a V c t.val t.isLt) (valblk a V c t)

abbrev scM : Memref sig .tc .vmem S2048x64 .f32 := Memref.whole cc2_scratch0

def Phi (c : Dev nD) : (n : ℕ) → n ≤ (cfg a).N → sProp 𝕄
  | 0, _ => iprop(((∃ r, prngReg c r) ∗ Pipeline.prefHeld pre2 c (fun _ => fullShare) a.1) ∗ Pipeline.scopedRest (cfg a).spec c)
  | n + 1, hn => iprop(((∃ r, prngReg c r) ∗ Pipeline.prefHeld pre2 c (fun _ => fullShare) a.1)
      ∗ owns (c : Thread nD τ) scM fullShare (accAt a V c n hn) ∗ Pipeline.scopedRestBut (Ix := Unit) (Name := ℕ) (U := UR sig nD τ) (Lvl := ℕ) (Val := Elt F) spec2 c [cc2_scratch0])

theorem scopedRest_split (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f))
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

def dat (c : Dev nD) : Dat τ (Elt F) Unit ℕ (UR sig nD τ) ℕ (cfg a) c where
  A w := V c (Pipeline.arrRef spec2 w)
  after w t := match w with
    | ⟨0, _⟩ => iblk a V c 0 t
    | ⟨1, _⟩ => iblk a V c 1 t
    | ⟨2, _⟩ => iblk a V c 2 t
    | ⟨3, _⟩ => outAt a V c t
  Φ t := Phi a V c t.val (Nat.le_of_lt_succ t.isLt)
  q _ := fullShare
  owed _ := 0

end Cert.Kernel.R2

end
-- ==== Proof.K.Reg2Frame.lean ====
import proofs.«430818_j23493471109148_2_alg».proof.Proof.K.Reg2Defs
import Idealize.ShloMosaic.Lib.Tactic
import Idealize.ShloMosaic.Lib.Ring
import Idealize.ShloMosaic.Lib.Pipeline.Value

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfgs (F := F) 2).Adm)
variable (V : (c : Dev nD) → (b : Ref sig .tc) → Buf (Elt F) ((c : Thread nD τ).loc b))

def wordAt (i : grid2.Coords) (T : Vec F S235 .i32) : BitVec 32 :=
  (T : S235.Idx → BitVec 32) ((Rect.unit (s := S235) (k2_off1 i) S1.size (k2_off1_inb i)).idx (Shape.Idx.first (s := S1) (numel1_S1.symm ▸ Nat.one_pos)))

theorem hz2 : (![0, 0] : Fin 2 → ℕ) = fun _ => 0 := by funext a; fin_cases a <;> rfl

/-- A store through the whole rectangle made under a condition reads back as its payload where the condition holds, else as what was there. -/
theorem read_dite {sp : Space} (v : View sig .tc sp S2048x64 .f32) (P : Prop) [Decidable P] (f : v.ty.Contents (Elt F)) (w : Vec F S2048x64 .f32) :
    v.read (Elt F) (if _ : P then v.writes (Elt F) f [⟨Rect.unit (s := S2048x64) ![0, 0] S2048x64.size inb_S2048x64_S2048x64_0_0, w⟩] else f)
      = if P then w else v.read (Elt F) f := by
  by_cases h : P
  · rw [dif_pos h, if_pos h, View.read_writes_eq_canon _ _ _ (fun y => ⟨_, List.mem_cons.mpr (Or.inl rfl), View.mem_set_unit_zero hz2 inb_S2048x64_S2048x64_0_0 y⟩),
      View.canon_cons_unit_zero hz2]
  · rw [dif_neg h, if_neg h]

theorem first_iff (j : Fin 10) :
    (Scalar.cmpi .ne (Scalar.extui (Scalar.cmpi .eq (BitVec.ofNat 32 j.val) 0#32) : BitVec 32) 0#32 = 1#1) ↔ j.val = 0 := by
  revert j; decide

section
variable (c : Dev nD) (E : Set ℕ) (i : grid2.Coords)
  (arg2 arg3 : Memref sig .tc .smem S235 .i32) (arg4 : Memref sig .tc .vmem S2048x1 .i32) (arg5 : Memref sig .tc .vmem S2048x1 .f32)
  (arg6 : Memref sig .tc .vmem S4096x64 .f32) (arg7 arg8 : Memref sig .tc .vmem S2048x64 .f32)
  (t2 t3 : Vec F S235 .i32) (x4 : Vec F S2048x1 .i32) (x5 : Vec F S2048x1 .f32) (x6 : Vec F S4096x64 .f32)

/-- The seven memrefs the body touches, each owned whole at named contents. -/
def held (y7 y8 : Vec F S2048x64 .f32) : sProp 𝕄 :=
  iprop(owns (c : Thread nD τ) arg2 fullShare t2 ∗ owns (c : Thread nD τ) arg3 fullShare t3
    ∗ owns (c : Thread nD τ) arg4 fullShare x4 ∗ owns (c : Thread nD τ) arg5 fullShare x5 ∗ owns (c : Thread nD τ) arg6 fullShare x6
    ∗ owns (c : Thread nD τ) arg7 fullShare y7 ∗ owns (c : Thread nD τ) arg8 fullShare y8)

set_option maxHeartbeats 1000000 in
/-- One run of the body at any coordinates: tables and inputs are left as found, the accumulator takes its step, the output is written at the last row tile only. -/
theorem sound_kernel (harg2 : arg2.IsWhole) (harg3 : arg3.IsWhole) (harg4 : arg4.IsWhole) (harg5 : arg5.IsWhole) (harg6 : arg6.IsWhole)
    (harg7 : arg7.IsWhole) (harg8 : arg8.IsWhole) (x7 acc y7 y8 : Vec F S2048x64 .f32)
    (h8 : y8 = accStep i (wordAt i t2) (wordAt i t3) x4 x6 acc) (h7 : y7 = if k2_cond3 i = 1#1 then k2_pay3 y8 x5 else x7) (K : PUnit → sProp 𝕄) :
    iprop(held c arg2 arg3 arg4 arg5 arg6 arg7 arg8 t2 t3 x4 x5 x6 x7 acc
        ∗ (held c arg2 arg3 arg4 arg5 arg6 arg7 arg8 t2 t3 x4 x5 x6 y7 y8 -∗ K ⟨⟩))
      ⊢ wp frame (wpE (defs₀ (F := F)) Variants.none c none) E (cc2_kernel i arg2 harg2 arg3 harg3 arg4 harg4 arg5 harg5 arg6 harg6 arg7 harg7 arg8 harg8) K := by
  subst h7 h8
  simp only [cc2_kernel_eq_skeleton]; unfold cc2_kernel_skel held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  subst hf2 hf3 hf4 hf5 hf6 hf7 hf8
  sl_exec
  sl_step
  iapply Hk
  isplitl [H2]; swap; isplitl [H3]; swap; isplitl [H4]; swap; isplitl [H5]; swap; isplitl [H6]; swap; isplitl [H7]; swap
  all_goals iexists _; isplitr; swap; iassumption; ipureintro
  rotate_left 2; iterate 5 rfl
  all_goals unfold accStep; sl_unfold_run_names; rw [read_dite]
  all_goals simp only [View.readAt_eq_ld, View.ld_unit_zero (S := S2048x1) hz2, View.ld_unit_zero (S := S4096x64) hz2, View.ld_unit_zero (S := S2048x64) hz2]
  all_goals repeat rw [read_dite]
  all_goals simp only [first_iff (i 1)]
  all_goals rfl
end

abbrev bodyAt (t : Fin (cfg a).N) : Prog (TpuEff nD τ sig (Elt F) Λ₀ .tc) PUnit :=
  cc2_kernel (grid2.coords t) (Memref.whole main_v91) (Memref.isWhole_whole _) (Memref.whole main_v93) (Memref.isWhole_whole _)
    (spec2_0.stage ((cfg a).slots t 0)) (hstage2_0 (((cfg a).slots t 0).cast nbuf2_0))
    (spec2_1.stage ((cfg a).slots t 1)) (hstage2_1 (((cfg a).slots t 1).cast nbuf2_1))
    (spec2_2.stage ((cfg a).slots t 2)) (hstage2_2 (((cfg a).slots t 2).cast nbuf2_2))
    (spec2_3.stage ((cfg a).slots t 3)) (hstage2_3 (((cfg a).slots t 3).cast nbuf2_3))
    (Memref.whole cc2_scratch0) (Memref.isWhole_whole _)

abbrev stepAt (c : Dev nD) (t : Fin (cfg a).N) (prev : Vec F S2048x64 .f32) : Vec F S2048x64 .f32 :=
  accStep ((cfg a).grid.coords t) (lo a ((cfg a).grid.coords t)) (hi a ((cfg a).grid.coords t)) (srcblk a V c t) (embblk a V c t) prev

theorem prefHeld_eq (c : Dev nD) :
    (Pipeline.prefHeld (Ix := Unit) (Name := ℕ) (U := UR sig nD τ) (Lvl := ℕ) pre2 c (fun _ => fullShare) a.1 : sProp 𝕄)
      = iprop(owns (c : Thread nD τ) (Memref.whole main_v91) fullShare (a.1 0) ∗ owns (c : Thread nD τ) (Memref.whole main_v93) fullShare (a.1 1)) := by
  unfold Pipeline.prefHeld
  rw [BI.bigSep_fin_two]
  exact congrArg₂ BI.sep (owns_whole (c : Thread nD τ) main_v91 fullShare (a.1 0)).symm (owns_whole (c : Thread nD τ) main_v93 fullShare (a.1 1)).symm

variable (c : Dev nD) (t : Fin (cfg a).N)

theorem A_eq (w : Fin (cfg a).W) : (dat a V c).A w = V c (Pipeline.arrRef spec2 w) := by
  dsimp only [dat]

theorem after0 : (dat a V c).after 0 t = iblk a V c 0 t := by dsimp only [dat]; rfl
theorem after1 : (dat a V c).after 1 t = iblk a V c 1 t := by dsimp only [dat]; rfl
theorem after2 : (dat a V c).after 2 t = iblk a V c 2 t := by dsimp only [dat]; rfl

theorem before0 (d) : (dat a V c).before 0 t d = iblk a V c 0 t :=
  ((dat a V c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (d) : (dat a V c).before 1 t d = iblk a V c 1 t :=
  ((dat a V c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (d) : (dat a V c).before 2 t d = iblk a V c 2 t :=
  ((dat a V c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

theorem leaves0 : (dat a V c).leavesExact 0 t = owns (c : Thread nD τ) (((cfg a).win 0).stage ((cfg a).slots t 0)) fullShare (iblk a V c 0 t) := by
  rw [← after0]; rfl
theorem leaves1 : (dat a V c).leavesExact 1 t = owns (c : Thread nD τ) (((cfg a).win 1).stage ((cfg a).slots t 1)) fullShare (iblk a V c 1 t) := by
  rw [← after1]; rfl
theorem leaves2 : (dat a V c).leavesExact 2 t = owns (c : Thread nD τ) (((cfg a).win 2).stage ((cfg a).slots t 2)) fullShare (iblk a V c 2 t) := by
  rw [← after2]; rfl

def flushF (t : Fin grid2.N) : Bool :=
  true && (decide (t.val + 1 = grid2.N) || decide (∃ h : t.val + 1 < grid2.N, cc2_transform_3 (grid2.coords ⟨t.val + 1, h⟩) ≠ cc2_transform_3 (grid2.coords t)))

theorem noFlushF : ∀ t : Fin grid2.N, ¬ (k2_cond3 (grid2.coords t) = 1#1) → flushF t = false := by decide +kernel

/-- The output window's post from its contents: the stored block at the last row tile, what was found elsewhere. -/
theorem leaves3_of (d) (X : Vec F S2048x64 .f32)
    (h1 : k2_cond3 ((cfg a).grid.coords t) = 1#1 → X = outAt a V c t) (h2 : ¬ k2_cond3 ((cfg a).grid.coords t) = 1#1 → X = (dat a V c).before 3 t d) :
    owns (c : Thread nD τ) (((cfg a).win 3).stage ((cfg a).slots t 3)) fullShare X ⊢ (dat a V c).leavesExact 3 t := by
  by_cases hc3 : k2_cond3 ((cfg a).grid.coords t) = 1#1
  · obtain rfl := h1 hc3
    have hi : (cfg a).idle 3 ((cfg a).grid.coords t) = false := by
      show (!(k2_cond3 ((cfg a).grid.coords t) == 1#1)) = false
      rw [hc3]; rfl
    unfold Dat.leavesExact; rw [hi]; dsimp only [dat]; exact .rfl
  · obtain rfl := h2 hc3
    have hi : (cfg a).idle 3 ((cfg a).grid.coords t) = true := by
      show (!(k2_cond3 ((cfg a).grid.coords t) == 1#1)) = true
      rw [Bool.not_eq_true', beq_eq_false_iff_ne]; exact hc3
    rw [Dat.leavesExact_idle (dat a V c) 3 t hi (noFlushF t hc3)]
    iintro H; iexists d; iexact H

/-- At every position the invariant yields accumulator contents from which the point's step gives accAt: anything at position 0 (the step clears it), accAt of the point before afterwards. -/
theorem Phi_open : ∀ n h, Phi a V c n h ⊢ iprop(∃ p, ⌜∀ h', accAt a V c n h' = stepAt a V c ⟨n, h'⟩ p⌝
      ∗ ((∃ r, prngReg c r) ∗ Pipeline.prefHeld pre2 c (fun _ => fullShare) a.1) ∗ owns (c : Thread nD τ) scM fullShare p
      ∗ Pipeline.scopedRestBut (Ix := Unit) (Name := ℕ) (U := UR sig nD τ) (Lvl := ℕ) (Val := Elt F) spec2 c [cc2_scratch0])
  | 0, _ => by
    rw [Phi, show Pipeline.scopedRest (cfg a).spec c = _ from scopedRest_split c]
    iintro ⟨Hgp, ⟨%f, Hs⟩, Hrb⟩
    iexists f; rw [owns_whole]; iframe
    ipureintro; intro h'
    have h0 : ((cfg a).grid.coords ⟨0, h'⟩ 1).val = 0 := by
      show 0 / grid2.stride 1 % grid2.bound 1 = 0
      rw [Nat.zero_div, Nat.zero_mod]
    show accStep _ _ _ _ _ _ = accStep _ _ _ _ _ _
    unfold accStep; rw [if_pos h0, if_pos h0]
  | n + 1, h => by
    rw [Phi]; iintro H; iexists accAt a V c n h; isplitr; · ipureintro; exact fun _ => rfl
    iexact H

/-- What the body is handed for window w. -/
def stg (w : Fin (cfg a).W) : sProp 𝕄 :=
  iprop(∃ d, owns (c : Thread nD τ) (((cfg a).win w).stage ((cfg a).slots t w)) fullShare ((dat a V c).before w t d))

set_option maxHeartbeats 1400000 in
/-- The body obligation at point t, the four windows written out. -/
theorem sound_body :
    iprop((dat a V c).Φ t.castSucc ∗ (dat a V c).owesAt () t.castSucc ∗ stg a V c t 0 ∗ stg a V c t 1 ∗ stg a V c t 2 ∗ stg a V c t 3)
      ⊢ wp frame (wpE (defs₀ (F := F)) Variants.none c none) Set.univ (bodyAt a t) fun _ =>
        iprop((dat a V c).Φ t.succ ∗ (dat a V c).owesAt () t.succ ∗ (dat a V c).leavesExact 0 t ∗ (dat a V c).leavesExact 1 t
          ∗ (dat a V c).leavesExact 2 t ∗ (dat a V c).leavesExact 3 t) := by
  unfold stg
  simp only [before0, before1, before2]
  rw [show (dat a V c).owesAt () t.succ = (dat a V c).owesAt () t.castSucc from rfl,
    show (dat a V c).Φ t.succ = Phi a V c (t.val + 1) t.isLt from rfl, Phi, leaves0, leaves1, leaves2]
  refine (sep_mono_left (Phi_open a V c t.val _)).trans ?_
  rw [prefHeld_eq]
  iintro ⟨⟨%p, %hp, ⟨Hg, Ht2, Ht3⟩, Hs, Hrb⟩, Ho, ⟨%_, H0⟩, ⟨%_, H1⟩, ⟨%_, H2⟩, ⟨%d, H3⟩⟩
  iapply sound_kernel (i := grid2.coords t) (t2 := a.1 0) (t3 := a.1 1) (x5 := iblk a V c 1 t) (x7 := (dat a V c).before 3 t d) (acc := p)
    (y7 := if k2_cond3 ((cfg a).grid.coords t) = 1#1 then outAt a V c t else (dat a V c).before 3 t d) (h8 := hp t.isLt) (h7 := rfl)
  unfold held
  iframe Ht2 Ht3 Hs
  isplitl [H0 H1 H2 H3]
  · isplitl [H0]; · iexact H0
    isplitl [H1]; · iexact H1
    isplitl [H2]; · iexact H2
    iexact H3
  iintro ⟨Ht2, Ht3, H0, H1, H2, H3, Hs⟩
  iframe Hg Ht2 Ht3 Hs Hrb Ho
  isplitl [H0]; · iexact H0
  isplitl [H1]; · iexact H1
  isplitl [H2]; · iexact H2
  iapply leaves3_of a V c t d _ (fun h => if_pos h) (fun h => if_neg h)
  iexact H3

theorem body_obligation : Pipeline.BodyObligation (dat a V c) (defs₀ (F := F)) Variants.none () Set.univ := fun t => by
  rw [bigSep_W2, bigSep_W2]
  exact sound_body a V c t

theorem hin : iprop((∃ r, prngReg c r) ∗ Pipeline.prefHeld pre2 c (fun _ => fullShare) a.1 ∗ Pipeline.scopedRest (cfg a).spec c) ⊢ (dat a V c).Φ 0 :=
  sep_assoc.2

theorem hout : (dat a V c).Φ (Fin.last (cfg a).N) ⊢ iprop(((∃ r, prngReg c r) ∗ Pipeline.prefHeld pre2 c (fun _ => fullShare) a.1) ∗ Pipeline.scopedRest (cfg a).spec c) := by
  refine (Phi_open a V c (cfg a).N le_rfl).trans ?_
  rw [show Pipeline.scopedRest (cfg a).spec c = _ from scopedRest_split c]
  iintro ⟨%p, -, Hgp, Hs, Hrb⟩
  iframe Hgp Hrb
  iexists p; rw [← owns_whole]; iexact Hs

end Cert.Kernel.R2

end
-- ==== Proof.K.Reg3Defs.lean ====
import proofs.«430818_j23493471109148_2_alg».proof.Proof.Gen.Kernel.Launch
import proofs.«430818_j23493471109148_2_alg».proof.Proof.Gen.Kernel.Skeleton
import Idealize.ShloMosaic.Lib.Pipeline.FrameBody
import Idealize.ShloMosaic.Lib.Pipeline.Regions
import Idealize.ShloMosaic.Lib.Pipeline.Kit

set_option maxRecDepth 16384

noncomputable section

namespace Cert.Kernel.R3

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfgs (F := F) 3).Adm)
variable (V : (c : Dev nD) → (b : Ref sig .tc) → Buf (Elt F) ((c : Thread nD τ).loc b))

abbrev cfg : Cfg sig Λ₀ := (pcfgs (F := F) 3).at a

def iblk (c : Dev nD) (w : Fin (cfg a).W) (t : Fin (cfg a).N) : (((cfg a).win w).xblock ((cfg a).grid.coords t)).Idx → Elt F ((cfg a).win w).elt :=
  (((cfg a).win w).blk t).view.read (Elt F) (V c (Pipeline.arrRef spec3 w))

def inBand (n v4 v6 : BitVec 32) : Prop :=
  Scalar.cmpi .ne (Scalar.extui (Scalar.andi (Scalar.cmpi .sge n v4) (Scalar.cmpi .sle n v6)) : BitVec 32) 0#32 = 1#1

instance (n v4 v6 : BitVec 32) : Decidable (inBand n v4 v6) := by unfold inBand; infer_instance

def lo (i : grid3.Coords) : BitVec 32 :=
  (a.1 0 : S235.Idx → BitVec 32) ((Rect.unit (s := S235) (k3_off1 i) S1.size (k3_off1_inb i)).idx (Shape.Idx.first (s := S1) (numel1_S1.symm ▸ Nat.one_pos)))

def hi (i : grid3.Coords) : BitVec 32 :=
  (a.1 1 : S235.Idx → BitVec 32) ((Rect.unit (s := S235) (k3_off1 i) S1.size (k3_off1_inb i)).idx (Shape.Idx.first (s := S1) (numel1_S1.symm ▸ Nat.one_pos)))

abbrev dstblk (c : Dev nD) (t : Fin (cfg a).N) : Vec F S1x2048 .i32 := iblk a V c 0 t
abbrev sclblk (c : Dev nD) (t : Fin (cfg a).N) : Vec F S2048x64 .f32 := iblk a V c 1 t

def accStep (i : grid3.Coords) (l h : BitVec 32) (x4 : Vec F S1x2048 .i32) (x5 : Vec F S2048x64 .f32) (prev : Vec F S4096x64 .f32) :
    Vec F S4096x64 .f32 :=
  if inBand (BitVec.ofNat 32 (i 0).val) l h then k3_pay2 i x4 x5 (if (i 1).val = 0 then k3_pay1 (F := F) else prev)
  else (if (i 1).val = 0 then k3_pay1 (F := F) else prev)

def accAt (c : Dev nD) : (n : ℕ) → n < (cfg a).N → Vec F S4096x64 .f32
  | 0, h => accStep ((cfg a).grid.coords ⟨0, h⟩) (lo a ((cfg a).grid.coords ⟨0, h⟩)) (hi a ((cfg a).grid.coords ⟨0, h⟩))
      (dstblk a V c ⟨0, h⟩) (sclblk a V c ⟨0, h⟩) (k3_pay1 (F := F))
  | n + 1, h => accStep ((cfg a).grid.coords ⟨n + 1, h⟩) (lo a ((cfg a).grid.coords ⟨n + 1, h⟩)) (hi a ((cfg a).grid.coords ⟨n + 1, h⟩))
      (dstblk a V c ⟨n + 1, h⟩) (sclblk a V c ⟨n + 1, h⟩) (accAt c n (Nat.lt_of_succ_lt h))

def outAt (c : Dev nD) (t : Fin (cfg a).N) : Vec F S4096x64 .f32 :=
  accAt a V c t.val t.isLt

abbrev scM : Memref sig .tc .vmem S4096x64 .f32 := Memref.whole cc3_scratch0

def Phi (c : Dev nD) : (n : ℕ) → n ≤ (cfg a).N → sProp 𝕄
  | 0, _ => iprop(((∃ r, prngReg c r) ∗ Pipeline.prefHeld pre3 c (fun _ => fullShare) a.1) ∗ Pipeline.scopedRest (cfg a).spec c)
  | n + 1, hn => iprop(((∃ r, prngReg c r) ∗ Pipeline.prefHeld pre3 c (fun _ => fullShare) a.1)
      ∗ owns (c : Thread nD τ) scM fullShare (accAt a V c n hn) ∗ Pipeline.scopedRestBut (Ix := Unit) (Name := ℕ) (U := UR sig nD τ) (Lvl := ℕ) (Val := Elt F) spec3 c [cc3_scratch0])

theorem scopedRest_split (c : Dev nD) :
    (Pipeline.scopedRest (Ix := Unit) (Name := ℕ) (U := UR sig nD τ) (Lvl := ℕ) (Val := Elt F) spec3 c : sProp 𝕄)
      = iprop(iprop((∃ f : Buf (Elt F) ((c : Thread nD τ).loc cc3_scratch0), ((c : Thread nD τ).loc cc3_scratch0) ↦{fullShare} f))
          ∗ Pipeline.scopedRestBut (Ix := Unit) (Name := ℕ) (U := UR sig nD τ) (Lvl := ℕ) (Val := Elt F) spec3 c [cc3_scratch0]) :=
  Pipeline.scopedRest_split_of_list spec3 c [cc3_scratch0] (by decide) (by decide)

def dat (c : Dev nD) : Dat τ (Elt F) Unit ℕ (UR sig nD τ) ℕ (cfg a) c where
  A w := V c (Pipeline.arrRef spec3 w)
  after w t := match w with
    | ⟨0, _⟩ => iblk a V c 0 t
    | ⟨1, _⟩ => iblk a V c 1 t
    | ⟨2, _⟩ => outAt a V c t
  Φ t := Phi a V c t.val (Nat.le_of_lt_succ t.isLt)
  q _ := fullShare
  owed _ := 0

end Cert.Kernel.R3

end
-- ==== Proof.K.Reg3Frame.lean ====
import proofs.«430818_j23493471109148_2_alg».proof.Proof.K.Reg3Defs
import Idealize.ShloMosaic.Lib.Pipeline.Value
import Idealize.ShloMosaic.Lib.Pipeline.TableIdle
import Idealize.ShloMosaic.Lib.Ring
import Idealize.ShloMosaic.Lib.Tactic

set_option maxRecDepth 16384

noncomputable section

namespace Cert.Kernel.R3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev RA : Rect S4096x64 := Rect.unit (s := S4096x64) ![0, 0] S4096x64.size inb_S4096x64_S4096x64_0_0

theorem off0 : (![0, 0] : Fin 2 → Nat) = fun _ => 0 := by
  funext x; fin_cases x <;> rfl

theorem read_if_store {P : Prop} [Decidable P] {κ : Kind} {sp : Space} (v : View sig κ sp S4096x64 .f32) (f : v.ty.Contents (Elt F))
    (w : Vec F S4096x64 .f32) :
    v.read (Elt F) (if _ : P then v.writes (Elt F) f [⟨RA, w⟩] else f) = if P then w else v.read (Elt F) f := by
  split
  · rw [View.read_writes_eq_canon _ _ _ (View.cover_of_tiled [⟨RA, w⟩] S4096x64.size (by rfl)), View.canon_unit_zero off0]
  · rfl

theorem readAt_unit {κ : Kind} {sp : Space} {S : Shape} {e : EltTy} (v : View sig κ sp S e) {off : Fin S.rank → Nat} (h : off = fun _ => 0)
    {inb : ∀ a, off a + S.size a ≤ S.size a} (f : v.ty.Contents (Elt F)) :
    v.readAt (Elt F) (Rect.unit off S.size inb).toLoadRect f = v.read (Elt F) f := by
  rw [View.readAt_eq_ld, View.ld_unit_zero h]

def wordAt (i : grid3.Coords) (tb : Vec F S235 .i32) : BitVec 32 :=
  tb ((Rect.unit (s := S235) (k3_off1 i) S1.size (k3_off1_inb i)).idx (Shape.Idx.first (s := S1) (numel1_S1.symm ▸ Nat.one_pos)))

theorem cond1_iff_aux : ∀ j : Fin 235,
    (Scalar.cmpi .ne (Scalar.extui (Scalar.cmpi .eq (BitVec.ofNat 32 j.val) 0#32) : BitVec 32) 0#32 = 1#1) ↔ j.val = 0 := by
  decide +kernel

-- accStep with its two tests under any decision procedure.
theorem accStep_eq {P Q : Prop} [Decidable P] [Decidable Q] (i : grid3.Coords) (l h : BitVec 32)
    (hP : P ↔ inBand (BitVec.ofNat 32 (i 0).val) l h) (hQ : Q ↔ (i 1).val = 0)
    (x4 : Vec F S1x2048 .i32) (x5 : Vec F S2048x64 .f32) (prev : Vec F S4096x64 .f32) :
    (if P then k3_pay2 i x4 x5 (if Q then k3_pay1 (F := F) else prev) else if Q then k3_pay1 (F := F) else prev)
      = accStep i l h x4 x5 prev := by
  unfold accStep; simp only [hP, hQ]

set_option maxHeartbeats 2000000 in
-- No guard is decided beforehand, so one statement serves every point of a row.
theorem sound_kernel (c : Dev nD) (E : Set ℕ) (i : grid3.Coords)
    {arg2 : Memref sig .tc .smem S235 .i32} {harg2 : arg2.IsWhole} {arg3 : Memref sig .tc .smem S235 .i32} {harg3 : arg3.IsWhole}
    {arg4 : Memref sig .tc .vmem S1x2048 .i32} {harg4 : arg4.IsWhole} {arg5 : Memref sig .tc .vmem S2048x64 .f32} {harg5 : arg5.IsWhole}
    {arg6 : Memref sig .tc .vmem S4096x64 .f32} {harg6 : arg6.IsWhole} {arg7 : Memref sig .tc .vmem S4096x64 .f32} {harg7 : arg7.IsWhole}
    (t2 t3 : Vec F S235 .i32) (x4 : Vec F S1x2048 .i32) (x5 : Vec F S2048x64 .f32) (d6 p7 : Vec F S4096x64 .f32)
    (K : PUnit → sProp 𝕄) :
    iprop(owns (c : Thread nD τ) arg2 fullShare t2 ∗ owns (c : Thread nD τ) arg3 fullShare t3
        ∗ owns (c : Thread nD τ) arg4 fullShare x4 ∗ owns (c : Thread nD τ) arg5 fullShare x5
        ∗ owns (c : Thread nD τ) arg6 fullShare d6 ∗ owns (c : Thread nD τ) arg7 fullShare p7
        ∗ (iprop(owns (c : Thread nD τ) arg2 fullShare t2 ∗ owns (c : Thread nD τ) arg3 fullShare t3
            ∗ owns (c : Thread nD τ) arg4 fullShare x4 ∗ owns (c : Thread nD τ) arg5 fullShare x5
            ∗ owns (c : Thread nD τ) arg6 fullShare (if k3_cond3 i = 1#1 then accStep i (wordAt i t2) (wordAt i t3) x4 x5 p7 else d6)
            ∗ owns (c : Thread nD τ) arg7 fullShare (accStep i (wordAt i t2) (wordAt i t3) x4 x5 p7)) -∗ K ⟨⟩))
      ⊢ wp frame (wpE (defs₀ (F := F)) Variants.none c none) E (cc3_kernel i arg2 harg2 arg3 harg3 arg4 harg4 arg5 harg5 arg6 harg6 arg7 harg7) K := by
  simp only [cc3_kernel_eq_skeleton]; unfold cc3_kernel_skel
  rw [owns_eq_rep (c : Thread nD τ) arg2, owns_eq_rep (c : Thread nD τ) arg3, owns_eq_rep (c : Thread nD τ) arg4,
    owns_eq_rep (c : Thread nD τ) arg5, owns_eq_rep (c : Thread nD τ) arg6 _ d6, owns_eq_rep (c : Thread nD τ) arg7 _ p7]
  unfold owns
  iintro ⟨H2, H3, H4, H5, H6, H7, Hk⟩
  sl_exec
  sl_step
  sl_unfold_run_names
  iapply Hk
  iframe H2 H3 H4 H5
  isplitl [H6] <;>
    (iexists _; isplitr; swap; iassumption; ipureintro
     try rw [read_if_store arg6.view, readAt_unit arg7.view off0]
     rw [read_if_store, readAt_unit arg7.view off0, read_if_store, readAt_unit arg4.view off0, readAt_unit arg5.view off0,
       View.readAt_eq_ld arg2.view, View.readAt_eq_ld arg3.view]
     simp only [View.read_rep])
  · congr 1
    refine accStep_eq i _ _ ?_ (cond1_iff_aux (i 1)) x4 x5 p7; exact Iff.rfl
  · refine accStep_eq i _ _ ?_ (cond1_iff_aux (i 1)) x4 x5 p7; exact Iff.rfl

variable (a : (pcfgs (F := F) 3).Adm)

theorem flush2_aux : ∀ t : Fin grid3.N,
    (t.val + 1 = grid3.N || decide (∃ h : t.val + 1 < grid3.N, cc3_transform_2 (grid3.coords ⟨t.val + 1, h⟩) ≠ cc3_transform_2 (grid3.coords t))) = true
      ↔ k3_cond3 (grid3.coords t) = 1#1 := by
  decide +kernel

theorem coords_zero (t : Fin (cfg a).N) (hz : t.val = 0) : (((cfg a).grid.coords t) 1).val = 0 := by
  show t.val / _ % _ = 0
  rw [hz, Nat.zero_div, Nat.zero_mod]

variable (V : (c : Dev nD) → (b : Ref sig .tc) → Buf (Elt F) ((c : Thread nD τ).loc b))

theorem A_eq (c : Dev nD) (w : Fin (cfg a).W) : (dat a V c).A w = V c (Pipeline.arrRef spec3 w) := by
  dsimp only [dat]

theorem after0 (c : Dev nD) (t : Fin (cfg a).N) : (dat a V c).after 0 t = iblk a V c 0 t := by dsimp only [dat]; rfl
theorem after1 (c : Dev nD) (t : Fin (cfg a).N) : (dat a V c).after 1 t = iblk a V c 1 t := by dsimp only [dat]; rfl

theorem before0 (c : Dev nD) (t : Fin (cfg a).N) (d) : (dat a V c).before 0 t d = iblk a V c 0 t :=
  ((dat a V c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin (cfg a).N) (d) : (dat a V c).before 1 t d = iblk a V c 1 t :=
  ((dat a V c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)

abbrev restBut (c : Dev nD) : sProp 𝕄 :=
  Pipeline.scopedRestBut (Ix := Unit) (Name := ℕ) (U := UR sig nD τ) (Lvl := ℕ) (Val := Elt F) spec3 c [cc3_scratch0]

theorem prefHeld_eq (c : Dev nD) :
    (Pipeline.prefHeld pre3 c (fun _ => fullShare) a.1 : sProp 𝕄)
      = iprop(owns (c : Thread nD τ) (pre3.buf 0) fullShare (a.1 0) ∗ owns (c : Thread nD τ) (pre3.buf 1) fullShare (a.1 1)) := by
  unfold Pipeline.prefHeld
  rw [bigSep_univ_eq_bigSepL [(0 : Fin 2), (1 : Fin 2)] (by decide) (by decide)]
  simp only [owns_whole]
  rfl

theorem rest_eq (c : Dev nD) :
    (Pipeline.scopedRest (cfg a).spec c : sProp 𝕄) = iprop((∃ d, owns (c : Thread nD τ) scM fullShare d) ∗ restBut (F := F) c) :=
  (scopedRest_split (F := F) c).trans (by simp only [owns_whole]; rfl)

-- At the first point the step clears the carried block, so its contents do not matter.
theorem accAt_step (c : Dev nD) (t : Fin (cfg a).N) (p : Vec F S4096x64 .f32) (hp : ∀ hz : t.val ≠ 0, p = accAt a V c (t.val - 1) (by omega)) :
    accAt a V c t.val t.isLt = accStep ((cfg a).grid.coords t) (wordAt ((cfg a).grid.coords t) (a.1 0)) (wordAt ((cfg a).grid.coords t) (a.1 1))
      (iblk a V c 0 t) (iblk a V c 1 t) p := by
  obtain ⟨n, hn⟩ := t
  cases n with
  | zero => show accStep _ _ _ _ _ (k3_pay1 (F := F)) = _; unfold accStep; simp only [coords_zero a ⟨0, hn⟩ rfl, if_true]; rfl
  | succ n => rw [hp (Nat.succ_ne_zero n)]; rfl

-- Both cases of the invariant in one shape: the carried block at some contents, known past the first point.
theorem Phi_open (c : Dev nD) : (n : ℕ) → (h : n ≤ (cfg a).N) →
    Phi a V c n h ⊢ iprop(((∃ r, prngReg c r) ∗ Pipeline.prefHeld pre3 c (fun _ => fullShare) a.1)
      ∗ (∃ p, ⌜∀ hz : n ≠ 0, p = accAt a V c (n - 1) (by omega)⌝ ∗ owns (c : Thread nD τ) scM fullShare p) ∗ restBut (F := F) c)
  | 0, _ => by
    simp only [Phi, rest_eq]
    iintro ⟨HP, ⟨%d, HS⟩, HR⟩
    iframe HP HR
    iexists d; isplitr; · ipureintro; exact fun hz => absurd rfl hz
    iexact HS
  | n + 1, _ => by
    simp only [Phi]
    iintro ⟨HP, HS, HR⟩
    iframe HP HR
    iexists _; isplitr; swap; iexact HS
    ipureintro; exact fun _ => rfl

abbrev st (t : Fin (cfg a).N) (w : Fin (cfg a).W) := ((cfg a).win w).stage ((cfg a).slots t w)

theorem leaves2 (c : Dev nD) (t : Fin (cfg a).N) (d) (p : Vec F S4096x64 .f32) (hp : ∀ hz : t.val ≠ 0, p = accAt a V c (t.val - 1) (by omega)) :
    owns (c : Thread nD τ) (st a t 2) fullShare
        (if k3_cond3 ((cfg a).grid.coords t) = 1#1 then accStep ((cfg a).grid.coords t) (wordAt ((cfg a).grid.coords t) (a.1 0))
          (wordAt ((cfg a).grid.coords t) (a.1 1)) (iblk a V c 0 t) (iblk a V c 1 t) p else (dat a V c).before 2 t d)
      ⊢ (dat a V c).leavesExact 2 t := by
  have hi : (cfg a).idle 2 ((cfg a).grid.coords t) = !(k3_cond3 ((cfg a).grid.coords t) == 1#1) := rfl
  by_cases h3 : k3_cond3 ((cfg a).grid.coords t) = 1#1
  · refine (Entails.of_eq (congrArg (owns (c : Thread nD τ) (st a t 2) fullShare) ((if_pos h3).trans (accAt_step a V c t p hp).symm))).trans ?_
    unfold Dat.leavesExact; rw [show (cfg a).idle 2 ((cfg a).grid.coords t) = false from by rw [hi, h3]; rfl]
    exact .rfl
  · refine (Entails.of_eq (congrArg (owns (c : Thread nD τ) (st a t 2) fullShare) (if_neg h3))).trans ?_
    rw [Dat.leavesExact_idle _ 2 t (by rw [hi, Bool.not_eq_true', beq_eq_false_iff_ne]; exact h3)
      (by rw [← Bool.not_eq_true]; exact fun hf => h3 ((flush2_aux t).mp hf))]
    iintro H; iexists d; iexact H

abbrev bodyAt (t : Fin (cfg a).N) : Prog (TpuEff nD τ sig (Elt F) Λ₀ .tc) PUnit :=
  cc3_kernel ((cfg a).grid.coords t) (pre3.buf 0) (Memref.isWhole_whole _) (pre3.buf 1) (Memref.isWhole_whole _)
    (spec3_0.stage ((cfg a).slots t 0)) (hstage3_0 (((cfg a).slots t 0).cast nbuf3_0))
    (spec3_1.stage ((cfg a).slots t 1)) (hstage3_1 (((cfg a).slots t 1).cast nbuf3_1))
    (spec3_2.stage ((cfg a).slots t 2)) (hstage3_2 (((cfg a).slots t 2).cast nbuf3_2))
    scM (Memref.isWhole_whole _)

set_option maxHeartbeats 4000000 in
theorem sound_body (c : Dev nD) (t : Fin (cfg a).N) :
    iprop((dat a V c).Φ t.castSucc ∗ (dat a V c).owesAt () t.castSucc
      ∗ (∃ d, owns (c : Thread nD τ) (st a t 0) fullShare ((dat a V c).before 0 t d))
      ∗ (∃ d, owns (c : Thread nD τ) (st a t 1) fullShare ((dat a V c).before 1 t d))
      ∗ (∃ d, owns (c : Thread nD τ) (st a t 2) fullShare ((dat a V c).before 2 t d)))
    ⊢ wp frame (wpE (defs₀ (F := F)) Variants.none c none) Set.univ (bodyAt a t) (fun _ =>
      iprop((dat a V c).Φ t.succ ∗ (dat a V c).owesAt () t.succ
        ∗ (dat a V c).leavesExact 0 t ∗ (dat a V c).leavesExact 1 t ∗ (dat a V c).leavesExact 2 t)) := by
  simp only [before0, before1]
  rw [show (dat a V c).owesAt () t.succ = (dat a V c).owesAt () t.castSucc from rfl]
  rw [show (dat a V c).Φ t.succ = Phi a V c (t.val + 1) t.isLt from rfl,
    show Phi a V c (t.val + 1) t.isLt = iprop(((∃ r, prngReg c r) ∗ Pipeline.prefHeld pre3 c (fun _ => fullShare) a.1)
      ∗ owns (c : Thread nD τ) scM fullShare (accAt a V c t.val t.isLt) ∗ restBut (F := F) c) from rfl]
  rw [show (dat a V c).leavesExact 0 t = owns (c : Thread nD τ) (st a t 0) fullShare ((dat a V c).after 0 t) from rfl, after0]
  rw [show (dat a V c).leavesExact 1 t = owns (c : Thread nD τ) (st a t 1) fullShare ((dat a V c).after 1 t) from rfl, after1]
  rw [show (dat a V c).Φ t.castSucc = Phi a V c t.val (Nat.le_of_lt t.isLt) from by dsimp only [dat]; simp only [Fin.coe_castSucc]]
  refine (Laws.sep_mono_left (Phi_open a V c t.val _)).trans ?_
  rw [prefHeld_eq]
  iintro ⟨⟨⟨Hg, HT0, HT1⟩, ⟨%p, %hp, HS⟩, HR⟩, Ho, ⟨%d0, H0⟩, ⟨%d1, H1⟩, ⟨%d2, H2⟩⟩
  iapply (sound_kernel c Set.univ _ (a.1 0) (a.1 1) (iblk a V c 0 t) (iblk a V c 1 t) ((dat a V c).before 2 t d2) p _)
  isplitl [HT0]; · iexact HT0
  isplitl [HT1]; · iexact HT1
  isplitl [H0]; · iexact H0
  isplitl [H1]; · iexact H1
  isplitl [H2]; · iexact H2
  isplitl [HS]; · iexact HS
  iintro ⟨HT0, HT1, H0, H1, H2, HS⟩
  rw [accAt_step a V c t p hp]
  isplitl [Hg HT0 HT1 HS HR]
  · isplitl [Hg HT0 HT1]
    · isplitl [Hg]; · iexact Hg
      isplitl [HT0]; · iexact HT0
      iexact HT1
    isplitl [HS]; · iexact HS
    iexact HR
  isplitl [Ho]; · iexact Ho
  isplitl [H0]; · iexact H0
  isplitl [H1]; · iexact H1
  iapply (leaves2 a V c t d2 p hp)
  iexact H2

theorem body_obligation (c : Dev nD) : Pipeline.BodyObligation (dat a V c) (defs₀ (F := F)) Variants.none () Set.univ := fun t => by
  rw [bigSep_W3, bigSep_W3]
  exact sound_body a V c t

theorem hin (c : Dev nD) :
    iprop((∃ r, prngReg c r) ∗ Pipeline.prefHeld pre3 c (fun _ => fullShare) a.1 ∗ Pipeline.scopedRest (cfg a).spec c) ⊢ (dat a V c).Φ 0 := by
  rw [show (dat a V c).Φ 0 = Phi a V c 0 (Nat.zero_le _) from rfl]
  exact Laws.sep_assoc.2

-- The accumulator's contents are forgotten.
theorem hout (c : Dev nD) :
    (dat a V c).Φ (Fin.last (cfg a).N)
      ⊢ iprop(((∃ r, prngReg c r) ∗ Pipeline.prefHeld pre3 c (fun _ => fullShare) a.1) ∗ Pipeline.scopedRest (cfg a).spec c) := by
  rw [show (dat a V c).Φ (Fin.last (cfg a).N) = Phi a V c (cfg a).N le_rfl from rfl, rest_eq]
  refine (Phi_open a V c _ _).trans ?_
  iintro ⟨HP, ⟨%p, -, HS⟩, HR⟩
  iframe HP HR
  iexists p; iexact HS

end Cert.Kernel.R3

end
-- ==== Proof.K.Stage.lean ====
import proofs.«430818_j23493471109148_2_alg».proof.Proof.RegionsKernel
import proofs.«430818_j23493471109148_2_alg».proof.Proof.K.Reg0Frame
import proofs.«430818_j23493471109148_2_alg».proof.Proof.K.Reg1Frame
import proofs.«430818_j23493471109148_2_alg».proof.Proof.K.Reg2Frame
import proofs.«430818_j23493471109148_2_alg».proof.Proof.K.Reg3Frame
import Idealize.ShloMosaic.Lib.Pipeline.RegionsLoop

noncomputable section

namespace Cert.Kernel.St

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def c0 : Dev nD := ⟨0, by decide⟩

theorem eq_c0 (c : Dev nD) : c = c0 := Subsingleton.elim _ _

abbrev W8 (c : Dev nD) (b : Ref sig .tc) : Buf (Elt F) ((c : Thread nD τ).loc b) := V8 m c b

def a0 : (pcfgs (F := F) 0).Adm := ⟨fun k => W8 m c0 (pre0.ref k), trivial⟩

def o9 (c : Dev nD) : Buf (Elt F) ((c : Thread nD τ).loc main_v36) :=
  (R0.dat (a0 m) (W8 m) c).arrAt 3 (R0.cfg (a0 m)).N

def outs1 : Outs (F := F) := fun _ r c => Function.update (V8 m c) main_v36 (o9 m c) r

abbrev W15 (c : Dev nD) (b : Ref sig .tc) : Buf (Elt F) ((c : Thread nD τ).loc b) := V15 m (outs1 m) c b

def a1 : (pcfgs (F := F) 1).Adm := ⟨fun k => W15 m c0 (pre1.ref k), trivial⟩

def o16 (c : Dev nD) : Buf (Elt F) ((c : Thread nD τ).loc main_v58) :=
  (R1.dat (a1 m) (W15 m) c).arrAt 2 (R1.cfg (a1 m)).N

def outs2 : Outs (F := F) := fun j r c =>
  if j = 9 then outs1 m j r c else Function.update (V15 m (outs1 m) c) main_v58 (o16 m c) r

abbrev W24 (c : Dev nD) (b : Ref sig .tc) : Buf (Elt F) ((c : Thread nD τ).loc b) := V24 m (outs2 m) c b

def a2 : (pcfgs (F := F) 2).Adm := ⟨fun k => W24 m c0 (pre2.ref k), trivial⟩

def o25 (c : Dev nD) : Buf (Elt F) ((c : Thread nD τ).loc main_v96) :=
  (R2.dat (a2 m) (W24 m) c).arrAt 3 (R2.cfg (a2 m)).N

def outs3 : Outs (F := F) := fun j r c =>
  if j = 9 ∨ j = 16 then outs2 m j r c else Function.update (V24 m (outs2 m) c) main_v96 (o25 m c) r

abbrev W31 (c : Dev nD) (b : Ref sig .tc) : Buf (Elt F) ((c : Thread nD τ).loc b) := V31 m (outs3 m) c b

def a3 : (pcfgs (F := F) 3).Adm := ⟨fun k => W31 m c0 (pre3.ref k), trivial⟩

def o32 (c : Dev nD) : Buf (Elt F) ((c : Thread nD τ).loc main_v118) :=
  (R3.dat (a3 m) (W31 m) c).arrAt 2 (R3.cfg (a3 m)).N

def outs : Outs (F := F) := fun j r c =>
  if j = 9 ∨ j = 16 ∨ j = 25 then outs3 m j r c else Function.update (V31 m (outs3 m) c) main_v118 (o32 m c) r

theorem V15_congr (o o' : Outs (F := F)) (c : Dev nD) (h9 : o 9 main_v36 c = o' 9 main_v36 c) : V15 m o c = V15 m o' c := by
  dsimp only [V15, V14, V13, V12, V11, V10, V9]
  rw [h9]

theorem V24_congr (o o' : Outs (F := F)) (c : Dev nD) (h9 : o 9 main_v36 c = o' 9 main_v36 c)
    (h16 : o 16 main_v58 c = o' 16 main_v58 c) : V24 m o c = V24 m o' c := by
  have h := V15_congr m o o' c h9
  dsimp only [V24, V23, V22, V21, V20, V19, V18, V17, V16]
  rw [h16, h]

theorem V31_congr (o o' : Outs (F := F)) (c : Dev nD) (h9 : o 9 main_v36 c = o' 9 main_v36 c)
    (h16 : o 16 main_v58 c = o' 16 main_v58 c) (h25 : o 25 main_v96 c = o' 25 main_v96 c) : V31 m o c = V31 m o' c := by
  have h := V24_congr m o o' c h9 h16
  dsimp only [V31, V30, V29, V28, V27, V26, V25]
  rw [h25, h]

theorem outs1_9 (c : Dev nD) : outs1 m 9 main_v36 c = o9 m c := Function.update_self ..

theorem outs2_9 (c : Dev nD) : outs2 m 9 main_v36 c = o9 m c := (if_pos rfl).trans (outs1_9 m c)

theorem outs3_9 (c : Dev nD) : outs3 m 9 main_v36 c = o9 m c := (if_pos (.inl rfl)).trans (outs2_9 m c)

theorem outs_9 (c : Dev nD) : outs m 9 main_v36 c = o9 m c := (if_pos (.inl rfl)).trans (outs3_9 m c)

theorem outs2_16 (c : Dev nD) : outs2 m 16 main_v58 c = o16 m c := (if_neg (by decide)).trans (Function.update_self ..)

theorem outs3_16 (c : Dev nD) : outs3 m 16 main_v58 c = o16 m c := (if_pos (.inr rfl)).trans (outs2_16 m c)

theorem outs_16 (c : Dev nD) : outs m 16 main_v58 c = o16 m c := (if_pos (.inr (.inl rfl))).trans (outs3_16 m c)

theorem outs3_25 (c : Dev nD) : outs3 m 25 main_v96 c = o25 m c := (if_neg (by decide)).trans (Function.update_self ..)

theorem outs_25 (c : Dev nD) : outs m 25 main_v96 c = o25 m c := (if_pos (.inr (.inr rfl))).trans (outs3_25 m c)

theorem outs_32 (c : Dev nD) : outs m 32 main_v118 c = o32 m c := (if_neg (by decide)).trans (Function.update_self ..)

theorem V15_outs (c : Dev nD) : V15 m (outs m) c = V15 m (outs1 m) c :=
  V15_congr m _ _ c ((outs_9 m c).trans (outs1_9 m c).symm)

theorem V24_outs (c : Dev nD) : V24 m (outs m) c = V24 m (outs2 m) c :=
  V24_congr m _ _ c ((outs_9 m c).trans (outs2_9 m c).symm) ((outs_16 m c).trans (outs2_16 m c).symm)

theorem V31_outs (c : Dev nD) : V31 m (outs m) c = V31 m (outs3 m) c :=
  V31_congr m _ _ c ((outs_9 m c).trans (outs3_9 m c).symm) ((outs_16 m c).trans (outs3_16 m c).symm)
    ((outs_25 m c).trans (outs3_25 m c).symm)

def adm : (p : Fin 4) → (pcfgs (F := F) p).Adm
  | ⟨0, _⟩ => a0 m
  | ⟨1, _⟩ => a1 m
  | ⟨2, _⟩ => a2 m
  | ⟨3, _⟩ => a3 m

def pdats : (p : Fin 4) → (c : Dev nD) → Dat τ (Elt F) Unit ℕ (UR sig nD τ) ℕ (Pipeline.pin (pcfgs (F := F)) (adm m) p) c
  | ⟨0, _⟩ => fun c => R0.dat (a0 m) (W8 m) c
  | ⟨1, _⟩ => fun c => R1.dat (a1 m) (W15 m) c
  | ⟨2, _⟩ => fun c => R2.dat (a2 m) (W24 m) c
  | ⟨3, _⟩ => fun c => R3.dat (a3 m) (W31 m) c

abbrev 𝒱₀ : Variants := Variants.none
abbrev L : GSem nD τ sig → Finset Unit := fun _ => ∅
abbrev lv : GSem nD τ sig → Unit → ℕ := fun _ _ => 0

abbrev Rr (c : Dev nD) : sProp 𝕄 := iprop((∃ r, prngReg c r) ∗ ∃ W, owes (c : Thread nD τ) (0 : CellTallies nD τ sig Unit) W)

abbrev pn (p : Fin 4) := Pipeline.pin (pcfgs (F := F)) (adm m) p

set_option backward.isDefEq.respectTransparency.types false in
/-- The four regions' records are instances of this one. -/
def reg (p : Fin 4) (lf : Pipeline.PLaunchFacts (nD := nD) (τ := τ) (pcfgs (F := F)) p) (Vi Vj : Dev nD → Valuation τ sig (Elt F))
    (hV : ∀ c, Vj c = Vi c) (wo : Fin (pn m p).W)
    (v : (c : Dev nD) → Buf (Elt F) ((c : Thread nD τ).loc (Pipeline.arrRef (pn m p).spec wo)))
    (hb : ∀ c, BodyObligation (pdats m p c) (defs₀ (F := F)) 𝒱₀ () Set.univ)
    (hA : ∀ c w, (pdats m p c).A w = Vi c (Pipeline.arrRef (pn m p).spec w))
    (hin : ∀ c, iprop((∃ r, prngReg c r) ∗ Pipeline.prefHeld (pcfgs (F := F) p).pre c (fun _ => fullShare) (adm m p).1
      ∗ Pipeline.scopedRest (pn m p).spec c) ⊢ (pdats m p c).Φ 0)
    (hout : ∀ c, (pdats m p c).Φ (Fin.last (pn m p).N)
      ⊢ iprop(((∃ r, prngReg c r) ∗ Pipeline.prefHeld (pcfgs (F := F) p).pre c (fun _ => fullShare) (adm m p).1)
        ∗ Pipeline.scopedRest (pn m p).spec c))
    (hio : ∀ w, w ≠ wo → ((pn m p).win w).isOut = false)
    (ho : ∀ c, (pdats m p c).arrAt wo (pn m p).N = v c)
    (htab : ∀ c, (fun k => Vi c ((pcfgs (F := F) p).pre.ref k)) = (adm m p).1 := by intro c; rw [eq_c0 c]; rfl)
    (hq : ∀ c w, (pdats m p c).q w = fullShare := by intros; rfl) (how : ∀ c t, (pdats m p c).owed t = 0 := by intros; rfl)
    (hrec : ∀ c, (pdats m p c).recorded 0 = Set.univ := by intros; rfl) :
    Pipeline.RegionSeg (pcfgs (F := F)) (adm m) (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero (pcfgs (F := F)) (adm m) (pdats m) () L lv p how
  pre c := iprop(StableHlo.held (c : Thread nD τ) (Pipeline.ucRefs τ sig) (Vj c) ∗ Rr c)
  post c := iprop(StableHlo.held (c : Thread nD τ) (Pipeline.ucRefs τ sig)
    (Function.update (Vj c) (Pipeline.arrRef (pn m p).spec wo) (v c)) ∗ Rr c)
  X c := iprop(∃ r, prngReg c r)
  Y c := iprop((∃ r, prngReg c r) ∗ Pipeline.prefHeld (pcfgs (F := F) p).pre c (fun _ => fullShare) (adm m p).1)
  Z c := Pipeline.unscopedRestP (pcfgs (F := F) p).pre (pn m p).spec c (fun b => Vi c b)
  hentry c := by
    rw [Pipeline.ownSems0_none, hV c]
    have hs := Pipeline.arrays_of_unscopedBufs (p := p) (pcfgs (F := F)) (adm m) (pdats m) lf.win lf.arr_whole c
      ((pdats m p c).share_full (hq c)) (fun b => Vi c b) (hA c)
    rw [Pipeline.unscopedBufs_held, Pipeline.unscopedRest_split (win := (pn m p).spec) lf.pre c,
      htab c] at hs
    iintro ⟨⟨Hub, Hp, HO⟩, -, -⟩
    ihave H := hs $$ Hub
    icases H with ⟨Ha, Hpf, Hrest⟩
    imodintro
    iframe Ha Hpf Hp Hrest
    unfold Pipeline.Dat.owesAt Pipeline.owesWithin Pipeline.Dat.bound
    rw [how c, hrec c]
    icases HO with ⟨%W, HO⟩; iexists W; iframe HO
    ipureintro; exact fun _ _ => Or.inl trivial
  hin := hin
  hout c := by
    rw [Pipeline.ownSems0_none]
    refine (hout c).trans ?_
    iintro ⟨HY, Hs⟩
    iframe
    iempintro
  hexit c := by
    have hj := Pipeline.unscopedBufs_of_arrays (p := p) (pcfgs (F := F)) (adm m) (Ix := Unit) (Name := ℕ) (U := UR sig nD τ) (Lvl := ℕ)
      lf.win lf.arr_whole c (pdats m) ((pdats m p c).share_full (hq c)) (fun b => Vi c b)
      (fun b => Function.update (Vj c) (Pipeline.arrRef (pn m p).spec wo) (v c) b)
      ((pdats m p c).arrAt · (pn m p).N)
      (fun w => if h : w = wo then by subst h; simp only [ho c, Function.update_self] else
        ((pdats m p c).arrAt_in w (hio w h) _).trans ((hA c w).trans
          ((Function.update_of_ne (StableHlo.devRef_ne_of_ne fun e => h (lf.win.arr_inj e)) ..).trans (congrFun (hV c) _)).symm))
      (fun b hb => (Function.update_of_ne (StableHlo.devRef_ne_of_ne fun e =>
        hb (Finset.mem_image.mpr ⟨wo, Finset.mem_univ _, e.symm⟩)) ..).trans (congrFun (hV c) _))
    rw [Pipeline.unscopedBufs_held, Pipeline.unscopedRest_split (win := (pn m p).spec) lf.pre c,
      htab c] at hj
    unfold Pipeline.Dat.owesAt Pipeline.owesWithin
    rw [how c]
    iintro ⟨Ha, HO, ⟨Hp, Hpf⟩, Hrest⟩
    imodintro
    isplitl [Ha Hrest Hpf]
    · iapply hj; iframe
    isplitl [Hp]; · iexact Hp
    icases HO with ⟨%W, -, HO⟩; iexists W; iexact HO

set_option backward.isDefEq.respectTransparency.types false in
def reg0 :=
  reg m 0 launch0 (V8 m) (V8 m) (fun _ => rfl) 3 (outs m 9 main_v36) (R0.body_obligation (a0 m) (W8 m)) (R0.A_eq (a0 m) (W8 m))
    (R0.hin (a0 m) (W8 m)) (R0.hout (a0 m) (W8 m)) (fun | ⟨0, _⟩, _ => rfl | ⟨1, _⟩, _ => rfl | ⟨2, _⟩, _ => rfl | ⟨3, _⟩, h => absurd rfl h)
    fun c => (outs_9 m c).symm

set_option backward.isDefEq.respectTransparency.types false in
def reg1 :=
  reg m 1 launch1 (V15 m (outs1 m)) (V15 m (outs m)) (V15_outs m) 2 (outs m 16 main_v58) (R1.body_obligation (a1 m) (W15 m)) (R1.A_eq (a1 m) (W15 m))
    (R1.hin (a1 m) (W15 m)) (R1.hout (a1 m) (W15 m)) (fun | ⟨0, _⟩, _ => rfl | ⟨1, _⟩, _ => rfl | ⟨2, _⟩, h => absurd rfl h)
    fun c => (outs_16 m c).symm

set_option backward.isDefEq.respectTransparency.types false in
def reg2 :=
  reg m 2 launch2 (V24 m (outs2 m)) (V24 m (outs m)) (V24_outs m) 3 (outs m 25 main_v96) (R2.body_obligation (a2 m) (W24 m)) (R2.A_eq (a2 m) (W24 m))
    (R2.hin (a2 m) (W24 m)) (R2.hout (a2 m) (W24 m)) (fun | ⟨0, _⟩, _ => rfl | ⟨1, _⟩, _ => rfl | ⟨2, _⟩, _ => rfl | ⟨3, _⟩, h => absurd rfl h)
    fun c => (outs_25 m c).symm

set_option backward.isDefEq.respectTransparency.types false in
def reg3 :=
  reg m 3 launch3 (V31 m (outs3 m)) (V31 m (outs m)) (V31_outs m) 2 (outs m 32 main_v118) (R3.body_obligation (a3 m) (W31 m)) (R3.A_eq (a3 m) (W31 m))
    (R3.hin (a3 m) (W31 m)) (R3.hout (a3 m) (W31 m)) (fun | ⟨0, _⟩, _ => rfl | ⟨1, _⟩, _ => rfl | ⟨2, _⟩, h => absurd rfl h)
    fun c => (outs_32 m c).symm

abbrev u0 := initOf (Pipeline.cells (Pipeline.pin (pcfgs (F := F)) (adm m)) (cellOf_inj (adm m))) (Pipeline.launchToks (Pipeline.pin (pcfgs (F := F)) (adm m)) (cellOf_inj (adm m)))

set_option backward.isDefEq.respectTransparency.types false in
theorem run (ρ : Dev nD → PrngReg) :
    θ_run defs (onTc (τ := τ) (main (F := F))) ⟨m, fun _ => 0, ρ⟩ (fun r => ∀ c : Dev nD,
      r.2.mem ((c.tc : Thread nD τ).loc main_v59) = V33 m (outs m) c main_v59
      ∧ r.2.mem ((c.tc : Thread nD τ).loc main_v119) = V33 m (outs m) c main_v119
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond m (emb₁ : Emb (URounds (GSem nD τ sig) Unit) 𝕄) () 𝒱₀ L lv (fun _ _ => rfl) ρ (outs m) (adm m) (pdats m)
    (O₀ := 0) (G := fun _ => iprop(emp))
    (u₀ := u0 m)
    (hu₀ := by
      iintro Hu; imodintro
      isplitl [Hu]
      · iapply (show (ownU (u0 m) : sProp 𝕄)
            ⊢ BI.own (emb₁ (u0 m)) from .rfl)
        iexact Hu
      iapply (show (BI.emp : sProp 𝕄) ⊢ bigSep Finset.univ (fun _ : Dev nD => (BI.emp : sProp 𝕄)) from by rw [BI.bigSep_emp_const])
      iempintro)
    (E := fun _ => Rr)
    (hE0 := by
      have hmono : (bigSep Finset.univ fun c : Dev nD => (iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)) : sProp 𝕄))
          ⊢ (bigSep Finset.univ (fun c : Dev nD => (Rr c : sProp 𝕄)) : sProp 𝕄) :=
        bigSep_mono fun c _ => by
          show _ ⊢ (iprop((∃ r, prngReg c r) ∗ ∃ W, owes (c : Thread nD τ) (0 : CellTallies nD τ sig Unit) W) : sProp 𝕄)
          iintro ⟨-, HO, -, Hp, -⟩
          isplitl [Hp]; · iexists _; iexact Hp
          iexists ∅; iexact HO
      iintro ⟨H, -⟩
      imodintro
      iapply hmono
      iexact H)
    (hE4 := fun c => by
      iintro ⟨-, HO⟩
      iexact HO)
    (reg0 m) (fun _ => .rfl) (fun _ => .rfl)
    (reg1 m) (fun _ => .rfl) (fun _ => .rfl)
    (reg2 m) (fun _ => .rfl) (fun _ => .rfl)
    (reg3 m) (fun _ => .rfl) (fun _ => .rfl)

end Cert.Kernel.St

end
-- ==== Proof.KI.Reg0Defs.lean ====
import proofs.«430818_j23493471109148_2_alg».proof.Proof.Gen.KernelIdeal.Launch
import proofs.«430818_j23493471109148_2_alg».proof.Proof.Gen.KernelIdeal.Skeleton
import Idealize.ShloMosaic.Lib.Pipeline.FrameBody
import Idealize.ShloMosaic.Lib.Pipeline.Regions
import Idealize.ShloMosaic.Lib.Pipeline.Kit

set_option maxRecDepth 16384

noncomputable section

namespace Cert.KernelIdeal.R0

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (a : (pcfgs (F := F) 0).Adm)
variable (V : (c : Dev nD) → (b : Ref sig .tc) → Buf (Elt F) ((c : Thread nD τ).loc b))

abbrev cfg : Cfg sig Λ₀ := (pcfgs (F := F) 0).at a

def iblk (c : Dev nD) (w : Fin (cfg a).W) (t : Fin (cfg a).N) : (((cfg a).win w).xblock ((cfg a).grid.coords t)).Idx → Elt F ((cfg a).win w).elt :=
  (((cfg a).win w).blk t).view.read (Elt F) (V c (Pipeline.arrRef spec0 w))

def inBand (n v4 v6 : BitVec 32) : Prop :=
  Scalar.cmpi .ne (Scalar.extui (Scalar.andi (Scalar.cmpi .sge n v4) (Scalar.cmpi .sle n v6)) : BitVec 32) 0#32 = 1#1

instance (n v4 v6 : BitVec 32) : Decidable (inBand n v4 v6) := by unfold inBand; infer_instance

def lo (i : grid0.Coords) : BitVec 32 :=
  (a.1 0 : S352.Idx → BitVec 32) ((Rect.unit (s := S352) (k0_off1 i) S1.size (k0_off1_inb i)).idx (Shape.Idx.first (s := S1) (numel1_S1.symm ▸ Nat.one_pos)))

def hi (i : grid0.Coords) : BitVec 32 :=
  (a.1 1 : S352.Idx → BitVec 32) ((Rect.unit (s := S352) (k0_off1 i) S1.size (k0_off1_inb i)).idx (Shape.Idx.first (s := S1) (numel1_S1.symm ▸ Nat.one_pos)))

abbrev srcblk (c : Dev nD) (t : Fin (cfg a).N) : Vec F S2048x1 .i32 := iblk a V c 0 t
abbrev valblk (c : Dev nD) (t : Fin (cfg a).N) : Vec F S2048x1 .f32 := iblk a V c 1 t
abbrev embblk (c : Dev nD) (t : Fin (cfg a).N) : Vec F S4096x64 .f32 := iblk a V c 2 t

def accStep (i : grid0.Coords) (l h : BitVec 32) (x4 : Vec F S2048x1 .i32) (x6 : Vec F S4096x64 .f32) (prev : Vec F S2048x64 .f32) :
    Vec F S2048x64 .f32 :=
  if inBand (BitVec.ofNat 32 (i 1).val) l h then k0_pay2 i x4 x6 (if (i 1).val = 0 then k0_pay1 (F := F) else prev)
  else (if (i 1).val = 0 then k0_pay1 (F := F) else prev)

def accAt (c : Dev nD) : (n : ℕ) → n < (cfg a).N → Vec F S2048x64 .f32
  | 0, h => accStep ((cfg a).grid.coords ⟨0, h⟩) (lo a ((cfg a).grid.coords ⟨0, h⟩)) (hi a ((cfg a).grid.coords ⟨0, h⟩))
      (srcblk a V c ⟨0, h⟩) (embblk a V c ⟨0, h⟩) (k0_pay1 (F := F))
  | n + 1, h => accStep ((cfg a).grid.coords ⟨n + 1, h⟩) (lo a ((cfg a).grid.coords ⟨n + 1, h⟩)) (hi a ((cfg a).grid.coords ⟨n + 1, h⟩))
      (srcblk a V c ⟨n + 1, h⟩) (embblk a V c ⟨n + 1, h⟩) (accAt c n (Nat.lt_of_succ_lt h))

def outAt (c : Dev nD) (t : Fin (cfg a).N) : Vec F S2048x64 .f32 :=
  k0_pay3 (accAt a V c t.val t.isLt) (valblk a V c t)

abbrev scM : Memref sig .tc .vmem S2048x64 .f32 := Memref.whole cc0_scratch0

def Phi (c : Dev nD) : (n : ℕ) → n ≤ (cfg a).N → sProp 𝕄
  | 0, _ => iprop(((∃ r, prngReg c r) ∗ Pipeline.prefHeld pre0 c (fun _ => fullShare) a.1) ∗ Pipeline.scopedRest (cfg a).spec c)
  | n + 1, hn => iprop(((∃ r, prngReg c r) ∗ Pipeline.prefHeld pre0 c (fun _ => fullShare) a.1)
      ∗ owns (c : Thread nD τ) scM fullShare (accAt a V c n hn) ∗ Pipeline.scopedRestBut (Ix := Unit) (Name := ℕ) (U := UR sig nD τ) (Lvl := ℕ) (Val := Elt F) spec0 c [cc0_scratch0])

theorem scopedRest_split (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f))
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

def dat (c : Dev nD) : Dat τ (Elt F) Unit ℕ (UR sig nD τ) ℕ (cfg a) c where
  A w := V c (Pipeline.arrRef spec0 w)
  after w t := match w with
    | ⟨0, _⟩ => iblk a V c 0 t
    | ⟨1, _⟩ => iblk a V c 1 t
    | ⟨2, _⟩ => iblk a V c 2 t
    | ⟨3, _⟩ => outAt a V c t
  Φ t := Phi a V c t.val (Nat.le_of_lt_succ t.isLt)
  q _ := fullShare
  owed _ := 0

end Cert.KernelIdeal.R0

end
-- ==== Proof.KI.Reg0Frame.lean ====
import proofs.«430818_j23493471109148_2_alg».proof.Proof.KI.Reg0Defs
import Idealize.ShloMosaic.Lib.Tactic
import Idealize.ShloMosaic.Lib.Ring
import Idealize.ShloMosaic.Lib.Pipeline.Value

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfgs (F := F) 0).Adm)
variable (V : (c : Dev nD) → (b : Ref sig .tc) → Buf (Elt F) ((c : Thread nD τ).loc b))

def wordAt (i : grid0.Coords) (T : Vec F S352 .i32) : BitVec 32 :=
  (T : S352.Idx → BitVec 32) ((Rect.unit (s := S352) (k0_off1 i) S1.size (k0_off1_inb i)).idx (Shape.Idx.first (s := S1) (numel1_S1.symm ▸ Nat.one_pos)))

theorem hz2 : (![0, 0] : Fin 2 → ℕ) = fun _ => 0 := by funext a; fin_cases a <;> rfl

/-- A store through the whole rectangle made under a condition reads back as its payload where the condition holds, else as what was there. -/
theorem read_dite {sp : Space} (v : View sig .tc sp S2048x64 .f32) (P : Prop) [Decidable P] (f : v.ty.Contents (Elt F)) (w : Vec F S2048x64 .f32) :
    v.read (Elt F) (if _ : P then v.writes (Elt F) f [⟨Rect.unit (s := S2048x64) ![0, 0] S2048x64.size inb_S2048x64_S2048x64_0_0, w⟩] else f)
      = if P then w else v.read (Elt F) f := by
  by_cases h : P
  · rw [dif_pos h, if_pos h, View.read_writes_eq_canon _ _ _ (fun y => ⟨_, List.mem_cons.mpr (Or.inl rfl), View.mem_set_unit_zero hz2 inb_S2048x64_S2048x64_0_0 y⟩),
      View.canon_cons_unit_zero hz2]
  · rw [dif_neg h, if_neg h]

theorem first_iff (j : Fin 15) :
    (Scalar.cmpi .ne (Scalar.extui (Scalar.cmpi .eq (BitVec.ofNat 32 j.val) 0#32) : BitVec 32) 0#32 = 1#1) ↔ j.val = 0 := by
  revert j; decide

section
variable (c : Dev nD) (E : Set ℕ) (i : grid0.Coords)
  (arg2 arg3 : Memref sig .tc .smem S352 .i32) (arg4 : Memref sig .tc .vmem S2048x1 .i32) (arg5 : Memref sig .tc .vmem S2048x1 .f32)
  (arg6 : Memref sig .tc .vmem S4096x64 .f32) (arg7 arg8 : Memref sig .tc .vmem S2048x64 .f32)
  (t2 t3 : Vec F S352 .i32) (x4 : Vec F S2048x1 .i32) (x5 : Vec F S2048x1 .f32) (x6 : Vec F S4096x64 .f32)

/-- The seven memrefs the body touches, each owned whole at named contents. -/
def held (y7 y8 : Vec F S2048x64 .f32) : sProp 𝕄 :=
  iprop(owns (c : Thread nD τ) arg2 fullShare t2 ∗ owns (c : Thread nD τ) arg3 fullShare t3
    ∗ owns (c : Thread nD τ) arg4 fullShare x4 ∗ owns (c : Thread nD τ) arg5 fullShare x5 ∗ owns (c : Thread nD τ) arg6 fullShare x6
    ∗ owns (c : Thread nD τ) arg7 fullShare y7 ∗ owns (c : Thread nD τ) arg8 fullShare y8)

set_option maxHeartbeats 1000000 in
/-- One run of the body at any coordinates: tables and inputs are left as found, the accumulator takes its step, the output is written at the last row tile only. -/
theorem sound_kernel (harg2 : arg2.IsWhole) (harg3 : arg3.IsWhole) (harg4 : arg4.IsWhole) (harg5 : arg5.IsWhole) (harg6 : arg6.IsWhole)
    (harg7 : arg7.IsWhole) (harg8 : arg8.IsWhole) (x7 acc y7 y8 : Vec F S2048x64 .f32)
    (h8 : y8 = accStep i (wordAt i t2) (wordAt i t3) x4 x6 acc) (h7 : y7 = if k0_cond3 i = 1#1 then k0_pay3 y8 x5 else x7) (K : PUnit → sProp 𝕄) :
    iprop(held c arg2 arg3 arg4 arg5 arg6 arg7 arg8 t2 t3 x4 x5 x6 x7 acc
        ∗ (held c arg2 arg3 arg4 arg5 arg6 arg7 arg8 t2 t3 x4 x5 x6 y7 y8 -∗ K ⟨⟩))
      ⊢ wp frame (wpE (defs₀ (F := F)) Variants.none c none) E (cc0_kernel i arg2 harg2 arg3 harg3 arg4 harg4 arg5 harg5 arg6 harg6 arg7 harg7 arg8 harg8) K := by
  subst h7 h8
  simp only [cc0_kernel_eq_skeleton]; unfold cc0_kernel_skel held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  subst hf2 hf3 hf4 hf5 hf6 hf7 hf8
  sl_exec
  sl_step
  iapply Hk
  isplitl [H2]; swap; isplitl [H3]; swap; isplitl [H4]; swap; isplitl [H5]; swap; isplitl [H6]; swap; isplitl [H7]; swap
  all_goals iexists _; isplitr; swap; iassumption; ipureintro
  rotate_left 2; iterate 5 rfl
  all_goals unfold accStep; sl_unfold_run_names; rw [read_dite]
  all_goals simp only [View.readAt_eq_ld, View.ld_unit_zero (S := S2048x1) hz2, View.ld_unit_zero (S := S4096x64) hz2, View.ld_unit_zero (S := S2048x64) hz2]
  all_goals repeat rw [read_dite]
  all_goals simp only [first_iff (i 1)]
  all_goals rfl
end

abbrev bodyAt (t : Fin (cfg a).N) : Prog (TpuEff nD τ sig (Elt F) Λ₀ .tc) PUnit :=
  cc0_kernel (grid0.coords t) (Memref.whole main_v31) (Memref.isWhole_whole _) (Memref.whole main_v33) (Memref.isWhole_whole _)
    (spec0_0.stage ((cfg a).slots t 0)) (hstage0_0 (((cfg a).slots t 0).cast nbuf0_0))
    (spec0_1.stage ((cfg a).slots t 1)) (hstage0_1 (((cfg a).slots t 1).cast nbuf0_1))
    (spec0_2.stage ((cfg a).slots t 2)) (hstage0_2 (((cfg a).slots t 2).cast nbuf0_2))
    (spec0_3.stage ((cfg a).slots t 3)) (hstage0_3 (((cfg a).slots t 3).cast nbuf0_3))
    (Memref.whole cc0_scratch0) (Memref.isWhole_whole _)

abbrev stepAt (c : Dev nD) (t : Fin (cfg a).N) (prev : Vec F S2048x64 .f32) : Vec F S2048x64 .f32 :=
  accStep ((cfg a).grid.coords t) (lo a ((cfg a).grid.coords t)) (hi a ((cfg a).grid.coords t)) (srcblk a V c t) (embblk a V c t) prev

theorem prefHeld_eq (c : Dev nD) :
    (Pipeline.prefHeld (Ix := Unit) (Name := ℕ) (U := UR sig nD τ) (Lvl := ℕ) pre0 c (fun _ => fullShare) a.1 : sProp 𝕄)
      = iprop(owns (c : Thread nD τ) (Memref.whole main_v31) fullShare (a.1 0) ∗ owns (c : Thread nD τ) (Memref.whole main_v33) fullShare (a.1 1)) := by
  unfold Pipeline.prefHeld
  rw [BI.bigSep_fin_two]
  exact congrArg₂ BI.sep (owns_whole (c : Thread nD τ) main_v31 fullShare (a.1 0)).symm (owns_whole (c : Thread nD τ) main_v33 fullShare (a.1 1)).symm

variable (c : Dev nD) (t : Fin (cfg a).N)

theorem A_eq (w : Fin (cfg a).W) : (dat a V c).A w = V c (Pipeline.arrRef spec0 w) := by
  dsimp only [dat]

theorem after0 : (dat a V c).after 0 t = iblk a V c 0 t := by dsimp only [dat]; rfl
theorem after1 : (dat a V c).after 1 t = iblk a V c 1 t := by dsimp only [dat]; rfl
theorem after2 : (dat a V c).after 2 t = iblk a V c 2 t := by dsimp only [dat]; rfl

theorem before0 (d) : (dat a V c).before 0 t d = iblk a V c 0 t :=
  ((dat a V c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (d) : (dat a V c).before 1 t d = iblk a V c 1 t :=
  ((dat a V c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (d) : (dat a V c).before 2 t d = iblk a V c 2 t :=
  ((dat a V c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

theorem leaves0 : (dat a V c).leavesExact 0 t = owns (c : Thread nD τ) (((cfg a).win 0).stage ((cfg a).slots t 0)) fullShare (iblk a V c 0 t) := by
  rw [← after0]; rfl
theorem leaves1 : (dat a V c).leavesExact 1 t = owns (c : Thread nD τ) (((cfg a).win 1).stage ((cfg a).slots t 1)) fullShare (iblk a V c 1 t) := by
  rw [← after1]; rfl
theorem leaves2 : (dat a V c).leavesExact 2 t = owns (c : Thread nD τ) (((cfg a).win 2).stage ((cfg a).slots t 2)) fullShare (iblk a V c 2 t) := by
  rw [← after2]; rfl

def flushF (t : Fin grid0.N) : Bool :=
  true && (decide (t.val + 1 = grid0.N) || decide (∃ h : t.val + 1 < grid0.N, cc0_transform_3 (grid0.coords ⟨t.val + 1, h⟩) ≠ cc0_transform_3 (grid0.coords t)))

theorem noFlushF : ∀ t : Fin grid0.N, ¬ (k0_cond3 (grid0.coords t) = 1#1) → flushF t = false := by decide +kernel

/-- The output window's post from its contents: the stored block at the last row tile, what was found elsewhere. -/
theorem leaves3_of (d) (X : Vec F S2048x64 .f32)
    (h1 : k0_cond3 ((cfg a).grid.coords t) = 1#1 → X = outAt a V c t) (h2 : ¬ k0_cond3 ((cfg a).grid.coords t) = 1#1 → X = (dat a V c).before 3 t d) :
    owns (c : Thread nD τ) (((cfg a).win 3).stage ((cfg a).slots t 3)) fullShare X ⊢ (dat a V c).leavesExact 3 t := by
  by_cases hc3 : k0_cond3 ((cfg a).grid.coords t) = 1#1
  · obtain rfl := h1 hc3
    have hi : (cfg a).idle 3 ((cfg a).grid.coords t) = false := by
      show (!(k0_cond3 ((cfg a).grid.coords t) == 1#1)) = false
      rw [hc3]; rfl
    unfold Dat.leavesExact; rw [hi]; dsimp only [dat]; exact .rfl
  · obtain rfl := h2 hc3
    have hi : (cfg a).idle 3 ((cfg a).grid.coords t) = true := by
      show (!(k0_cond3 ((cfg a).grid.coords t) == 1#1)) = true
      rw [Bool.not_eq_true', beq_eq_false_iff_ne]; exact hc3
    rw [Dat.leavesExact_idle (dat a V c) 3 t hi (noFlushF t hc3)]
    iintro H; iexists d; iexact H

/-- At every position the invariant yields accumulator contents from which the point's step gives accAt: anything at position 0 (the step clears it), accAt of the point before afterwards. -/
theorem Phi_open : ∀ n h, Phi a V c n h ⊢ iprop(∃ p, ⌜∀ h', accAt a V c n h' = stepAt a V c ⟨n, h'⟩ p⌝
      ∗ ((∃ r, prngReg c r) ∗ Pipeline.prefHeld pre0 c (fun _ => fullShare) a.1) ∗ owns (c : Thread nD τ) scM fullShare p
      ∗ Pipeline.scopedRestBut (Ix := Unit) (Name := ℕ) (U := UR sig nD τ) (Lvl := ℕ) (Val := Elt F) spec0 c [cc0_scratch0])
  | 0, _ => by
    rw [Phi, show Pipeline.scopedRest (cfg a).spec c = _ from scopedRest_split c]
    iintro ⟨Hgp, ⟨%f, Hs⟩, Hrb⟩
    iexists f; rw [owns_whole]; iframe
    ipureintro; intro h'
    have h0 : ((cfg a).grid.coords ⟨0, h'⟩ 1).val = 0 := by
      show 0 / grid0.stride 1 % grid0.bound 1 = 0
      rw [Nat.zero_div, Nat.zero_mod]
    show accStep _ _ _ _ _ _ = accStep _ _ _ _ _ _
    unfold accStep; rw [if_pos h0, if_pos h0]
  | n + 1, h => by
    rw [Phi]; iintro H; iexists accAt a V c n h; isplitr; · ipureintro; exact fun _ => rfl
    iexact H

/-- What the body is handed for window w. -/
def stg (w : Fin (cfg a).W) : sProp 𝕄 :=
  iprop(∃ d, owns (c : Thread nD τ) (((cfg a).win w).stage ((cfg a).slots t w)) fullShare ((dat a V c).before w t d))

set_option maxHeartbeats 1600000 in
/-- The body obligation at point t, the four windows written out. -/
theorem sound_body :
    iprop((dat a V c).Φ t.castSucc ∗ (dat a V c).owesAt () t.castSucc ∗ stg a V c t 0 ∗ stg a V c t 1 ∗ stg a V c t 2 ∗ stg a V c t 3)
      ⊢ wp frame (wpE (defs₀ (F := F)) Variants.none c none) Set.univ (bodyAt a t) fun _ =>
        iprop((dat a V c).Φ t.succ ∗ (dat a V c).owesAt () t.succ ∗ (dat a V c).leavesExact 0 t ∗ (dat a V c).leavesExact 1 t
          ∗ (dat a V c).leavesExact 2 t ∗ (dat a V c).leavesExact 3 t) := by
  unfold stg
  simp only [before0, before1, before2]
  rw [show (dat a V c).owesAt () t.succ = (dat a V c).owesAt () t.castSucc from rfl,
    show (dat a V c).Φ t.succ = Phi a V c (t.val + 1) t.isLt from rfl, Phi, leaves0, leaves1, leaves2]
  refine (sep_mono_left (Phi_open a V c t.val _)).trans ?_
  rw [prefHeld_eq]
  iintro ⟨⟨%p, %hp, ⟨Hg, Ht2, Ht3⟩, Hs, Hrb⟩, Ho, ⟨%_, H0⟩, ⟨%_, H1⟩, ⟨%_, H2⟩, ⟨%d, H3⟩⟩
  iapply sound_kernel (i := grid0.coords t) (t2 := a.1 0) (t3 := a.1 1) (x5 := iblk a V c 1 t) (x7 := (dat a V c).before 3 t d) (acc := p)
    (y7 := if k0_cond3 ((cfg a).grid.coords t) = 1#1 then outAt a V c t else (dat a V c).before 3 t d) (h8 := hp t.isLt) (h7 := rfl)
  unfold held
  iframe Ht2 Ht3 Hs
  isplitl [H0 H1 H2 H3]
  · isplitl [H0]; · iexact H0
    isplitl [H1]; · iexact H1
    isplitl [H2]; · iexact H2
    iexact H3
  iintro ⟨Ht2, Ht3, H0, H1, H2, H3, Hs⟩
  iframe Hg Ht2 Ht3 Hs Hrb Ho
  isplitl [H0]; · iexact H0
  isplitl [H1]; · iexact H1
  isplitl [H2]; · iexact H2
  iapply leaves3_of a V c t d _ (fun h => if_pos h) (fun h => if_neg h)
  iexact H3

theorem body_obligation : Pipeline.BodyObligation (dat a V c) (defs₀ (F := F)) Variants.none () Set.univ := fun t => by
  rw [bigSep_W0, bigSep_W0]
  exact sound_body a V c t

theorem hin : iprop((∃ r, prngReg c r) ∗ Pipeline.prefHeld pre0 c (fun _ => fullShare) a.1 ∗ Pipeline.scopedRest (cfg a).spec c) ⊢ (dat a V c).Φ 0 :=
  sep_assoc.2

theorem hout : (dat a V c).Φ (Fin.last (cfg a).N) ⊢ iprop(((∃ r, prngReg c r) ∗ Pipeline.prefHeld pre0 c (fun _ => fullShare) a.1) ∗ Pipeline.scopedRest (cfg a).spec c) := by
  refine (Phi_open a V c (cfg a).N le_rfl).trans ?_
  rw [show Pipeline.scopedRest (cfg a).spec c = _ from scopedRest_split c]
  iintro ⟨%p, -, Hgp, Hs, Hrb⟩
  iframe Hgp Hrb
  iexists p; rw [← owns_whole]; iexact Hs

end Cert.KernelIdeal.R0

end
-- ==== Proof.KI.Reg1Defs.lean ====
import proofs.«430818_j23493471109148_2_alg».proof.Proof.Gen.KernelIdeal.Launch
import proofs.«430818_j23493471109148_2_alg».proof.Proof.Gen.KernelIdeal.Skeleton
import Idealize.ShloMosaic.Lib.Pipeline.FrameBody
import Idealize.ShloMosaic.Lib.Pipeline.Regions
import Idealize.ShloMosaic.Lib.Pipeline.Kit

set_option maxRecDepth 16384

noncomputable section

namespace Cert.KernelIdeal.R1

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfgs (F := F) 1).Adm)
variable (V : (c : Dev nD) → (b : Ref sig .tc) → Buf (Elt F) ((c : Thread nD τ).loc b))

abbrev cfg : Cfg sig Λ₀ := (pcfgs (F := F) 1).at a

def iblk (c : Dev nD) (w : Fin (cfg a).W) (t : Fin (cfg a).N) : (((cfg a).win w).xblock ((cfg a).grid.coords t)).Idx → Elt F ((cfg a).win w).elt :=
  (((cfg a).win w).blk t).view.read (Elt F) (V c (Pipeline.arrRef spec1 w))

def inBand (n v4 v6 : BitVec 32) : Prop :=
  Scalar.cmpi .ne (Scalar.extui (Scalar.andi (Scalar.cmpi .sge n v4) (Scalar.cmpi .sle n v6)) : BitVec 32) 0#32 = 1#1

instance (n v4 v6 : BitVec 32) : Decidable (inBand n v4 v6) := by unfold inBand; infer_instance

def lo (i : grid1.Coords) : BitVec 32 :=
  (a.1 0 : S352.Idx → BitVec 32) ((Rect.unit (s := S352) (k1_off1 i) S1.size (k1_off1_inb i)).idx (Shape.Idx.first (s := S1) (numel1_S1.symm ▸ Nat.one_pos)))

def hi (i : grid1.Coords) : BitVec 32 :=
  (a.1 1 : S352.Idx → BitVec 32) ((Rect.unit (s := S352) (k1_off1 i) S1.size (k1_off1_inb i)).idx (Shape.Idx.first (s := S1) (numel1_S1.symm ▸ Nat.one_pos)))

abbrev dstblk (c : Dev nD) (t : Fin (cfg a).N) : Vec F S1x2048 .i32 := iblk a V c 0 t
abbrev sclblk (c : Dev nD) (t : Fin (cfg a).N) : Vec F S2048x64 .f32 := iblk a V c 1 t

def accStep (i : grid1.Coords) (l h : BitVec 32) (x4 : Vec F S1x2048 .i32) (x5 : Vec F S2048x64 .f32) (prev : Vec F S4096x64 .f32) :
    Vec F S4096x64 .f32 :=
  if inBand (BitVec.ofNat 32 (i 0).val) l h then k1_pay2 i x4 x5 (if (i 1).val = 0 then k1_pay1 (F := F) else prev)
  else (if (i 1).val = 0 then k1_pay1 (F := F) else prev)

def accAt (c : Dev nD) : (n : ℕ) → n < (cfg a).N → Vec F S4096x64 .f32
  | 0, h => accStep ((cfg a).grid.coords ⟨0, h⟩) (lo a ((cfg a).grid.coords ⟨0, h⟩)) (hi a ((cfg a).grid.coords ⟨0, h⟩))
      (dstblk a V c ⟨0, h⟩) (sclblk a V c ⟨0, h⟩) (k1_pay1 (F := F))
  | n + 1, h => accStep ((cfg a).grid.coords ⟨n + 1, h⟩) (lo a ((cfg a).grid.coords ⟨n + 1, h⟩)) (hi a ((cfg a).grid.coords ⟨n + 1, h⟩))
      (dstblk a V c ⟨n + 1, h⟩) (sclblk a V c ⟨n + 1, h⟩) (accAt c n (Nat.lt_of_succ_lt h))

def outAt (c : Dev nD) (t : Fin (cfg a).N) : Vec F S4096x64 .f32 :=
  accAt a V c t.val t.isLt

abbrev scM : Memref sig .tc .vmem S4096x64 .f32 := Memref.whole cc1_scratch0

def Phi (c : Dev nD) : (n : ℕ) → n ≤ (cfg a).N → sProp 𝕄
  | 0, _ => iprop(((∃ r, prngReg c r) ∗ Pipeline.prefHeld pre1 c (fun _ => fullShare) a.1) ∗ Pipeline.scopedRest (cfg a).spec c)
  | n + 1, hn => iprop(((∃ r, prngReg c r) ∗ Pipeline.prefHeld pre1 c (fun _ => fullShare) a.1)
      ∗ owns (c : Thread nD τ) scM fullShare (accAt a V c n hn) ∗ Pipeline.scopedRestBut (Ix := Unit) (Name := ℕ) (U := UR sig nD τ) (Lvl := ℕ) (Val := Elt F) spec1 c [cc1_scratch0])

theorem scopedRest_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f))
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

def dat (c : Dev nD) : Dat τ (Elt F) Unit ℕ (UR sig nD τ) ℕ (cfg a) c where
  A w := V c (Pipeline.arrRef spec1 w)
  after w t := match w with
    | ⟨0, _⟩ => iblk a V c 0 t
    | ⟨1, _⟩ => iblk a V c 1 t
    | ⟨2, _⟩ => outAt a V c t
  Φ t := Phi a V c t.val (Nat.le_of_lt_succ t.isLt)
  q _ := fullShare
  owed _ := 0

end Cert.KernelIdeal.R1

end
-- ==== Proof.KI.Reg1Frame.lean ====
import proofs.«430818_j23493471109148_2_alg».proof.Proof.KI.Reg1Defs
import Idealize.ShloMosaic.Lib.Pipeline.Value
import Idealize.ShloMosaic.Lib.Pipeline.TableIdle
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev RA : Rect S4096x64 := Rect.unit (s := S4096x64) ![0, 0] S4096x64.size inb_S4096x64_S4096x64_0_0

theorem off0 : (![0, 0] : Fin 2 → Nat) = fun _ => 0 := by
  funext x; fin_cases x <;> rfl

theorem read_if_store {P : Prop} [Decidable P] {κ : Kind} {sp : Space} (v : View sig κ sp S4096x64 .f32) (f : v.ty.Contents (Elt F))
    (w : Vec F S4096x64 .f32) :
    v.read (Elt F) (if _ : P then v.writes (Elt F) f [⟨RA, w⟩] else f) = if P then w else v.read (Elt F) f := by
  split
  · rw [View.read_writes_eq_canon _ _ _ (View.cover_of_tiled [⟨RA, w⟩] S4096x64.size (by rfl)), View.canon_unit_zero off0]
  · rfl

theorem readAt_unit {κ : Kind} {sp : Space} {S : Shape} {e : EltTy} (v : View sig κ sp S e) {off : Fin S.rank → Nat} (h : off = fun _ => 0)
    {inb : ∀ a, off a + S.size a ≤ S.size a} (f : v.ty.Contents (Elt F)) :
    v.readAt (Elt F) (Rect.unit off S.size inb).toLoadRect f = v.read (Elt F) f := by
  rw [View.readAt_eq_ld, View.ld_unit_zero h]

def wordAt (i : grid1.Coords) (tb : Vec F S352 .i32) : BitVec 32 :=
  tb ((Rect.unit (s := S352) (k1_off1 i) S1.size (k1_off1_inb i)).idx (Shape.Idx.first (s := S1) (numel1_S1.symm ▸ Nat.one_pos)))

theorem cond1_iff_aux : ∀ j : Fin 352,
    (Scalar.cmpi .ne (Scalar.extui (Scalar.cmpi .eq (BitVec.ofNat 32 j.val) 0#32) : BitVec 32) 0#32 = 1#1) ↔ j.val = 0 := by
  decide +kernel

-- accStep with its two tests under any decision procedure.
theorem accStep_eq {P Q : Prop} [Decidable P] [Decidable Q] (i : grid1.Coords) (l h : BitVec 32)
    (hP : P ↔ inBand (BitVec.ofNat 32 (i 0).val) l h) (hQ : Q ↔ (i 1).val = 0)
    (x4 : Vec F S1x2048 .i32) (x5 : Vec F S2048x64 .f32) (prev : Vec F S4096x64 .f32) :
    (if P then k1_pay2 i x4 x5 (if Q then k1_pay1 (F := F) else prev) else if Q then k1_pay1 (F := F) else prev)
      = accStep i l h x4 x5 prev := by
  unfold accStep; simp only [hP, hQ]

set_option maxHeartbeats 2000000 in
-- No guard is decided beforehand, so one statement serves every point of a row.
theorem sound_kernel (c : Dev nD) (E : Set ℕ) (i : grid1.Coords)
    {arg2 : Memref sig .tc .smem S352 .i32} {harg2 : arg2.IsWhole} {arg3 : Memref sig .tc .smem S352 .i32} {harg3 : arg3.IsWhole}
    {arg4 : Memref sig .tc .vmem S1x2048 .i32} {harg4 : arg4.IsWhole} {arg5 : Memref sig .tc .vmem S2048x64 .f32} {harg5 : arg5.IsWhole}
    {arg6 : Memref sig .tc .vmem S4096x64 .f32} {harg6 : arg6.IsWhole} {arg7 : Memref sig .tc .vmem S4096x64 .f32} {harg7 : arg7.IsWhole}
    (t2 t3 : Vec F S352 .i32) (x4 : Vec F S1x2048 .i32) (x5 : Vec F S2048x64 .f32) (d6 p7 : Vec F S4096x64 .f32)
    (K : PUnit → sProp 𝕄) :
    iprop(owns (c : Thread nD τ) arg2 fullShare t2 ∗ owns (c : Thread nD τ) arg3 fullShare t3
        ∗ owns (c : Thread nD τ) arg4 fullShare x4 ∗ owns (c : Thread nD τ) arg5 fullShare x5
        ∗ owns (c : Thread nD τ) arg6 fullShare d6 ∗ owns (c : Thread nD τ) arg7 fullShare p7
        ∗ (iprop(owns (c : Thread nD τ) arg2 fullShare t2 ∗ owns (c : Thread nD τ) arg3 fullShare t3
            ∗ owns (c : Thread nD τ) arg4 fullShare x4 ∗ owns (c : Thread nD τ) arg5 fullShare x5
            ∗ owns (c : Thread nD τ) arg6 fullShare (if k1_cond3 i = 1#1 then accStep i (wordAt i t2) (wordAt i t3) x4 x5 p7 else d6)
            ∗ owns (c : Thread nD τ) arg7 fullShare (accStep i (wordAt i t2) (wordAt i t3) x4 x5 p7)) -∗ K ⟨⟩))
      ⊢ wp frame (wpE (defs₀ (F := F)) Variants.none c none) E (cc1_kernel i arg2 harg2 arg3 harg3 arg4 harg4 arg5 harg5 arg6 harg6 arg7 harg7) K := by
  simp only [cc1_kernel_eq_skeleton]; unfold cc1_kernel_skel
  rw [owns_eq_rep (c : Thread nD τ) arg2, owns_eq_rep (c : Thread nD τ) arg3, owns_eq_rep (c : Thread nD τ) arg4,
    owns_eq_rep (c : Thread nD τ) arg5, owns_eq_rep (c : Thread nD τ) arg6 _ d6, owns_eq_rep (c : Thread nD τ) arg7 _ p7]
  unfold owns
  iintro ⟨H2, H3, H4, H5, H6, H7, Hk⟩
  sl_exec
  sl_step
  sl_unfold_run_names
  iapply Hk
  iframe H2 H3 H4 H5
  isplitl [H6] <;>
    (iexists _; isplitr; swap; iassumption; ipureintro
     try rw [read_if_store arg6.view, readAt_unit arg7.view off0]
     rw [read_if_store, readAt_unit arg7.view off0, read_if_store, readAt_unit arg4.view off0, readAt_unit arg5.view off0,
       View.readAt_eq_ld arg2.view, View.readAt_eq_ld arg3.view]
     simp only [View.read_rep])
  · congr 1
    refine accStep_eq i _ _ ?_ (cond1_iff_aux (i 1)) x4 x5 p7; exact Iff.rfl
  · refine accStep_eq i _ _ ?_ (cond1_iff_aux (i 1)) x4 x5 p7; exact Iff.rfl

variable (a : (pcfgs (F := F) 1).Adm)

theorem flush2_aux : ∀ t : Fin grid1.N,
    (t.val + 1 = grid1.N || decide (∃ h : t.val + 1 < grid1.N, cc1_transform_2 (grid1.coords ⟨t.val + 1, h⟩) ≠ cc1_transform_2 (grid1.coords t))) = true
      ↔ k1_cond3 (grid1.coords t) = 1#1 := by
  decide +kernel

theorem coords_zero (t : Fin (cfg a).N) (hz : t.val = 0) : (((cfg a).grid.coords t) 1).val = 0 := by
  show t.val / _ % _ = 0
  rw [hz, Nat.zero_div, Nat.zero_mod]

variable (V : (c : Dev nD) → (b : Ref sig .tc) → Buf (Elt F) ((c : Thread nD τ).loc b))

theorem A_eq (c : Dev nD) (w : Fin (cfg a).W) : (dat a V c).A w = V c (Pipeline.arrRef spec1 w) := by
  dsimp only [dat]

theorem after0 (c : Dev nD) (t : Fin (cfg a).N) : (dat a V c).after 0 t = iblk a V c 0 t := by dsimp only [dat]; rfl
theorem after1 (c : Dev nD) (t : Fin (cfg a).N) : (dat a V c).after 1 t = iblk a V c 1 t := by dsimp only [dat]; rfl

theorem before0 (c : Dev nD) (t : Fin (cfg a).N) (d) : (dat a V c).before 0 t d = iblk a V c 0 t :=
  ((dat a V c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin (cfg a).N) (d) : (dat a V c).before 1 t d = iblk a V c 1 t :=
  ((dat a V c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)

abbrev restBut (c : Dev nD) : sProp 𝕄 :=
  Pipeline.scopedRestBut (Ix := Unit) (Name := ℕ) (U := UR sig nD τ) (Lvl := ℕ) (Val := Elt F) spec1 c [cc1_scratch0]

theorem prefHeld_eq (c : Dev nD) :
    (Pipeline.prefHeld pre1 c (fun _ => fullShare) a.1 : sProp 𝕄)
      = iprop(owns (c : Thread nD τ) (pre1.buf 0) fullShare (a.1 0) ∗ owns (c : Thread nD τ) (pre1.buf 1) fullShare (a.1 1)) := by
  unfold Pipeline.prefHeld
  rw [bigSep_univ_eq_bigSepL [(0 : Fin 2), (1 : Fin 2)] (by decide) (by decide)]
  simp only [owns_whole]
  rfl

theorem rest_eq (c : Dev nD) :
    (Pipeline.scopedRest (cfg a).spec c : sProp 𝕄) = iprop((∃ d, owns (c : Thread nD τ) scM fullShare d) ∗ restBut (F := F) c) :=
  (scopedRest_split (F := F) c).trans (by simp only [owns_whole]; rfl)

-- At the first point the step clears the carried block, so its contents do not matter.
theorem accAt_step (c : Dev nD) (t : Fin (cfg a).N) (p : Vec F S4096x64 .f32) (hp : ∀ hz : t.val ≠ 0, p = accAt a V c (t.val - 1) (by omega)) :
    accAt a V c t.val t.isLt = accStep ((cfg a).grid.coords t) (wordAt ((cfg a).grid.coords t) (a.1 0)) (wordAt ((cfg a).grid.coords t) (a.1 1))
      (iblk a V c 0 t) (iblk a V c 1 t) p := by
  obtain ⟨n, hn⟩ := t
  cases n with
  | zero => show accStep _ _ _ _ _ (k1_pay1 (F := F)) = _; unfold accStep; simp only [coords_zero a ⟨0, hn⟩ rfl, if_true]; rfl
  | succ n => rw [hp (Nat.succ_ne_zero n)]; rfl

-- Both cases of the invariant in one shape: the carried block at some contents, known past the first point.
theorem Phi_open (c : Dev nD) : (n : ℕ) → (h : n ≤ (cfg a).N) →
    Phi a V c n h ⊢ iprop(((∃ r, prngReg c r) ∗ Pipeline.prefHeld pre1 c (fun _ => fullShare) a.1)
      ∗ (∃ p, ⌜∀ hz : n ≠ 0, p = accAt a V c (n - 1) (by omega)⌝ ∗ owns (c : Thread nD τ) scM fullShare p) ∗ restBut (F := F) c)
  | 0, _ => by
    simp only [Phi, rest_eq]
    iintro ⟨HP, ⟨%d, HS⟩, HR⟩
    iframe HP HR
    iexists d; isplitr; · ipureintro; exact fun hz => absurd rfl hz
    iexact HS
  | n + 1, _ => by
    simp only [Phi]
    iintro ⟨HP, HS, HR⟩
    iframe HP HR
    iexists _; isplitr; swap; iexact HS
    ipureintro; exact fun _ => rfl

abbrev st (t : Fin (cfg a).N) (w : Fin (cfg a).W) := ((cfg a).win w).stage ((cfg a).slots t w)

theorem leaves2 (c : Dev nD) (t : Fin (cfg a).N) (d) (p : Vec F S4096x64 .f32) (hp : ∀ hz : t.val ≠ 0, p = accAt a V c (t.val - 1) (by omega)) :
    owns (c : Thread nD τ) (st a t 2) fullShare
        (if k1_cond3 ((cfg a).grid.coords t) = 1#1 then accStep ((cfg a).grid.coords t) (wordAt ((cfg a).grid.coords t) (a.1 0))
          (wordAt ((cfg a).grid.coords t) (a.1 1)) (iblk a V c 0 t) (iblk a V c 1 t) p else (dat a V c).before 2 t d)
      ⊢ (dat a V c).leavesExact 2 t := by
  have hi : (cfg a).idle 2 ((cfg a).grid.coords t) = !(k1_cond3 ((cfg a).grid.coords t) == 1#1) := rfl
  by_cases h3 : k1_cond3 ((cfg a).grid.coords t) = 1#1
  · refine (Entails.of_eq (congrArg (owns (c : Thread nD τ) (st a t 2) fullShare) ((if_pos h3).trans (accAt_step a V c t p hp).symm))).trans ?_
    unfold Dat.leavesExact; rw [show (cfg a).idle 2 ((cfg a).grid.coords t) = false from by rw [hi, h3]; rfl]
    exact .rfl
  · refine (Entails.of_eq (congrArg (owns (c : Thread nD τ) (st a t 2) fullShare) (if_neg h3))).trans ?_
    rw [Dat.leavesExact_idle _ 2 t (by rw [hi, Bool.not_eq_true', beq_eq_false_iff_ne]; exact h3)
      (by rw [← Bool.not_eq_true]; exact fun hf => h3 ((flush2_aux t).mp hf))]
    iintro H; iexists d; iexact H

abbrev bodyAt (t : Fin (cfg a).N) : Prog (TpuEff nD τ sig (Elt F) Λ₀ .tc) PUnit :=
  cc1_kernel ((cfg a).grid.coords t) (pre1.buf 0) (Memref.isWhole_whole _) (pre1.buf 1) (Memref.isWhole_whole _)
    (spec1_0.stage ((cfg a).slots t 0)) (hstage1_0 (((cfg a).slots t 0).cast nbuf1_0))
    (spec1_1.stage ((cfg a).slots t 1)) (hstage1_1 (((cfg a).slots t 1).cast nbuf1_1))
    (spec1_2.stage ((cfg a).slots t 2)) (hstage1_2 (((cfg a).slots t 2).cast nbuf1_2))
    scM (Memref.isWhole_whole _)

set_option maxHeartbeats 4000000 in
theorem sound_body (c : Dev nD) (t : Fin (cfg a).N) :
    iprop((dat a V c).Φ t.castSucc ∗ (dat a V c).owesAt () t.castSucc
      ∗ (∃ d, owns (c : Thread nD τ) (st a t 0) fullShare ((dat a V c).before 0 t d))
      ∗ (∃ d, owns (c : Thread nD τ) (st a t 1) fullShare ((dat a V c).before 1 t d))
      ∗ (∃ d, owns (c : Thread nD τ) (st a t 2) fullShare ((dat a V c).before 2 t d)))
    ⊢ wp frame (wpE (defs₀ (F := F)) Variants.none c none) Set.univ (bodyAt a t) (fun _ =>
      iprop((dat a V c).Φ t.succ ∗ (dat a V c).owesAt () t.succ
        ∗ (dat a V c).leavesExact 0 t ∗ (dat a V c).leavesExact 1 t ∗ (dat a V c).leavesExact 2 t)) := by
  simp only [before0, before1]
  rw [show (dat a V c).owesAt () t.succ = (dat a V c).owesAt () t.castSucc from rfl]
  rw [show (dat a V c).Φ t.succ = Phi a V c (t.val + 1) t.isLt from rfl,
    show Phi a V c (t.val + 1) t.isLt = iprop(((∃ r, prngReg c r) ∗ Pipeline.prefHeld pre1 c (fun _ => fullShare) a.1)
      ∗ owns (c : Thread nD τ) scM fullShare (accAt a V c t.val t.isLt) ∗ restBut (F := F) c) from rfl]
  rw [show (dat a V c).leavesExact 0 t = owns (c : Thread nD τ) (st a t 0) fullShare ((dat a V c).after 0 t) from rfl, after0]
  rw [show (dat a V c).leavesExact 1 t = owns (c : Thread nD τ) (st a t 1) fullShare ((dat a V c).after 1 t) from rfl, after1]
  rw [show (dat a V c).Φ t.castSucc = Phi a V c t.val (Nat.le_of_lt t.isLt) from by dsimp only [dat]; simp only [Fin.coe_castSucc]]
  refine (Laws.sep_mono_left (Phi_open a V c t.val _)).trans ?_
  rw [prefHeld_eq]
  iintro ⟨⟨⟨Hg, HT0, HT1⟩, ⟨%p, %hp, HS⟩, HR⟩, Ho, ⟨%d0, H0⟩, ⟨%d1, H1⟩, ⟨%d2, H2⟩⟩
  iapply (sound_kernel c Set.univ _ (a.1 0) (a.1 1) (iblk a V c 0 t) (iblk a V c 1 t) ((dat a V c).before 2 t d2) p _)
  isplitl [HT0]; · iexact HT0
  isplitl [HT1]; · iexact HT1
  isplitl [H0]; · iexact H0
  isplitl [H1]; · iexact H1
  isplitl [H2]; · iexact H2
  isplitl [HS]; · iexact HS
  iintro ⟨HT0, HT1, H0, H1, H2, HS⟩
  rw [accAt_step a V c t p hp]
  isplitl [Hg HT0 HT1 HS HR]
  · isplitl [Hg HT0 HT1]
    · isplitl [Hg]; · iexact Hg
      isplitl [HT0]; · iexact HT0
      iexact HT1
    isplitl [HS]; · iexact HS
    iexact HR
  isplitl [Ho]; · iexact Ho
  isplitl [H0]; · iexact H0
  isplitl [H1]; · iexact H1
  iapply (leaves2 a V c t d2 p hp)
  iexact H2

theorem body_obligation (c : Dev nD) : Pipeline.BodyObligation (dat a V c) (defs₀ (F := F)) Variants.none () Set.univ := fun t => by
  rw [bigSep_W1, bigSep_W1]
  exact sound_body a V c t

theorem hin (c : Dev nD) :
    iprop((∃ r, prngReg c r) ∗ Pipeline.prefHeld pre1 c (fun _ => fullShare) a.1 ∗ Pipeline.scopedRest (cfg a).spec c) ⊢ (dat a V c).Φ 0 := by
  rw [show (dat a V c).Φ 0 = Phi a V c 0 (Nat.zero_le _) from rfl]
  exact Laws.sep_assoc.2

-- The accumulator's contents are forgotten.
theorem hout (c : Dev nD) :
    (dat a V c).Φ (Fin.last (cfg a).N)
      ⊢ iprop(((∃ r, prngReg c r) ∗ Pipeline.prefHeld pre1 c (fun _ => fullShare) a.1) ∗ Pipeline.scopedRest (cfg a).spec c) := by
  rw [show (dat a V c).Φ (Fin.last (cfg a).N) = Phi a V c (cfg a).N le_rfl from rfl, rest_eq]
  refine (Phi_open a V c _ _).trans ?_
  iintro ⟨HP, ⟨%p, -, HS⟩, HR⟩
  iframe HP HR
  iexists p; iexact HS

end Cert.KernelIdeal.R1

end
-- ==== Proof.KI.Reg2Defs.lean ====
import proofs.«430818_j23493471109148_2_alg».proof.Proof.Gen.KernelIdeal.Launch
import proofs.«430818_j23493471109148_2_alg».proof.Proof.Gen.KernelIdeal.Skeleton
import Idealize.ShloMosaic.Lib.Pipeline.FrameBody
import Idealize.ShloMosaic.Lib.Pipeline.Regions
import Idealize.ShloMosaic.Lib.Pipeline.Kit

set_option maxRecDepth 16384

noncomputable section

namespace Cert.KernelIdeal.R2

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (a : (pcfgs (F := F) 2).Adm)
variable (V : (c : Dev nD) → (b : Ref sig .tc) → Buf (Elt F) ((c : Thread nD τ).loc b))

abbrev cfg : Cfg sig Λ₀ := (pcfgs (F := F) 2).at a

def iblk (c : Dev nD) (w : Fin (cfg a).W) (t : Fin (cfg a).N) : (((cfg a).win w).xblock ((cfg a).grid.coords t)).Idx → Elt F ((cfg a).win w).elt :=
  (((cfg a).win w).blk t).view.read (Elt F) (V c (Pipeline.arrRef spec2 w))

def inBand (n v4 v6 : BitVec 32) : Prop :=
  Scalar.cmpi .ne (Scalar.extui (Scalar.andi (Scalar.cmpi .sge n v4) (Scalar.cmpi .sle n v6)) : BitVec 32) 0#32 = 1#1

instance (n v4 v6 : BitVec 32) : Decidable (inBand n v4 v6) := by unfold inBand; infer_instance

def lo (i : grid2.Coords) : BitVec 32 :=
  (a.1 0 : S235.Idx → BitVec 32) ((Rect.unit (s := S235) (k2_off1 i) S1.size (k2_off1_inb i)).idx (Shape.Idx.first (s := S1) (numel1_S1.symm ▸ Nat.one_pos)))

def hi (i : grid2.Coords) : BitVec 32 :=
  (a.1 1 : S235.Idx → BitVec 32) ((Rect.unit (s := S235) (k2_off1 i) S1.size (k2_off1_inb i)).idx (Shape.Idx.first (s := S1) (numel1_S1.symm ▸ Nat.one_pos)))

abbrev srcblk (c : Dev nD) (t : Fin (cfg a).N) : Vec F S2048x1 .i32 := iblk a V c 0 t
abbrev valblk (c : Dev nD) (t : Fin (cfg a).N) : Vec F S2048x1 .f32 := iblk a V c 1 t
abbrev embblk (c : Dev nD) (t : Fin (cfg a).N) : Vec F S4096x64 .f32 := iblk a V c 2 t

def accStep (i : grid2.Coords) (l h : BitVec 32) (x4 : Vec F S2048x1 .i32) (x6 : Vec F S4096x64 .f32) (prev : Vec F S2048x64 .f32) :
    Vec F S2048x64 .f32 :=
  if inBand (BitVec.ofNat 32 (i 1).val) l h then k2_pay2 i x4 x6 (if (i 1).val = 0 then k2_pay1 (F := F) else prev)
  else (if (i 1).val = 0 then k2_pay1 (F := F) else prev)

def accAt (c : Dev nD) : (n : ℕ) → n < (cfg a).N → Vec F S2048x64 .f32
  | 0, h => accStep ((cfg a).grid.coords ⟨0, h⟩) (lo a ((cfg a).grid.coords ⟨0, h⟩)) (hi a ((cfg a).grid.coords ⟨0, h⟩))
      (srcblk a V c ⟨0, h⟩) (embblk a V c ⟨0, h⟩) (k2_pay1 (F := F))
  | n + 1, h => accStep ((cfg a).grid.coords ⟨n + 1, h⟩) (lo a ((cfg a).grid.coords ⟨n + 1, h⟩)) (hi a ((cfg a).grid.coords ⟨n + 1, h⟩))
      (srcblk a V c ⟨n + 1, h⟩) (embblk a V c ⟨n + 1, h⟩) (accAt c n (Nat.lt_of_succ_lt h))

def outAt (c : Dev nD) (t : Fin (cfg a).N) : Vec F S2048x64 .f32 :=
  k2_pay3 (accAt a V c t.val t.isLt) (valblk a V c t)

abbrev scM : Memref sig .tc .vmem S2048x64 .f32 := Memref.whole cc2_scratch0

def Phi (c : Dev nD) : (n : ℕ) → n ≤ (cfg a).N → sProp 𝕄
  | 0, _ => iprop(((∃ r, prngReg c r) ∗ Pipeline.prefHeld pre2 c (fun _ => fullShare) a.1) ∗ Pipeline.scopedRest (cfg a).spec c)
  | n + 1, hn => iprop(((∃ r, prngReg c r) ∗ Pipeline.prefHeld pre2 c (fun _ => fullShare) a.1)
      ∗ owns (c : Thread nD τ) scM fullShare (accAt a V c n hn) ∗ Pipeline.scopedRestBut (Ix := Unit) (Name := ℕ) (U := UR sig nD τ) (Lvl := ℕ) (Val := Elt F) spec2 c [cc2_scratch0])

theorem scopedRest_split (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f))
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

def dat (c : Dev nD) : Dat τ (Elt F) Unit ℕ (UR sig nD τ) ℕ (cfg a) c where
  A w := V c (Pipeline.arrRef spec2 w)
  after w t := match w with
    | ⟨0, _⟩ => iblk a V c 0 t
    | ⟨1, _⟩ => iblk a V c 1 t
    | ⟨2, _⟩ => iblk a V c 2 t
    | ⟨3, _⟩ => outAt a V c t
  Φ t := Phi a V c t.val (Nat.le_of_lt_succ t.isLt)
  q _ := fullShare
  owed _ := 0

end Cert.KernelIdeal.R2

end
-- ==== Proof.KI.Reg2Frame.lean ====
import proofs.«430818_j23493471109148_2_alg».proof.Proof.KI.Reg2Defs
import Idealize.ShloMosaic.Lib.Tactic
import Idealize.ShloMosaic.Lib.Ring
import Idealize.ShloMosaic.Lib.Pipeline.Value

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfgs (F := F) 2).Adm)
variable (V : (c : Dev nD) → (b : Ref sig .tc) → Buf (Elt F) ((c : Thread nD τ).loc b))

def wordAt (i : grid2.Coords) (T : Vec F S235 .i32) : BitVec 32 :=
  (T : S235.Idx → BitVec 32) ((Rect.unit (s := S235) (k2_off1 i) S1.size (k2_off1_inb i)).idx (Shape.Idx.first (s := S1) (numel1_S1.symm ▸ Nat.one_pos)))

theorem hz2 : (![0, 0] : Fin 2 → ℕ) = fun _ => 0 := by funext a; fin_cases a <;> rfl

/-- A store through the whole rectangle made under a condition reads back as its payload where the condition holds, else as what was there. -/
theorem read_dite {sp : Space} (v : View sig .tc sp S2048x64 .f32) (P : Prop) [Decidable P] (f : v.ty.Contents (Elt F)) (w : Vec F S2048x64 .f32) :
    v.read (Elt F) (if _ : P then v.writes (Elt F) f [⟨Rect.unit (s := S2048x64) ![0, 0] S2048x64.size inb_S2048x64_S2048x64_0_0, w⟩] else f)
      = if P then w else v.read (Elt F) f := by
  by_cases h : P
  · rw [dif_pos h, if_pos h, View.read_writes_eq_canon _ _ _ (fun y => ⟨_, List.mem_cons.mpr (Or.inl rfl), View.mem_set_unit_zero hz2 inb_S2048x64_S2048x64_0_0 y⟩),
      View.canon_cons_unit_zero hz2]
  · rw [dif_neg h, if_neg h]

theorem first_iff (j : Fin 10) :
    (Scalar.cmpi .ne (Scalar.extui (Scalar.cmpi .eq (BitVec.ofNat 32 j.val) 0#32) : BitVec 32) 0#32 = 1#1) ↔ j.val = 0 := by
  revert j; decide

section
variable (c : Dev nD) (E : Set ℕ) (i : grid2.Coords)
  (arg2 arg3 : Memref sig .tc .smem S235 .i32) (arg4 : Memref sig .tc .vmem S2048x1 .i32) (arg5 : Memref sig .tc .vmem S2048x1 .f32)
  (arg6 : Memref sig .tc .vmem S4096x64 .f32) (arg7 arg8 : Memref sig .tc .vmem S2048x64 .f32)
  (t2 t3 : Vec F S235 .i32) (x4 : Vec F S2048x1 .i32) (x5 : Vec F S2048x1 .f32) (x6 : Vec F S4096x64 .f32)

/-- The seven memrefs the body touches, each owned whole at named contents. -/
def held (y7 y8 : Vec F S2048x64 .f32) : sProp 𝕄 :=
  iprop(owns (c : Thread nD τ) arg2 fullShare t2 ∗ owns (c : Thread nD τ) arg3 fullShare t3
    ∗ owns (c : Thread nD τ) arg4 fullShare x4 ∗ owns (c : Thread nD τ) arg5 fullShare x5 ∗ owns (c : Thread nD τ) arg6 fullShare x6
    ∗ owns (c : Thread nD τ) arg7 fullShare y7 ∗ owns (c : Thread nD τ) arg8 fullShare y8)

set_option maxHeartbeats 1000000 in
/-- One run of the body at any coordinates: tables and inputs are left as found, the accumulator takes its step, the output is written at the last row tile only. -/
theorem sound_kernel (harg2 : arg2.IsWhole) (harg3 : arg3.IsWhole) (harg4 : arg4.IsWhole) (harg5 : arg5.IsWhole) (harg6 : arg6.IsWhole)
    (harg7 : arg7.IsWhole) (harg8 : arg8.IsWhole) (x7 acc y7 y8 : Vec F S2048x64 .f32)
    (h8 : y8 = accStep i (wordAt i t2) (wordAt i t3) x4 x6 acc) (h7 : y7 = if k2_cond3 i = 1#1 then k2_pay3 y8 x5 else x7) (K : PUnit → sProp 𝕄) :
    iprop(held c arg2 arg3 arg4 arg5 arg6 arg7 arg8 t2 t3 x4 x5 x6 x7 acc
        ∗ (held c arg2 arg3 arg4 arg5 arg6 arg7 arg8 t2 t3 x4 x5 x6 y7 y8 -∗ K ⟨⟩))
      ⊢ wp frame (wpE (defs₀ (F := F)) Variants.none c none) E (cc2_kernel i arg2 harg2 arg3 harg3 arg4 harg4 arg5 harg5 arg6 harg6 arg7 harg7 arg8 harg8) K := by
  subst h7 h8
  simp only [cc2_kernel_eq_skeleton]; unfold cc2_kernel_skel held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  subst hf2 hf3 hf4 hf5 hf6 hf7 hf8
  sl_exec
  sl_step
  iapply Hk
  isplitl [H2]; swap; isplitl [H3]; swap; isplitl [H4]; swap; isplitl [H5]; swap; isplitl [H6]; swap; isplitl [H7]; swap
  all_goals iexists _; isplitr; swap; iassumption; ipureintro
  rotate_left 2; iterate 5 rfl
  all_goals unfold accStep; sl_unfold_run_names; rw [read_dite]
  all_goals simp only [View.readAt_eq_ld, View.ld_unit_zero (S := S2048x1) hz2, View.ld_unit_zero (S := S4096x64) hz2, View.ld_unit_zero (S := S2048x64) hz2]
  all_goals repeat rw [read_dite]
  all_goals simp only [first_iff (i 1)]
  all_goals rfl
end

abbrev bodyAt (t : Fin (cfg a).N) : Prog (TpuEff nD τ sig (Elt F) Λ₀ .tc) PUnit :=
  cc2_kernel (grid2.coords t) (Memref.whole main_v91) (Memref.isWhole_whole _) (Memref.whole main_v93) (Memref.isWhole_whole _)
    (spec2_0.stage ((cfg a).slots t 0)) (hstage2_0 (((cfg a).slots t 0).cast nbuf2_0))
    (spec2_1.stage ((cfg a).slots t 1)) (hstage2_1 (((cfg a).slots t 1).cast nbuf2_1))
    (spec2_2.stage ((cfg a).slots t 2)) (hstage2_2 (((cfg a).slots t 2).cast nbuf2_2))
    (spec2_3.stage ((cfg a).slots t 3)) (hstage2_3 (((cfg a).slots t 3).cast nbuf2_3))
    (Memref.whole cc2_scratch0) (Memref.isWhole_whole _)

abbrev stepAt (c : Dev nD) (t : Fin (cfg a).N) (prev : Vec F S2048x64 .f32) : Vec F S2048x64 .f32 :=
  accStep ((cfg a).grid.coords t) (lo a ((cfg a).grid.coords t)) (hi a ((cfg a).grid.coords t)) (srcblk a V c t) (embblk a V c t) prev

theorem prefHeld_eq (c : Dev nD) :
    (Pipeline.prefHeld (Ix := Unit) (Name := ℕ) (U := UR sig nD τ) (Lvl := ℕ) pre2 c (fun _ => fullShare) a.1 : sProp 𝕄)
      = iprop(owns (c : Thread nD τ) (Memref.whole main_v91) fullShare (a.1 0) ∗ owns (c : Thread nD τ) (Memref.whole main_v93) fullShare (a.1 1)) := by
  unfold Pipeline.prefHeld
  rw [BI.bigSep_fin_two]
  exact congrArg₂ BI.sep (owns_whole (c : Thread nD τ) main_v91 fullShare (a.1 0)).symm (owns_whole (c : Thread nD τ) main_v93 fullShare (a.1 1)).symm

variable (c : Dev nD) (t : Fin (cfg a).N)

theorem A_eq (w : Fin (cfg a).W) : (dat a V c).A w = V c (Pipeline.arrRef spec2 w) := by
  dsimp only [dat]

theorem after0 : (dat a V c).after 0 t = iblk a V c 0 t := by dsimp only [dat]; rfl
theorem after1 : (dat a V c).after 1 t = iblk a V c 1 t := by dsimp only [dat]; rfl
theorem after2 : (dat a V c).after 2 t = iblk a V c 2 t := by dsimp only [dat]; rfl

theorem before0 (d) : (dat a V c).before 0 t d = iblk a V c 0 t :=
  ((dat a V c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (d) : (dat a V c).before 1 t d = iblk a V c 1 t :=
  ((dat a V c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (d) : (dat a V c).before 2 t d = iblk a V c 2 t :=
  ((dat a V c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

theorem leaves0 : (dat a V c).leavesExact 0 t = owns (c : Thread nD τ) (((cfg a).win 0).stage ((cfg a).slots t 0)) fullShare (iblk a V c 0 t) := by
  rw [← after0]; rfl
theorem leaves1 : (dat a V c).leavesExact 1 t = owns (c : Thread nD τ) (((cfg a).win 1).stage ((cfg a).slots t 1)) fullShare (iblk a V c 1 t) := by
  rw [← after1]; rfl
theorem leaves2 : (dat a V c).leavesExact 2 t = owns (c : Thread nD τ) (((cfg a).win 2).stage ((cfg a).slots t 2)) fullShare (iblk a V c 2 t) := by
  rw [← after2]; rfl

def flushF (t : Fin grid2.N) : Bool :=
  true && (decide (t.val + 1 = grid2.N) || decide (∃ h : t.val + 1 < grid2.N, cc2_transform_3 (grid2.coords ⟨t.val + 1, h⟩) ≠ cc2_transform_3 (grid2.coords t)))

theorem noFlushF : ∀ t : Fin grid2.N, ¬ (k2_cond3 (grid2.coords t) = 1#1) → flushF t = false := by decide +kernel

/-- The output window's post from its contents: the stored block at the last row tile, what was found elsewhere. -/
theorem leaves3_of (d) (X : Vec F S2048x64 .f32)
    (h1 : k2_cond3 ((cfg a).grid.coords t) = 1#1 → X = outAt a V c t) (h2 : ¬ k2_cond3 ((cfg a).grid.coords t) = 1#1 → X = (dat a V c).before 3 t d) :
    owns (c : Thread nD τ) (((cfg a).win 3).stage ((cfg a).slots t 3)) fullShare X ⊢ (dat a V c).leavesExact 3 t := by
  by_cases hc3 : k2_cond3 ((cfg a).grid.coords t) = 1#1
  · obtain rfl := h1 hc3
    have hi : (cfg a).idle 3 ((cfg a).grid.coords t) = false := by
      show (!(k2_cond3 ((cfg a).grid.coords t) == 1#1)) = false
      rw [hc3]; rfl
    unfold Dat.leavesExact; rw [hi]; dsimp only [dat]; exact .rfl
  · obtain rfl := h2 hc3
    have hi : (cfg a).idle 3 ((cfg a).grid.coords t) = true := by
      show (!(k2_cond3 ((cfg a).grid.coords t) == 1#1)) = true
      rw [Bool.not_eq_true', beq_eq_false_iff_ne]; exact hc3
    rw [Dat.leavesExact_idle (dat a V c) 3 t hi (noFlushF t hc3)]
    iintro H; iexists d; iexact H

/-- At every position the invariant yields accumulator contents from which the point's step gives accAt: anything at position 0 (the step clears it), accAt of the point before afterwards. -/
theorem Phi_open : ∀ n h, Phi a V c n h ⊢ iprop(∃ p, ⌜∀ h', accAt a V c n h' = stepAt a V c ⟨n, h'⟩ p⌝
      ∗ ((∃ r, prngReg c r) ∗ Pipeline.prefHeld pre2 c (fun _ => fullShare) a.1) ∗ owns (c : Thread nD τ) scM fullShare p
      ∗ Pipeline.scopedRestBut (Ix := Unit) (Name := ℕ) (U := UR sig nD τ) (Lvl := ℕ) (Val := Elt F) spec2 c [cc2_scratch0])
  | 0, _ => by
    rw [Phi, show Pipeline.scopedRest (cfg a).spec c = _ from scopedRest_split c]
    iintro ⟨Hgp, ⟨%f, Hs⟩, Hrb⟩
    iexists f; rw [owns_whole]; iframe
    ipureintro; intro h'
    have h0 : ((cfg a).grid.coords ⟨0, h'⟩ 1).val = 0 := by
      show 0 / grid2.stride 1 % grid2.bound 1 = 0
      rw [Nat.zero_div, Nat.zero_mod]
    show accStep _ _ _ _ _ _ = accStep _ _ _ _ _ _
    unfold accStep; rw [if_pos h0, if_pos h0]
  | n + 1, h => by
    rw [Phi]; iintro H; iexists accAt a V c n h; isplitr; · ipureintro; exact fun _ => rfl
    iexact H

/-- What the body is handed for window w. -/
def stg (w : Fin (cfg a).W) : sProp 𝕄 :=
  iprop(∃ d, owns (c : Thread nD τ) (((cfg a).win w).stage ((cfg a).slots t w)) fullShare ((dat a V c).before w t d))

set_option maxHeartbeats 1400000 in
/-- The body obligation at point t, the four windows written out. -/
theorem sound_body :
    iprop((dat a V c).Φ t.castSucc ∗ (dat a V c).owesAt () t.castSucc ∗ stg a V c t 0 ∗ stg a V c t 1 ∗ stg a V c t 2 ∗ stg a V c t 3)
      ⊢ wp frame (wpE (defs₀ (F := F)) Variants.none c none) Set.univ (bodyAt a t) fun _ =>
        iprop((dat a V c).Φ t.succ ∗ (dat a V c).owesAt () t.succ ∗ (dat a V c).leavesExact 0 t ∗ (dat a V c).leavesExact 1 t
          ∗ (dat a V c).leavesExact 2 t ∗ (dat a V c).leavesExact 3 t) := by
  unfold stg
  simp only [before0, before1, before2]
  rw [show (dat a V c).owesAt () t.succ = (dat a V c).owesAt () t.castSucc from rfl,
    show (dat a V c).Φ t.succ = Phi a V c (t.val + 1) t.isLt from rfl, Phi, leaves0, leaves1, leaves2]
  refine (sep_mono_left (Phi_open a V c t.val _)).trans ?_
  rw [prefHeld_eq]
  iintro ⟨⟨%p, %hp, ⟨Hg, Ht2, Ht3⟩, Hs, Hrb⟩, Ho, ⟨%_, H0⟩, ⟨%_, H1⟩, ⟨%_, H2⟩, ⟨%d, H3⟩⟩
  iapply sound_kernel (i := grid2.coords t) (t2 := a.1 0) (t3 := a.1 1) (x5 := iblk a V c 1 t) (x7 := (dat a V c).before 3 t d) (acc := p)
    (y7 := if k2_cond3 ((cfg a).grid.coords t) = 1#1 then outAt a V c t else (dat a V c).before 3 t d) (h8 := hp t.isLt) (h7 := rfl)
  unfold held
  iframe Ht2 Ht3 Hs
  isplitl [H0 H1 H2 H3]
  · isplitl [H0]; · iexact H0
    isplitl [H1]; · iexact H1
    isplitl [H2]; · iexact H2
    iexact H3
  iintro ⟨Ht2, Ht3, H0, H1, H2, H3, Hs⟩
  iframe Hg Ht2 Ht3 Hs Hrb Ho
  isplitl [H0]; · iexact H0
  isplitl [H1]; · iexact H1
  isplitl [H2]; · iexact H2
  iapply leaves3_of a V c t d _ (fun h => if_pos h) (fun h => if_neg h)
  iexact H3

theorem body_obligation : Pipeline.BodyObligation (dat a V c) (defs₀ (F := F)) Variants.none () Set.univ := fun t => by
  rw [bigSep_W2, bigSep_W2]
  exact sound_body a V c t

theorem hin : iprop((∃ r, prngReg c r) ∗ Pipeline.prefHeld pre2 c (fun _ => fullShare) a.1 ∗ Pipeline.scopedRest (cfg a).spec c) ⊢ (dat a V c).Φ 0 :=
  sep_assoc.2

theorem hout : (dat a V c).Φ (Fin.last (cfg a).N) ⊢ iprop(((∃ r, prngReg c r) ∗ Pipeline.prefHeld pre2 c (fun _ => fullShare) a.1) ∗ Pipeline.scopedRest (cfg a).spec c) := by
  refine (Phi_open a V c (cfg a).N le_rfl).trans ?_
  rw [show Pipeline.scopedRest (cfg a).spec c = _ from scopedRest_split c]
  iintro ⟨%p, -, Hgp, Hs, Hrb⟩
  iframe Hgp Hrb
  iexists p; rw [← owns_whole]; iexact Hs

end Cert.KernelIdeal.R2

end
-- ==== Proof.KI.Reg3Defs.lean ====
import proofs.«430818_j23493471109148_2_alg».proof.Proof.Gen.KernelIdeal.Launch
import proofs.«430818_j23493471109148_2_alg».proof.Proof.Gen.KernelIdeal.Skeleton
import Idealize.ShloMosaic.Lib.Pipeline.FrameBody
import Idealize.ShloMosaic.Lib.Pipeline.Regions
import Idealize.ShloMosaic.Lib.Pipeline.Kit

set_option maxRecDepth 16384

noncomputable section

namespace Cert.KernelIdeal.R3

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfgs (F := F) 3).Adm)
variable (V : (c : Dev nD) → (b : Ref sig .tc) → Buf (Elt F) ((c : Thread nD τ).loc b))

abbrev cfg : Cfg sig Λ₀ := (pcfgs (F := F) 3).at a

def iblk (c : Dev nD) (w : Fin (cfg a).W) (t : Fin (cfg a).N) : (((cfg a).win w).xblock ((cfg a).grid.coords t)).Idx → Elt F ((cfg a).win w).elt :=
  (((cfg a).win w).blk t).view.read (Elt F) (V c (Pipeline.arrRef spec3 w))

def inBand (n v4 v6 : BitVec 32) : Prop :=
  Scalar.cmpi .ne (Scalar.extui (Scalar.andi (Scalar.cmpi .sge n v4) (Scalar.cmpi .sle n v6)) : BitVec 32) 0#32 = 1#1

instance (n v4 v6 : BitVec 32) : Decidable (inBand n v4 v6) := by unfold inBand; infer_instance

def lo (i : grid3.Coords) : BitVec 32 :=
  (a.1 0 : S235.Idx → BitVec 32) ((Rect.unit (s := S235) (k3_off1 i) S1.size (k3_off1_inb i)).idx (Shape.Idx.first (s := S1) (numel1_S1.symm ▸ Nat.one_pos)))

def hi (i : grid3.Coords) : BitVec 32 :=
  (a.1 1 : S235.Idx → BitVec 32) ((Rect.unit (s := S235) (k3_off1 i) S1.size (k3_off1_inb i)).idx (Shape.Idx.first (s := S1) (numel1_S1.symm ▸ Nat.one_pos)))

abbrev dstblk (c : Dev nD) (t : Fin (cfg a).N) : Vec F S1x2048 .i32 := iblk a V c 0 t
abbrev sclblk (c : Dev nD) (t : Fin (cfg a).N) : Vec F S2048x64 .f32 := iblk a V c 1 t

def accStep (i : grid3.Coords) (l h : BitVec 32) (x4 : Vec F S1x2048 .i32) (x5 : Vec F S2048x64 .f32) (prev : Vec F S4096x64 .f32) :
    Vec F S4096x64 .f32 :=
  if inBand (BitVec.ofNat 32 (i 0).val) l h then k3_pay2 i x4 x5 (if (i 1).val = 0 then k3_pay1 (F := F) else prev)
  else (if (i 1).val = 0 then k3_pay1 (F := F) else prev)

def accAt (c : Dev nD) : (n : ℕ) → n < (cfg a).N → Vec F S4096x64 .f32
  | 0, h => accStep ((cfg a).grid.coords ⟨0, h⟩) (lo a ((cfg a).grid.coords ⟨0, h⟩)) (hi a ((cfg a).grid.coords ⟨0, h⟩))
      (dstblk a V c ⟨0, h⟩) (sclblk a V c ⟨0, h⟩) (k3_pay1 (F := F))
  | n + 1, h => accStep ((cfg a).grid.coords ⟨n + 1, h⟩) (lo a ((cfg a).grid.coords ⟨n + 1, h⟩)) (hi a ((cfg a).grid.coords ⟨n + 1, h⟩))
      (dstblk a V c ⟨n + 1, h⟩) (sclblk a V c ⟨n + 1, h⟩) (accAt c n (Nat.lt_of_succ_lt h))

def outAt (c : Dev nD) (t : Fin (cfg a).N) : Vec F S4096x64 .f32 :=
  accAt a V c t.val t.isLt

abbrev scM : Memref sig .tc .vmem S4096x64 .f32 := Memref.whole cc3_scratch0

def Phi (c : Dev nD) : (n : ℕ) → n ≤ (cfg a).N → sProp 𝕄
  | 0, _ => iprop(((∃ r, prngReg c r) ∗ Pipeline.prefHeld pre3 c (fun _ => fullShare) a.1) ∗ Pipeline.scopedRest (cfg a).spec c)
  | n + 1, hn => iprop(((∃ r, prngReg c r) ∗ Pipeline.prefHeld pre3 c (fun _ => fullShare) a.1)
      ∗ owns (c : Thread nD τ) scM fullShare (accAt a V c n hn) ∗ Pipeline.scopedRestBut (Ix := Unit) (Name := ℕ) (U := UR sig nD τ) (Lvl := ℕ) (Val := Elt F) spec3 c [cc3_scratch0])

theorem scopedRest_split (c : Dev nD) :
    (Pipeline.scopedRest (Ix := Unit) (Name := ℕ) (U := UR sig nD τ) (Lvl := ℕ) (Val := Elt F) spec3 c : sProp 𝕄)
      = iprop(iprop((∃ f : Buf (Elt F) ((c : Thread nD τ).loc cc3_scratch0), ((c : Thread nD τ).loc cc3_scratch0) ↦{fullShare} f))
          ∗ Pipeline.scopedRestBut (Ix := Unit) (Name := ℕ) (U := UR sig nD τ) (Lvl := ℕ) (Val := Elt F) spec3 c [cc3_scratch0]) :=
  Pipeline.scopedRest_split_of_list spec3 c [cc3_scratch0] (by decide) (by decide)

def dat (c : Dev nD) : Dat τ (Elt F) Unit ℕ (UR sig nD τ) ℕ (cfg a) c where
  A w := V c (Pipeline.arrRef spec3 w)
  after w t := match w with
    | ⟨0, _⟩ => iblk a V c 0 t
    | ⟨1, _⟩ => iblk a V c 1 t
    | ⟨2, _⟩ => outAt a V c t
  Φ t := Phi a V c t.val (Nat.le_of_lt_succ t.isLt)
  q _ := fullShare
  owed _ := 0

end Cert.KernelIdeal.R3

end
-- ==== Proof.KI.Reg3Frame.lean ====
import proofs.«430818_j23493471109148_2_alg».proof.Proof.KI.Reg3Defs
import Idealize.ShloMosaic.Lib.Pipeline.Value
import Idealize.ShloMosaic.Lib.Pipeline.TableIdle
import Idealize.ShloMosaic.Lib.Ring
import Idealize.ShloMosaic.Lib.Tactic

set_option maxRecDepth 16384

noncomputable section

namespace Cert.KernelIdeal.R3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev RA : Rect S4096x64 := Rect.unit (s := S4096x64) ![0, 0] S4096x64.size inb_S4096x64_S4096x64_0_0

theorem off0 : (![0, 0] : Fin 2 → Nat) = fun _ => 0 := by
  funext x; fin_cases x <;> rfl

theorem read_if_store {P : Prop} [Decidable P] {κ : Kind} {sp : Space} (v : View sig κ sp S4096x64 .f32) (f : v.ty.Contents (Elt F))
    (w : Vec F S4096x64 .f32) :
    v.read (Elt F) (if _ : P then v.writes (Elt F) f [⟨RA, w⟩] else f) = if P then w else v.read (Elt F) f := by
  split
  · rw [View.read_writes_eq_canon _ _ _ (View.cover_of_tiled [⟨RA, w⟩] S4096x64.size (by rfl)), View.canon_unit_zero off0]
  · rfl

theorem readAt_unit {κ : Kind} {sp : Space} {S : Shape} {e : EltTy} (v : View sig κ sp S e) {off : Fin S.rank → Nat} (h : off = fun _ => 0)
    {inb : ∀ a, off a + S.size a ≤ S.size a} (f : v.ty.Contents (Elt F)) :
    v.readAt (Elt F) (Rect.unit off S.size inb).toLoadRect f = v.read (Elt F) f := by
  rw [View.readAt_eq_ld, View.ld_unit_zero h]

def wordAt (i : grid3.Coords) (tb : Vec F S235 .i32) : BitVec 32 :=
  tb ((Rect.unit (s := S235) (k3_off1 i) S1.size (k3_off1_inb i)).idx (Shape.Idx.first (s := S1) (numel1_S1.symm ▸ Nat.one_pos)))

theorem cond1_iff_aux : ∀ j : Fin 235,
    (Scalar.cmpi .ne (Scalar.extui (Scalar.cmpi .eq (BitVec.ofNat 32 j.val) 0#32) : BitVec 32) 0#32 = 1#1) ↔ j.val = 0 := by
  decide +kernel

-- accStep with its two tests under any decision procedure.
theorem accStep_eq {P Q : Prop} [Decidable P] [Decidable Q] (i : grid3.Coords) (l h : BitVec 32)
    (hP : P ↔ inBand (BitVec.ofNat 32 (i 0).val) l h) (hQ : Q ↔ (i 1).val = 0)
    (x4 : Vec F S1x2048 .i32) (x5 : Vec F S2048x64 .f32) (prev : Vec F S4096x64 .f32) :
    (if P then k3_pay2 i x4 x5 (if Q then k3_pay1 (F := F) else prev) else if Q then k3_pay1 (F := F) else prev)
      = accStep i l h x4 x5 prev := by
  unfold accStep; simp only [hP, hQ]

set_option maxHeartbeats 2000000 in
-- No guard is decided beforehand, so one statement serves every point of a row.
theorem sound_kernel (c : Dev nD) (E : Set ℕ) (i : grid3.Coords)
    {arg2 : Memref sig .tc .smem S235 .i32} {harg2 : arg2.IsWhole} {arg3 : Memref sig .tc .smem S235 .i32} {harg3 : arg3.IsWhole}
    {arg4 : Memref sig .tc .vmem S1x2048 .i32} {harg4 : arg4.IsWhole} {arg5 : Memref sig .tc .vmem S2048x64 .f32} {harg5 : arg5.IsWhole}
    {arg6 : Memref sig .tc .vmem S4096x64 .f32} {harg6 : arg6.IsWhole} {arg7 : Memref sig .tc .vmem S4096x64 .f32} {harg7 : arg7.IsWhole}
    (t2 t3 : Vec F S235 .i32) (x4 : Vec F S1x2048 .i32) (x5 : Vec F S2048x64 .f32) (d6 p7 : Vec F S4096x64 .f32)
    (K : PUnit → sProp 𝕄) :
    iprop(owns (c : Thread nD τ) arg2 fullShare t2 ∗ owns (c : Thread nD τ) arg3 fullShare t3
        ∗ owns (c : Thread nD τ) arg4 fullShare x4 ∗ owns (c : Thread nD τ) arg5 fullShare x5
        ∗ owns (c : Thread nD τ) arg6 fullShare d6 ∗ owns (c : Thread nD τ) arg7 fullShare p7
        ∗ (iprop(owns (c : Thread nD τ) arg2 fullShare t2 ∗ owns (c : Thread nD τ) arg3 fullShare t3
            ∗ owns (c : Thread nD τ) arg4 fullShare x4 ∗ owns (c : Thread nD τ) arg5 fullShare x5
            ∗ owns (c : Thread nD τ) arg6 fullShare (if k3_cond3 i = 1#1 then accStep i (wordAt i t2) (wordAt i t3) x4 x5 p7 else d6)
            ∗ owns (c : Thread nD τ) arg7 fullShare (accStep i (wordAt i t2) (wordAt i t3) x4 x5 p7)) -∗ K ⟨⟩))
      ⊢ wp frame (wpE (defs₀ (F := F)) Variants.none c none) E (cc3_kernel i arg2 harg2 arg3 harg3 arg4 harg4 arg5 harg5 arg6 harg6 arg7 harg7) K := by
  simp only [cc3_kernel_eq_skeleton]; unfold cc3_kernel_skel
  rw [owns_eq_rep (c : Thread nD τ) arg2, owns_eq_rep (c : Thread nD τ) arg3, owns_eq_rep (c : Thread nD τ) arg4,
    owns_eq_rep (c : Thread nD τ) arg5, owns_eq_rep (c : Thread nD τ) arg6 _ d6, owns_eq_rep (c : Thread nD τ) arg7 _ p7]
  unfold owns
  iintro ⟨H2, H3, H4, H5, H6, H7, Hk⟩
  sl_exec
  sl_step
  sl_unfold_run_names
  iapply Hk
  iframe H2 H3 H4 H5
  isplitl [H6] <;>
    (iexists _; isplitr; swap; iassumption; ipureintro
     try rw [read_if_store arg6.view, readAt_unit arg7.view off0]
     rw [read_if_store, readAt_unit arg7.view off0, read_if_store, readAt_unit arg4.view off0, readAt_unit arg5.view off0,
       View.readAt_eq_ld arg2.view, View.readAt_eq_ld arg3.view]
     simp only [View.read_rep])
  · congr 1
    refine accStep_eq i _ _ ?_ (cond1_iff_aux (i 1)) x4 x5 p7; exact Iff.rfl
  · refine accStep_eq i _ _ ?_ (cond1_iff_aux (i 1)) x4 x5 p7; exact Iff.rfl

variable (a : (pcfgs (F := F) 3).Adm)

theorem flush2_aux : ∀ t : Fin grid3.N,
    (t.val + 1 = grid3.N || decide (∃ h : t.val + 1 < grid3.N, cc3_transform_2 (grid3.coords ⟨t.val + 1, h⟩) ≠ cc3_transform_2 (grid3.coords t))) = true
      ↔ k3_cond3 (grid3.coords t) = 1#1 := by
  decide +kernel

theorem coords_zero (t : Fin (cfg a).N) (hz : t.val = 0) : (((cfg a).grid.coords t) 1).val = 0 := by
  show t.val / _ % _ = 0
  rw [hz, Nat.zero_div, Nat.zero_mod]

variable (V : (c : Dev nD) → (b : Ref sig .tc) → Buf (Elt F) ((c : Thread nD τ).loc b))

theorem A_eq (c : Dev nD) (w : Fin (cfg a).W) : (dat a V c).A w = V c (Pipeline.arrRef spec3 w) := by
  dsimp only [dat]

theorem after0 (c : Dev nD) (t : Fin (cfg a).N) : (dat a V c).after 0 t = iblk a V c 0 t := by dsimp only [dat]; rfl
theorem after1 (c : Dev nD) (t : Fin (cfg a).N) : (dat a V c).after 1 t = iblk a V c 1 t := by dsimp only [dat]; rfl

theorem before0 (c : Dev nD) (t : Fin (cfg a).N) (d) : (dat a V c).before 0 t d = iblk a V c 0 t :=
  ((dat a V c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin (cfg a).N) (d) : (dat a V c).before 1 t d = iblk a V c 1 t :=
  ((dat a V c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)

abbrev restBut (c : Dev nD) : sProp 𝕄 :=
  Pipeline.scopedRestBut (Ix := Unit) (Name := ℕ) (U := UR sig nD τ) (Lvl := ℕ) (Val := Elt F) spec3 c [cc3_scratch0]

theorem prefHeld_eq (c : Dev nD) :
    (Pipeline.prefHeld pre3 c (fun _ => fullShare) a.1 : sProp 𝕄)
      = iprop(owns (c : Thread nD τ) (pre3.buf 0) fullShare (a.1 0) ∗ owns (c : Thread nD τ) (pre3.buf 1) fullShare (a.1 1)) := by
  unfold Pipeline.prefHeld
  rw [bigSep_univ_eq_bigSepL [(0 : Fin 2), (1 : Fin 2)] (by decide) (by decide)]
  simp only [owns_whole]
  rfl

theorem rest_eq (c : Dev nD) :
    (Pipeline.scopedRest (cfg a).spec c : sProp 𝕄) = iprop((∃ d, owns (c : Thread nD τ) scM fullShare d) ∗ restBut (F := F) c) :=
  (scopedRest_split (F := F) c).trans (by simp only [owns_whole]; rfl)

-- At the first point the step clears the carried block, so its contents do not matter.
theorem accAt_step (c : Dev nD) (t : Fin (cfg a).N) (p : Vec F S4096x64 .f32) (hp : ∀ hz : t.val ≠ 0, p = accAt a V c (t.val - 1) (by omega)) :
    accAt a V c t.val t.isLt = accStep ((cfg a).grid.coords t) (wordAt ((cfg a).grid.coords t) (a.1 0)) (wordAt ((cfg a).grid.coords t) (a.1 1))
      (iblk a V c 0 t) (iblk a V c 1 t) p := by
  obtain ⟨n, hn⟩ := t
  cases n with
  | zero => show accStep _ _ _ _ _ (k3_pay1 (F := F)) = _; unfold accStep; simp only [coords_zero a ⟨0, hn⟩ rfl, if_true]; rfl
  | succ n => rw [hp (Nat.succ_ne_zero n)]; rfl

-- Both cases of the invariant in one shape: the carried block at some contents, known past the first point.
theorem Phi_open (c : Dev nD) : (n : ℕ) → (h : n ≤ (cfg a).N) →
    Phi a V c n h ⊢ iprop(((∃ r, prngReg c r) ∗ Pipeline.prefHeld pre3 c (fun _ => fullShare) a.1)
      ∗ (∃ p, ⌜∀ hz : n ≠ 0, p = accAt a V c (n - 1) (by omega)⌝ ∗ owns (c : Thread nD τ) scM fullShare p) ∗ restBut (F := F) c)
  | 0, _ => by
    simp only [Phi, rest_eq]
    iintro ⟨HP, ⟨%d, HS⟩, HR⟩
    iframe HP HR
    iexists d; isplitr; · ipureintro; exact fun hz => absurd rfl hz
    iexact HS
  | n + 1, _ => by
    simp only [Phi]
    iintro ⟨HP, HS, HR⟩
    iframe HP HR
    iexists _; isplitr; swap; iexact HS
    ipureintro; exact fun _ => rfl

abbrev st (t : Fin (cfg a).N) (w : Fin (cfg a).W) := ((cfg a).win w).stage ((cfg a).slots t w)

theorem leaves2 (c : Dev nD) (t : Fin (cfg a).N) (d) (p : Vec F S4096x64 .f32) (hp : ∀ hz : t.val ≠ 0, p = accAt a V c (t.val - 1) (by omega)) :
    owns (c : Thread nD τ) (st a t 2) fullShare
        (if k3_cond3 ((cfg a).grid.coords t) = 1#1 then accStep ((cfg a).grid.coords t) (wordAt ((cfg a).grid.coords t) (a.1 0))
          (wordAt ((cfg a).grid.coords t) (a.1 1)) (iblk a V c 0 t) (iblk a V c 1 t) p else (dat a V c).before 2 t d)
      ⊢ (dat a V c).leavesExact 2 t := by
  have hi : (cfg a).idle 2 ((cfg a).grid.coords t) = !(k3_cond3 ((cfg a).grid.coords t) == 1#1) := rfl
  by_cases h3 : k3_cond3 ((cfg a).grid.coords t) = 1#1
  · refine (Entails.of_eq (congrArg (owns (c : Thread nD τ) (st a t 2) fullShare) ((if_pos h3).trans (accAt_step a V c t p hp).symm))).trans ?_
    unfold Dat.leavesExact; rw [show (cfg a).idle 2 ((cfg a).grid.coords t) = false from by rw [hi, h3]; rfl]
    exact .rfl
  · refine (Entails.of_eq (congrArg (owns (c : Thread nD τ) (st a t 2) fullShare) (if_neg h3))).trans ?_
    rw [Dat.leavesExact_idle _ 2 t (by rw [hi, Bool.not_eq_true', beq_eq_false_iff_ne]; exact h3)
      (by rw [← Bool.not_eq_true]; exact fun hf => h3 ((flush2_aux t).mp hf))]
    iintro H; iexists d; iexact H

abbrev bodyAt (t : Fin (cfg a).N) : Prog (TpuEff nD τ sig (Elt F) Λ₀ .tc) PUnit :=
  cc3_kernel ((cfg a).grid.coords t) (pre3.buf 0) (Memref.isWhole_whole _) (pre3.buf 1) (Memref.isWhole_whole _)
    (spec3_0.stage ((cfg a).slots t 0)) (hstage3_0 (((cfg a).slots t 0).cast nbuf3_0))
    (spec3_1.stage ((cfg a).slots t 1)) (hstage3_1 (((cfg a).slots t 1).cast nbuf3_1))
    (spec3_2.stage ((cfg a).slots t 2)) (hstage3_2 (((cfg a).slots t 2).cast nbuf3_2))
    scM (Memref.isWhole_whole _)

set_option maxHeartbeats 4000000 in
theorem sound_body (c : Dev nD) (t : Fin (cfg a).N) :
    iprop((dat a V c).Φ t.castSucc ∗ (dat a V c).owesAt () t.castSucc
      ∗ (∃ d, owns (c : Thread nD τ) (st a t 0) fullShare ((dat a V c).before 0 t d))
      ∗ (∃ d, owns (c : Thread nD τ) (st a t 1) fullShare ((dat a V c).before 1 t d))
      ∗ (∃ d, owns (c : Thread nD τ) (st a t 2) fullShare ((dat a V c).before 2 t d)))
    ⊢ wp frame (wpE (defs₀ (F := F)) Variants.none c none) Set.univ (bodyAt a t) (fun _ =>
      iprop((dat a V c).Φ t.succ ∗ (dat a V c).owesAt () t.succ
        ∗ (dat a V c).leavesExact 0 t ∗ (dat a V c).leavesExact 1 t ∗ (dat a V c).leavesExact 2 t)) := by
  simp only [before0, before1]
  rw [show (dat a V c).owesAt () t.succ = (dat a V c).owesAt () t.castSucc from rfl]
  rw [show (dat a V c).Φ t.succ = Phi a V c (t.val + 1) t.isLt from rfl,
    show Phi a V c (t.val + 1) t.isLt = iprop(((∃ r, prngReg c r) ∗ Pipeline.prefHeld pre3 c (fun _ => fullShare) a.1)
      ∗ owns (c : Thread nD τ) scM fullShare (accAt a V c t.val t.isLt) ∗ restBut (F := F) c) from rfl]
  rw [show (dat a V c).leavesExact 0 t = owns (c : Thread nD τ) (st a t 0) fullShare ((dat a V c).after 0 t) from rfl, after0]
  rw [show (dat a V c).leavesExact 1 t = owns (c : Thread nD τ) (st a t 1) fullShare ((dat a V c).after 1 t) from rfl, after1]
  rw [show (dat a V c).Φ t.castSucc = Phi a V c t.val (Nat.le_of_lt t.isLt) from by dsimp only [dat]; simp only [Fin.coe_castSucc]]
  refine (Laws.sep_mono_left (Phi_open a V c t.val _)).trans ?_
  rw [prefHeld_eq]
  iintro ⟨⟨⟨Hg, HT0, HT1⟩, ⟨%p, %hp, HS⟩, HR⟩, Ho, ⟨%d0, H0⟩, ⟨%d1, H1⟩, ⟨%d2, H2⟩⟩
  iapply (sound_kernel c Set.univ _ (a.1 0) (a.1 1) (iblk a V c 0 t) (iblk a V c 1 t) ((dat a V c).before 2 t d2) p _)
  isplitl [HT0]; · iexact HT0
  isplitl [HT1]; · iexact HT1
  isplitl [H0]; · iexact H0
  isplitl [H1]; · iexact H1
  isplitl [H2]; · iexact H2
  isplitl [HS]; · iexact HS
  iintro ⟨HT0, HT1, H0, H1, H2, HS⟩
  rw [accAt_step a V c t p hp]
  isplitl [Hg HT0 HT1 HS HR]
  · isplitl [Hg HT0 HT1]
    · isplitl [Hg]; · iexact Hg
      isplitl [HT0]; · iexact HT0
      iexact HT1
    isplitl [HS]; · iexact HS
    iexact HR
  isplitl [Ho]; · iexact Ho
  isplitl [H0]; · iexact H0
  isplitl [H1]; · iexact H1
  iapply (leaves2 a V c t d2 p hp)
  iexact H2

theorem body_obligation (c : Dev nD) : Pipeline.BodyObligation (dat a V c) (defs₀ (F := F)) Variants.none () Set.univ := fun t => by
  rw [bigSep_W3, bigSep_W3]
  exact sound_body a V c t

theorem hin (c : Dev nD) :
    iprop((∃ r, prngReg c r) ∗ Pipeline.prefHeld pre3 c (fun _ => fullShare) a.1 ∗ Pipeline.scopedRest (cfg a).spec c) ⊢ (dat a V c).Φ 0 := by
  rw [show (dat a V c).Φ 0 = Phi a V c 0 (Nat.zero_le _) from rfl]
  exact Laws.sep_assoc.2

-- The accumulator's contents are forgotten.
theorem hout (c : Dev nD) :
    (dat a V c).Φ (Fin.last (cfg a).N)
      ⊢ iprop(((∃ r, prngReg c r) ∗ Pipeline.prefHeld pre3 c (fun _ => fullShare) a.1) ∗ Pipeline.scopedRest (cfg a).spec c) := by
  rw [show (dat a V c).Φ (Fin.last (cfg a).N) = Phi a V c (cfg a).N le_rfl from rfl, rest_eq]
  refine (Phi_open a V c _ _).trans ?_
  iintro ⟨HP, ⟨%p, -, HS⟩, HR⟩
  iframe HP HR
  iexists p; iexact HS

end Cert.KernelIdeal.R3

end
-- ==== Proof.KI.Stage.lean ====
import proofs.«430818_j23493471109148_2_alg».proof.Proof.RegionsKernelIdeal
import proofs.«430818_j23493471109148_2_alg».proof.Proof.KI.Reg0Frame
import proofs.«430818_j23493471109148_2_alg».proof.Proof.KI.Reg1Frame
import proofs.«430818_j23493471109148_2_alg».proof.Proof.KI.Reg2Frame
import proofs.«430818_j23493471109148_2_alg».proof.Proof.KI.Reg3Frame
import Idealize.ShloMosaic.Lib.Pipeline.RegionsLoop

noncomputable section

namespace Cert.KernelIdeal.St

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def c0 : Dev nD := ⟨0, by decide⟩

theorem eq_c0 (c : Dev nD) : c = c0 := Subsingleton.elim _ _

abbrev W8 (c : Dev nD) (b : Ref sig .tc) : Buf (Elt F) ((c : Thread nD τ).loc b) := V8 m c b

def a0 : (pcfgs (F := F) 0).Adm := ⟨fun k => W8 m c0 (pre0.ref k), trivial⟩

def o9 (c : Dev nD) : Buf (Elt F) ((c : Thread nD τ).loc main_v36) :=
  (R0.dat (a0 m) (W8 m) c).arrAt 3 (R0.cfg (a0 m)).N

def outs1 : Outs (F := F) := fun _ r c => Function.update (V8 m c) main_v36 (o9 m c) r

abbrev W15 (c : Dev nD) (b : Ref sig .tc) : Buf (Elt F) ((c : Thread nD τ).loc b) := V15 m (outs1 m) c b

def a1 : (pcfgs (F := F) 1).Adm := ⟨fun k => W15 m c0 (pre1.ref k), trivial⟩

def o16 (c : Dev nD) : Buf (Elt F) ((c : Thread nD τ).loc main_v58) :=
  (R1.dat (a1 m) (W15 m) c).arrAt 2 (R1.cfg (a1 m)).N

def outs2 : Outs (F := F) := fun j r c =>
  if j = 9 then outs1 m j r c else Function.update (V15 m (outs1 m) c) main_v58 (o16 m c) r

abbrev W24 (c : Dev nD) (b : Ref sig .tc) : Buf (Elt F) ((c : Thread nD τ).loc b) := V24 m (outs2 m) c b

def a2 : (pcfgs (F := F) 2).Adm := ⟨fun k => W24 m c0 (pre2.ref k), trivial⟩

def o25 (c : Dev nD) : Buf (Elt F) ((c : Thread nD τ).loc main_v96) :=
  (R2.dat (a2 m) (W24 m) c).arrAt 3 (R2.cfg (a2 m)).N

def outs3 : Outs (F := F) := fun j r c =>
  if j = 9 ∨ j = 16 then outs2 m j r c else Function.update (V24 m (outs2 m) c) main_v96 (o25 m c) r

abbrev W31 (c : Dev nD) (b : Ref sig .tc) : Buf (Elt F) ((c : Thread nD τ).loc b) := V31 m (outs3 m) c b

def a3 : (pcfgs (F := F) 3).Adm := ⟨fun k => W31 m c0 (pre3.ref k), trivial⟩

def o32 (c : Dev nD) : Buf (Elt F) ((c : Thread nD τ).loc main_v118) :=
  (R3.dat (a3 m) (W31 m) c).arrAt 2 (R3.cfg (a3 m)).N

def outs : Outs (F := F) := fun j r c =>
  if j = 9 ∨ j = 16 ∨ j = 25 then outs3 m j r c else Function.update (V31 m (outs3 m) c) main_v118 (o32 m c) r

theorem V15_congr (o o' : Outs (F := F)) (c : Dev nD) (h9 : o 9 main_v36 c = o' 9 main_v36 c) : V15 m o c = V15 m o' c := by
  dsimp only [V15, V14, V13, V12, V11, V10, V9]
  rw [h9]

theorem V24_congr (o o' : Outs (F := F)) (c : Dev nD) (h9 : o 9 main_v36 c = o' 9 main_v36 c)
    (h16 : o 16 main_v58 c = o' 16 main_v58 c) : V24 m o c = V24 m o' c := by
  have h := V15_congr m o o' c h9
  dsimp only [V24, V23, V22, V21, V20, V19, V18, V17, V16]
  rw [h16, h]

theorem V31_congr (o o' : Outs (F := F)) (c : Dev nD) (h9 : o 9 main_v36 c = o' 9 main_v36 c)
    (h16 : o 16 main_v58 c = o' 16 main_v58 c) (h25 : o 25 main_v96 c = o' 25 main_v96 c) : V31 m o c = V31 m o' c := by
  have h := V24_congr m o o' c h9 h16
  dsimp only [V31, V30, V29, V28, V27, V26, V25]
  rw [h25, h]

theorem outs1_9 (c : Dev nD) : outs1 m 9 main_v36 c = o9 m c := Function.update_self ..

theorem outs2_9 (c : Dev nD) : outs2 m 9 main_v36 c = o9 m c := (if_pos rfl).trans (outs1_9 m c)

theorem outs3_9 (c : Dev nD) : outs3 m 9 main_v36 c = o9 m c := (if_pos (.inl rfl)).trans (outs2_9 m c)

theorem outs_9 (c : Dev nD) : outs m 9 main_v36 c = o9 m c := (if_pos (.inl rfl)).trans (outs3_9 m c)

theorem outs2_16 (c : Dev nD) : outs2 m 16 main_v58 c = o16 m c := (if_neg (by decide)).trans (Function.update_self ..)

theorem outs3_16 (c : Dev nD) : outs3 m 16 main_v58 c = o16 m c := (if_pos (.inr rfl)).trans (outs2_16 m c)

theorem outs_16 (c : Dev nD) : outs m 16 main_v58 c = o16 m c := (if_pos (.inr (.inl rfl))).trans (outs3_16 m c)

theorem outs3_25 (c : Dev nD) : outs3 m 25 main_v96 c = o25 m c := (if_neg (by decide)).trans (Function.update_self ..)

theorem outs_25 (c : Dev nD) : outs m 25 main_v96 c = o25 m c := (if_pos (.inr (.inr rfl))).trans (outs3_25 m c)

theorem outs_32 (c : Dev nD) : outs m 32 main_v118 c = o32 m c := (if_neg (by decide)).trans (Function.update_self ..)

theorem V15_outs (c : Dev nD) : V15 m (outs m) c = V15 m (outs1 m) c :=
  V15_congr m _ _ c ((outs_9 m c).trans (outs1_9 m c).symm)

theorem V24_outs (c : Dev nD) : V24 m (outs m) c = V24 m (outs2 m) c :=
  V24_congr m _ _ c ((outs_9 m c).trans (outs2_9 m c).symm) ((outs_16 m c).trans (outs2_16 m c).symm)

theorem V31_outs (c : Dev nD) : V31 m (outs m) c = V31 m (outs3 m) c :=
  V31_congr m _ _ c ((outs_9 m c).trans (outs3_9 m c).symm) ((outs_16 m c).trans (outs3_16 m c).symm)
    ((outs_25 m c).trans (outs3_25 m c).symm)

def adm : (p : Fin 4) → (pcfgs (F := F) p).Adm
  | ⟨0, _⟩ => a0 m
  | ⟨1, _⟩ => a1 m
  | ⟨2, _⟩ => a2 m
  | ⟨3, _⟩ => a3 m

def pdats : (p : Fin 4) → (c : Dev nD) → Dat τ (Elt F) Unit ℕ (UR sig nD τ) ℕ (Pipeline.pin (pcfgs (F := F)) (adm m) p) c
  | ⟨0, _⟩ => fun c => R0.dat (a0 m) (W8 m) c
  | ⟨1, _⟩ => fun c => R1.dat (a1 m) (W15 m) c
  | ⟨2, _⟩ => fun c => R2.dat (a2 m) (W24 m) c
  | ⟨3, _⟩ => fun c => R3.dat (a3 m) (W31 m) c

abbrev 𝒱₀ : Variants := Variants.none
abbrev L : GSem nD τ sig → Finset Unit := fun _ => ∅
abbrev lv : GSem nD τ sig → Unit → ℕ := fun _ _ => 0

abbrev Rr (c : Dev nD) : sProp 𝕄 := iprop((∃ r, prngReg c r) ∗ ∃ W, owes (c : Thread nD τ) (0 : CellTallies nD τ sig Unit) W)

abbrev pn (p : Fin 4) := Pipeline.pin (pcfgs (F := F)) (adm m) p

set_option backward.isDefEq.respectTransparency.types false in
/-- The four regions' records are instances of this one. -/
def reg (p : Fin 4) (lf : Pipeline.PLaunchFacts (nD := nD) (τ := τ) (pcfgs (F := F)) p) (Vi Vj : Dev nD → Valuation τ sig (Elt F))
    (hV : ∀ c, Vj c = Vi c) (wo : Fin (pn m p).W)
    (v : (c : Dev nD) → Buf (Elt F) ((c : Thread nD τ).loc (Pipeline.arrRef (pn m p).spec wo)))
    (hb : ∀ c, BodyObligation (pdats m p c) (defs₀ (F := F)) 𝒱₀ () Set.univ)
    (hA : ∀ c w, (pdats m p c).A w = Vi c (Pipeline.arrRef (pn m p).spec w))
    (hin : ∀ c, iprop((∃ r, prngReg c r) ∗ Pipeline.prefHeld (pcfgs (F := F) p).pre c (fun _ => fullShare) (adm m p).1
      ∗ Pipeline.scopedRest (pn m p).spec c) ⊢ (pdats m p c).Φ 0)
    (hout : ∀ c, (pdats m p c).Φ (Fin.last (pn m p).N)
      ⊢ iprop(((∃ r, prngReg c r) ∗ Pipeline.prefHeld (pcfgs (F := F) p).pre c (fun _ => fullShare) (adm m p).1)
        ∗ Pipeline.scopedRest (pn m p).spec c))
    (hio : ∀ w, w ≠ wo → ((pn m p).win w).isOut = false)
    (ho : ∀ c, (pdats m p c).arrAt wo (pn m p).N = v c)
    (htab : ∀ c, (fun k => Vi c ((pcfgs (F := F) p).pre.ref k)) = (adm m p).1 := by intro c; rw [eq_c0 c]; rfl)
    (hq : ∀ c w, (pdats m p c).q w = fullShare := by intros; rfl) (how : ∀ c t, (pdats m p c).owed t = 0 := by intros; rfl)
    (hrec : ∀ c, (pdats m p c).recorded 0 = Set.univ := by intros; rfl) :
    Pipeline.RegionSeg (pcfgs (F := F)) (adm m) (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero (pcfgs (F := F)) (adm m) (pdats m) () L lv p how
  pre c := iprop(StableHlo.held (c : Thread nD τ) (Pipeline.ucRefs τ sig) (Vj c) ∗ Rr c)
  post c := iprop(StableHlo.held (c : Thread nD τ) (Pipeline.ucRefs τ sig)
    (Function.update (Vj c) (Pipeline.arrRef (pn m p).spec wo) (v c)) ∗ Rr c)
  X c := iprop(∃ r, prngReg c r)
  Y c := iprop((∃ r, prngReg c r) ∗ Pipeline.prefHeld (pcfgs (F := F) p).pre c (fun _ => fullShare) (adm m p).1)
  Z c := Pipeline.unscopedRestP (pcfgs (F := F) p).pre (pn m p).spec c (fun b => Vi c b)
  hentry c := by
    rw [Pipeline.ownSems0_none, hV c]
    have hs := Pipeline.arrays_of_unscopedBufs (p := p) (pcfgs (F := F)) (adm m) (pdats m) lf.win lf.arr_whole c
      ((pdats m p c).share_full (hq c)) (fun b => Vi c b) (hA c)
    rw [Pipeline.unscopedBufs_held, Pipeline.unscopedRest_split (win := (pn m p).spec) lf.pre c,
      htab c] at hs
    iintro ⟨⟨Hub, Hp, HO⟩, -, -⟩
    ihave H := hs $$ Hub
    icases H with ⟨Ha, Hpf, Hrest⟩
    imodintro
    iframe Ha Hpf Hp Hrest
    unfold Pipeline.Dat.owesAt Pipeline.owesWithin Pipeline.Dat.bound
    rw [how c, hrec c]
    icases HO with ⟨%W, HO⟩; iexists W; iframe HO
    ipureintro; exact fun _ _ => Or.inl trivial
  hin := hin
  hout c := by
    rw [Pipeline.ownSems0_none]
    refine (hout c).trans ?_
    iintro ⟨HY, Hs⟩
    iframe
    iempintro
  hexit c := by
    have hj := Pipeline.unscopedBufs_of_arrays (p := p) (pcfgs (F := F)) (adm m) (Ix := Unit) (Name := ℕ) (U := UR sig nD τ) (Lvl := ℕ)
      lf.win lf.arr_whole c (pdats m) ((pdats m p c).share_full (hq c)) (fun b => Vi c b)
      (fun b => Function.update (Vj c) (Pipeline.arrRef (pn m p).spec wo) (v c) b)
      ((pdats m p c).arrAt · (pn m p).N)
      (fun w => if h : w = wo then by subst h; simp only [ho c, Function.update_self] else
        ((pdats m p c).arrAt_in w (hio w h) _).trans ((hA c w).trans
          ((Function.update_of_ne (StableHlo.devRef_ne_of_ne fun e => h (lf.win.arr_inj e)) ..).trans (congrFun (hV c) _)).symm))
      (fun b hb => (Function.update_of_ne (StableHlo.devRef_ne_of_ne fun e =>
        hb (Finset.mem_image.mpr ⟨wo, Finset.mem_univ _, e.symm⟩)) ..).trans (congrFun (hV c) _))
    rw [Pipeline.unscopedBufs_held, Pipeline.unscopedRest_split (win := (pn m p).spec) lf.pre c,
      htab c] at hj
    unfold Pipeline.Dat.owesAt Pipeline.owesWithin
    rw [how c]
    iintro ⟨Ha, HO, ⟨Hp, Hpf⟩, Hrest⟩
    imodintro
    isplitl [Ha Hrest Hpf]
    · iapply hj; iframe
    isplitl [Hp]; · iexact Hp
    icases HO with ⟨%W, -, HO⟩; iexists W; iexact HO

set_option backward.isDefEq.respectTransparency.types false in
def reg0 :=
  reg m 0 launch0 (V8 m) (V8 m) (fun _ => rfl) 3 (outs m 9 main_v36) (R0.body_obligation (a0 m) (W8 m)) (R0.A_eq (a0 m) (W8 m))
    (R0.hin (a0 m) (W8 m)) (R0.hout (a0 m) (W8 m)) (fun | ⟨0, _⟩, _ => rfl | ⟨1, _⟩, _ => rfl | ⟨2, _⟩, _ => rfl | ⟨3, _⟩, h => absurd rfl h)
    fun c => (outs_9 m c).symm

set_option backward.isDefEq.respectTransparency.types false in
def reg1 :=
  reg m 1 launch1 (V15 m (outs1 m)) (V15 m (outs m)) (V15_outs m) 2 (outs m 16 main_v58) (R1.body_obligation (a1 m) (W15 m)) (R1.A_eq (a1 m) (W15 m))
    (R1.hin (a1 m) (W15 m)) (R1.hout (a1 m) (W15 m)) (fun | ⟨0, _⟩, _ => rfl | ⟨1, _⟩, _ => rfl | ⟨2, _⟩, h => absurd rfl h)
    fun c => (outs_16 m c).symm

set_option backward.isDefEq.respectTransparency.types false in
def reg2 :=
  reg m 2 launch2 (V24 m (outs2 m)) (V24 m (outs m)) (V24_outs m) 3 (outs m 25 main_v96) (R2.body_obligation (a2 m) (W24 m)) (R2.A_eq (a2 m) (W24 m))
    (R2.hin (a2 m) (W24 m)) (R2.hout (a2 m) (W24 m)) (fun | ⟨0, _⟩, _ => rfl | ⟨1, _⟩, _ => rfl | ⟨2, _⟩, _ => rfl | ⟨3, _⟩, h => absurd rfl h)
    fun c => (outs_25 m c).symm

set_option backward.isDefEq.respectTransparency.types false in
def reg3 :=
  reg m 3 launch3 (V31 m (outs3 m)) (V31 m (outs m)) (V31_outs m) 2 (outs m 32 main_v118) (R3.body_obligation (a3 m) (W31 m)) (R3.A_eq (a3 m) (W31 m))
    (R3.hin (a3 m) (W31 m)) (R3.hout (a3 m) (W31 m)) (fun | ⟨0, _⟩, _ => rfl | ⟨1, _⟩, _ => rfl | ⟨2, _⟩, h => absurd rfl h)
    fun c => (outs_32 m c).symm

abbrev u0 := initOf (Pipeline.cells (Pipeline.pin (pcfgs (F := F)) (adm m)) (cellOf_inj (adm m))) (Pipeline.launchToks (Pipeline.pin (pcfgs (F := F)) (adm m)) (cellOf_inj (adm m)))

set_option backward.isDefEq.respectTransparency.types false in
theorem run (ρ : Dev nD → PrngReg) :
    θ_run defs (onTc (τ := τ) (main (F := F))) ⟨m, fun _ => 0, ρ⟩ (fun r => ∀ c : Dev nD,
      r.2.mem ((c.tc : Thread nD τ).loc main_v59) = V33 m (outs m) c main_v59
      ∧ r.2.mem ((c.tc : Thread nD τ).loc main_v119) = V33 m (outs m) c main_v119
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond m (emb₁ : Emb (URounds (GSem nD τ sig) Unit) 𝕄) () 𝒱₀ L lv (fun _ _ => rfl) ρ (outs m) (adm m) (pdats m)
    (O₀ := 0) (G := fun _ => iprop(emp))
    (u₀ := u0 m)
    (hu₀ := by
      iintro Hu; imodintro
      isplitl [Hu]
      · iapply (show (ownU (u0 m) : sProp 𝕄)
            ⊢ BI.own (emb₁ (u0 m)) from .rfl)
        iexact Hu
      iapply (show (BI.emp : sProp 𝕄) ⊢ bigSep Finset.univ (fun _ : Dev nD => (BI.emp : sProp 𝕄)) from by rw [BI.bigSep_emp_const])
      iempintro)
    (E := fun _ => Rr)
    (hE0 := by
      have hmono : (bigSep Finset.univ fun c : Dev nD => (iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)) : sProp 𝕄))
          ⊢ (bigSep Finset.univ (fun c : Dev nD => (Rr c : sProp 𝕄)) : sProp 𝕄) :=
        bigSep_mono fun c _ => by
          show _ ⊢ (iprop((∃ r, prngReg c r) ∗ ∃ W, owes (c : Thread nD τ) (0 : CellTallies nD τ sig Unit) W) : sProp 𝕄)
          iintro ⟨-, HO, -, Hp, -⟩
          isplitl [Hp]; · iexists _; iexact Hp
          iexists ∅; iexact HO
      iintro ⟨H, -⟩
      imodintro
      iapply hmono
      iexact H)
    (hE4 := fun c => by
      iintro ⟨-, HO⟩
      iexact HO)
    (reg0 m) (fun _ => .rfl) (fun _ => .rfl)
    (reg1 m) (fun _ => .rfl) (fun _ => .rfl)
    (reg2 m) (fun _ => .rfl) (fun _ => .rfl)
    (reg3 m) (fun _ => .rfl) (fun _ => .rfl)

end Cert.KernelIdeal.St

end
-- ==== Proof.Acc.lean ====
import Idealize.ShloMosaic.Lib.ValueIdx

noncomputable section

namespace Cert.Acc

open Idealize.ShloMosaic Idealize.ShloMosaic.ValueIdx

def at1 {n : ℕ} {α : Type} [Inhabited α] (x : (⟨1, ![n]⟩ : Shape).Idx → α) (k : ℕ) : α :=
  if h : k < n then x (ix1 (⟨k, h⟩ : Fin n)) else default

def at2 {n c : ℕ} {α : Type} [Inhabited α] (x : (⟨2, ![n, c]⟩ : Shape).Idx → α) (k : ℕ) (d : Fin c) : α :=
  if h : k < n then x (ix2 (⟨k, h⟩ : Fin n) d) else default

def atRow {n : ℕ} {α : Type} [Inhabited α] (x : (⟨2, ![1, n]⟩ : Shape).Idx → α) (k : ℕ) : α :=
  if h : k < n then x (ix2 (0 : Fin 1) (⟨k, h⟩ : Fin n)) else default

theorem atRow_of_lt {n : ℕ} {α : Type} [Inhabited α] (x : (⟨2, ![1, n]⟩ : Shape).Idx → α) (k : ℕ) (h : k < n) :
    atRow x k = x (ix2 (0 : Fin 1) (⟨k, h⟩ : Fin n)) := dif_pos h

theorem at1_of_lt {n : ℕ} {α : Type} [Inhabited α] (x : (⟨1, ![n]⟩ : Shape).Idx → α) (k : ℕ) (h : k < n) :
    at1 x k = x (ix1 (⟨k, h⟩ : Fin n)) := dif_pos h

theorem at2_of_lt {n c : ℕ} {α : Type} [Inhabited α] (x : (⟨2, ![n, c]⟩ : Shape).Idx → α) (k : ℕ) (d : Fin c) (h : k < n) :
    at2 x k d = x (ix2 (⟨k, h⟩ : Fin n) d) := dif_pos h

instance : Inhabited EReal := ⟨0⟩

end Cert.Acc

end
-- ==== Proof.KI.HostDefs.lean ====
import proofs.«430818_j23493471109148_2_alg».proof.Proof.RegionsKernelIdeal
import proofs.«430818_j23493471109148_2_alg».proof.Proof.Acc
import Idealize.ShloMosaic.Lib.ValueIdx
import Idealize.ShloMosaic.Lib.StableHlo.Run

set_option maxRecDepth 16384

noncomputable section

namespace Cert.KernelIdeal.Host

open Cert.KernelIdeal Cert.KernelIdeal.Gen Cert.KernelIdeal.GenP Cert.Acc
open Idealize.ShloMosaic Idealize.ShloMosaic.TcCoe Idealize.ShloMosaic.ValueIdx

variable (m : (ℓ : Loc nD τ sig) → Buf (Elt Ideal) ℓ) (outs : Outs (F := Ideal)) (c : Dev nD)

def srcP (e : ℕ) : BitVec 32 := at1 (V8 m c main_v1 : (⟨1, ![720896]⟩ : Shape).Idx → BitVec 32) e
def dstP (e : ℕ) : BitVec 32 := at1 (V8 m c main_v3 : (⟨1, ![720896]⟩ : Shape).Idx → BitVec 32) e
def valsP (e : ℕ) : EReal := at1 (V8 m c main_v5 : (⟨1, ![720896]⟩ : Shape).Idx → EReal) e
def embP (k : ℕ) (d : Fin 64) : EReal := at2 (V8 m c main_v6 : (⟨2, ![61440, 64]⟩ : Shape).Idx → EReal) k d
def p1 (e : ℕ) : ℕ := (at1 (V8 m c main_v7 : (⟨1, ![720896]⟩ : Shape).Idx → BitVec 32) e).toNat
def p2 (e : ℕ) : ℕ := (at1 (V15 m outs c main_v37 : (⟨1, ![720896]⟩ : Shape).Idx → BitVec 32) e).toNat

end Cert.KernelIdeal.Host

end
-- ==== Proof.GatherRows.lean ====
import Idealize.ShloMosaic.PureOps.Ideal
import Idealize.ShloMosaic.Lib.ValueIdx
import Idealize.ShloMosaic.Lib.StableHlo.Predicate

noncomputable section

namespace Cert.HostRead

open Idealize.ShloMosaic Idealize.ShloMosaic.ValueIdx Idealize.ShloMosaic.StableHlo.Predicate

abbrev rowDims (N n C : ℕ) (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

theorem gather_rows_apply {α : Type} {N n C w : ℕ} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowDims N n C wf) x idx (ix2 p q) = x (ix2 ⟨min (idx (ixP p)).toInt.toNat (N - 1), by omega⟩ q) := by
  unfold Host.gather
  congr 1
  funext a
  refine Fin.ext ?_
  show (rowDims N n C wf).start (ix2 p q) idx a + (rowDims N n C wf).batchCoord (ix2 p q) a + (rowDims N n C wf).offCoord (ix2 p q) a = _
  rw [GatherDims.batchCoord_eq_zero _ _ _ List.not_mem_nil]
  obtain rfl | rfl : a = (0 : Fin 2) ∨ a = (1 : Fin 2) := by
    match a with
    | ⟨0, _⟩ => exact Or.inl rfl
    | ⟨1, _⟩ => exact Or.inr rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N n C wf).startIndexMap from List.mem_singleton.mpr rfl)]
    have hsi : (rowDims N n C wf).siIdx (ix2 p q) ⟨List.idxOf (0 : Fin 2) (rowDims N n C wf).startIndexMap,
        List.idxOf_lt_length_iff.2 (List.mem_singleton.mpr rfl)⟩ = ixP p := by
      funext b; refine Fin.ext ?_
      match b with
      | ⟨0, _⟩ => rfl
      | ⟨1, _⟩ => rfl
    rw [hsi]
    rfl
  · have hs : (rowDims N n C wf).start (ix2 p q) idx (1 : Fin 2) = 0 := by
      unfold GatherDims.start
      rw [dif_neg (show (1 : Fin 2) ∉ ([0] : List (Fin 2)) by decide)]
    rw [hs]
    unfold GatherDims.offCoord
    rw [dif_pos (show (1 : Fin 2) ∈ (rowDims N n C wf).sKept from
      (GatherDims.mem_sKept _ _).mpr ⟨(by decide : (1 : Fin 2) ∉ ([0] : List (Fin 2))), List.not_mem_nil⟩)]
    simp only [Nat.zero_add]
    rfl

end Cert.HostRead

end
-- ==== Proof.KI.HostRead.lean ====
import proofs.«430818_j23493471109148_2_alg».proof.Proof.RegionsKernelIdeal
import proofs.«430818_j23493471109148_2_alg».proof.Proof.Acc
import proofs.«430818_j23493471109148_2_alg».proof.Proof.GatherRows
import Idealize.ShloMosaic.Lib.ValueIdx
import Idealize.ShloMosaic.Lib.StableHlo.Run
import Idealize.ShloMosaic.Lib.StableHlo.Predicate
import Idealize.ShloMosaic.Lib.Pipeline.Value
import Idealize.ShloMosaic.Lib.KernelVsHost

set_option maxRecDepth 16384

noncomputable section

namespace Cert.HostRead

open Idealize.ShloMosaic Idealize.ShloMosaic.ValueIdx Idealize.ShloMosaic.StableHlo.Predicate

abbrev guardIdx {n : ℕ} (hs : (⟨0, ![]⟩ : Shape).BroadcastsInDim ⟨1, ![n]⟩ ![]) (k : BitVec 32) (p : IVec ⟨1, ![n]⟩ 32) : IVec ⟨1, ![n]⟩ 32 :=
  select (cmpi .slt p (broadcastInDim ⟨1, ![n]⟩ ![] hs (constantI ⟨0, ![]⟩ 32 0#32)))
    (addi p (broadcastInDim ⟨1, ![n]⟩ ![] hs (constantI ⟨0, ![]⟩ 32 k))) p

theorem ix1_eq_ofFin {n : ℕ} (e : Fin n) : (ix1 e : (⟨1, ![n]⟩ : Shape).Idx) = Shape.Idx.ofFin e := by
  funext a; match a with | ⟨0, _⟩ => rfl

theorem guardIdx_apply {n : ℕ} (hs : (⟨0, ![]⟩ : Shape).BroadcastsInDim ⟨1, ![n]⟩ ![]) (k : BitVec 32) (p : IVec ⟨1, ![n]⟩ 32)
    (j : (⟨1, ![n]⟩ : Shape).Idx) (hp : (p j).toNat < 2 ^ 31) : guardIdx hs k p j = p j := by
  show Scalar.select (IntOp.cmpi .slt (p j) 0#32) _ (p j) = p j
  have h : IntOp.cmpi .slt (p j) 0#32 = 0#1 :=
    eq_zero_of_ne_one fun h => by have := (slt_iff_toNat hp (by decide)).mp h; simp at this
  rw [h, select_zero]

theorem guard_start {n N : ℕ} (hb : (⟨1, ![n]⟩ : Shape).BroadcastsInDim ⟨2, ![n, 1]⟩ ![0])
    (hs : (⟨0, ![]⟩ : Shape).BroadcastsInDim ⟨1, ![n]⟩ ![]) (k : BitVec 32) (p : IVec ⟨1, ![n]⟩ 32) (e : Fin n)
    (hp : (p (ix1 e)).toNat < N) (hN : N ≤ 2 ^ 31) :
    min (broadcastInDim ⟨2, ![n, 1]⟩ ![0] hb (guardIdx hs k p) (ixP e)).toInt.toNat (N - 1) = (p (ix1 e)).toNat := by
  rw [bcast_col1 hb _ e, ← ix1_eq_ofFin e, guardIdx_apply hs k p _ (by omega), toInt_eq_toNat_of_lt (by omega)]
  simp only [Int.toNat_natCast]
  omega

theorem take_guard_apply {α : Type} {N n : ℕ} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (hb : (⟨1, ![n]⟩ : Shape).BroadcastsInDim ⟨2, ![n, 1]⟩ ![0])
    (hs : (⟨0, ![]⟩ : Shape).BroadcastsInDim ⟨1, ![n]⟩ ![]) (k : BitVec 32)
    (x : (⟨1, ![N]⟩ : Shape).Idx → α) (p : IVec ⟨1, ![n]⟩ 32) (e : Fin n) (hp : (p (ix1 e)).toNat < N) (hN : N ≤ 2 ^ 31) :
    Host.gather d x (broadcastInDim ⟨2, ![n, 1]⟩ ![0] hb (guardIdx hs k p)) (ix1 e) = x (ix1 ⟨(p (ix1 e)).toNat, hp⟩) := by
  refine ((congrArg (Host.gather d x _) (ix1_eq_ofFin e)).trans
    (gather_take d hcoll hob hsim hivd x _ e (by omega))).trans (congrArg x ?_)
  rw [← ix1_eq_ofFin]
  exact congrArg ix1 (Fin.ext (guard_start hb hs k p e hp hN))

theorem rows_guard_apply {α : Type} {N n C : ℕ}
    (wf : GatherDims.WF ⟨2, ![N, C]⟩ ⟨2, ![n, 1]⟩ ⟨2, ![n, C]⟩ [1] [0] [] [0] [] 1 ![1, C])
    (hb : (⟨1, ![n]⟩ : Shape).BroadcastsInDim ⟨2, ![n, 1]⟩ ![0])
    (hs : (⟨0, ![]⟩ : Shape).BroadcastsInDim ⟨1, ![n]⟩ ![]) (k : BitVec 32)
    (x : (⟨2, ![N, C]⟩ : Shape).Idx → α) (p : IVec ⟨1, ![n]⟩ 32) (e : Fin n) (q : Fin C)
    (hp : (p (ix1 e)).toNat < N) (hN : N ≤ 2 ^ 31) :
    Host.gather (rowDims N n C wf) x (broadcastInDim ⟨2, ![n, 1]⟩ ![0] hb (guardIdx hs k p)) (ix2 e q) =
      x (ix2 ⟨(p (ix1 e)).toNat, hp⟩ q) := by
  rw [gather_rows_apply (by omega) wf]
  exact congrArg x (congrArg (fun r => ix2 r q) (Fin.ext (guard_start hb hs k p e hp hN)))

theorem slice_rows_apply {α : Type} {N n C : ℕ} (h : (⟨2, ![N, C]⟩ : Shape).Slices ![0, 0] ⟨2, ![n, C]⟩)
    (x : (⟨2, ![N, C]⟩ : Shape).Idx → α) (r : Fin n) (d : Fin C) (hr : r.val < N) :
    extractStridedSlice ⟨2, ![n, C]⟩ ![0, 0] x h (ix2 r d) = x (ix2 ⟨r.val, hr⟩ d) := by
  refine extractStridedSlice_apply _ _ _ _ _ fun a => ?_
  match a with
  | ⟨0, _⟩ => simp
  | ⟨1, _⟩ => simp

open Cert.Acc

-- A rank-1 array followed by a broadcast scalar, read at a position: the array below its extent, the scalar from there on.
theorem concat_pad_at1 {α : Type} [Inhabited α] {n k N : ℕ}
    (h : Shape.Concatenates [(⟨1, ![n]⟩ : Shape), ⟨1, ![k]⟩] ⟨1, ![N]⟩ 0)
    (hb : (⟨0, ![]⟩ : Shape).BroadcastsInDim ⟨1, ![k]⟩ ![])
    (a : (⟨1, ![n]⟩ : Shape).Idx → α) (z : (⟨0, ![]⟩ : Shape).Idx → α) (e : ℕ) (he : e < N) (hN : N = n + k) :
    at1 (concatenate (⟨1, ![N]⟩ : Shape) 0 [⟨_, a⟩, ⟨_, broadcastInDim ⟨1, ![k]⟩ ![] hb z⟩] h) e
      = if e < n then at1 a e else z (fun d => d.elim0) := by
  rw [at1_of_lt _ _ he]
  split
  · next hlt =>
    rw [at1_of_lt _ _ hlt]
    exact concatenate_pair_apply_left 0 a _ h (ix1 ⟨e, he⟩) rfl (ix1 ⟨e, hlt⟩) (fun d => by match d with | ⟨0, _⟩ => rfl)
  · next hge =>
    have h2 : e - n < k := by omega
    refine (concatenate_pair_apply_right 0 a _ h (ix1 ⟨e, he⟩) rfl rfl (ix1 ⟨e - n, h2⟩) ?_ ?_).trans
      (broadcastInDim_apply _ hb z _ _ (fun d => d.elim0))
    · intro d hd
      exact absurd (Subsingleton.elim _ _) hd
    · show e - n + n = e
      omega

-- Rows padded with further rows below, read at one of the operand's rows: the operand's entry.
theorem padRows_at2 {α : Type} [Inhabited α] {n p N w : ℕ} {u : Shape}
    (h : (⟨2, ![n, w]⟩ : Shape).Pads ![0, 0] ![p, 0] ![0, 0] ⟨2, ![N, w]⟩) (hu : 0 < u.numel)
    (x : (⟨2, ![n, w]⟩ : Shape).Idx → α) (v : u.Idx → α) (k : ℕ) (hk : k < n) (hN : n ≤ N) (d : Fin w) :
    at2 (pad (⟨2, ![N, w]⟩ : Shape) ![0, 0] ![p, 0] ![0, 0] x v h hu) k d = at2 x k d := by
  rw [at2_of_lt _ _ _ (show k < N by omega), at2_of_lt _ _ _ hk]
  refine pad_apply_of_inside _ _ _ x v h hu _ (ix2 ⟨k, hk⟩ d) (fun a => ?_)
  match a with
  | ⟨0, _⟩ => show k = 0 + k * (0 + 1); omega
  | ⟨1, _⟩ => show d.val = 0 + d.val * (0 + 1); omega

-- A rank-1 array cast to a column reads, at row e, the array at e.
theorem reshapeCol_at2 {α : Type} [Inhabited α] {n : ℕ} (h : (⟨1, ![n]⟩ : Shape).ShapeCasts ⟨2, ![n, 1]⟩)
    (x : (⟨1, ![n]⟩ : Shape).Idx → α) (e : ℕ) (he : e < n) :
    at2 (shapeCast (⟨2, ![n, 1]⟩ : Shape) x h) e 0 = at1 x e := by
  rw [at2_of_lt _ _ _ he, at1_of_lt _ _ he]
  refine shapeCast_apply x h _ _ ?_
  rw [Shape.rowMajor_val_two, Shape.rowMajor_val_one]
  show e = e * 1 + 0
  omega

-- The take at guarded positions read at a position whose index is inside the table: the table at that index.
theorem take_at1 {α : Type} {i1 i2 : Inhabited α} {i3 : Inhabited (BitVec 32)} {N n : ℕ}
    (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (hb : (⟨1, ![n]⟩ : Shape).BroadcastsInDim ⟨2, ![n, 1]⟩ ![0])
    (hs : (⟨0, ![]⟩ : Shape).BroadcastsInDim ⟨1, ![n]⟩ ![]) (k : BitVec 32)
    (x : (⟨1, ![N]⟩ : Shape).Idx → α) (p : IVec ⟨1, ![n]⟩ 32) (e : ℕ) (he : e < n)
    (hp : (@at1 n _ i3 p e).toNat < N) (hN : N ≤ 2 ^ 31) :
    @at1 n α i1 (Host.gather d x (broadcastInDim ⟨2, ![n, 1]⟩ ![0] hb (guardIdx hs k p))) e
      = @at1 N α i2 x (@at1 n _ i3 p e).toNat := by
  rw [@at1_of_lt n _ i3 p e he] at hp ⊢
  exact (@at1_of_lt n α i1 _ e he).trans
    ((take_guard_apply d hcoll hob hsim hivd hb hs k x p ⟨e, he⟩ hp hN).trans (@at1_of_lt N α i2 x _ hp).symm)

end Cert.HostRead

end
-- ==== Proof.KI.HostA.lean ====
import proofs.«430818_j23493471109148_2_alg».proof.Proof.RegionsKernelIdeal
import proofs.«430818_j23493471109148_2_alg».proof.Proof.Acc
import proofs.«430818_j23493471109148_2_alg».proof.Proof.KI.HostDefs
import proofs.«430818_j23493471109148_2_alg».proof.Proof.KI.HostRead
import Idealize.ShloMosaic.Lib.ValueIdx
import Idealize.ShloMosaic.Lib.StableHlo.Run
import Idealize.ShloMosaic.Lib.StableHlo.Predicate
import Idealize.ShloMosaic.Lib.Pipeline.Value
import Idealize.ShloMosaic.PureOps.Ideal.Laws

set_option maxRecDepth 16384

noncomputable section

namespace Cert.KernelIdeal.Host

open Cert.KernelIdeal Cert.KernelIdeal.Gen Cert.KernelIdeal.GenP Cert.Acc Cert.HostRead
open Idealize.ShloMosaic Idealize.ShloMosaic.TcCoe Idealize.ShloMosaic.ValueIdx

variable (m : (ℓ : Loc nD τ sig) → Buf (Elt Ideal) ℓ) (outs : Outs (F := Ideal)) (c : Dev nD)

-- Four steps in a row that do not write r leave its contents unchanged.
theorem V8_V4 (r : Ref sig .tc) (h7 : r ∉ hostOps0_7_W := by decide) (h6 : r ∉ hostOps0_6_W := by decide)
    (h5 : r ∉ hostOps0_5_W := by decide) (h4 : r ∉ hostOps0_4_W := by decide) : V8 m c r = V4 m c r := by
  rw [V8_of m c r h7, V7_of m c r h6, V6_of m c r h5, V5_of m c r h4]

-- An array taken at the first sorting permutation.
def take1 {α : Type} (x : S720896.Idx → α) : S720896.Idx → α :=
  Host.gather gather_S720896_S720896x1_S720896_n_0_n_n_0_1_1 x (broadcastInDim S720896x1 ![0] bcast_S720896_S720896x1_0
    (guardIdx bcast_S_S720896 720896#32 (V8 m c main_v7 : S720896.Idx → BitVec 32)))

theorem take1_at {α : Type} {i1 i2 : Inhabited α} (x : S720896.Idx → α) (e : ℕ) (he : e < 720896) (hp : p1 m c e < 720896) :
    @at1 _ α i1 (take1 m c x) e = @at1 _ α i2 x (p1 m c e) :=
  take_at1 _ rfl rfl rfl rfl _ _ _ x _ e he hp (by norm_num)

theorem v14_eq : (V8 m c main_v14 : S720896.Idx → BitVec 32) = take1 m c (V8 m c main_v1) := by
  dsimp only [take1]
  rw [V8_V4 m c main_v14, V8_V4 m c main_v1, V4_of m c main_v1 (by decide), V8_V4 m c main_v7, V4_of m c main_v7 (by decide)]
  dsimp only [V4]; generalize V3 m c = W; after_results_simp
  all_goals rfl

theorem v21_eq' : (V8 m c main_v21 : S720896.Idx → BitVec 32) = take1 m c (V8 m c main_v3) := by
  dsimp only [take1]
  rw [V8_V4 m c main_v21, V8_V4 m c main_v3, V4_of m c main_v3 (by decide), V8_V4 m c main_v7, V4_of m c main_v7 (by decide)]
  dsimp only [V4]; generalize V3 m c = W; after_results_simp
  all_goals rfl

theorem v28_eq : (V8 m c main_v28 : S720896.Idx → EReal) = take1 m c (V8 m c main_v5) := by
  dsimp only [take1]
  rw [V8_V4 m c main_v28, V8_V4 m c main_v5, V4_of m c main_v5 (by decide), V8_V4 m c main_v7, V4_of m c main_v7 (by decide)]
  dsimp only [V4]; generalize V3 m c = W; after_results_simp
  all_goals rfl

theorem v34_eq (e : ℕ) (he : e < 720896) (hp : p1 m c e < 720896) :
    at2 (V8 m c main_v34 : (⟨2, ![720896, 1]⟩ : Shape).Idx → BitVec 32) e 0 = srcP m c (p1 m c e) := by
  have h : (V8 m c main_v34 : S720896x1.Idx → BitVec 32) =
      shapeCast S720896x1 (V8 m c main_v14 : S720896.Idx → BitVec 32) shapeCasts_S720896_S720896x1 := by
    rw [V8_of m c main_v14 (by decide)]; dsimp only [V8]; generalize V7 m c = W; after_results; rfl
  rw [h, reshapeCol_at2 _ _ e he, v14_eq]
  exact take1_at m c _ e he hp

theorem v35_eq (e : ℕ) (he : e < 720896) (hp : p1 m c e < 720896) :
    at2 (V8 m c main_v35 : (⟨2, ![720896, 1]⟩ : Shape).Idx → EReal) e 0 = valsP m c (p1 m c e) := by
  have h : (V8 m c main_v35 : S720896x1.Idx → EReal) =
      shapeCast S720896x1 (V8 m c main_v28 : S720896.Idx → EReal) shapeCasts_S720896_S720896x1 := by
    rw [V8_of m c main_v28 (by decide)]; dsimp only [V8]; generalize V7 m c = W; after_results; rfl
  rw [h, reshapeCol_at2 _ _ e he, v28_eq]
  exact take1_at m c _ e he hp

theorem v21_eq (e : ℕ) (he : e < 720896) (hp : p1 m c e < 720896) :
    at1 (V8 m c main_v21 : (⟨1, ![720896]⟩ : Shape).Idx → BitVec 32) e = dstP m c (p1 m c e) := by
  rw [v21_eq']
  exact take1_at m c _ e he hp

theorem srcP_eq (e : ℕ) (he : e < 720896) :
    srcP m c e = if e < 720000 then at1 (m ((c : Thread nD τ).loc main_arg2) : (⟨1, ![720000]⟩ : Shape).Idx → BitVec 32) e else 61440#32 := by
  have e1 : (V1 m c main_v1 : S720896.Idx → BitVec 32) = concatenate S720896 0
      [⟨S720000, V0 m c (Proc.tc.devRef main_arg2)⟩, ⟨S896, broadcastInDim S896 ![] bcast_S_S896 (constantI S_ 32 61440#32)⟩]
      concatenates_S720000_S896_S720896_d0 := by
    dsimp only [V1]; after_results
  unfold srcP
  rw [V8_V4 m c main_v1, V4_of m c main_v1 (by decide), V3_of m c main_v1 (by decide), V2_of m c main_v1 (by decide), e1]
  exact concat_pad_at1 _ _ _ _ e he rfl

theorem dstP_eq (e : ℕ) (he : e < 720896) :
    dstP m c e = if e < 720000 then at1 (m ((c : Thread nD τ).loc main_arg3) : (⟨1, ![720000]⟩ : Shape).Idx → BitVec 32) e else 61440#32 := by
  have e1 : (V1 m c main_v3 : S720896.Idx → BitVec 32) = concatenate S720896 0
      [⟨S720000, V0 m c (Proc.tc.devRef main_arg3)⟩, ⟨S896, broadcastInDim S896 ![] bcast_S_S896 (constantI S_ 32 61440#32)⟩]
      concatenates_S720000_S896_S720896_d0 := by
    dsimp only [V1]; after_results
  unfold dstP
  rw [V8_V4 m c main_v3, V4_of m c main_v3 (by decide), V3_of m c main_v3 (by decide), V2_of m c main_v3 (by decide), e1]
  exact concat_pad_at1 _ _ _ _ e he rfl

theorem valsP_eq (e : ℕ) (he : e < 720896) :
    valsP m c e = if e < 720000 then (at1 (m ((c : Thread nD τ).loc main_arg4) : (⟨1, ![720000]⟩ : Shape).Idx → EReal) e : EReal) else (0 : EReal) := by
  have e1 : (V1 m c main_v5 : S720896.Idx → EReal) = concatenate S720896 0
      [⟨S720000, V0 m c (Proc.tc.devRef main_arg4)⟩, ⟨S896, broadcastInDim S896 ![] bcast_S_S896 (constant (F := Ideal) S_ .f32 0x00000000#32)⟩]
      concatenates_S720000_S896_S720896_d0 := by
    dsimp only [V1]; after_results
  unfold valsP
  rw [V8_V4 m c main_v5, V4_of m c main_v5 (by decide), V3_of m c main_v5 (by decide), V2_of m c main_v5 (by decide), e1]
  exact (concat_pad_at1 _ _ _ _ e he rfl).trans (if_congr Iff.rfl rfl Ideal.ofBits_zero_f32)

theorem embP_eq (k : ℕ) (hk : k < 60000) (d : Fin 64) :
    embP m c k d = at2 (m ((c : Thread nD τ).loc main_arg0) : (⟨2, ![60000, 64]⟩ : Shape).Idx → EReal) k d := by
  have e1 : (V2 m c main_v6 : S61440x64.Idx → EReal) =
      pad S61440x64 ![0, 0] ![1440, 0] ![0, 0] (V0 m c (Proc.tc.devRef main_arg0) : S60000x64.Idx → EReal)
        (constant (F := Ideal) S_ .f32 0x00000000#32) pads_S60000x64_S61440x64_014400_000 h_S_ := by
    dsimp only [V2]; after_results
    simp only [StableHlo.TRef.ofBuf, StableHlo.TRef.toBuf, cast_eq, id]
  unfold embP
  rw [V8_V4 m c main_v6, V4_of m c main_v6 (by decide), V3_of m c main_v6 (by decide), e1, padRows_at2 _ _ _ _ k hk (by omega) d,
    at2_of_lt _ _ _ hk, at2_of_lt _ _ _ hk]

end Cert.KernelIdeal.Host

end
-- ==== Proof.KI.HostS.lean ====
import proofs.«430818_j23493471109148_2_alg».proof.Proof.KI.HostDefs
import Idealize.ShloMosaic.Lib.SortFacts

set_option maxRecDepth 16384

noncomputable section

namespace Cert.ArgSort

open Idealize.ShloMosaic Cert.Acc

variable {n : ℕ} {α : Type} {cmp : α × BitVec 32 → α × BitVec 32 → BitVec 1} {x : (⟨1, ![n]⟩ : Shape).Idx → α}

theorem snd_iota (j : (⟨1, ![n]⟩ : Shape).Idx) :
    (Host.sort2 ⟨1, ![n]⟩ 0 cmp x (iotaInDim ⟨1, ![n]⟩ 32 0)).2 j
      = BitVec.ofNat 32 (sortedFrom (fun k k' => cmp (x (Shape.Idx.ofFin k), BitVec.ofNat 32 k.val)
          (x (Shape.Idx.ofFin k'), BitVec.ofNat 32 k'.val) == 1#1) (j 0)).val := by
  unfold Host.sort2
  simp [iotaInDim]

variable {f : (⟨1, ![n]⟩ : Shape).Idx → BitVec 32} (hn : n ≤ 2 ^ 32)
  (hf : f = (Host.sort2 ⟨1, ![n]⟩ 0 cmp x (iotaInDim ⟨1, ![n]⟩ 32 0)).2)
include hn hf

/-- The index array of a sort of the positions by key is the sorting permutation, so it maps the positions into themselves, injectively. -/
theorem lt (e : ℕ) (he : e < n) : (at1 f e).toNat < n := by
  rw [hf, at1_of_lt _ e he, snd_iota, BitVec.toNat_ofNat, Nat.mod_eq_of_lt (lt_of_lt_of_le (Fin.isLt _) hn)]
  exact Fin.isLt _

theorem inj (a : ℕ) (ha : a < n) (b : ℕ) (hb : b < n) (h : (at1 f a).toNat = (at1 f b).toNat) : a = b := by
  rw [hf, at1_of_lt _ a ha, at1_of_lt _ b hb, snd_iota, snd_iota, BitVec.toNat_ofNat, BitVec.toNat_ofNat,
    Nat.mod_eq_of_lt (lt_of_lt_of_le (Fin.isLt _) hn), Nat.mod_eq_of_lt (lt_of_lt_of_le (Fin.isLt _) hn)] at h
  exact congrArg Fin.val (sortedFrom_injective _ (Fin.ext h))

end Cert.ArgSort

namespace Cert.KernelIdeal.Host

open Cert.KernelIdeal Cert.KernelIdeal.Gen Cert.KernelIdeal.GenP Cert.Acc
open Idealize.ShloMosaic Idealize.ShloMosaic.TcCoe Idealize.ShloMosaic.ValueIdx

variable (m : (ℓ : Loc nD τ sig) → Buf (Elt Ideal) ℓ) (outs : Outs (F := Ideal)) (c : Dev nD)

theorem v7_eq : (V8 m c main_v7 : (⟨1, ![720896]⟩ : Shape).Idx → BitVec 32)
    = (Host.sort2 ⟨1, ![720896]⟩ 0 comparator_i32_i32_d0
        (V2 m c main_v1 : (⟨1, ![720896]⟩ : Shape).Idx → BitVec 32) (iotaInDim ⟨1, ![720896]⟩ 32 0)).2 := by
  rw [V8_of, V7_of, V6_of, V5_of, V4_of]
  · dsimp only [V3]
    generalize V2 m c = W
    after_results
    rfl
  all_goals decide

theorem v37_eq : (V15 m outs c main_v37 : (⟨1, ![720896]⟩ : Shape).Idx → BitVec 32)
    = (Host.sort2 ⟨1, ![720896]⟩ 0 comparator_i32_i32_d0
        (V9 m outs c main_v21 : (⟨1, ![720896]⟩ : Shape).Idx → BitVec 32) (iotaInDim ⟨1, ![720896]⟩ 32 0)).2 := by
  rw [V15_of, V14_of, V13_of, V12_of, V11_of]
  · dsimp only [V10]
    generalize V9 m outs c = W
    after_results
    rfl
  all_goals decide

theorem p1_lt (e : ℕ) (he : e < 720896) : p1 m c e < 720896 := ArgSort.lt (by decide) (v7_eq m c) e he

theorem p1_inj (x : ℕ) (hx : x < 720896) (y : ℕ) (hy : y < 720896) (h : p1 m c x = p1 m c y) : x = y :=
  ArgSort.inj (by decide) (v7_eq m c) x hx y hy h

theorem p2_lt (e : ℕ) (he : e < 720896) : p2 m outs c e < 720896 := ArgSort.lt (by decide) (v37_eq m outs c) e he

theorem p2_inj (x : ℕ) (hx : x < 720896) (y : ℕ) (hy : y < 720896) (h : p2 m outs c x = p2 m outs c y) : x = y :=
  ArgSort.inj (by decide) (v37_eq m outs c) x hx y hy h

end Cert.KernelIdeal.Host

end
-- ==== Proof.KI.HostBand.lean ====
import proofs.«430818_j23493471109148_2_alg».proof.Proof.RegionsKernelIdeal
import proofs.«430818_j23493471109148_2_alg».proof.Proof.Acc
import Idealize.ShloMosaic.Lib.ValueIdx
import Idealize.ShloMosaic.Lib.StableHlo.Run
import Idealize.ShloMosaic.PureOps.Reduce
import Idealize.ShloMosaic.Lib.Pipeline.Value

set_option maxRecDepth 16384

noncomputable section

namespace Cert.Band

open Idealize.ShloMosaic Idealize.ShloMosaic.ValueIdx

def sgnW (x : BitVec 32) : BitVec 32 := if x = 0 then 0 else if x.msb then -1 else 1

def fdivW (w d : BitVec 32) : BitVec 32 :=
  Scalar.select (IntOp.andi (IntOp.cmpi .ne (sgnW w) (sgnW d)) (IntOp.cmpi .ne (IntOp.remsi .host w d) 0#32))
    (IntOp.subi (IntOp.divsi .host w d) 1#32) (IntOp.divsi .host w d)

theorem not_corner (w d : BitVec 32) (hd : 0 < d.toInt) : ¬ IntOp.SDivCorner w d := by
  unfold IntOp.SDivCorner
  rintro (h | ⟨_, h⟩)
  · rw [h] at hd; simp at hd
  · rw [h] at hd; simp at hd

theorem fdivW_toInt (w d : BitVec 32) (hw : 0 ≤ w.toInt) (hd : 0 < d.toInt) : (fdivW w d).toInt = w.toInt / d.toInt := by
  have hc := not_corner w d hd
  have hdiv : IntOp.divsi .host w d = w.sdiv d := by unfold IntOp.divsi; rw [if_neg hc]
  have hrem : IntOp.remsi .host w d = w.srem d := by unfold IntOp.remsi; rw [if_neg hc]
  have hq : (w.sdiv d).toInt = w.toInt / d.toInt := by
    rw [BitVec.toInt_sdiv_of_ne_or_ne _ _ (Or.inr (by intro h; rw [h] at hd; simp at hd))]
    exact Int.tdiv_eq_ediv_of_nonneg hw
  have hand : IntOp.andi (IntOp.cmpi .ne (sgnW w) (sgnW d)) (IntOp.cmpi .ne (IntOp.remsi .host w d) 0#32) = 0#1 := by
    by_cases h0 : w = 0
    · have : w.srem d = 0#32 := by
        apply BitVec.eq_of_toInt_eq; rw [BitVec.toInt_srem, h0]; simp
      rw [hrem, this]; simp [IntOp.andi, IntOp.cmpi]
    · have hs : sgnW w = sgnW d := by
        have hmw : w.msb = false := by
          rw [BitVec.msb_eq_toInt]; simp; omega
        have hmd : d.msb = false := by
          rw [BitVec.msb_eq_toInt]; simp; omega
        have hd0 : ¬ d = 0 := by intro h; rw [h] at hd; simp at hd
        unfold sgnW
        rw [if_neg h0, if_neg hd0, hmw, hmd]
      rw [hs]; simp [IntOp.andi, IntOp.cmpi]
  unfold fdivW
  rw [hand, hdiv]
  simp only [Scalar.select]
  rw [if_neg (by decide)]
  exact hq

theorem toInt_minsi (a b : BitVec 32) : (IntOp.minsi a b).toInt = min a.toInt b.toInt := by
  unfold IntOp.minsi
  simp only [BitVec.slt_eq_decide, decide_eq_true_eq]
  split <;> omega

theorem toInt_maxsi (a b : BitVec 32) : (IntOp.maxsi a b).toInt = max a.toInt b.toInt := by
  unfold IntOp.maxsi
  simp only [BitVec.slt_eq_decide, decide_eq_true_eq]
  split <;> omega

theorem lift_ix1 {T L : ℕ} (h : (⟨2, ![T, L]⟩ : Shape).Reduces [1] ⟨1, ![T]⟩) (t : Fin T) (k : Fin L) :
    h.lift (ix1 t) k = ix2 t k := by
  funext a
  apply Fin.ext
  show h.liftVal (ix1 t) k.val a = _
  unfold Shape.Reduces.liftVal
  match a with
  | ⟨0, _⟩ => simp
  | ⟨1, _⟩ => simp

section
variable {T L : ℕ} {u : Shape} (x : (⟨2, ![T, L]⟩ : Shape).Idx → BitVec 32) (init : u.Idx → BitVec 32)
  (h' : (⟨2, ![T, L]⟩ : Shape).ReducesTo [1] ⟨1, ![T]⟩) (h : (⟨2, ![T, L]⟩ : Shape).Reduces [1] ⟨1, ![T]⟩) (hu : 0 < u.numel) (t : Fin T)
include h

theorem reduce_min_le (k : Fin L) : (Host.reduce IntOp.minsi x init h' hu (ix1 t)).toInt ≤ (x (ix2 t k)).toInt := by
  rw [Host.reduce_eq_fold_single IntOp.minsi x init h' h hu, ← Finset.fold_hom toInt_minsi]
  exact (Finset.fold_min_le _).2 (.inr ⟨k, Finset.mem_univ _, (congrArg (fun i => (x i).toInt) (lift_ix1 h t k)).le⟩)

theorem reduce_min_nonneg (hb : 0 ≤ (init (Shape.Idx.first hu)).toInt) (hx : ∀ k : Fin L, 0 ≤ (x (ix2 t k)).toInt) :
    0 ≤ (Host.reduce IntOp.minsi x init h' hu (ix1 t)).toInt := by
  rw [Host.reduce_eq_fold_single IntOp.minsi x init h' h hu, ← Finset.fold_hom toInt_minsi]
  exact (Finset.le_fold_min _).2 ⟨hb, fun k _ => (hx k).trans_eq (congrArg (fun i => (x i).toInt) (lift_ix1 h t k)).symm⟩

theorem le_reduce_max (k : Fin L) : (x (ix2 t k)).toInt ≤ (Host.reduce IntOp.maxsi x init h' hu (ix1 t)).toInt := by
  rw [Host.reduce_eq_fold_single IntOp.maxsi x init h' h hu, ← Finset.fold_hom toInt_maxsi]
  exact (Finset.le_fold_max _).2 (.inr ⟨k, Finset.mem_univ _, (congrArg (fun i => (x i).toInt) (lift_ix1 h t k)).ge⟩)

end

theorem reshape2_apply {n T L : ℕ} (x : (⟨1, ![n]⟩ : Shape).Idx → BitVec 32) (h : (⟨1, ![n]⟩ : Shape).ShapeCasts ⟨2, ![T, L]⟩)
    (t : Fin T) (k : Fin L) (hlt : t.val * L + k.val < n) :
    shapeCast ⟨2, ![T, L]⟩ x h (ix2 t k) = x (ix1 ⟨t.val * L + k.val, hlt⟩) := by
  apply shapeCast_apply
  rw [Shape.rowMajor_val_two, Shape.rowMajor_val_one]
  rfl

theorem reshapeCol_apply {n : ℕ} (x : (⟨1, ![n]⟩ : Shape).Idx → BitVec 32) (h : (⟨1, ![n]⟩ : Shape).ShapeCasts ⟨2, ![n, 1]⟩)
    (e : Fin n) : shapeCast ⟨2, ![n, 1]⟩ x h (ix2 e (0 : Fin 1)) = x (ix1 e) := by
  apply shapeCast_apply
  rw [Shape.rowMajor_val_two, Shape.rowMajor_val_one]
  show e.val = e.val * 1 + 0
  omega

theorem reshapeRow_apply {n : ℕ} (x : (⟨1, ![n]⟩ : Shape).Idx → BitVec 32) (h : (⟨1, ![n]⟩ : Shape).ShapeCasts ⟨2, ![1, n]⟩)
    (e : Fin n) : shapeCast ⟨2, ![1, n]⟩ x h (ix2 (0 : Fin 1) e) = x (ix1 e) := by
  apply shapeCast_apply
  rw [Shape.rowMajor_val_two, Shape.rowMajor_val_one]
  show e.val = 0 * n + e.val
  omega

theorem fdiv_apply {S : Shape} (dims : Fin (⟨0, ![]⟩ : Shape).rank → Fin S.rank) (hb : (⟨0, ![]⟩ : Shape).BroadcastsInDim S dims)
    (x : S.Idx → BitVec 32) (d : BitVec 32) (j : S.Idx) :
    select
      (andi
        (cmpi CmpIPredicate.ne (signi x) (broadcastInDim S dims hb (signi (id (constantI ⟨0, ![]⟩ 32 d)))))
        (cmpi CmpIPredicate.ne (Host.remsi x (broadcastInDim S dims hb (id (constantI ⟨0, ![]⟩ 32 d))))
          (broadcastInDim S dims hb (constantI ⟨0, ![]⟩ 32 0#32))))
      (subi (Host.divsi x (broadcastInDim S dims hb (id (constantI ⟨0, ![]⟩ 32 d)))) (broadcastInDim S dims hb (constantI ⟨0, ![]⟩ 32 1#32)))
      (Host.divsi x (broadcastInDim S dims hb (id (constantI ⟨0, ![]⟩ 32 d)))) j
      = fdivW (x j) d := rfl

-- The band of a tile, over the arrays a program names on the way: the tiles, their row minima and maxima, and the two floor quotients.
theorem band_at {n T L : ℕ} (hL : 0 < L) (hn : n = T * L)
    (A : (⟨1, ![n]⟩ : Shape).Idx → BitVec 32)
    (hsc : (⟨1, ![n]⟩ : Shape).ShapeCasts ⟨2, ![T, L]⟩)
    (h' : (⟨2, ![T, L]⟩ : Shape).ReducesTo [1] ⟨1, ![T]⟩) (h : (⟨2, ![T, L]⟩ : Shape).Reduces [1] ⟨1, ![T]⟩)
    {u : Shape} (hu : 0 < u.numel) (ilo ihi : u.Idx → BitVec 32) (hilo : 0 ≤ (ilo (Shape.Idx.first hu)).toInt)
    (d : BitVec 32) (D : ℤ) (hd : d.toInt = D) (hD : 0 < D)
    (tiles : (⟨2, ![T, L]⟩ : Shape).Idx → BitVec 32) (mn mx lo hi : (⟨1, ![T]⟩ : Shape).Idx → BitVec 32)
    (ht : tiles = shapeCast ⟨2, ![T, L]⟩ A hsc)
    (hmn : mn = Host.reduce IntOp.minsi (shapeCast ⟨2, ![T, L]⟩ A hsc) ilo h' hu)
    (hmx : mx = Host.reduce IntOp.maxsi tiles ihi h' hu)
    (hlo : ∀ j, lo j = fdivW (mn j) d) (hhi : ∀ j, hi j = fdivW (mx j) d)
    (R : ℕ → BitVec 32) (hR : ∀ e (he : e < n), R e = A (ix1 ⟨e, he⟩)) (hnn : ∀ e, e < n → 0 ≤ (R e).toInt)
    (e : ℕ) (he : e < n) :
    (Cert.Acc.at1 lo (e / L)).toInt ≤ (R e).toInt / D ∧ (R e).toInt / D ≤ (Cert.Acc.at1 hi (e / L)).toInt := by
  subst hmx ht hmn
  rw [hR e he]
  have hnn : ∀ i, 0 ≤ (A i).toInt := fun i => by
    have h := hnn _ (i 0).isLt
    rw [hR _ (i 0).isLt] at h
    rw [eq_ix1 i]
    exact h
  have ht : e / L < T := by
    rw [Nat.div_lt_iff_lt_mul hL]; omega
  have hk : e % L < L := Nat.mod_lt _ hL
  have hpos : e / L * L + e % L < n := by rw [Nat.div_add_mod']; exact he
  have hA : shapeCast ⟨2, ![T, L]⟩ A hsc (ix2 (⟨e / L, ht⟩ : Fin T) (⟨e % L, hk⟩ : Fin L)) = A (ix1 ⟨e, he⟩) := by
    rw [reshape2_apply A hsc ⟨e / L, ht⟩ ⟨e % L, hk⟩ hpos]
    congr 2
    exact Fin.ext (Nat.div_add_mod' e L)
  have hdpos : 0 < d.toInt := by rw [hd]; exact hD
  have hmin := reduce_min_le (shapeCast ⟨2, ![T, L]⟩ A hsc) ilo h' h hu ⟨e / L, ht⟩ ⟨e % L, hk⟩
  have hmax := le_reduce_max (shapeCast ⟨2, ![T, L]⟩ A hsc) ihi h' h hu ⟨e / L, ht⟩ ⟨e % L, hk⟩
  have hmin0 := reduce_min_nonneg (shapeCast ⟨2, ![T, L]⟩ A hsc) ilo h' h hu ⟨e / L, ht⟩ hilo
    (fun k => by rw [reshape2_apply A hsc ⟨e / L, ht⟩ k (by
      have := k.isLt
      calc e / L * L + k.val < e / L * L + L := by omega
        _ = (e / L + 1) * L := by ring
        _ ≤ T * L := Nat.mul_le_mul_right L ht
        _ = n := hn.symm)]; exact hnn _)
  rw [hA] at hmin hmax
  have hmax0 : 0 ≤ (Host.reduce IntOp.maxsi (shapeCast ⟨2, ![T, L]⟩ A hsc) ihi h' hu (ix1 ⟨e / L, ht⟩)).toInt :=
    (hnn _).trans hmax
  rw [Cert.Acc.at1_of_lt _ _ ht, Cert.Acc.at1_of_lt _ _ ht, hlo, hhi, fdivW_toInt _ d hmin0 hdpos, fdivW_toInt _ d hmax0 hdpos, hd]
  exact ⟨Int.ediv_le_ediv hD hmin, Int.ediv_le_ediv hD hmax⟩

end Cert.Band

end
-- ==== Proof.KI.HostB.lean ====
import proofs.«430818_j23493471109148_2_alg».proof.Proof.RegionsKernelIdeal
import proofs.«430818_j23493471109148_2_alg».proof.Proof.Acc
import proofs.«430818_j23493471109148_2_alg».proof.Proof.KI.HostDefs
import proofs.«430818_j23493471109148_2_alg».proof.Proof.KI.HostBand
import Idealize.ShloMosaic.Lib.ValueIdx
import Idealize.ShloMosaic.Lib.StableHlo.Run
import Idealize.ShloMosaic.PureOps.Reduce
import Idealize.ShloMosaic.Lib.Pipeline.Value

set_option maxRecDepth 16384

noncomputable section

namespace Cert.KernelIdeal.Host

open Cert.KernelIdeal Cert.KernelIdeal.Gen Cert.KernelIdeal.GenP Cert.Acc
open Idealize.ShloMosaic Idealize.ShloMosaic.TcCoe Idealize.ShloMosaic.ValueIdx

variable (m : (ℓ : Loc nD τ sig) → Buf (Elt Ideal) ℓ) (outs : Outs (F := Ideal)) (c : Dev nD)

theorem ofBuf_toBuf {T : BufTy} (x : StableHlo.TRef sig T) (v : T.Contents (Elt Ideal)) : x.ofBuf (x.toBuf v) = v := by
  simp only [StableHlo.TRef.ofBuf, StableHlo.TRef.toBuf, cast_cast, cast_eq]

set_option maxHeartbeats 1600000 in
theorem min1_eq : (V4 m c main_v30 : S352.Idx → BitVec 32)
    = Host.reduce IntOp.minsi (shapeCast (s := S720896) (α := BitVec 32) S352x2048 (V4 m c main_v14) shapeCasts_S720896_S352x2048)
        (constantI S_ 32 2147483647#32) reducesTo_S352x2048_S352_d1 h_S_ := by
  dsimp only [V4]
  generalize V3 m c = W
  after_results_simp
  try rfl

set_option maxHeartbeats 1600000 in
theorem tiles1_eq : (V4 m c main_v29 : S352x2048.Idx → BitVec 32)
    = shapeCast (s := S720896) (α := BitVec 32) S352x2048 (V4 m c main_v14) shapeCasts_S720896_S352x2048 := by
  dsimp only [V4]
  generalize V3 m c = W
  after_results_simp
  try rfl

set_option maxHeartbeats 1600000 in
theorem divLo1_eq : (V4 m c main_c_9 : S_.Idx → BitVec 32) = constantI S_ 32 4096#32 := by
  dsimp only [V4]
  generalize V3 m c = W
  after_results_simp
  try rfl

set_option maxHeartbeats 1600000 in
theorem lo1_apply (j : S352.Idx) : (V5 m c main_v31 : S352.Idx → BitVec 32) j
    = Cert.Band.fdivW ((V4 m c main_v30 : S352.Idx → BitVec 32) j) 4096#32 := by
  have hc := divLo1_eq m c
  dsimp only [V5]
  generalize V4 m c = W at hc ⊢
  after_results_simp
  rw [hc]
  simp only [ofBuf_toBuf]
  have hx : ∀ p1 p2 p3, (StableHlo.TRef.of main_v30 p1 p2 p3 : StableHlo.TRef sig ⟨S352, .i32⟩).ofBuf (W (Proc.tc.devRef main_v30))
      = (W (Proc.tc.devRef main_v30) : S352.Idx → BitVec 32) := fun _ _ _ => rfl
  have hd : ∀ p1 p2 p3 (v : S_.Idx → BitVec 32),
      StableHlo.TRef.ofBuf (Val := Elt Ideal) (StableHlo.TRef.of main_c_9 p1 p2 p3 : StableHlo.TRef sig ⟨S_, .i32⟩) v = v :=
    fun _ _ _ _ => rfl
  have hy : ∀ p1 p2 p3 (v : S352.Idx → BitVec 32),
      StableHlo.TRef.toBuf (Val := Elt Ideal) (StableHlo.TRef.of main_v31 p1 p2 p3 : StableHlo.TRef sig ⟨S352, .i32⟩) v = v :=
    fun _ _ _ _ => rfl
  rw [hy]
  simp only [hx, hd]
  exact Cert.Band.fdiv_apply _ _ _ _ j

set_option maxHeartbeats 1600000 in
theorem max1_eq : (V6 m c main_v32 : S352.Idx → BitVec 32)
    = Host.reduce IntOp.maxsi (V5 m c main_v29 : S352x2048.Idx → BitVec 32)
        (constantI S_ 32 2147483648#32) reducesTo_S352x2048_S352_d1 h_S_ := by
  dsimp only [V6]
  generalize V5 m c = W
  after_results_simp
  try rfl

set_option maxHeartbeats 1600000 in
theorem divHi1_eq : (V6 m c main_c_11 : S_.Idx → BitVec 32) = constantI S_ 32 4096#32 := by
  dsimp only [V6]
  generalize V5 m c = W
  after_results_simp
  try rfl

set_option maxHeartbeats 1600000 in
theorem hi1_apply (j : S352.Idx) : (V7 m c main_v33 : S352.Idx → BitVec 32) j
    = Cert.Band.fdivW ((V6 m c main_v32 : S352.Idx → BitVec 32) j) 4096#32 := by
  have hc := divHi1_eq m c
  dsimp only [V7]
  generalize V6 m c = W at hc ⊢
  after_results_simp
  rw [hc]
  simp only [ofBuf_toBuf]
  have hx : ∀ p1 p2 p3, (StableHlo.TRef.of main_v32 p1 p2 p3 : StableHlo.TRef sig ⟨S352, .i32⟩).ofBuf (W (Proc.tc.devRef main_v32))
      = (W (Proc.tc.devRef main_v32) : S352.Idx → BitVec 32) := fun _ _ _ => rfl
  have hd : ∀ p1 p2 p3 (v : S_.Idx → BitVec 32),
      StableHlo.TRef.ofBuf (Val := Elt Ideal) (StableHlo.TRef.of main_c_11 p1 p2 p3 : StableHlo.TRef sig ⟨S_, .i32⟩) v = v :=
    fun _ _ _ _ => rfl
  have hy : ∀ p1 p2 p3 (v : S352.Idx → BitVec 32),
      StableHlo.TRef.toBuf (Val := Elt Ideal) (StableHlo.TRef.of main_v33 p1 p2 p3 : StableHlo.TRef sig ⟨S352, .i32⟩) v = v :=
    fun _ _ _ _ => rfl
  rw [hy]
  simp only [hx, hd]
  exact Cert.Band.fdiv_apply _ _ _ _ j

set_option maxHeartbeats 1600000 in
theorem flat1_eq : (V8 m c main_v34 : S720896x1.Idx → BitVec 32)
    = shapeCast (s := S720896) (α := BitVec 32) S720896x1 (V7 m c main_v14) shapeCasts_S720896_S720896x1 := by
  dsimp only [V8]
  generalize V7 m c = W
  after_results_simp
  try rfl

theorem band1 (hnn : ∀ e, e < 720896 → 0 ≤ (at2 (V8 m c main_v34 : (⟨2, ![720896, 1]⟩ : Shape).Idx → BitVec 32) e 0).toInt)
    (e : ℕ) (he : e < 720896) :
    (at1 (V8 m c main_v31 : (⟨1, ![352]⟩ : Shape).Idx → BitVec 32) (e / 2048)).toInt ≤ (at2 (V8 m c main_v34 : (⟨2, ![720896, 1]⟩ : Shape).Idx → BitVec 32) e 0).toInt / 4096
      ∧ (at2 (V8 m c main_v34 : (⟨2, ![720896, 1]⟩ : Shape).Idx → BitVec 32) e 0).toInt / 4096 ≤ (at1 (V8 m c main_v33 : (⟨1, ![352]⟩ : Shape).Idx → BitVec 32) (e / 2048)).toInt := by
  refine Cert.Band.band_at (n := 720896) (T := 352) (L := 2048) (by decide) (by decide) (V4 m c main_v14) shapeCasts_S720896_S352x2048
    reducesTo_S352x2048_S352_d1 (by decide) h_S_ _ _ (by decide) 4096#32 4096 (by decide) (by decide)
    (V5 m c main_v29) (V4 m c main_v30) (V6 m c main_v32) _ _ ?_ (min1_eq m c) (max1_eq m c) (fun j => ?_) (fun j => ?_)
    (fun e => at2 (V8 m c main_v34 : (⟨2, ![720896, 1]⟩ : Shape).Idx → BitVec 32) e 0) (fun e' he' => ?_) hnn e he
  · rw [V5_of m c main_v29 (by decide)]; exact tiles1_eq m c
  · rw [V8_of m c main_v31 (by decide), V7_of m c main_v31 (by decide), V6_of m c main_v31 (by decide)]; exact lo1_apply m c j
  · rw [V8_of m c main_v33 (by decide)]; exact hi1_apply m c j
  · show at2 (V8 m c main_v34 : (⟨2, ![720896, 1]⟩ : Shape).Idx → BitVec 32) e' 0 = _
    rw [at2_of_lt _ _ _ he', flat1_eq, V7_of m c main_v14 (by decide), V6_of m c main_v14 (by decide), V5_of m c main_v14 (by decide)]
    exact Cert.Band.reshapeCol_apply _ _ ⟨e', he'⟩

set_option maxHeartbeats 1600000 in
theorem min2_eq : (V11 m outs c main_v53 : S352.Idx → BitVec 32)
    = Host.reduce IntOp.minsi (shapeCast (s := S720896) (α := BitVec 32) S352x2048 (V11 m outs c main_v44) shapeCasts_S720896_S352x2048)
        (constantI S_ 32 2147483647#32) reducesTo_S352x2048_S352_d1 h_S_ := by
  dsimp only [V11]
  generalize V10 m outs c = W
  after_results_simp
  try rfl

set_option maxHeartbeats 1600000 in
theorem tiles2_eq : (V11 m outs c main_v52 : S352x2048.Idx → BitVec 32)
    = shapeCast (s := S720896) (α := BitVec 32) S352x2048 (V11 m outs c main_v44) shapeCasts_S720896_S352x2048 := by
  dsimp only [V11]
  generalize V10 m outs c = W
  after_results_simp
  try rfl

set_option maxHeartbeats 1600000 in
theorem divLo2_eq : (V11 m outs c main_c_17 : S_.Idx → BitVec 32) = constantI S_ 32 4096#32 := by
  dsimp only [V11]
  generalize V10 m outs c = W
  after_results_simp
  try rfl

set_option maxHeartbeats 1600000 in
theorem lo2_apply (j : S352.Idx) : (V12 m outs c main_v54 : S352.Idx → BitVec 32) j
    = Cert.Band.fdivW ((V11 m outs c main_v53 : S352.Idx → BitVec 32) j) 4096#32 := by
  have hc := divLo2_eq m outs c
  dsimp only [V12]
  generalize V11 m outs c = W at hc ⊢
  after_results_simp
  rw [hc]
  simp only [ofBuf_toBuf]
  have hx : ∀ p1 p2 p3, (StableHlo.TRef.of main_v53 p1 p2 p3 : StableHlo.TRef sig ⟨S352, .i32⟩).ofBuf (W (Proc.tc.devRef main_v53))
      = (W (Proc.tc.devRef main_v53) : S352.Idx → BitVec 32) := fun _ _ _ => rfl
  have hd : ∀ p1 p2 p3 (v : S_.Idx → BitVec 32),
      StableHlo.TRef.ofBuf (Val := Elt Ideal) (StableHlo.TRef.of main_c_17 p1 p2 p3 : StableHlo.TRef sig ⟨S_, .i32⟩) v = v :=
    fun _ _ _ _ => rfl
  have hy : ∀ p1 p2 p3 (v : S352.Idx → BitVec 32),
      StableHlo.TRef.toBuf (Val := Elt Ideal) (StableHlo.TRef.of main_v54 p1 p2 p3 : StableHlo.TRef sig ⟨S352, .i32⟩) v = v :=
    fun _ _ _ _ => rfl
  rw [hy]
  simp only [hx, hd]
  exact Cert.Band.fdiv_apply _ _ _ _ j

set_option maxHeartbeats 1600000 in
theorem max2_eq : (V13 m outs c main_v55 : S352.Idx → BitVec 32)
    = Host.reduce IntOp.maxsi (V12 m outs c main_v52 : S352x2048.Idx → BitVec 32)
        (constantI S_ 32 2147483648#32) reducesTo_S352x2048_S352_d1 h_S_ := by
  dsimp only [V13]
  generalize V12 m outs c = W
  after_results_simp
  try rfl

set_option maxHeartbeats 1600000 in
theorem divHi2_eq : (V13 m outs c main_c_19 : S_.Idx → BitVec 32) = constantI S_ 32 4096#32 := by
  dsimp only [V13]
  generalize V12 m outs c = W
  after_results_simp
  try rfl

set_option maxHeartbeats 1600000 in
theorem hi2_apply (j : S352.Idx) : (V14 m outs c main_v56 : S352.Idx → BitVec 32) j
    = Cert.Band.fdivW ((V13 m outs c main_v55 : S352.Idx → BitVec 32) j) 4096#32 := by
  have hc := divHi2_eq m outs c
  dsimp only [V14]
  generalize V13 m outs c = W at hc ⊢
  after_results_simp
  rw [hc]
  simp only [ofBuf_toBuf]
  have hx : ∀ p1 p2 p3, (StableHlo.TRef.of main_v55 p1 p2 p3 : StableHlo.TRef sig ⟨S352, .i32⟩).ofBuf (W (Proc.tc.devRef main_v55))
      = (W (Proc.tc.devRef main_v55) : S352.Idx → BitVec 32) := fun _ _ _ => rfl
  have hd : ∀ p1 p2 p3 (v : S_.Idx → BitVec 32),
      StableHlo.TRef.ofBuf (Val := Elt Ideal) (StableHlo.TRef.of main_c_19 p1 p2 p3 : StableHlo.TRef sig ⟨S_, .i32⟩) v = v :=
    fun _ _ _ _ => rfl
  have hy : ∀ p1 p2 p3 (v : S352.Idx → BitVec 32),
      StableHlo.TRef.toBuf (Val := Elt Ideal) (StableHlo.TRef.of main_v56 p1 p2 p3 : StableHlo.TRef sig ⟨S352, .i32⟩) v = v :=
    fun _ _ _ _ => rfl
  rw [hy]
  simp only [hx, hd]
  exact Cert.Band.fdiv_apply _ _ _ _ j

set_option maxHeartbeats 1600000 in
theorem flat2_eq : (V15 m outs c main_v57 : S1x720896.Idx → BitVec 32)
    = shapeCast (s := S720896) (α := BitVec 32) S1x720896 (V14 m outs c main_v44) shapeCasts_S720896_S1x720896 := by
  dsimp only [V15]
  generalize V14 m outs c = W
  after_results_simp
  try rfl

theorem band2 (hnn : ∀ e, e < 720896 → 0 ≤ (atRow (V15 m outs c main_v57 : (⟨2, ![1, 720896]⟩ : Shape).Idx → BitVec 32) e).toInt)
    (e : ℕ) (he : e < 720896) :
    (at1 (V15 m outs c main_v54 : (⟨1, ![352]⟩ : Shape).Idx → BitVec 32) (e / 2048)).toInt ≤ (atRow (V15 m outs c main_v57 : (⟨2, ![1, 720896]⟩ : Shape).Idx → BitVec 32) e).toInt / 4096
      ∧ (atRow (V15 m outs c main_v57 : (⟨2, ![1, 720896]⟩ : Shape).Idx → BitVec 32) e).toInt / 4096 ≤ (at1 (V15 m outs c main_v56 : (⟨1, ![352]⟩ : Shape).Idx → BitVec 32) (e / 2048)).toInt := by
  refine Cert.Band.band_at (n := 720896) (T := 352) (L := 2048) (by decide) (by decide) (V11 m outs c main_v44) shapeCasts_S720896_S352x2048
    reducesTo_S352x2048_S352_d1 (by decide) h_S_ _ _ (by decide) 4096#32 4096 (by decide) (by decide)
    (V12 m outs c main_v52) (V11 m outs c main_v53) (V13 m outs c main_v55) _ _ ?_ (min2_eq m outs c) (max2_eq m outs c) (fun j => ?_) (fun j => ?_)
    (fun e => atRow (V15 m outs c main_v57 : (⟨2, ![1, 720896]⟩ : Shape).Idx → BitVec 32) e) (fun e' he' => ?_) hnn e he
  · rw [V12_of m outs c main_v52 (by decide)]; exact tiles2_eq m outs c
  · rw [V15_of m outs c main_v54 (by decide), V14_of m outs c main_v54 (by decide), V13_of m outs c main_v54 (by decide)]; exact lo2_apply m outs c j
  · rw [V15_of m outs c main_v56 (by decide)]; exact hi2_apply m outs c j
  · show atRow (V15 m outs c main_v57 : (⟨2, ![1, 720896]⟩ : Shape).Idx → BitVec 32) e' = _
    rw [atRow_of_lt _ _ he', flat2_eq, V14_of m outs c main_v44 (by decide), V13_of m outs c main_v44 (by decide), V12_of m outs c main_v44 (by decide)]
    exact Cert.Band.reshapeRow_apply _ _ ⟨e', he'⟩

end Cert.KernelIdeal.Host

end
-- ==== Proof.KI.HostCGen.lean ====
import proofs.«430818_j23493471109148_2_alg».proof.Proof.KI.HostRead

noncomputable section

namespace Cert.HostRead

open Idealize.ShloMosaic Idealize.ShloMosaic.ValueIdx Cert.Acc

-- A rank-1 array cast to one row reads, at column e, the array at e.
theorem reshapeRow_atRow {α : Type} [Inhabited α] {n : ℕ} (h : (⟨1, ![n]⟩ : Shape).ShapeCasts ⟨2, ![1, n]⟩)
    (x : (⟨1, ![n]⟩ : Shape).Idx → α) (e : ℕ) (he : e < n) :
    atRow (shapeCast (⟨2, ![1, n]⟩ : Shape) x h) e = at1 x e := by
  rw [atRow_of_lt _ _ he, at1_of_lt _ _ he]
  refine shapeCast_apply x h _ _ ?_
  rw [Shape.rowMajor_val_one, Shape.rowMajor_val_two]
  show e = 0 * n + e
  omega

-- Rows taken at guarded positions, read at a row whose index is inside the table: the table's row at that index.
theorem rows_at2 {α : Type} {i1 i2 : Inhabited α} {i3 : Inhabited (BitVec 32)} {N n C : ℕ}
    (wf : GatherDims.WF ⟨2, ![N, C]⟩ ⟨2, ![n, 1]⟩ ⟨2, ![n, C]⟩ [1] [0] [] [0] [] 1 ![1, C])
    (hb : (⟨1, ![n]⟩ : Shape).BroadcastsInDim ⟨2, ![n, 1]⟩ ![0])
    (hs : (⟨0, ![]⟩ : Shape).BroadcastsInDim ⟨1, ![n]⟩ ![]) (k : BitVec 32)
    (x : (⟨2, ![N, C]⟩ : Shape).Idx → α) (p : IVec ⟨1, ![n]⟩ 32) (e : ℕ) (he : e < n) (q : Fin C)
    (hp : (@at1 n _ i3 p e).toNat < N) (hN : N ≤ 2 ^ 31) :
    @at2 n C α i1 (Host.gather (rowDims N n C wf) x (broadcastInDim ⟨2, ![n, 1]⟩ ![0] hb (guardIdx hs k p))) e q
      = @at2 N C α i2 x (@at1 n _ i3 p e).toNat q := by
  rw [@at1_of_lt n _ i3 p e he] at hp ⊢
  exact (@at2_of_lt n C α i1 _ e q he).trans
    ((rows_guard_apply wf hb hs k x p ⟨e, he⟩ q hp hN).trans (@at2_of_lt N C α i2 x _ q hp).symm)

-- The leading rows of an array, read at one of them.
theorem sliceRows_at2 {α : Type} {i1 i2 : Inhabited α} {N n C : ℕ} (h : (⟨2, ![N, C]⟩ : Shape).Slices ![0, 0] ⟨2, ![n, C]⟩)
    (x : (⟨2, ![N, C]⟩ : Shape).Idx → α) (r : ℕ) (hr : r < n) (hN : n ≤ N) (d : Fin C) :
    @at2 n C α i1 (extractStridedSlice ⟨2, ![n, C]⟩ ![0, 0] x h) r d = @at2 N C α i2 x r d :=
  (@at2_of_lt n C α i1 _ r d hr).trans
    ((slice_rows_apply h x ⟨r, hr⟩ d (by omega)).trans (@at2_of_lt N C α i2 x r d (by omega)).symm)

end Cert.HostRead

end
-- ==== Proof.KI.HostC.lean ====
import proofs.«430818_j23493471109148_2_alg».proof.Proof.RegionsKernelIdeal
import proofs.«430818_j23493471109148_2_alg».proof.Proof.KI.HostDefs
import proofs.«430818_j23493471109148_2_alg».proof.Proof.KI.HostCGen

set_option maxRecDepth 16384

noncomputable section

namespace Cert.KernelIdeal.Host

open Cert.KernelIdeal Cert.KernelIdeal.Gen Cert.KernelIdeal.GenP Cert.Acc Cert.HostRead
open Idealize.ShloMosaic Idealize.ShloMosaic.TcCoe Idealize.ShloMosaic.ValueIdx

variable (m : (ℓ : Loc nD τ sig) → Buf (Elt Ideal) ℓ) (outs : Outs (F := Ideal)) (c : Dev nD)

theorem v37_at : V15 m outs c main_v37 = V10 m outs c main_v37 :=
  (V15_of m outs c main_v37 (by decide)).trans <| (V14_of m outs c main_v37 (by decide)).trans <|
  (V13_of m outs c main_v37 (by decide)).trans <| (V12_of m outs c main_v37 (by decide)).trans (V11_of m outs c main_v37 (by decide))

-- The positions the second sorting permutation reads at.
def idx2 : S720896x1.Idx → BitVec 32 :=
  broadcastInDim S720896x1 ![0] bcast_S720896_S720896x1_0 (guardIdx bcast_S_S720896 720896#32 (V10 m outs c main_v37 : S720896.Idx → BitVec 32))

theorem v57_eq (e : ℕ) (he : e < 720896) (hp : p2 m outs c e < 720896) :
    atRow (V15 m outs c main_v57 : (⟨2, ![1, 720896]⟩ : Shape).Idx → BitVec 32) e = at1 (V8 m c main_v21 : (⟨1, ![720896]⟩ : Shape).Idx → BitVec 32) (p2 m outs c e) := by
  have h1 : (V15 m outs c main_v57 : S1x720896.Idx → BitVec 32) = shapeCast S1x720896 (V14 m outs c main_v44 : S720896.Idx → BitVec 32) shapeCasts_S720896_S1x720896 := by
    dsimp only [V15]; after_results_simp
    all_goals rfl
  have h2 : (V11 m outs c main_v44 : S720896.Idx → BitVec 32) =
      Host.gather gather_S720896_S720896x1_S720896_n_0_n_n_0_1_1 (V10 m outs c main_v21 : S720896.Idx → BitVec 32) (idx2 m outs c) := by
    dsimp only [V11, idx2]; after_results_simp
    all_goals rfl
  unfold p2 at hp ⊢
  rw [v37_at] at hp ⊢
  rw [h1, reshapeRow_atRow _ _ e he, V14_of m outs c main_v44 (by decide), V13_of m outs c main_v44 (by decide), V12_of m outs c main_v44 (by decide), h2,
    V10_of m outs c main_v21 (by decide), V9_of m outs c main_v21 (by decide)]
  exact take_at1 _ rfl rfl rfl rfl _ _ _ _ _ e he hp (by decide)

theorem v51_eq (e : ℕ) (he : e < 720896) (hp : p2 m outs c e < 720896) (d : Fin 64) :
    at2 (V15 m outs c main_v51 : (⟨2, ![720896, 64]⟩ : Shape).Idx → EReal) e d = at2 (outs 9 main_v36 c : (⟨2, ![720896, 64]⟩ : Shape).Idx → EReal) (p2 m outs c e) d := by
  have h1 : (V11 m outs c main_v51 : S720896x64.Idx → EReal) =
      Host.gather (rowDims 720896 720896 64 gather_S720896x64_S720896x1_S720896x64_1_0_n_n_0_1_164_wf) (V10 m outs c main_v36 : S720896x64.Idx → EReal) (idx2 m outs c) := by
    dsimp only [V11, idx2]; after_results_simp
    all_goals rfl
  have h2 : (V10 m outs c main_v36 : S720896x64.Idx → EReal) = outs 9 main_v36 c := by
    rw [V10_of m outs c main_v36 (by decide)]
    dsimp only [V9]; exact Function.update_self ..
  unfold p2 at hp ⊢
  rw [v37_at] at hp ⊢
  rw [V15_of m outs c main_v51 (by decide), V14_of m outs c main_v51 (by decide), V13_of m outs c main_v51 (by decide), V12_of m outs c main_v51 (by decide), h1, h2]
  exact rows_at2 _ _ _ _ _ _ e he d hp (by decide)

theorem v59_eq (r : ℕ) (hr : r < 60000) (d : Fin 64) :
    at2 (V33 m outs c main_v59 : (⟨2, ![60000, 64]⟩ : Shape).Idx → EReal) r d = at2 (outs 16 main_v58 c : (⟨2, ![61440, 64]⟩ : Shape).Idx → EReal) r d := by
  have h1 : (V17 m outs c main_v59 : S60000x64.Idx → EReal) =
      extractStridedSlice S60000x64 ![0, 0] (V16 m outs c main_v58 : S61440x64.Idx → EReal) slices_S61440x64_S60000x64_0_0 := by
    dsimp only [V17]; after_results_simp
    all_goals rfl
  have h2 : (V16 m outs c main_v58 : S61440x64.Idx → EReal) = outs 16 main_v58 c := by
    dsimp only [V16]; exact Function.update_self ..
  rw [V33_of m outs c main_v59 (by decide), V32_of m outs c main_v59 (by decide), V31_of m outs c main_v59 (by decide),
    V30_of m outs c main_v59 (by decide), V29_of m outs c main_v59 (by decide), V28_of m outs c main_v59 (by decide),
    V27_of m outs c main_v59 (by decide), V26_of m outs c main_v59 (by decide), V25_of m outs c main_v59 (by decide),
    V24_of m outs c main_v59 (by decide), V23_of m outs c main_v59 (by decide), V22_of m outs c main_v59 (by decide),
    V21_of m outs c main_v59 (by decide), V20_of m outs c main_v59 (by decide), V19_of m outs c main_v59 (by decide),
    V18_of m outs c main_v59 (by decide), h1, h2]
  exact sliceRows_at2 _ _ r hr (by decide) d

end Cert.KernelIdeal.Host

end
-- ==== Proof.SpmmAbs.lean ====
import Mathlib.Data.EReal.Basic
import Mathlib.Algebra.BigOperators.Group.Finset.Basic
import Mathlib.Algebra.BigOperators.Intervals

noncomputable section

open scoped BigOperators

namespace Cert.Abs

def oh (b : Prop) [Decidable b] : EReal := if b then 1 else 0

structure Data (C : ℕ) where
  T : ℕ
  RT : ℕ
  E : ℕ
  N : ℕ
  srcP : ℕ → BitVec 32
  dstP : ℕ → BitVec 32
  valsP : ℕ → EReal
  embP : ℕ → Fin C → EReal
  pi1 : ℕ → ℕ
  pi2 : ℕ → ℕ
  lo1 : ℕ → BitVec 32
  hi1 : ℕ → BitVec 32
  lo2 : ℕ → BitVec 32
  hi2 : ℕ → BitVec 32

namespace Data

variable {C : ℕ} (D : Data C)

def Epad : ℕ := D.T * 2048
def Npad : ℕ := D.RT * 4096
def src1 (e : ℕ) : BitVec 32 := D.srcP (D.pi1 e)
def dst1 (e : ℕ) : BitVec 32 := D.dstP (D.pi1 e)
def vals1 (e : ℕ) : EReal := D.valsP (D.pi1 e)

def gath (e : ℕ) (d : Fin C) : EReal :=
  ∑ n ∈ Finset.range D.RT,
    if (D.lo1 (e / 2048)).toInt ≤ (n : Int) ∧ (n : Int) ≤ (D.hi1 (e / 2048)).toInt then
      ∑ j ∈ Finset.range 4096, oh (D.src1 e = BitVec.ofNat 32 j + BitVec.ofNat 32 n * 4096#32) * D.embP (n * 4096 + j) d
    else 0

def scaled1 (e : ℕ) (d : Fin C) : EReal := D.gath e d * D.vals1 e
def dst2 (e : ℕ) : BitVec 32 := D.dst1 (D.pi2 e)
def scaled2 (e : ℕ) (d : Fin C) : EReal := D.scaled1 (D.pi2 e) d

def outP (r : ℕ) (d : Fin C) : EReal :=
  ∑ et ∈ Finset.range D.T,
    if (D.lo2 et).toInt ≤ ((r / 4096 : ℕ) : Int) ∧ ((r / 4096 : ℕ) : Int) ≤ (D.hi2 et).toInt then
      ∑ k ∈ Finset.range 2048,
        oh (BitVec.ofNat 32 (r % 4096) + BitVec.ofNat 32 (r / 4096) * 4096#32 = D.dst2 (et * 2048 + k)) * D.scaled2 (et * 2048 + k) d
    else 0

structure Ok : Prop where
  hE : D.E ≤ D.Epad
  hN : D.N ≤ D.Npad
  hsmall : D.Npad < 2 ^ 31
  pi1_lt : ∀ e, e < D.Epad → D.pi1 e < D.Epad
  pi1_inj : ∀ a, a < D.Epad → ∀ b, b < D.Epad → D.pi1 a = D.pi1 b → a = b
  pi2_lt : ∀ e, e < D.Epad → D.pi2 e < D.Epad
  pi2_inj : ∀ a, a < D.Epad → ∀ b, b < D.Epad → D.pi2 a = D.pi2 b → a = b
  src_rng : ∀ e, e < D.E → 0 ≤ (D.srcP e).toInt ∧ (D.srcP e).toInt < (D.N : Int)
  dst_rng : ∀ e, e < D.E → 0 ≤ (D.dstP e).toInt ∧ (D.dstP e).toInt < (D.N : Int)
  src_pad : ∀ e, D.E ≤ e → e < D.Epad → D.srcP e = BitVec.ofNat 32 D.Npad
  dst_pad : ∀ e, D.E ≤ e → e < D.Epad → D.dstP e = BitVec.ofNat 32 D.Npad
  vals_pad : ∀ e, D.E ≤ e → e < D.Epad → D.valsP e = 0
  band1 : ∀ e, e < D.Epad → (D.lo1 (e / 2048)).toInt ≤ (D.src1 e).toInt / 4096 ∧ (D.src1 e).toInt / 4096 ≤ (D.hi1 (e / 2048)).toInt
  band2 : ∀ e, e < D.Epad → (D.lo2 (e / 2048)).toInt ≤ (D.dst2 e).toInt / 4096 ∧ (D.dst2 e).toInt / 4096 ≤ (D.hi2 (e / 2048)).toInt

theorem oh_true {b : Prop} [Decidable b] (h : b) : oh b = 1 := if_pos h

theorem oh_false {b : Prop} [Decidable b] (h : ¬ b) : oh b = 0 := if_neg h

theorem toNat_tile (n j : ℕ) (h : n * 4096 + j < 2 ^ 31) :
    (BitVec.ofNat 32 j + BitVec.ofNat 32 n * 4096#32).toNat = n * 4096 + j := by
  rw [BitVec.toNat_add, BitVec.toNat_mul, BitVec.toNat_ofNat, BitVec.toNat_ofNat, BitVec.toNat_ofNat]
  norm_num
  omega

theorem toInt_nonneg (x : BitVec 32) (h : 0 ≤ x.toInt) : x.toInt = (x.toNat : Int) ∧ x.toNat < 2 ^ 31 := by
  have hx := x.isLt
  rw [BitVec.toInt_eq_toNat_cond] at h ⊢
  split_ifs at h ⊢ with hc <;> omega

theorem toInt_ofNat_small (r : ℕ) (h : r < 2 ^ 31) : (BitVec.ofNat 32 r).toInt = (r : Int) := by
  have h1 : r % 2 ^ 32 = r := Nat.mod_eq_of_lt (by omega)
  rw [BitVec.toInt_eq_toNat_cond, BitVec.toNat_ofNat, h1]
  split_ifs <;> omega

theorem sum_tiles (T : ℕ) (f : ℕ → EReal) :
    ∑ et ∈ Finset.range T, ∑ k ∈ Finset.range 2048, f (et * 2048 + k) = ∑ e ∈ Finset.range (T * 2048), f e := by
  induction T with
  | zero => simp
  | succ T ih => rw [Finset.sum_range_succ, ih, Nat.succ_mul, Finset.sum_range_add]

theorem sum_perm (n : ℕ) (p : ℕ → ℕ) (hlt : ∀ e, e < n → p e < n)
    (hinj : ∀ a, a < n → ∀ b, b < n → p a = p b → a = b) (g : ℕ → EReal) :
    ∑ e ∈ Finset.range n, g (p e) = ∑ e ∈ Finset.range n, g e := by
  have hI : Set.InjOn p (Finset.range n : Set ℕ) := by
    intro a ha b hb hab
    exact hinj a (by simpa using ha) b (by simpa using hb) hab
  have himg : (Finset.range n).image p = Finset.range n := by
    apply Finset.eq_of_subset_of_card_le
    · intro x hx
      rcases Finset.mem_image.mp hx with ⟨a, ha, rfl⟩
      exact Finset.mem_range.mpr (hlt a (Finset.mem_range.mp ha))
    · rw [Finset.card_image_of_injOn hI]
  conv_rhs => rw [← himg]
  rw [Finset.sum_image hI]

theorem band_sum (RT : ℕ) (hsm : RT * 4096 < 2 ^ 31) (x : BitVec 32) (lo hi : Int) (F : ℕ → EReal)
    (h0 : 0 ≤ x.toInt) (h1 : x.toInt < ((RT * 4096 : ℕ) : Int))
    (hlo : lo ≤ x.toInt / 4096) (hhi : x.toInt / 4096 ≤ hi) :
    (∑ n ∈ Finset.range RT,
      if lo ≤ (n : Int) ∧ (n : Int) ≤ hi then
        ∑ j ∈ Finset.range 4096, oh (x = BitVec.ofNat 32 j + BitVec.ofNat 32 n * 4096#32) * F (n * 4096 + j)
      else 0) = F x.toNat := by
  obtain ⟨hxi, hx31⟩ := toInt_nonneg x h0
  rw [hxi] at h1 hlo hhi
  have hmN : x.toNat < RT * 4096 := by exact_mod_cast h1
  rw [Finset.sum_eq_single (x.toNat / 4096)]
  · rw [if_pos (by omega), Finset.sum_eq_single (x.toNat % 4096)]
    · rw [oh_true, one_mul]
      · congr 1; omega
      · apply BitVec.eq_of_toNat_eq
        rw [toNat_tile _ _ (by omega)]; omega
    · intro j hj hne
      have hj' := Finset.mem_range.mp hj
      rw [oh_false, zero_mul]
      intro hEq
      have := congrArg BitVec.toNat hEq
      rw [toNat_tile _ _ (by omega)] at this
      omega
    · intro hn; exact absurd (Finset.mem_range.mpr (Nat.mod_lt _ (by norm_num))) hn
  · intro n hn hne
    have hn' := Finset.mem_range.mp hn
    split_ifs
    · apply Finset.sum_eq_zero
      intro j hj
      have hj' := Finset.mem_range.mp hj
      rw [oh_false, zero_mul]
      intro hEq
      have := congrArg BitVec.toNat hEq
      rw [toNat_tile _ _ (by omega)] at this
      omega
    · rfl
  · intro hn; exact absurd (Finset.mem_range.mpr (by omega)) hn

theorem gath_eq (h : D.Ok) (e : ℕ) (he : e < D.Epad) (d : Fin C)
    (h0 : 0 ≤ (D.src1 e).toInt) (h1 : (D.src1 e).toInt < (D.Npad : Int)) :
    D.gath e d = D.embP (D.src1 e).toNat d :=
  band_sum D.RT h.hsmall (D.src1 e) _ _ (fun i => D.embP i d) h0 h1 (h.band1 e he).1 (h.band1 e he).2

theorem outP_eq (h : D.Ok) (r : ℕ) (hr : r < D.N) (d : Fin C) :
    D.outP r d = ∑ e ∈ (Finset.range D.E).filter (fun e => (D.dstP e).toInt = (r : Int)),
      D.valsP e * D.embP (D.srcP e).toNat d := by
  have hsm : D.RT * 4096 < 2 ^ 31 := h.hsmall
  have hN : D.N ≤ D.RT * 4096 := h.hN
  have hr31 : r < 2 ^ 31 := by omega
  have hrw : BitVec.ofNat 32 (r % 4096) + BitVec.ofNat 32 (r / 4096) * 4096#32 = BitVec.ofNat 32 r := by
    apply BitVec.eq_of_toNat_eq
    rw [toNat_tile _ _ (by omega), BitVec.toNat_ofNat]
    omega
  have hri : (BitVec.ofNat 32 r).toInt = (r : Int) := toInt_ofNat_small r hr31

  have hstep : D.outP r d = ∑ et ∈ Finset.range D.T, ∑ k ∈ Finset.range 2048,
      oh (BitVec.ofNat 32 r = D.dst2 (et * 2048 + k)) * D.scaled2 (et * 2048 + k) d := by
    unfold outP
    apply Finset.sum_congr rfl
    intro et het
    have het' := Finset.mem_range.mp het
    rw [hrw]
    split_ifs with hb
    · rfl
    · symm
      apply Finset.sum_eq_zero
      intro k hk
      have hk' := Finset.mem_range.mp hk
      rw [oh_false, zero_mul]
      intro hEq
      apply hb
      have he : et * 2048 + k < D.Epad := by unfold Epad; omega
      have hb2 := h.band2 _ he
      have hdiv : (et * 2048 + k) / 2048 = et := by omega
      rw [hdiv, ← hEq, hri] at hb2
      omega
  rw [hstep]

  refine (sum_tiles D.T (fun e => oh (BitVec.ofNat 32 r = D.dst2 e) * D.scaled2 e d)).trans ?_
  refine (sum_perm D.Epad D.pi2 h.pi2_lt h.pi2_inj
    (fun e => oh (BitVec.ofNat 32 r = D.dst1 e) * D.scaled1 e d)).trans ?_

  have hterm : ∀ e ∈ Finset.range D.Epad, oh (BitVec.ofNat 32 r = D.dst1 e) * D.scaled1 e d =
      (fun e' => if e' < D.E then
        oh (BitVec.ofNat 32 r = D.dstP e') * (D.embP (D.srcP e').toNat d * D.valsP e') else 0) (D.pi1 e) := by
    intro e he
    have he' := Finset.mem_range.mp he
    have hp := h.pi1_lt e he'
    show oh (BitVec.ofNat 32 r = D.dstP (D.pi1 e)) * (D.gath e d * D.valsP (D.pi1 e)) =
      if D.pi1 e < D.E then _ else 0
    split_ifs with hE
    · have hs := h.src_rng _ hE
      rw [D.gath_eq h e he' d hs.1 (by unfold Npad; have := hs.2; show (D.srcP (D.pi1 e)).toInt < _; omega)]
      rfl
    · rw [h.dst_pad _ (by omega) hp, oh_false, zero_mul]
      intro hEq
      have := congrArg BitVec.toNat hEq
      rw [BitVec.toNat_ofNat, BitVec.toNat_ofNat] at this
      unfold Npad at this
      omega
  rw [Finset.sum_congr rfl hterm]
  refine (sum_perm D.Epad D.pi1 h.pi1_lt h.pi1_inj
    (fun e' => if e' < D.E then
      oh (BitVec.ofNat 32 r = D.dstP e') * (D.embP (D.srcP e').toNat d * D.valsP e') else 0)).trans ?_

  rw [← Finset.sum_subset (Finset.range_subset_range.mpr h.hE)
    (by intro x _ hx; exact if_neg (by simpa using hx)), Finset.sum_filter]
  apply Finset.sum_congr rfl
  intro e he
  have he' := Finset.mem_range.mp he
  show (if e < D.E then _ else 0) = _
  rw [if_pos he']
  by_cases hP : (D.dstP e).toInt = (r : Int)
  · rw [if_pos hP, oh_true, one_mul, EReal.mul_comm]
    apply BitVec.eq_of_toInt_eq; rw [hri, hP]
  · rw [if_neg hP, oh_false, zero_mul]
    intro hEq; apply hP; rw [← hEq, hri]

end Data

end Cert.Abs

end
-- ==== Proof.ValueLib.lean ====
import proofs.«430818_j23493471109148_2_alg».proof.Proof.Acc
import proofs.«430818_j23493471109148_2_alg».proof.Proof.SpmmAbs
import Idealize.ShloMosaic.Lib.ValueIdx
import Idealize.ShloMosaic.Lib.KernelVsHost
import Idealize.ShloMosaic.PureOps.Ideal.Laws

noncomputable section

namespace Cert.VLib

open Idealize.ShloMosaic Idealize.ShloMosaic.ValueIdx Cert.Acc
open scoped BigOperators

-- The widened equality bit, converted, is the selector's weight.
theorem onehot_eq (u v : BitVec 32) :
    (FloatOps.sitofp (F := Ideal) .f32 ((IntOp.cmpi .eq u v).setWidth 32) : EReal) = Cert.Abs.oh (u = v) := by
  show (((((BitVec.ofBool (u == v)).setWidth 32).toInt : ℤ) : ℝ) : EReal) = _
  rw [toInt_setWidth_bit, Cert.Abs.oh]
  by_cases h : u = v <;> simp [h]

-- The band test at a small tile number is the two signed comparisons.
theorem band_iff (k : ℕ) (hk : k < 2 ^ 31) (l h : BitVec 32) :
    Scalar.cmpi .ne (Scalar.extui (Scalar.andi (Scalar.cmpi .sge (BitVec.ofNat 32 k) l) (Scalar.cmpi .sle (BitVec.ofNat 32 k) h)) : BitVec 32) 0#32 = 1#1
      ↔ l.toInt ≤ (k : Int) ∧ (k : Int) ≤ h.toInt := by
  have key : ∀ b1 b2 : Bool,
      (Scalar.cmpi .ne (Scalar.extui (Scalar.andi (BitVec.ofBool b1) (BitVec.ofBool b2)) : BitVec 32) 0#32 = 1#1) ↔ (b1 = true ∧ b2 = true) := by
    decide
  refine (key (l.sle _) (BitVec.sle _ h)).trans ?_
  rw [BitVec.sle_iff_toInt_le, BitVec.sle_iff_toInt_le, Cert.Abs.Data.toInt_ofNat_small k hk]

theorem toNat_ofNat_lt {k : ℕ} (h : k < 2 ^ 32) : (BitVec.ofNat 32 k).toNat = k := by
  rw [BitVec.toNat_ofNat]; exact Nat.mod_eq_of_lt h

-- A product of two matrices into the zero accumulator, once the operand indices are named.
theorem matmul2 {m K n : ℕ} {φ₁ φ₂ : FTy} (d : DotDims ⟨2, ![m, K]⟩ ⟨2, ![K, n]⟩ ⟨2, ![m, n]⟩) (hr : d.contr.rank = 1)
    (hs : d.contr.size ⟨0, by omega⟩ = K)
    (hl : ∀ (p : Fin m) (q : Fin n) (k : Fin K), d.lhsIdx (ix2 p q) ((contrEquiv1 d K hr hs).symm k) = ix2 p k)
    (hrr : ∀ (p : Fin m) (q : Fin n) (k : Fin K), d.rhsIdx (ix2 p q) ((contrEquiv1 d K hr hs).symm k) = ix2 k q)
    (A : FVec Ideal ⟨2, ![m, K]⟩ φ₁) (B : FVec Ideal ⟨2, ![K, n]⟩ φ₂) (p : Fin m) (q : Fin n) :
    FloatOps.matmul d none A B (constant ⟨2, ![m, n]⟩ .f32 0x00000000#32) (ix2 p q) = ∑ k : Fin K, A (ix2 p k) * B (ix2 k q) := by
  rw [Ideal.matmul_constant_zero_apply, ← Equiv.sum_comp (contrEquiv1 d K hr hs).symm]
  exact Finset.sum_congr rfl fun k _ => by rw [hl, hrr]

-- An array read at an index whose coordinates are known is the read at those numbers.
theorem at2_eq {n c : ℕ} {α : Type} [Inhabited α] (x : (⟨2, ![n, c]⟩ : Shape).Idx → α) (i : (⟨2, ![n, c]⟩ : Shape).Idx) {k : ℕ} {d : Fin c}
    (h0 : (i 0).val = k) (h1 : (i 1).val = d.val) : x i = at2 x k d := by
  obtain rfl : i 1 = d := Fin.ext h1
  subst h0
  exact (congrArg x (eq_ix2 i)).trans (at2_of_lt x _ _ (i 0).isLt).symm

theorem at1_eq {n : ℕ} {α : Type} [Inhabited α] (x : (⟨1, ![n]⟩ : Shape).Idx → α) (i : (⟨1, ![n]⟩ : Shape).Idx) {k : ℕ}
    (h0 : (i 0).val = k) : x i = at1 x k := by
  subst h0
  exact (congrArg x (eq_ix1 i)).trans (at1_of_lt x _ (i 0).isLt).symm

theorem atRow_eq {n : ℕ} {α : Type} [Inhabited α] (x : (⟨2, ![1, n]⟩ : Shape).Idx → α) (i : (⟨2, ![1, n]⟩ : Shape).Idx) {k : ℕ}
    (h1 : (i 1).val = k) : x i = atRow x k := by
  subst h1
  refine (congrArg x (funext fun a => ?_)).trans (atRow_of_lt x _ (i 1).isLt).symm
  match a with
  | ⟨0, _⟩ => exact Subsingleton.elim (α := Fin 1) _ _
  | ⟨1, _⟩ => rfl

-- A guarded update of a reset-or-carried value, read at a point.
theorem guarded_step {ι : Type} {B Z : Prop} [Decidable B] [Decidable Z] (f : (ι → EReal) → ι → EReal) (z prev : ι → EReal) (x : ι)
    (S : EReal) (hz : z x = 0) (hf : ∀ b, f b x = b x + S) :
    (if B then f (if Z then z else prev) else if Z then z else prev) x = (if Z then 0 else prev x) + if B then S else 0 := by
  have e : (if Z then z else prev) x = if Z then 0 else prev x := by
    split
    · exact hz
    · rfl
  by_cases hB : B
  · rw [if_pos hB, if_pos hB, hf, e]
  · rw [if_neg hB, if_neg hB, e, add_zero]

end Cert.VLib

end
-- ==== Proof.KI.Reg0Value.lean ====
import proofs.«430818_j23493471109148_2_alg».proof.Proof.KI.Reg0Defs
import proofs.«430818_j23493471109148_2_alg».proof.Proof.ValueLib
import Idealize.ShloMosaic.Lib.Pipeline.Value
import Idealize.ShloMosaic.Lib.ValueLayout

set_option maxRecDepth 16384

noncomputable section

namespace Cert.KernelIdeal.R0

open Cert.KernelIdeal Cert.KernelIdeal.Gen
open Idealize.ShloMosaic Idealize.ShloMosaic.TcCoe
open Idealize.ShloMosaic.ValueIdx
open Idealize.ShloMosaic.Pipeline (Dat Cfg Window)
open scoped BigOperators

namespace Value

open Cert.Acc Cert.VLib

theorem pay1_apply (j : S2048x64.Idx) : k0_pay1 (F := Ideal) j = (0 : EReal) := by
  unfold k0_pay1
  rw [shapeCast_self]
  exact Ideal.ofBits_zero_f32

theorem pay3_apply (acc : Vec Ideal S2048x64 .f32) (v : Vec Ideal S2048x1 .f32) (p : Fin 2048) (q : Fin 64) :
    k0_pay3 acc v (ValueIdx.ix2 p q) = (acc (ValueIdx.ix2 p q) : EReal) * v (ValueIdx.ix2 p (0 : Fin 1)) := by
  unfold k0_pay3
  rw [mulf_apply, shapeCast_self, broadcastTo_apply v _ (ValueIdx.ix2 p q) (ValueIdx.ix2 p (0 : Fin 1)) (Fin.forall_fin_two.2 ⟨rfl, rfl⟩)]

-- One point's product added to the accumulator: the one-hot row of the source index against the table's row tile.
theorem pay2_apply (i : grid0.Coords) (x4 : Vec Ideal S2048x1 .i32) (x6 : Vec Ideal S4096x64 .f32) (base : Vec Ideal S2048x64 .f32)
    (p : Fin 2048) (q : Fin 64) :
    k0_pay2 i x4 x6 base (ValueIdx.ix2 p q)
      = (base (ValueIdx.ix2 p q) : EReal) + ∑ j : Fin 4096,
          Cert.Abs.oh (x4 (ValueIdx.ix2 p (0 : Fin 1)) = BitVec.ofNat 32 j.val + BitVec.ofNat 32 (i 1).val * 4096#32)
            * (x6 (ValueIdx.ix2 j q) : EReal) := by
  unfold k0_pay2
  rw [shapeCast_self, addf_apply]
  refine congrArg ((base (ValueIdx.ix2 p q) : EReal) + ·) ?_
  simp only [matmul]
  rw [matmul2 dot_S2048x4096_S4096x64_S2048x64_1_0_0_1_n_n rfl rfl (fun _ _ _ => Shape.idx_ext₂ rfl rfl) (fun _ _ _ => Shape.idx_ext₂ rfl rfl)]
  refine Finset.sum_congr rfl fun j _ => ?_
  rw [truncf_apply, truncf_apply, shapeCast_self, shapeCast_self, sitofp_apply, extui_apply]
  simp only [cmpi]
  rw [broadcastTo_apply x4 _ (ValueIdx.ix2 p j) (ValueIdx.ix2 p (0 : Fin 1)) (Fin.forall_fin_two.2 ⟨rfl, rfl⟩),
    broadcastTo_apply _ broadcasts_S1x4096_S2048x4096 (ValueIdx.ix2 p j) (ValueIdx.ix2 (0 : Fin 1) j) (Fin.forall_fin_two.2 ⟨rfl, rfl⟩), onehot_eq]
  show Cert.Abs.oh (_ = IntOp.addi (iota _ _ _ _ _ _) _) * _ = _
  rw [iota_single_apply]
  rfl

theorem toNat_c0 (i : grid0.Coords) : (BitVec.ofNat 32 (i 0).val).toNat = (i 0).val :=
  toNat_ofNat_lt (lt_trans (i 0).isLt (by decide))

theorem toNat_c1 (i : grid0.Coords) : (BitVec.ofNat 32 (i 1).val).toNat = (i 1).val :=
  toNat_ofNat_lt (lt_trans (i 1).isLt (by decide))

def fl (t : Fin grid0.N) : Bool :=
  (t.val + 1 = grid0.N || decide (∃ h : t.val + 1 < grid0.N, cc0_transform_3 (grid0.coords ⟨t.val + 1, h⟩) ≠ cc0_transform_3 (grid0.coords t)))

theorem fl_eq : ∀ t : Fin grid0.N, fl t = decide (t.val % 15 = 14) := by decide +kernel

section Pass

variable (a : (pcfgs (F := Ideal) 0).Adm)
variable (V : (c : Dev nD) → (b : Ref sig .tc) → Buf (Elt Ideal) ((c : Thread nD τ).loc b))
variable (c : Dev nD) (t : ℕ) (ht : t < (cfg a).N)

theorem N_eq : (cfg a).N = 5280 := N_0

theorem tbl_eq (T : (⟨1, ![352]⟩ : Shape).Idx → BitVec 32) (i : grid0.Coords) :
    T ((Rect.unit (s := S352) (k0_off1 i) S1.size (k0_off1_inb i)).idx (Shape.Idx.first (s := S1) (numel1_S1.symm ▸ Nat.one_pos)))
      = at1 T (i 0).val :=
  at1_eq T _ (by show (BitVec.ofNat 32 (i 0).val).toNat + 1 * 0 = _; rw [toNat_c0]; rfl)

theorem coords0 : (((cfg a).grid.coords ⟨t, ht⟩) 0).val = t / 15 % 352 := rfl
theorem coords1 : (((cfg a).grid.coords ⟨t, ht⟩) 1).val = t % 15 := by
  show t / 1 % 15 = _
  rw [Nat.div_one]

-- The array offset of the blocks indexed by the edge tile.
theorem eoff (p : ℕ) : (BitVec.ofNat 32 (((cfg a).grid.coords ⟨t, ht⟩) 0).val).toNat * 2048 + 1 * p = t / 15 % 352 * 2048 + p := by
  rw [toNat_c0, coords0]; omega

theorem srcblk_apply (p : Fin 2048) :
    srcblk a V c ⟨t, ht⟩ (ValueIdx.ix2 p (0 : Fin 1))
      = at2 (V c main_v34 : (⟨2, ![720896, 1]⟩ : Shape).Idx → BitVec 32) (t / 15 % 352 * 2048 + p.val) 0 :=
  at2_eq (V c main_v34) ((((cfg a).win 0).blk ⟨t, ht⟩).view.emb (ValueIdx.ix2 p (0 : Fin 1))) (eoff a t ht p.val) rfl

theorem valblk_apply (p : Fin 2048) :
    valblk a V c ⟨t, ht⟩ (ValueIdx.ix2 p (0 : Fin 1))
      = at2 (V c main_v35 : (⟨2, ![720896, 1]⟩ : Shape).Idx → EReal) (t / 15 % 352 * 2048 + p.val) 0 :=
  at2_eq (V c main_v35) ((((cfg a).win 1).blk ⟨t, ht⟩).view.emb (ValueIdx.ix2 p (0 : Fin 1))) (eoff a t ht p.val) rfl

theorem embblk_apply (j : Fin 4096) (q : Fin 64) :
    embblk a V c ⟨t, ht⟩ (ValueIdx.ix2 j q)
      = at2 (V c main_v6 : (⟨2, ![61440, 64]⟩ : Shape).Idx → EReal) (t % 15 * 4096 + j.val) q :=
  at2_eq (V c main_v6) ((((cfg a).win 2).blk ⟨t, ht⟩).view.emb (ValueIdx.ix2 j q))
    (by show (BitVec.ofNat 32 _).toNat * 4096 + 1 * j.val = _; rw [toNat_c1, coords1]; omega)
    (show 0 * 64 + 1 * q.val = q.val by omega)

-- What row tile n contributes to edge e at column q.
def bandTerm (e n : ℕ) (q : Fin 64) : EReal :=
  if (at1 (a.1 0 : (⟨1, ![352]⟩ : Shape).Idx → BitVec 32) (e / 2048)).toInt ≤ (n : Int)
      ∧ (n : Int) ≤ (at1 (a.1 1 : (⟨1, ![352]⟩ : Shape).Idx → BitVec 32) (e / 2048)).toInt then
    ∑ j ∈ Finset.range 4096,
      Cert.Abs.oh (at2 (V c main_v34 : (⟨2, ![720896, 1]⟩ : Shape).Idx → BitVec 32) e 0 = BitVec.ofNat 32 j + BitVec.ofNat 32 n * 4096#32)
        * at2 (V c main_v6 : (⟨2, ![61440, 64]⟩ : Shape).Idx → EReal) (n * 4096 + j) q
  else 0

-- The accumulator after point t: what the point before left (nothing at row tile 0) plus the point's band term.
theorem accAt_apply (h : t < (cfg a).N) (p : Fin 2048) (q : Fin 64) :
    accAt a V c t h (ValueIdx.ix2 p q)
      = (if t % 15 = 0 then (0 : EReal) else accAt a V c (t - 1) (Nat.lt_of_le_of_lt (Nat.sub_le t 1) h) (ValueIdx.ix2 p q))
        + bandTerm a V c (t / 15 % 352 * 2048 + p.val) (t % 15) q := by
  have step : ∀ prev : Vec Ideal S2048x64 .f32,
      accStep ((cfg a).grid.coords ⟨t, h⟩) (lo a ((cfg a).grid.coords ⟨t, h⟩)) (hi a ((cfg a).grid.coords ⟨t, h⟩))
          (srcblk a V c ⟨t, h⟩) (embblk a V c ⟨t, h⟩) prev (ValueIdx.ix2 p q)
        = (if t % 15 = 0 then (0 : EReal) else prev (ValueIdx.ix2 p q)) + bandTerm a V c (t / 15 % 352 * 2048 + p.val) (t % 15) q := by
    intro prev
    refine (guarded_step (k0_pay2 _ (srcblk a V c ⟨t, h⟩) (embblk a V c ⟨t, h⟩)) (k0_pay1 (F := Ideal)) prev (ValueIdx.ix2 p q) _ (pay1_apply _)
      fun b => pay2_apply _ _ _ b p q).trans ?_
    rw [coords1 a t h]
    refine congrArg ((if t % 15 = 0 then (0 : EReal) else prev (ValueIdx.ix2 p q)) + ·) ?_
    unfold bandTerm
    refine if_congr ((band_iff (t % 15) (by omega) _ _).trans ?_) ?_ rfl
    · rw [show lo a _ = _ from tbl_eq _ _, show hi a _ = _ from tbl_eq _ _, coords0 a t h,
        show (t / 15 % 352 * 2048 + p.val) / 2048 = t / 15 % 352 by omega]
      exact Iff.rfl
    · rw [srcblk_apply]
      refine Eq.trans ?_ (Finset.sum_range _).symm
      exact Finset.sum_congr rfl fun j _ => by rw [embblk_apply]
  cases t with
  | zero => rw [accAt, step, if_pos (by decide), if_pos (by decide)]
  | succ m => rw [accAt]; exact step _

-- Along an edge tile's row of the grid the accumulator sums the band terms of the row tiles passed.
theorem accRow (r : ℕ) (hr : r < 352) (p : Fin 2048) (q : Fin 64) :
    ∀ (n : ℕ) (hn : n < 15) (h : r * 15 + n < (cfg a).N),
      accAt a V c (r * 15 + n) h (ValueIdx.ix2 p q) = ∑ n' ∈ Finset.range (n + 1), bandTerm a V c (r * 2048 + p.val) n' q
  | 0, _, h => by
    rw [accAt_apply, if_pos (by omega), show (r * 15 + 0) / 15 % 352 = r by omega, show (r * 15 + 0) % 15 = 0 by omega,
      Finset.sum_range_one, zero_add]
  | n + 1, hn, h => by
    rw [accAt_apply, if_neg (by omega), Finset.sum_range_succ, ← accRow r hr p q n (by omega) (Nat.lt_of_succ_lt h),
      show (r * 15 + (n + 1)) / 15 % 352 = r by omega, show (r * 15 + (n + 1)) % 15 = n + 1 by omega]
    rfl

-- The closed form: at edge e and column d, e's band terms summed, times e's weight.
def G : S720896x64.Idx → EReal := fun i =>
  (∑ n ∈ Finset.range 15, bandTerm a V c (i 0).val n (i 1))
    * at2 (V c main_v35 : (⟨2, ![720896, 1]⟩ : Shape).Idx → EReal) (i 0).val 0

-- The array index of an element of the block of a row's last point.
theorem emb3 (r : ℕ) (hr : r < 352) (h : r * 15 + 14 < (cfg a).N) (p : Fin 2048) (q : Fin 64) (hb : r * 2048 + p.val < 720896) :
    (((cfg a).win 3).blk ⟨r * 15 + 14, h⟩).view.emb (ValueIdx.ix2 p q) = ValueIdx.ix2 (⟨r * 2048 + p.val, hb⟩ : Fin 720896) q :=
  Shape.idx_ext₂ ((eoff a _ h p.val).trans (show (r * 15 + 14) / 15 % 352 * 2048 + p.val = r * 2048 + p.val by omega))
    (show 0 * 64 + 1 * q.val = q.val by omega)

-- The last point of an edge tile's row holds its block of that array.
theorem flushed_eq (t : Fin (cfg a).N) (hf : ((cfg a).win 3).flush t = true) :
    (dat a V c).flushed 3 t = (((cfg a).win 3).blk t).view.read (Elt Ideal) (G a V c) := by
  have hN : (cfg a).N = 5280 := N_eq a
  have h14 : t.val % 15 = 14 := of_decide_eq_true ((fl_eq t).symm.trans hf)
  obtain ⟨r, hr, h, rfl⟩ : ∃ (r : ℕ) (hr : r < 352) (h : r * 15 + 14 < (cfg a).N), t = ⟨r * 15 + 14, h⟩ :=
    ⟨t.val / 15, by have := t.isLt; omega, by have := t.isLt; omega, Fin.ext (by show t.val = t.val / 15 * 15 + 14; omega)⟩
  refine funext fun (y : S2048x64.Idx) => ?_
  obtain ⟨p, q, rfl⟩ : ∃ (p : Fin 2048) (q : Fin 64), y = ValueIdx.ix2 p q := ⟨y 0, y 1, eq_ix2 y⟩
  show k0_pay3 (accAt a V c (r * 15 + 14) h) (valblk a V c ⟨r * 15 + 14, h⟩) (ValueIdx.ix2 p q)
    = G a V c ((((cfg a).win 3).blk ⟨r * 15 + 14, h⟩).view.emb (ValueIdx.ix2 p q))
  rw [emb3 a r hr h p q (by omega), pay3_apply, accRow a V c r hr p q 14 (by decide) h, valblk_apply, show (r * 15 + 14) / 15 % 352 = r by omega]
  rfl

end Pass

end Value

open Value in
theorem arrAt_out (a : (pcfgs (F := Ideal) 0).Adm) (V : (c : Dev nD) → (b : Ref sig .tc) → Buf (Elt Ideal) ((c : Thread nD τ).loc b)) (c : Dev nD)
    (e : ℕ) (he : e < 720896) (d : Fin 64) :
    (dat (F := Ideal) a V c).arrAt 3 (cfg a).N (ValueIdx.ix2 (⟨e, he⟩ : Fin 720896) d)
      = (∑ n ∈ Finset.range 15,
          if (Cert.Acc.at1 (a.1 0 : (⟨1, ![352]⟩ : Shape).Idx → BitVec 32) (e / 2048)).toInt ≤ (n : Int)
              ∧ (n : Int) ≤ (Cert.Acc.at1 (a.1 1 : (⟨1, ![352]⟩ : Shape).Idx → BitVec 32) (e / 2048)).toInt then
            ∑ j ∈ Finset.range 4096,
              Cert.Abs.oh (Cert.Acc.at2 (V c main_v34 : (⟨2, ![720896, 1]⟩ : Shape).Idx → BitVec 32) e 0 = BitVec.ofNat 32 j + BitVec.ofNat 32 n * 4096#32)
                * Cert.Acc.at2 (V c main_v6 : (⟨2, ![61440, 64]⟩ : Shape).Idx → EReal) (n * 4096 + j) d
          else 0) * Cert.Acc.at2 (V c main_v35 : (⟨2, ![720896, 1]⟩ : Shape).Idx → EReal) e 0 := by
  have hN : (cfg a).N = 5280 := N_eq a
  obtain ⟨r, p, rfl⟩ : ∃ (r : ℕ) (p : Fin 2048), e = r * 2048 + p.val :=
    ⟨e / 2048, ⟨e % 2048, Nat.mod_lt _ (by decide)⟩, by show e = e / 2048 * 2048 + e % 2048; omega⟩
  have ht : r * 15 + 14 < (cfg a).N := by omega
  have hm := View.emb_mem_set (((cfg a).win 3).blk ⟨r * 15 + 14, ht⟩).view (ValueIdx.ix2 p d)
  rw [emb3 a r (by omega) ht p d he] at hm
  exact (dat a V c).arrAt_apply_of_mem 3 (G a V c) (flushed_eq a V c) (cfg a).N ⟨r * 15 + 14, ht⟩ _ ht
    ((fl_eq ⟨r * 15 + 14, ht⟩).trans (decide_eq_true (by show (r * 15 + 14) % 15 = 14; omega))) hm

end Cert.KernelIdeal.R0

end
-- ==== Proof.KI.Reg1Value.lean ====
import proofs.«430818_j23493471109148_2_alg».proof.Proof.KI.Reg1Defs
import proofs.«430818_j23493471109148_2_alg».proof.Proof.ValueLib
import Idealize.ShloMosaic.Lib.Pipeline.Value
import Idealize.ShloMosaic.Lib.ValueLayout

set_option maxRecDepth 16384

noncomputable section

namespace Cert.KernelIdeal.R1.Value

open Cert.KernelIdeal Cert.KernelIdeal.Gen
open Idealize.ShloMosaic Idealize.ShloMosaic.TcCoe Idealize.ShloMosaic.ValueIdx
open Idealize.ShloMosaic.Pipeline (Dat Cfg Window)
open scoped BigOperators

section Pass

open Cert.Acc Cert.VLib

theorem pay1_at (j : S4096x64.Idx) : k1_pay1 (F := Ideal) j = 0 := by
  unfold k1_pay1
  rw [shapeCast_self]
  exact Ideal.ofBits_zero_f32

-- One point's product added to the accumulator: the one-hot column of the destination indices against the scaled rows.
theorem pay2_at (i : grid1.Coords) (x4 : Vec Ideal S1x2048 .i32) (x5 : Vec Ideal S2048x64 .f32) (base : Vec Ideal S4096x64 .f32)
    (p : Fin 4096) (q : Fin 64) :
    k1_pay2 (F := Ideal) i x4 x5 base (ValueIdx.ix2 p q)
      = base (ValueIdx.ix2 p q) + ∑ k : Fin 2048,
          Cert.Abs.oh (BitVec.ofNat 32 p.val + BitVec.ofNat 32 (i 0).val * 4096#32 = x4 (ValueIdx.ix2 (0 : Fin 1) k)) * x5 (ValueIdx.ix2 k q) := by
  unfold k1_pay2
  rw [shapeCast_self, addf_apply]
  refine congrArg (base (ValueIdx.ix2 p q) + ·) ?_
  simp only [matmul]
  rw [matmul2 dot_S4096x2048_S2048x64_S4096x64_1_0_0_1_n_n rfl rfl (fun _ _ _ => Shape.idx_ext₂ rfl rfl) (fun _ _ _ => Shape.idx_ext₂ rfl rfl)]
  refine Finset.sum_congr rfl fun k _ => ?_
  rw [truncf_apply, truncf_apply, shapeCast_self, shapeCast_self, sitofp_apply, extui_apply]
  simp only [cmpi]
  rw [broadcastTo_apply _ broadcasts_S4096x1_S4096x2048 (ValueIdx.ix2 p k) (ValueIdx.ix2 p (0 : Fin 1)) (Fin.forall_fin_two.2 ⟨rfl, rfl⟩),
    broadcastTo_apply x4 _ (ValueIdx.ix2 p k) (ValueIdx.ix2 (0 : Fin 1) k) (Fin.forall_fin_two.2 ⟨rfl, rfl⟩), onehot_eq]
  show Cert.Abs.oh (IntOp.addi (iota _ _ _ _ _ _) _ = _) * _ = _
  rw [iota_single_apply]
  rfl

theorem toNat_c0 (i : grid1.Coords) : (BitVec.ofNat 32 (i 0).val).toNat = (i 0).val :=
  toNat_ofNat_lt (lt_trans (i 0).isLt (by decide))

theorem toNat_c1 (i : grid1.Coords) : (BitVec.ofNat 32 (i 1).val).toNat = (i 1).val :=
  toNat_ofNat_lt (lt_trans (i 1).isLt (by decide))

theorem tbl_eq (T : (⟨1, ![352]⟩ : Shape).Idx → BitVec 32) (i : grid1.Coords) :
    T ((Rect.unit (s := S352) (k1_off1 i) S1.size (k1_off1_inb i)).idx (Shape.Idx.first (s := S1) (numel1_S1.symm ▸ Nat.one_pos)))
      = at1 T (i 1).val :=
  at1_eq T _ (by show (BitVec.ofNat 32 (i 1).val).toNat + 1 * 0 = _; rw [toNat_c1]; rfl)

variable (a : (pcfgs (F := Ideal) 1).Adm)
variable (V : (c : Dev nD) → (b : Ref sig .tc) → Buf (Elt Ideal) ((c : Thread nD τ).loc b))
variable (c : Dev nD) (t : Fin (cfg a).N)

theorem N_eq : (cfg a).N = 5280 := N_1

theorem coords0 : (((cfg a).grid.coords t) 0).val = t.val / 352 := by
  have := t.isLt
  have := N_eq a
  show t.val / 352 % 15 = _
  omega

theorem coords1 : (((cfg a).grid.coords t) 1).val = t.val % 352 := by
  show t.val / 1 % 352 = _
  omega

-- The array offsets of the blocks indexed by the edge tile and by the row tile.
theorem eoff (k : ℕ) : (BitVec.ofNat 32 (((cfg a).grid.coords t) 1).val).toNat * 2048 + 1 * k = t.val % 352 * 2048 + k := by
  rw [toNat_c1, coords1]; omega

theorem roff (p : ℕ) : (BitVec.ofNat 32 (((cfg a).grid.coords t) 0).val).toNat * 4096 + 1 * p = t.val / 352 * 4096 + p := by
  rw [toNat_c0, coords0]; omega

theorem idx2 : ((cfg a).win 2).index t = ![t.val / 352, 0] := by
  show ![(BitVec.ofNat 32 ((cfg a).grid.coords t 0).val).toNat, (0#32).toNat] = _
  rw [toNat_c0, coords0]
  rfl

theorem flush_iff : ((cfg a).win 2).flush t = true ↔ t.val % 352 = 351 := by
  have hN := N_eq a
  have hN' : (cfg a).grid.N = 5280 := N_1
  have ht := t.isLt
  rw [Pipeline.Window.flush_out _ rfl]
  constructor
  · rintro (h | ⟨h, hne⟩)
    · have : t.val + 1 = (cfg a).N := h
      omega
    · by_contra hc
      apply hne
      rw [idx2, idx2]
      show ![(t.val + 1) / 352, 0] = ![t.val / 352, 0]
      rw [show (t.val + 1) / 352 = t.val / 352 by omega]
  · intro h
    by_cases hl : t.val + 1 = (cfg a).N
    · exact Or.inl hl
    · refine Or.inr ⟨by omega, fun he => ?_⟩
      rw [idx2, idx2] at he
      have h2 : (t.val + 1) / 352 = t.val / 352 := congrFun he 0
      omega

theorem dstblk_at (k : Fin 2048) :
    dstblk a V c t (ValueIdx.ix2 (0 : Fin 1) k)
      = atRow (V c main_v57 : (⟨2, ![1, 720896]⟩ : Shape).Idx → BitVec 32) (t.val % 352 * 2048 + k.val) :=
  atRow_eq (V c main_v57) ((((cfg a).win 0).blk t).view.emb (ValueIdx.ix2 (0 : Fin 1) k)) (eoff a t k.val)

theorem sclblk_at (k : Fin 2048) (q : Fin 64) :
    sclblk a V c t (ValueIdx.ix2 k q)
      = at2 (V c main_v51 : (⟨2, ![720896, 64]⟩ : Shape).Idx → EReal) (t.val % 352 * 2048 + k.val) q :=
  at2_eq (V c main_v51) ((((cfg a).win 1).blk t).view.emb (ValueIdx.ix2 k q)) (eoff a t k.val) (show 0 * 64 + 1 * q.val = q.val by omega)

-- Edge tile e's contribution to row p of row tile r at column q.
def term (r e p : ℕ) (q : Fin 64) : EReal :=
  if (at1 (a.1 0 : (⟨1, ![352]⟩ : Shape).Idx → BitVec 32) e).toInt ≤ (r : Int)
      ∧ (r : Int) ≤ (at1 (a.1 1 : (⟨1, ![352]⟩ : Shape).Idx → BitVec 32) e).toInt then
    ∑ k ∈ Finset.range 2048,
      Cert.Abs.oh (BitVec.ofNat 32 p + BitVec.ofNat 32 r * 4096#32
          = atRow (V c main_v57 : (⟨2, ![1, 720896]⟩ : Shape).Idx → BitVec 32) (e * 2048 + k))
        * at2 (V c main_v51 : (⟨2, ![720896, 64]⟩ : Shape).Idx → EReal) (e * 2048 + k) q
  else 0

-- One step of the recurrence at point t, at (p, q): zero at the row tile's first edge tile, plus the edge tile's contribution.
theorem step_at (prev : Vec Ideal S4096x64 .f32) (p : Fin 4096) (q : Fin 64) :
    accStep ((cfg a).grid.coords t) (lo a ((cfg a).grid.coords t)) (hi a ((cfg a).grid.coords t)) (dstblk a V c t) (sclblk a V c t) prev
        (ValueIdx.ix2 p q)
      = (if t.val % 352 = 0 then 0 else prev (ValueIdx.ix2 p q)) + term a V c (t.val / 352) (t.val % 352) p.val q := by
  have hN := N_eq a
  have ht := t.isLt
  refine (guarded_step (k1_pay2 _ (dstblk a V c t) (sclblk a V c t)) (k1_pay1 (F := Ideal)) prev (ValueIdx.ix2 p q) _ (pay1_at _)
    fun b => pay2_at _ _ _ b p q).trans ?_
  rw [coords1, coords0]
  refine congrArg ((if t.val % 352 = 0 then 0 else prev (ValueIdx.ix2 p q)) + ·) ?_
  unfold term
  refine if_congr ((band_iff (t.val / 352) (by omega) _ _).trans ?_) ?_ rfl
  · rw [show lo a _ = _ from tbl_eq _ _, show hi a _ = _ from tbl_eq _ _, coords1]
    exact Iff.rfl
  · refine Eq.trans ?_ (Finset.sum_range _).symm
    exact Finset.sum_congr rfl fun k _ => by rw [dstblk_at, sclblk_at]

-- The accumulator after position n: the contributions of the edge tiles up to n's to n's row tile.
theorem accAt_row (p : Fin 4096) (q : Fin 64) : ∀ (n : ℕ) (h : n < (cfg a).N),
    accAt a V c n h (ValueIdx.ix2 p q) = ∑ e ∈ Finset.range (n % 352 + 1), term a V c (n / 352) e p.val q
  | 0, h => by
    rw [accAt, step_at a V c ⟨0, h⟩, if_pos (show (⟨0, h⟩ : Fin (cfg a).N).val % 352 = 0 from rfl)]
    exact (zero_add _).trans (Finset.sum_range_one (fun e => term a V c (0 / 352) e p.val q)).symm
  | n + 1, h => by
    rw [accAt, step_at a V c ⟨n + 1, h⟩]
    show (if (n + 1) % 352 = 0 then 0 else accAt a V c n _ (ValueIdx.ix2 p q)) + term a V c ((n + 1) / 352) ((n + 1) % 352) p.val q = _
    by_cases h0 : (n + 1) % 352 = 0
    · rw [if_pos h0, zero_add, h0]
      exact (Finset.sum_range_one (fun e => term a V c ((n + 1) / 352) e p.val q)).symm
    · rw [if_neg h0, accAt_row p q n _, show (n + 1) / 352 = n / 352 by omega, show (n + 1) % 352 = n % 352 + 1 by omega,
        Finset.sum_range_succ (fun e => term a V c (n / 352) e p.val q) (n % 352 + 1)]

-- The closed form: row r, column d sums the contributions of all edge tiles.
def target : (⟨2, ![61440, 64]⟩ : Shape).Idx → EReal := fun i =>
  ∑ et ∈ Finset.range 352, term a V c ((i 0).val / 4096) et ((i 0).val % 4096) (i 1)

-- The array index of an element of the block of a row tile's last point.
theorem emb2 (n : ℕ) (hn : n < 15) (h : n * 352 + 351 < (cfg a).N) (p : Fin 4096) (q : Fin 64) (hb : n * 4096 + p.val < 61440) :
    (((cfg a).win 2).blk ⟨n * 352 + 351, h⟩).view.emb (ValueIdx.ix2 p q) = ValueIdx.ix2 (⟨n * 4096 + p.val, hb⟩ : Fin 61440) q :=
  Shape.idx_ext₂ ((roff a ⟨_, h⟩ p.val).trans (show (n * 352 + 351) / 352 * 4096 + p.val = n * 4096 + p.val by omega))
    (show 0 * 64 + 1 * q.val = q.val by omega)

-- The last point of a row tile holds its block of that array.
theorem flushed_target (hf : ((cfg a).win 2).flush t = true)
    (y : (((cfg a).win 2).xblock ((cfg a).grid.coords t)).Idx) :
    _root_.cast (congrArg (Elt Ideal) (((cfg a).win 2).blk t).view.elt_eq.symm) ((dat (F := Ideal) a V c).flushed 2 t y)
      = target a V c ((((cfg a).win 2).blk t).view.emb y) := by
  have h351 := (flush_iff a t).mp hf
  have hN := N_eq a
  obtain ⟨n, hn, h, rfl⟩ : ∃ (n : ℕ) (hn : n < 15) (h : n * 352 + 351 < (cfg a).N), t = ⟨n * 352 + 351, h⟩ :=
    ⟨t.val / 352, by have := t.isLt; omega, by have := t.isLt; omega, Fin.ext (by show t.val = t.val / 352 * 352 + 351; omega)⟩
  obtain ⟨p, q, rfl⟩ : ∃ (p : Fin 4096) (q : Fin 64), y = ValueIdx.ix2 p q := ⟨y (0 : Fin 2), y (1 : Fin 2), ValueIdx.eq_ix2 y⟩
  show accAt a V c (n * 352 + 351) h (ValueIdx.ix2 p q) = _
  rw [emb2 a n hn h p q (by omega), accAt_row]
  show _ = ∑ et ∈ Finset.range 352, term a V c ((n * 4096 + p.val) / 4096) et ((n * 4096 + p.val) % 4096) q
  rw [show (n * 352 + 351) % 352 + 1 = 352 by omega, show (n * 352 + 351) / 352 = n by omega,
    show (n * 4096 + p.val) / 4096 = n by omega, show (n * 4096 + p.val) % 4096 = p.val by omega]

end Pass

theorem arrAt_out (a : (pcfgs (F := Ideal) 1).Adm) (V : (c : Dev nD) → (b : Ref sig .tc) → Buf (Elt Ideal) ((c : Thread nD τ).loc b)) (c : Dev nD)
    (r : ℕ) (hr : r < 61440) (d : Fin 64) :
    (dat (F := Ideal) a V c).arrAt 2 (cfg a).N (ValueIdx.ix2 (⟨r, hr⟩ : Fin 61440) d)
      = ∑ et ∈ Finset.range 352,
          if (Cert.Acc.at1 (a.1 0 : (⟨1, ![352]⟩ : Shape).Idx → BitVec 32) et).toInt ≤ ((r / 4096 : ℕ) : Int)
              ∧ ((r / 4096 : ℕ) : Int) ≤ (Cert.Acc.at1 (a.1 1 : (⟨1, ![352]⟩ : Shape).Idx → BitVec 32) et).toInt then
            ∑ k ∈ Finset.range 2048,
              Cert.Abs.oh (BitVec.ofNat 32 (r % 4096) + BitVec.ofNat 32 (r / 4096) * 4096#32
                  = Cert.Acc.atRow (V c main_v57 : (⟨2, ![1, 720896]⟩ : Shape).Idx → BitVec 32) (et * 2048 + k))
                * Cert.Acc.at2 (V c main_v51 : (⟨2, ![720896, 64]⟩ : Shape).Idx → EReal) (et * 2048 + k) d
          else 0 := by
  have hN := N_eq a
  obtain ⟨n, p, rfl⟩ : ∃ (n : ℕ) (p : Fin 4096), r = n * 4096 + p.val :=
    ⟨r / 4096, ⟨r % 4096, Nat.mod_lt _ (by decide)⟩, by show r = r / 4096 * 4096 + r % 4096; omega⟩
  have ht : n * 352 + 351 < (cfg a).N := by omega
  have hm := View.emb_mem_set (((cfg a).win 2).blk ⟨n * 352 + 351, ht⟩).view (ValueIdx.ix2 p d)
  rw [emb2 a n (by omega) ht p d hr] at hm
  exact (dat (F := Ideal) a V c).arrAt_forall_of_flushed 2 (fun i v => v = target a V c i)
    (fun t hf y => flushed_target a V c t hf y) (cfg a).N ⟨n * 352 + 351, ht⟩ _ ht
    ((flush_iff a _).mpr (by show (n * 352 + 351) % 352 = 351; omega)) hm

end Cert.KernelIdeal.R1.Value

end
-- ==== Proof.AccEval.lean ====
import proofs.«430818_j23493471109148_2_alg».proof.Proof.Acc

noncomputable section

namespace Cert.Acc

open Idealize.ShloMosaic Idealize.ShloMosaic.ValueIdx

theorem at1_eval {n : ℕ} {α : Type} {inst : Inhabited α} (x : (⟨1, ![n]⟩ : Shape).Idx → α) (k : ℕ) (h : k < n) :
    @at1 n α inst x k = x (ix1 (⟨k, h⟩ : Fin n)) := dif_pos h

theorem at2_eval {n c : ℕ} {α : Type} {inst : Inhabited α} (x : (⟨2, ![n, c]⟩ : Shape).Idx → α) (k : ℕ) (d : Fin c) (h : k < n) :
    @at2 n c α inst x k d = x (ix2 (⟨k, h⟩ : Fin n) d) := dif_pos h

theorem at2_inst {n c : ℕ} {α : Type} {i1 i2 : Inhabited α} (x : (⟨2, ![n, c]⟩ : Shape).Idx → α) (k : ℕ) (d : Fin c) (h : k < n) :
    @at2 n c α i1 x k d = @at2 n c α i2 x k d := (at2_eval x k d h).trans (at2_eval x k d h).symm

end Cert.Acc

end
-- ==== Proof.Spec.lean ====
import Idealize.ShloMosaic.PureOps.Ideal
import Idealize.ShloMosaic.Lib.ValueIdx
import Mathlib.Algebra.BigOperators.Group.Finset.Basic

noncomputable section

open scoped BigOperators

namespace Cert.Spec

open Idealize.ShloMosaic Idealize.ShloMosaic.ValueIdx

def rowAt {N C : ℕ} (x : (⟨2, ![N, C]⟩ : Shape).Idx → EReal) (k : ℕ) (ch : Fin C) : EReal :=
  if h : k < N then x (ix2 (⟨k, h⟩ : Fin N) ch) else 0

def spmmAt {N C E : ℕ} (emb : (⟨2, ![N, C]⟩ : Shape).Idx → EReal) (src dst : (⟨1, ![E]⟩ : Shape).Idx → BitVec 32)
    (vals : (⟨1, ![E]⟩ : Shape).Idx → EReal) (p : Fin N) (ch : Fin C) : EReal :=
  ∑ e ∈ Finset.univ.filter (fun e : Fin E => (dst (ix1 e)).toInt = (p.val : Int)),
    vals (ix1 e) * rowAt emb (src (ix1 e)).toNat ch

def spmm {N C E : ℕ} (emb : (⟨2, ![N, C]⟩ : Shape).Idx → EReal) (src dst : (⟨1, ![E]⟩ : Shape).Idx → BitVec 32)
    (vals : (⟨1, ![E]⟩ : Shape).Idx → EReal) : (⟨2, ![N, C]⟩ : Shape).Idx → EReal :=
  fun i => spmmAt emb src dst vals (i 0) (i 1)

theorem spmm_apply {N C E : ℕ} (emb : (⟨2, ![N, C]⟩ : Shape).Idx → EReal) (src dst : (⟨1, ![E]⟩ : Shape).Idx → BitVec 32)
    (vals : (⟨1, ![E]⟩ : Shape).Idx → EReal) (p : Fin N) (ch : Fin C) :
    spmm emb src dst vals (ix2 p ch) = spmmAt emb src dst vals p ch := rfl

end Cert.Spec

end
-- ==== Proof.KI.ValueGen.lean ====
import proofs.«430818_j23493471109148_2_alg».proof.Proof.SpmmAbs
import proofs.«430818_j23493471109148_2_alg».proof.Proof.AccEval
import proofs.«430818_j23493471109148_2_alg».proof.Proof.Spec

noncomputable section

open scoped BigOperators

namespace Cert.Abs

open Cert.Acc Cert.Spec Idealize.ShloMosaic Idealize.ShloMosaic.ValueIdx

-- A padded array read inside its data is the data.
theorem pad_at {α : Type} {inst : Inhabited α} {E Ep : ℕ} (hE : E ≤ Ep) {a : (⟨1, ![E]⟩ : Shape).Idx → α} {f : ℕ → α} {z : α}
    (hf : ∀ e, e < Ep → f e = if e < E then @at1 E α inst a e else z) (e : Fin E) : f e = a (ix1 e) := by
  have he := e.isLt
  rw [hf e (by omega), if_pos he, at1_eval a e he]

-- A padded index array keeps the range of its data, and is nonnegative on the pad as well.
theorem pad_rng {inst : Inhabited (BitVec 32)} {E N Ep Np : ℕ} (hE : E ≤ Ep) (hNp : Np < 2 ^ 31)
    {a : (⟨1, ![E]⟩ : Shape).Idx → BitVec 32} {f : ℕ → BitVec 32}
    (ha : ∀ e : Fin E, 0 ≤ (a (ix1 e)).toInt ∧ (a (ix1 e)).toInt < N)
    (hf : ∀ e, e < Ep → f e = if e < E then @at1 E _ inst a e else BitVec.ofNat 32 Np) :
    (∀ e, e < E → 0 ≤ (f e).toInt ∧ (f e).toInt < (N : Int)) ∧ ∀ e, e < Ep → 0 ≤ (f e).toInt := by
  have h1 : ∀ e, e < E → 0 ≤ (f e).toInt ∧ (f e).toInt < (N : Int) := fun e he => by
    rw [show f e = _ from pad_at hE hf ⟨e, he⟩]; exact ha ⟨e, he⟩
  refine ⟨h1, fun e he => ?_⟩
  by_cases h : e < E
  · exact (h1 e h).1
  · rw [hf e he, if_neg h, Data.toInt_ofNat_small Np hNp]; exact Int.natCast_nonneg Np

-- A banded one-hot gather pass then a banded one-hot scatter pass over padded, twice permuted edges is the sparse product.
theorem spmm_of_passes {C E : ℕ} (T RT N : ℕ) {Ep Np : ℕ} (hEp : Ep = T * 2048) (hNp : Np = RT * 4096)
    (hE : E ≤ Ep) (hN : N ≤ Np) (hsm : Np < 2 ^ 31)
    {emb : (⟨2, ![N, C]⟩ : Shape).Idx → EReal} {src dst : (⟨1, ![E]⟩ : Shape).Idx → BitVec 32}
    {vals : (⟨1, ![E]⟩ : Shape).Idx → EReal}
    (hs : ∀ e : Fin E, 0 ≤ (src (ix1 e)).toInt ∧ (src (ix1 e)).toInt < N)
    (hd : ∀ e : Fin E, 0 ≤ (dst (ix1 e)).toInt ∧ (dst (ix1 e)).toInt < N)
    {srcP dstP lo1 hi1 lo2 hi2 s1 d1 d2 : ℕ → BitVec 32} {valsP v1 : ℕ → EReal} {embP o1 sc2 o2 : ℕ → Fin C → EReal}
    {p1 p2 : ℕ → ℕ} {iS iD : Inhabited (BitVec 32)} {iV iE iR : Inhabited EReal}
    (ho1 : ∀ e, e < Ep → ∀ d, o1 e d = (∑ n ∈ Finset.range RT,
      if (lo1 (e / 2048)).toInt ≤ (n : Int) ∧ (n : Int) ≤ (hi1 (e / 2048)).toInt then
        ∑ j ∈ Finset.range 4096, oh (s1 e = BitVec.ofNat 32 j + BitVec.ofNat 32 n * 4096#32) * embP (n * 4096 + j) d
      else 0) * v1 e)
    (ho2 : ∀ r, r < Np → ∀ d, o2 r d = ∑ et ∈ Finset.range T,
      if (lo2 et).toInt ≤ ((r / 4096 : ℕ) : Int) ∧ ((r / 4096 : ℕ) : Int) ≤ (hi2 et).toInt then
        ∑ k ∈ Finset.range 2048,
          oh (BitVec.ofNat 32 (r % 4096) + BitVec.ofNat 32 (r / 4096) * 4096#32 = d2 (et * 2048 + k)) * sc2 (et * 2048 + k) d
      else 0)
    (hsrc : ∀ e, e < Ep → srcP e = if e < E then @at1 E _ iS src e else BitVec.ofNat 32 Np)
    (hdst : ∀ e, e < Ep → dstP e = if e < E then @at1 E _ iD dst e else BitVec.ofNat 32 Np)
    (hval : ∀ e, e < Ep → valsP e = if e < E then @at1 E _ iV vals e else 0)
    (hemb : ∀ k, k < N → ∀ d, embP k d = @at2 N C _ iE emb k d)
    (p1lt : ∀ e, e < Ep → p1 e < Ep) (p1inj : ∀ a, a < Ep → ∀ b, b < Ep → p1 a = p1 b → a = b)
    (p2lt : ∀ e, e < Ep → p2 e < Ep) (p2inj : ∀ a, a < Ep → ∀ b, b < Ep → p2 a = p2 b → a = b)
    (hs1 : ∀ e, e < Ep → p1 e < Ep → s1 e = srcP (p1 e))
    (hv1 : ∀ e, e < Ep → p1 e < Ep → v1 e = valsP (p1 e))
    (hd1 : ∀ e, e < Ep → p1 e < Ep → d1 e = dstP (p1 e))
    (hd2 : ∀ e, e < Ep → p2 e < Ep → d2 e = d1 (p2 e))
    (hsc : ∀ e, e < Ep → p2 e < Ep → ∀ d, sc2 e d = o1 (p2 e) d)
    (hb1 : (∀ e, e < Ep → 0 ≤ (s1 e).toInt) → ∀ e, e < Ep →
      (lo1 (e / 2048)).toInt ≤ (s1 e).toInt / 4096 ∧ (s1 e).toInt / 4096 ≤ (hi1 (e / 2048)).toInt)
    (hb2 : (∀ e, e < Ep → 0 ≤ (d2 e).toInt) → ∀ e, e < Ep →
      (lo2 (e / 2048)).toInt ≤ (d2 e).toInt / 4096 ∧ (d2 e).toInt / 4096 ≤ (hi2 (e / 2048)).toInt)
    {res : (⟨2, ![N, C]⟩ : Shape).Idx → EReal} (hres : ∀ r, r < N → ∀ d, @at2 N C _ iR res r d = o2 r d) :
    res = spmm emb src dst vals := by
  subst hEp hNp
  obtain ⟨srng, snn⟩ := pad_rng hE hsm hs hsrc
  obtain ⟨drng, dnn⟩ := pad_rng hE hsm hd hdst
  have hq : ∀ x, x < T * 2048 → d2 x = dstP (p1 (p2 x)) := fun x hx =>
    (hd2 x hx (p2lt x hx)).trans (hd1 _ (p2lt x hx) (p1lt _ (p2lt x hx)))
  let D : Data C := ⟨T, RT, E, N, srcP, dstP, valsP, embP, p1, p2, lo1, hi1, lo2, hi2⟩
  have ok : D.Ok :=
    { hE := hE, hN := hN, hsmall := hsm, pi1_lt := p1lt, pi1_inj := p1inj, pi2_lt := p2lt, pi2_inj := p2inj
      src_rng := srng, dst_rng := drng
      src_pad := fun e (h1 : E ≤ e) h2 => (hsrc e h2).trans (if_neg (by omega))
      dst_pad := fun e (h1 : E ≤ e) h2 => (hdst e h2).trans (if_neg (by omega))
      vals_pad := fun e (h1 : E ≤ e) h2 => (hval e h2).trans (if_neg (by omega))
      band1 := fun e he => by
        have h := hb1 (fun x hx => by rw [hs1 x hx (p1lt x hx)]; exact snn _ (p1lt x hx)) e he
        rw [hs1 e he (p1lt e he)] at h; exact h
      band2 := fun e he => by
        have h := hb2 (fun x hx => by rw [hq x hx]; exact dnn _ (p1lt _ (p2lt x hx))) e he
        rw [hq e he] at h; exact h }
  have h1 : ∀ e, e < T * 2048 → ∀ d, o1 e d = D.scaled1 e d := fun e he d => by
    rw [ho1 e he d, hs1 e he (p1lt e he), hv1 e he (p1lt e he)]; rfl
  have h2 : ∀ r, r < RT * 4096 → ∀ d, o2 r d = D.outP r d := fun r hr d => by
    rw [ho2 r hr d]
    refine Finset.sum_congr rfl fun et het => if_congr Iff.rfl (Finset.sum_congr rfl fun k hk => ?_) rfl
    have hx : et * 2048 + k < T * 2048 := by
      have : et < T := Finset.mem_range.mp het; have := Finset.mem_range.mp hk; omega
    rw [hq _ hx, hsc _ hx (p2lt _ hx) d, h1 _ (p2lt _ hx) d]; rfl
  funext i
  obtain ⟨⟨r, hr⟩, q, rfl⟩ : ∃ (p : Fin N) (q : Fin C), i = ix2 p q := ⟨i 0, i 1, eq_ix2 i⟩
  rw [← (at2_eval res r q hr : @at2 N C _ iR res r q = _), hres r hr q, h2 r (by omega) q, D.outP_eq ok r hr q, spmm_apply]
  show (∑ e ∈ (Finset.range E).filter fun e => (dstP e).toInt = (r : Int), valsP e * embP (srcP e).toNat q) = _
  unfold spmmAt
  rw [Finset.sum_filter, Finset.sum_filter, Finset.sum_range]
  refine Finset.sum_congr rfl fun e _ => ?_
  have hk : (src (ix1 e)).toNat < N := by
    have h := hs e; have := Data.toInt_nonneg _ h.1; omega
  rw [pad_at hE hsrc e, pad_at hE hdst e, pad_at hE hval e, hemb _ hk q, at2_eval emb _ q hk]
  unfold rowAt
  rw [dif_pos hk]

end Cert.Abs

end
-- ==== Proof.KI.UsersValue.lean ====
import proofs.«430818_j23493471109148_2_alg».proof.Proof.KI.Stage
import proofs.«430818_j23493471109148_2_alg».proof.Proof.KI.HostA
import proofs.«430818_j23493471109148_2_alg».proof.Proof.KI.HostS
import proofs.«430818_j23493471109148_2_alg».proof.Proof.KI.HostB
import proofs.«430818_j23493471109148_2_alg».proof.Proof.KI.HostC
import proofs.«430818_j23493471109148_2_alg».proof.Proof.KI.Reg0Value
import proofs.«430818_j23493471109148_2_alg».proof.Proof.KI.Reg1Value
import proofs.«430818_j23493471109148_2_alg».proof.Proof.KI.ValueGen

namespace Cert.KernelIdeal.ValU

open Cert.KernelIdeal.Gen Cert.KernelIdeal.GenP Cert.KernelIdeal.St Cert.KernelIdeal.Host Cert.Acc Idealize.ShloMosaic Idealize.ShloMosaic.TcCoe

-- The users' result is the sparse product of the users' arguments: the general two-pass lemma at regions 0 and 1.
theorem result_eq (m : (ℓ : Loc nD τ sig) → Buf (Elt Ideal) ℓ) (c : Dev nD)
    (hs : ∀ e : Fin 720000, 0 ≤ ((m ((c : Thread nD τ).loc main_arg2) : (⟨1, ![720000]⟩ : Shape).Idx → BitVec 32) (ValueIdx.ix1 e)).toInt
      ∧ ((m ((c : Thread nD τ).loc main_arg2) : (⟨1, ![720000]⟩ : Shape).Idx → BitVec 32) (ValueIdx.ix1 e)).toInt < 60000)
    (hd : ∀ e : Fin 720000, 0 ≤ ((m ((c : Thread nD τ).loc main_arg3) : (⟨1, ![720000]⟩ : Shape).Idx → BitVec 32) (ValueIdx.ix1 e)).toInt
      ∧ ((m ((c : Thread nD τ).loc main_arg3) : (⟨1, ![720000]⟩ : Shape).Idx → BitVec 32) (ValueIdx.ix1 e)).toInt < 60000) :
    (V33 m (outs m) c main_v59 : (⟨2, ![60000, 64]⟩ : Shape).Idx → EReal)
      = Cert.Spec.spmm (m ((c : Thread nD τ).loc main_arg0)) (m ((c : Thread nD τ).loc main_arg2))
          (m ((c : Thread nD τ).loc main_arg3)) (m ((c : Thread nD τ).loc main_arg4)) := by
  obtain rfl := eq_c0 c
  exact Cert.Abs.spmm_of_passes 352 15 60000 rfl rfl (by norm_num) (by norm_num) (by norm_num) hs hd
    (fun e he d => (at2_eval (o9 m c0) e d he).trans (R0.arrAt_out (a0 m) (W8 m) c0 e he d))
    (fun r hr d => (at2_eval (o16 m c0) r d hr).trans (R1.Value.arrAt_out (a1 m) (W15 m) c0 r hr d))
    (srcP_eq m c0) (dstP_eq m c0) (valsP_eq m c0)
    (fun k hk d => (at2_inst _ k d (by omega)).trans (embP_eq m c0 k hk d))
    (p1_lt m c0) (p1_inj m c0) (p2_lt m (outs1 m) c0) (p2_inj m (outs1 m) c0)
    (v34_eq m c0) (fun e he hp => (at2_inst _ e 0 he).trans (v35_eq m c0 e he hp)) (v21_eq m c0) (v57_eq m (outs1 m) c0)
    (fun e he hp d => (at2_inst _ e d he).trans ((v51_eq m (outs1 m) c0 e he hp d).trans (by rw [outs1_9])))
    (band1 m c0) (band2 m (outs1 m) c0)
    (fun r hr d => (v59_eq m (outs m) c0 r hr d).trans (by rw [outs_16]))

end Cert.KernelIdeal.ValU
-- ==== Proof.KI.HostDefsI.lean ====
/-
  The items' relation on the host side of the kernel program: names for the padded edge arrays, the padded table and the two sorting permutations, as the first two kernel regions find them.
-/
import proofs.«430818_j23493471109148_2_alg».proof.Proof.RegionsKernelIdeal
import proofs.«430818_j23493471109148_2_alg».proof.Proof.Acc
import Idealize.ShloMosaic.Lib.ValueIdx
import Idealize.ShloMosaic.Lib.StableHlo.Run

set_option maxRecDepth 16384

noncomputable section

namespace Cert.KernelIdeal.HostI

open Cert.KernelIdeal Cert.KernelIdeal.Gen Cert.KernelIdeal.GenP Cert.Acc
open Idealize.ShloMosaic Idealize.ShloMosaic.TcCoe Idealize.ShloMosaic.ValueIdx

variable (m : (ℓ : Loc nD τ sig) → Buf (Elt Ideal) ℓ) (outs : Outs (F := Ideal)) (c : Dev nD)

/-- The padded source indices, destination indices and weights of the items' relation, the padded table, and the first
    sorting permutation, read at natural-number positions (the buffers hold them from their defining operation on). -/
def srcP (e : ℕ) : BitVec 32 := at1 (V24 m outs c main_v61 : (⟨1, ![481280]⟩ : Shape).Idx → BitVec 32) e
def dstP (e : ℕ) : BitVec 32 := at1 (V24 m outs c main_v63 : (⟨1, ![481280]⟩ : Shape).Idx → BitVec 32) e
def valsP (e : ℕ) : EReal := at1 (V24 m outs c main_v65 : (⟨1, ![481280]⟩ : Shape).Idx → EReal) e
def embP (k : ℕ) (d : Fin 64) : EReal := at2 (V24 m outs c main_v66 : (⟨2, ![40960, 64]⟩ : Shape).Idx → EReal) k d
def p1 (e : ℕ) : ℕ := (at1 (V24 m outs c main_v67 : (⟨1, ![481280]⟩ : Shape).Idx → BitVec 32) e).toNat
def p2 (e : ℕ) : ℕ := (at1 (V31 m outs c main_v97 : (⟨1, ![481280]⟩ : Shape).Idx → BitVec 32) e).toNat

end Cert.KernelIdeal.HostI

end
-- ==== Proof.KI.HostAI.lean ====
import proofs.«430818_j23493471109148_2_alg».proof.Proof.RegionsKernelIdeal
import proofs.«430818_j23493471109148_2_alg».proof.Proof.Acc
import proofs.«430818_j23493471109148_2_alg».proof.Proof.KI.HostDefsI
import proofs.«430818_j23493471109148_2_alg».proof.Proof.KI.HostRead
import Idealize.ShloMosaic.Lib.ValueIdx
import Idealize.ShloMosaic.Lib.StableHlo.Run
import Idealize.ShloMosaic.Lib.StableHlo.Predicate
import Idealize.ShloMosaic.Lib.Pipeline.Value
import Idealize.ShloMosaic.PureOps.Ideal.Laws

set_option maxRecDepth 16384

noncomputable section

namespace Cert.KernelIdeal.HostI

open Cert.KernelIdeal Cert.KernelIdeal.Gen Cert.KernelIdeal.GenP Cert.Acc Cert.HostRead
open Idealize.ShloMosaic Idealize.ShloMosaic.TcCoe Idealize.ShloMosaic.ValueIdx

variable (m : (ℓ : Loc nD τ sig) → Buf (Elt Ideal) ℓ) (outs : Outs (F := Ideal)) (c : Dev nD)

-- No step before this point writes r, so r still holds its initial contents.
theorem V16_V0 (r : Ref sig .tc)
    (h1 : r ∉ hostOps0_W := by decide) (h2 : r ∉ hostOps0_1_W := by decide) (h3 : r ∉ hostOps0_2_W := by decide) (h4 : r ∉ hostOps0_3_W := by decide)
    (h5 : r ∉ hostOps0_4_W := by decide) (h6 : r ∉ hostOps0_5_W := by decide) (h7 : r ∉ hostOps0_6_W := by decide)
    (h8 : r ∉ hostOps0_7_W := by decide) (h9 : r ∉ ([main_v36] : List (Ref sig .tc)) := by decide) (h10 : r ∉ hostOps1_W := by decide)
    (h11 : r ∉ hostOps1_1_W := by decide) (h12 : r ∉ hostOps1_2_W := by decide) (h13 : r ∉ hostOps1_3_W := by decide)
    (h14 : r ∉ hostOps1_4_W := by decide) (h15 : r ∉ hostOps1_5_W := by decide) (h16 : r ∉ ([main_v58] : List (Ref sig .tc)) := by decide) :
    V16 m outs c r = m ((c : Thread nD τ).loc r) := by
  rw [V16_of m outs c r h16, V15_of m outs c r h15, V14_of m outs c r h14, V13_of m outs c r h13, V12_of m outs c r h12, V11_of m outs c r h11,
    V10_of m outs c r h10, V9_of m outs c r h9, V8_of m c r h8, V7_of m c r h7, V6_of m c r h6, V5_of m c r h5,
    V4_of m c r h4, V3_of m c r h3, V2_of m c r h2, V1_of m c r h1]

-- Four steps in a row that do not write r leave its contents unchanged.
theorem V24_V20 (r : Ref sig .tc) (h7 : r ∉ hostOps2_7_W := by decide) (h6 : r ∉ hostOps2_6_W := by decide)
    (h5 : r ∉ hostOps2_5_W := by decide) (h4 : r ∉ hostOps2_4_W := by decide) : V24 m outs c r = V20 m outs c r := by
  rw [V24_of m outs c r h7, V23_of m outs c r h6, V22_of m outs c r h5, V21_of m outs c r h4]

-- An array taken at the first sorting permutation.
def take1 {α : Type} (x : S481280.Idx → α) : S481280.Idx → α :=
  Host.gather gather_S481280_S481280x1_S481280_n_0_n_n_0_1_1 x (broadcastInDim S481280x1 ![0] bcast_S481280_S481280x1_0
    (guardIdx bcast_S_S481280 481280#32 (V24 m outs c main_v67 : S481280.Idx → BitVec 32)))

theorem take1_at {α : Type} {i1 i2 : Inhabited α} (x : S481280.Idx → α) (e : ℕ) (he : e < 481280) (hp : p1 m outs c e < 481280) :
    @at1 _ α i1 (take1 m outs c x) e = @at1 _ α i2 x (p1 m outs c e) :=
  take_at1 _ rfl rfl rfl rfl _ _ _ x _ e he hp (by norm_num)

theorem v14_eq : (V24 m outs c main_v74 : S481280.Idx → BitVec 32) = take1 m outs c (V24 m outs c main_v61) := by
  dsimp only [take1]
  rw [V24_V20 m outs c main_v74, V24_V20 m outs c main_v61, V20_of m outs c main_v61 (by decide), V24_V20 m outs c main_v67, V20_of m outs c main_v67 (by decide)]
  dsimp only [V20]; generalize V19 m outs c = W; after_results_simp
  all_goals rfl

theorem v21_eq' : (V24 m outs c main_v81 : S481280.Idx → BitVec 32) = take1 m outs c (V24 m outs c main_v63) := by
  dsimp only [take1]
  rw [V24_V20 m outs c main_v81, V24_V20 m outs c main_v63, V20_of m outs c main_v63 (by decide), V24_V20 m outs c main_v67, V20_of m outs c main_v67 (by decide)]
  dsimp only [V20]; generalize V19 m outs c = W; after_results_simp
  all_goals rfl

theorem v28_eq : (V24 m outs c main_v88 : S481280.Idx → EReal) = take1 m outs c (V24 m outs c main_v65) := by
  dsimp only [take1]
  rw [V24_V20 m outs c main_v88, V24_V20 m outs c main_v65, V20_of m outs c main_v65 (by decide), V24_V20 m outs c main_v67, V20_of m outs c main_v67 (by decide)]
  dsimp only [V20]; generalize V19 m outs c = W; after_results_simp
  all_goals rfl

theorem v34_eq (e : ℕ) (he : e < 481280) (hp : p1 m outs c e < 481280) :
    at2 (V24 m outs c main_v94 : (⟨2, ![481280, 1]⟩ : Shape).Idx → BitVec 32) e 0 = srcP m outs c (p1 m outs c e) := by
  have h : (V24 m outs c main_v94 : S481280x1.Idx → BitVec 32) =
      shapeCast S481280x1 (V24 m outs c main_v74 : S481280.Idx → BitVec 32) shapeCasts_S481280_S481280x1 := by
    rw [V24_of m outs c main_v74 (by decide)]; dsimp only [V24]; generalize V23 m outs c = W; after_results; rfl
  rw [h, reshapeCol_at2 _ _ e he, v14_eq]
  exact take1_at m outs c _ e he hp

theorem v35_eq (e : ℕ) (he : e < 481280) (hp : p1 m outs c e < 481280) :
    at2 (V24 m outs c main_v95 : (⟨2, ![481280, 1]⟩ : Shape).Idx → EReal) e 0 = valsP m outs c (p1 m outs c e) := by
  have h : (V24 m outs c main_v95 : S481280x1.Idx → EReal) =
      shapeCast S481280x1 (V24 m outs c main_v88 : S481280.Idx → EReal) shapeCasts_S481280_S481280x1 := by
    rw [V24_of m outs c main_v88 (by decide)]; dsimp only [V24]; generalize V23 m outs c = W; after_results; rfl
  rw [h, reshapeCol_at2 _ _ e he, v28_eq]
  exact take1_at m outs c _ e he hp

theorem v21_eq (e : ℕ) (he : e < 481280) (hp : p1 m outs c e < 481280) :
    at1 (V24 m outs c main_v81 : (⟨1, ![481280]⟩ : Shape).Idx → BitVec 32) e = dstP m outs c (p1 m outs c e) := by
  rw [v21_eq']
  exact take1_at m outs c _ e he hp

theorem srcP_eq (e : ℕ) (he : e < 481280) :
    srcP m outs c e = if e < 480000 then at1 (m ((c : Thread nD τ).loc main_arg5) : (⟨1, ![480000]⟩ : Shape).Idx → BitVec 32) e else 40960#32 := by
  have e1 : (V17 m outs c main_v61 : S481280.Idx → BitVec 32) = concatenate S481280 0
      [⟨S480000, V16 m outs c (Proc.tc.devRef main_arg5)⟩, ⟨S1280, broadcastInDim S1280 ![] bcast_S_S1280 (constantI S_ 32 40960#32)⟩]
      concatenates_S480000_S1280_S481280_d0 := by
    dsimp only [V17]; after_results
  unfold srcP
  rw [V24_V20 m outs c main_v61, V20_of m outs c main_v61 (by decide), V19_of m outs c main_v61 (by decide), V18_of m outs c main_v61 (by decide), e1, V16_V0 m outs c main_arg5]
  exact concat_pad_at1 _ _ _ _ e he rfl

theorem dstP_eq (e : ℕ) (he : e < 481280) :
    dstP m outs c e = if e < 480000 then at1 (m ((c : Thread nD τ).loc main_arg6) : (⟨1, ![480000]⟩ : Shape).Idx → BitVec 32) e else 40960#32 := by
  have e1 : (V17 m outs c main_v63 : S481280.Idx → BitVec 32) = concatenate S481280 0
      [⟨S480000, V16 m outs c (Proc.tc.devRef main_arg6)⟩, ⟨S1280, broadcastInDim S1280 ![] bcast_S_S1280 (constantI S_ 32 40960#32)⟩]
      concatenates_S480000_S1280_S481280_d0 := by
    dsimp only [V17]; after_results
  unfold dstP
  rw [V24_V20 m outs c main_v63, V20_of m outs c main_v63 (by decide), V19_of m outs c main_v63 (by decide), V18_of m outs c main_v63 (by decide), e1, V16_V0 m outs c main_arg6]
  exact concat_pad_at1 _ _ _ _ e he rfl

theorem valsP_eq (e : ℕ) (he : e < 481280) :
    valsP m outs c e = if e < 480000 then (at1 (m ((c : Thread nD τ).loc main_arg7) : (⟨1, ![480000]⟩ : Shape).Idx → EReal) e : EReal) else (0 : EReal) := by
  have e1 : (V17 m outs c main_v65 : S481280.Idx → EReal) = concatenate S481280 0
      [⟨S480000, V16 m outs c (Proc.tc.devRef main_arg7)⟩, ⟨S1280, broadcastInDim S1280 ![] bcast_S_S1280 (constant (F := Ideal) S_ .f32 0x00000000#32)⟩]
      concatenates_S480000_S1280_S481280_d0 := by
    dsimp only [V17]; after_results
  unfold valsP
  rw [V24_V20 m outs c main_v65, V20_of m outs c main_v65 (by decide), V19_of m outs c main_v65 (by decide), V18_of m outs c main_v65 (by decide), e1, V16_V0 m outs c main_arg7]
  exact (concat_pad_at1 _ _ _ _ e he rfl).trans (if_congr Iff.rfl rfl Ideal.ofBits_zero_f32)

theorem embP_eq (k : ℕ) (hk : k < 40000) (d : Fin 64) :
    embP m outs c k d = at2 (m ((c : Thread nD τ).loc main_arg1) : (⟨2, ![40000, 64]⟩ : Shape).Idx → EReal) k d := by
  have e1 : (V18 m outs c main_v66 : S40960x64.Idx → EReal) =
      pad S40960x64 ![0, 0] ![960, 0] ![0, 0] (V16 m outs c (Proc.tc.devRef main_arg1) : S40000x64.Idx → EReal)
        (constant (F := Ideal) S_ .f32 0x00000000#32) pads_S40000x64_S40960x64_09600_000 h_S_ := by
    dsimp only [V18]; after_results
    simp only [StableHlo.TRef.ofBuf, StableHlo.TRef.toBuf, cast_eq, id]
  unfold embP
  rw [V24_V20 m outs c main_v66, V20_of m outs c main_v66 (by decide), V19_of m outs c main_v66 (by decide), e1, padRows_at2 _ _ _ _ k hk (by omega) d,
    at2_of_lt _ _ _ hk, at2_of_lt _ _ _ hk, V16_V0 m outs c main_arg1]

end Cert.KernelIdeal.HostI

end
-- ==== Proof.KI.HostSI.lean ====
import proofs.«430818_j23493471109148_2_alg».proof.Proof.KI.HostDefsI
import proofs.«430818_j23493471109148_2_alg».proof.Proof.KI.HostS

set_option maxRecDepth 16384

noncomputable section

namespace Cert.KernelIdeal.HostI

open Cert.KernelIdeal Cert.KernelIdeal.Gen Cert.KernelIdeal.GenP Cert.Acc
open Idealize.ShloMosaic Idealize.ShloMosaic.TcCoe Idealize.ShloMosaic.ValueIdx

variable (m : (ℓ : Loc nD τ sig) → Buf (Elt Ideal) ℓ) (outs : Outs (F := Ideal)) (c : Dev nD)

theorem v7_eq : (V24 m outs c main_v67 : (⟨1, ![481280]⟩ : Shape).Idx → BitVec 32)
    = (Host.sort2 ⟨1, ![481280]⟩ 0 comparator_i32_i32_d0
        (V18 m outs c main_v61 : (⟨1, ![481280]⟩ : Shape).Idx → BitVec 32) (iotaInDim ⟨1, ![481280]⟩ 32 0)).2 := by
  rw [V24_of, V23_of, V22_of, V21_of, V20_of]
  · dsimp only [V19]
    generalize V18 m outs c = W
    after_results
    rfl
  all_goals decide

theorem v37_eq : (V31 m outs c main_v97 : (⟨1, ![481280]⟩ : Shape).Idx → BitVec 32)
    = (Host.sort2 ⟨1, ![481280]⟩ 0 comparator_i32_i32_d0
        (V25 m outs c main_v81 : (⟨1, ![481280]⟩ : Shape).Idx → BitVec 32) (iotaInDim ⟨1, ![481280]⟩ 32 0)).2 := by
  rw [V31_of, V30_of, V29_of, V28_of, V27_of]
  · dsimp only [V26]
    generalize V25 m outs c = W
    after_results
    rfl
  all_goals decide

theorem p1_lt (e : ℕ) (he : e < 481280) : p1 m outs c e < 481280 := ArgSort.lt (by decide) (v7_eq m outs c) e he

theorem p1_inj (x : ℕ) (hx : x < 481280) (y : ℕ) (hy : y < 481280) (h : p1 m outs c x = p1 m outs c y) : x = y :=
  ArgSort.inj (by decide) (v7_eq m outs c) x hx y hy h

theorem p2_lt (e : ℕ) (he : e < 481280) : p2 m outs c e < 481280 := ArgSort.lt (by decide) (v37_eq m outs c) e he

theorem p2_inj (x : ℕ) (hx : x < 481280) (y : ℕ) (hy : y < 481280) (h : p2 m outs c x = p2 m outs c y) : x = y :=
  ArgSort.inj (by decide) (v37_eq m outs c) x hx y hy h

end Cert.KernelIdeal.HostI

end
-- ==== Proof.KI.HostBI.lean ====
import proofs.«430818_j23493471109148_2_alg».proof.Proof.RegionsKernelIdeal
import proofs.«430818_j23493471109148_2_alg».proof.Proof.Acc
import proofs.«430818_j23493471109148_2_alg».proof.Proof.KI.HostDefsI
import proofs.«430818_j23493471109148_2_alg».proof.Proof.KI.HostBand
import Idealize.ShloMosaic.Lib.ValueIdx
import Idealize.ShloMosaic.Lib.StableHlo.Run
import Idealize.ShloMosaic.PureOps.Reduce
import Idealize.ShloMosaic.Lib.Pipeline.Value

set_option maxRecDepth 16384

noncomputable section

namespace Cert.KernelIdeal.HostI

open Cert.KernelIdeal Cert.KernelIdeal.Gen Cert.KernelIdeal.GenP Cert.Acc
open Idealize.ShloMosaic Idealize.ShloMosaic.TcCoe Idealize.ShloMosaic.ValueIdx

variable (m : (ℓ : Loc nD τ sig) → Buf (Elt Ideal) ℓ) (outs : Outs (F := Ideal)) (c : Dev nD)

theorem ofBuf_toBuf {T : BufTy} (x : StableHlo.TRef sig T) (v : T.Contents (Elt Ideal)) : x.ofBuf (x.toBuf v) = v := by
  simp only [StableHlo.TRef.ofBuf, StableHlo.TRef.toBuf, cast_cast, cast_eq]

set_option maxHeartbeats 1400000 in
theorem min1_eq : (V20 m outs c main_v90 : S235.Idx → BitVec 32)
    = Host.reduce IntOp.minsi (shapeCast (s := S481280) (α := BitVec 32) S235x2048 (V20 m outs c main_v74) shapeCasts_S481280_S235x2048)
        (constantI S_ 32 2147483647#32) reducesTo_S235x2048_S235_d1 h_S_ := by
  dsimp only [V20]
  generalize V19 m outs c = W
  after_results_simp
  try rfl

set_option maxHeartbeats 1400000 in
theorem tiles1_eq : (V20 m outs c main_v89 : S235x2048.Idx → BitVec 32)
    = shapeCast (s := S481280) (α := BitVec 32) S235x2048 (V20 m outs c main_v74) shapeCasts_S481280_S235x2048 := by
  dsimp only [V20]
  generalize V19 m outs c = W
  after_results_simp
  try rfl

set_option maxHeartbeats 1400000 in
theorem divLo1_eq : (V20 m outs c main_c_31 : S_.Idx → BitVec 32) = constantI S_ 32 4096#32 := by
  dsimp only [V20]
  generalize V19 m outs c = W
  after_results_simp
  try rfl

set_option maxHeartbeats 1400000 in
theorem lo1_apply (j : S235.Idx) : (V21 m outs c main_v91 : S235.Idx → BitVec 32) j
    = Cert.Band.fdivW ((V20 m outs c main_v90 : S235.Idx → BitVec 32) j) 4096#32 := by
  have hc := divLo1_eq m outs c
  dsimp only [V21]
  generalize V20 m outs c = W at hc ⊢
  after_results_simp
  rw [hc]
  simp only [ofBuf_toBuf]
  have hx : ∀ p1 p2 p3, (StableHlo.TRef.of main_v90 p1 p2 p3 : StableHlo.TRef sig ⟨S235, .i32⟩).ofBuf (W (Proc.tc.devRef main_v90))
      = (W (Proc.tc.devRef main_v90) : S235.Idx → BitVec 32) := fun _ _ _ => rfl
  have hd : ∀ p1 p2 p3 (v : S_.Idx → BitVec 32),
      StableHlo.TRef.ofBuf (Val := Elt Ideal) (StableHlo.TRef.of main_c_31 p1 p2 p3 : StableHlo.TRef sig ⟨S_, .i32⟩) v = v :=
    fun _ _ _ _ => rfl
  have hy : ∀ p1 p2 p3 (v : S235.Idx → BitVec 32),
      StableHlo.TRef.toBuf (Val := Elt Ideal) (StableHlo.TRef.of main_v91 p1 p2 p3 : StableHlo.TRef sig ⟨S235, .i32⟩) v = v :=
    fun _ _ _ _ => rfl
  rw [hy]
  simp only [hx, hd]
  exact Cert.Band.fdiv_apply _ _ _ _ j

set_option maxHeartbeats 1400000 in
theorem max1_eq : (V22 m outs c main_v92 : S235.Idx → BitVec 32)
    = Host.reduce IntOp.maxsi (V21 m outs c main_v89 : S235x2048.Idx → BitVec 32)
        (constantI S_ 32 2147483648#32) reducesTo_S235x2048_S235_d1 h_S_ := by
  dsimp only [V22]
  generalize V21 m outs c = W
  after_results_simp
  try rfl

set_option maxHeartbeats 1400000 in
theorem divHi1_eq : (V22 m outs c main_c_33 : S_.Idx → BitVec 32) = constantI S_ 32 4096#32 := by
  dsimp only [V22]
  generalize V21 m outs c = W
  after_results_simp
  try rfl

set_option maxHeartbeats 1400000 in
theorem hi1_apply (j : S235.Idx) : (V23 m outs c main_v93 : S235.Idx → BitVec 32) j
    = Cert.Band.fdivW ((V22 m outs c main_v92 : S235.Idx → BitVec 32) j) 4096#32 := by
  have hc := divHi1_eq m outs c
  dsimp only [V23]
  generalize V22 m outs c = W at hc ⊢
  after_results_simp
  rw [hc]
  simp only [ofBuf_toBuf]
  have hx : ∀ p1 p2 p3, (StableHlo.TRef.of main_v92 p1 p2 p3 : StableHlo.TRef sig ⟨S235, .i32⟩).ofBuf (W (Proc.tc.devRef main_v92))
      = (W (Proc.tc.devRef main_v92) : S235.Idx → BitVec 32) := fun _ _ _ => rfl
  have hd : ∀ p1 p2 p3 (v : S_.Idx → BitVec 32),
      StableHlo.TRef.ofBuf (Val := Elt Ideal) (StableHlo.TRef.of main_c_33 p1 p2 p3 : StableHlo.TRef sig ⟨S_, .i32⟩) v = v :=
    fun _ _ _ _ => rfl
  have hy : ∀ p1 p2 p3 (v : S235.Idx → BitVec 32),
      StableHlo.TRef.toBuf (Val := Elt Ideal) (StableHlo.TRef.of main_v93 p1 p2 p3 : StableHlo.TRef sig ⟨S235, .i32⟩) v = v :=
    fun _ _ _ _ => rfl
  rw [hy]
  simp only [hx, hd]
  exact Cert.Band.fdiv_apply _ _ _ _ j

set_option maxHeartbeats 1400000 in
theorem flat1_eq : (V24 m outs c main_v94 : S481280x1.Idx → BitVec 32)
    = shapeCast (s := S481280) (α := BitVec 32) S481280x1 (V23 m outs c main_v74) shapeCasts_S481280_S481280x1 := by
  dsimp only [V24]
  generalize V23 m outs c = W
  after_results_simp
  try rfl

theorem band1 (hnn : ∀ e, e < 481280 → 0 ≤ (at2 (V24 m outs c main_v94 : (⟨2, ![481280, 1]⟩ : Shape).Idx → BitVec 32) e 0).toInt)
    (e : ℕ) (he : e < 481280) :
    (at1 (V24 m outs c main_v91 : (⟨1, ![235]⟩ : Shape).Idx → BitVec 32) (e / 2048)).toInt ≤ (at2 (V24 m outs c main_v94 : (⟨2, ![481280, 1]⟩ : Shape).Idx → BitVec 32) e 0).toInt / 4096
      ∧ (at2 (V24 m outs c main_v94 : (⟨2, ![481280, 1]⟩ : Shape).Idx → BitVec 32) e 0).toInt / 4096 ≤ (at1 (V24 m outs c main_v93 : (⟨1, ![235]⟩ : Shape).Idx → BitVec 32) (e / 2048)).toInt := by
  refine Cert.Band.band_at (n := 481280) (T := 235) (L := 2048) (by decide) (by decide) (V20 m outs c main_v74) shapeCasts_S481280_S235x2048
    reducesTo_S235x2048_S235_d1 (by decide) h_S_ _ _ (by decide) 4096#32 4096 (by decide) (by decide)
    (V21 m outs c main_v89) (V20 m outs c main_v90) (V22 m outs c main_v92) _ _ ?_ (min1_eq m outs c) (max1_eq m outs c) (fun j => ?_) (fun j => ?_)
    (fun e => at2 (V24 m outs c main_v94 : (⟨2, ![481280, 1]⟩ : Shape).Idx → BitVec 32) e 0) (fun e' he' => ?_) hnn e he
  · rw [V21_of m outs c main_v89 (by decide)]; exact tiles1_eq m outs c
  · rw [V24_of m outs c main_v91 (by decide), V23_of m outs c main_v91 (by decide), V22_of m outs c main_v91 (by decide)]; exact lo1_apply m outs c j
  · rw [V24_of m outs c main_v93 (by decide)]; exact hi1_apply m outs c j
  · show at2 (V24 m outs c main_v94 : (⟨2, ![481280, 1]⟩ : Shape).Idx → BitVec 32) e' 0 = _
    rw [at2_of_lt _ _ _ he', flat1_eq, V23_of m outs c main_v74 (by decide), V22_of m outs c main_v74 (by decide), V21_of m outs c main_v74 (by decide)]
    exact Cert.Band.reshapeCol_apply _ _ ⟨e', he'⟩

set_option maxHeartbeats 1400000 in
theorem min2_eq : (V27 m outs c main_v113 : S235.Idx → BitVec 32)
    = Host.reduce IntOp.minsi (shapeCast (s := S481280) (α := BitVec 32) S235x2048 (V27 m outs c main_v104) shapeCasts_S481280_S235x2048)
        (constantI S_ 32 2147483647#32) reducesTo_S235x2048_S235_d1 h_S_ := by
  dsimp only [V27]
  generalize V26 m outs c = W
  after_results_simp
  try rfl

set_option maxHeartbeats 1400000 in
theorem tiles2_eq : (V27 m outs c main_v112 : S235x2048.Idx → BitVec 32)
    = shapeCast (s := S481280) (α := BitVec 32) S235x2048 (V27 m outs c main_v104) shapeCasts_S481280_S235x2048 := by
  dsimp only [V27]
  generalize V26 m outs c = W
  after_results_simp
  try rfl

set_option maxHeartbeats 1400000 in
theorem divLo2_eq : (V27 m outs c main_c_39 : S_.Idx → BitVec 32) = constantI S_ 32 4096#32 := by
  dsimp only [V27]
  generalize V26 m outs c = W
  after_results_simp
  try rfl

set_option maxHeartbeats 1400000 in
theorem lo2_apply (j : S235.Idx) : (V28 m outs c main_v114 : S235.Idx → BitVec 32) j
    = Cert.Band.fdivW ((V27 m outs c main_v113 : S235.Idx → BitVec 32) j) 4096#32 := by
  have hc := divLo2_eq m outs c
  dsimp only [V28]
  generalize V27 m outs c = W at hc ⊢
  after_results_simp
  rw [hc]
  simp only [ofBuf_toBuf]
  have hx : ∀ p1 p2 p3, (StableHlo.TRef.of main_v113 p1 p2 p3 : StableHlo.TRef sig ⟨S235, .i32⟩).ofBuf (W (Proc.tc.devRef main_v113))
      = (W (Proc.tc.devRef main_v113) : S235.Idx → BitVec 32) := fun _ _ _ => rfl
  have hd : ∀ p1 p2 p3 (v : S_.Idx → BitVec 32),
      StableHlo.TRef.ofBuf (Val := Elt Ideal) (StableHlo.TRef.of main_c_39 p1 p2 p3 : StableHlo.TRef sig ⟨S_, .i32⟩) v = v :=
    fun _ _ _ _ => rfl
  have hy : ∀ p1 p2 p3 (v : S235.Idx → BitVec 32),
      StableHlo.TRef.toBuf (Val := Elt Ideal) (StableHlo.TRef.of main_v114 p1 p2 p3 : StableHlo.TRef sig ⟨S235, .i32⟩) v = v :=
    fun _ _ _ _ => rfl
  rw [hy]
  simp only [hx, hd]
  exact Cert.Band.fdiv_apply _ _ _ _ j

set_option maxHeartbeats 1400000 in
theorem max2_eq : (V29 m outs c main_v115 : S235.Idx → BitVec 32)
    = Host.reduce IntOp.maxsi (V28 m outs c main_v112 : S235x2048.Idx → BitVec 32)
        (constantI S_ 32 2147483648#32) reducesTo_S235x2048_S235_d1 h_S_ := by
  dsimp only [V29]
  generalize V28 m outs c = W
  after_results_simp
  try rfl

set_option maxHeartbeats 1400000 in
theorem divHi2_eq : (V29 m outs c main_c_41 : S_.Idx → BitVec 32) = constantI S_ 32 4096#32 := by
  dsimp only [V29]
  generalize V28 m outs c = W
  after_results_simp
  try rfl

set_option maxHeartbeats 1400000 in
theorem hi2_apply (j : S235.Idx) : (V30 m outs c main_v116 : S235.Idx → BitVec 32) j
    = Cert.Band.fdivW ((V29 m outs c main_v115 : S235.Idx → BitVec 32) j) 4096#32 := by
  have hc := divHi2_eq m outs c
  dsimp only [V30]
  generalize V29 m outs c = W at hc ⊢
  after_results_simp
  rw [hc]
  simp only [ofBuf_toBuf]
  have hx : ∀ p1 p2 p3, (StableHlo.TRef.of main_v115 p1 p2 p3 : StableHlo.TRef sig ⟨S235, .i32⟩).ofBuf (W (Proc.tc.devRef main_v115))
      = (W (Proc.tc.devRef main_v115) : S235.Idx → BitVec 32) := fun _ _ _ => rfl
  have hd : ∀ p1 p2 p3 (v : S_.Idx → BitVec 32),
      StableHlo.TRef.ofBuf (Val := Elt Ideal) (StableHlo.TRef.of main_c_41 p1 p2 p3 : StableHlo.TRef sig ⟨S_, .i32⟩) v = v :=
    fun _ _ _ _ => rfl
  have hy : ∀ p1 p2 p3 (v : S235.Idx → BitVec 32),
      StableHlo.TRef.toBuf (Val := Elt Ideal) (StableHlo.TRef.of main_v116 p1 p2 p3 : StableHlo.TRef sig ⟨S235, .i32⟩) v = v :=
    fun _ _ _ _ => rfl
  rw [hy]
  simp only [hx, hd]
  exact Cert.Band.fdiv_apply _ _ _ _ j

set_option maxHeartbeats 1400000 in
theorem flat2_eq : (V31 m outs c main_v117 : S1x481280.Idx → BitVec 32)
    = shapeCast (s := S481280) (α := BitVec 32) S1x481280 (V30 m outs c main_v104) shapeCasts_S481280_S1x481280 := by
  dsimp only [V31]
  generalize V30 m outs c = W
  after_results_simp
  try rfl

theorem band2 (hnn : ∀ e, e < 481280 → 0 ≤ (atRow (V31 m outs c main_v117 : (⟨2, ![1, 481280]⟩ : Shape).Idx → BitVec 32) e).toInt)
    (e : ℕ) (he : e < 481280) :
    (at1 (V31 m outs c main_v114 : (⟨1, ![235]⟩ : Shape).Idx → BitVec 32) (e / 2048)).toInt ≤ (atRow (V31 m outs c main_v117 : (⟨2, ![1, 481280]⟩ : Shape).Idx → BitVec 32) e).toInt / 4096
      ∧ (atRow (V31 m outs c main_v117 : (⟨2, ![1, 481280]⟩ : Shape).Idx → BitVec 32) e).toInt / 4096 ≤ (at1 (V31 m outs c main_v116 : (⟨1, ![235]⟩ : Shape).Idx → BitVec 32) (e / 2048)).toInt := by
  refine Cert.Band.band_at (n := 481280) (T := 235) (L := 2048) (by decide) (by decide) (V27 m outs c main_v104) shapeCasts_S481280_S235x2048
    reducesTo_S235x2048_S235_d1 (by decide) h_S_ _ _ (by decide) 4096#32 4096 (by decide) (by decide)
    (V28 m outs c main_v112) (V27 m outs c main_v113) (V29 m outs c main_v115) _ _ ?_ (min2_eq m outs c) (max2_eq m outs c) (fun j => ?_) (fun j => ?_)
    (fun e => atRow (V31 m outs c main_v117 : (⟨2, ![1, 481280]⟩ : Shape).Idx → BitVec 32) e) (fun e' he' => ?_) hnn e he
  · rw [V28_of m outs c main_v112 (by decide)]; exact tiles2_eq m outs c
  · rw [V31_of m outs c main_v114 (by decide), V30_of m outs c main_v114 (by decide), V29_of m outs c main_v114 (by decide)]; exact lo2_apply m outs c j
  · rw [V31_of m outs c main_v116 (by decide)]; exact hi2_apply m outs c j
  · show atRow (V31 m outs c main_v117 : (⟨2, ![1, 481280]⟩ : Shape).Idx → BitVec 32) e' = _
    rw [atRow_of_lt _ _ he', flat2_eq, V30_of m outs c main_v104 (by decide), V29_of m outs c main_v104 (by decide), V28_of m outs c main_v104 (by decide)]
    exact Cert.Band.reshapeRow_apply _ _ ⟨e', he'⟩

end Cert.KernelIdeal.HostI

end
-- ==== Proof.KI.HostCI.lean ====
import proofs.«430818_j23493471109148_2_alg».proof.Proof.RegionsKernelIdeal
import proofs.«430818_j23493471109148_2_alg».proof.Proof.KI.HostDefsI
import proofs.«430818_j23493471109148_2_alg».proof.Proof.KI.HostCGen

set_option maxRecDepth 16384

noncomputable section

namespace Cert.KernelIdeal.HostI

open Cert.KernelIdeal Cert.KernelIdeal.Gen Cert.KernelIdeal.GenP Cert.Acc Cert.HostRead
open Idealize.ShloMosaic Idealize.ShloMosaic.TcCoe Idealize.ShloMosaic.ValueIdx

variable (m : (ℓ : Loc nD τ sig) → Buf (Elt Ideal) ℓ) (outs : Outs (F := Ideal)) (c : Dev nD)

theorem v37_at : V31 m outs c main_v97 = V26 m outs c main_v97 :=
  (V31_of m outs c main_v97 (by decide)).trans <| (V30_of m outs c main_v97 (by decide)).trans <|
  (V29_of m outs c main_v97 (by decide)).trans <| (V28_of m outs c main_v97 (by decide)).trans (V27_of m outs c main_v97 (by decide))

-- The positions the second sorting permutation reads at.
def idx2 : S481280x1.Idx → BitVec 32 :=
  broadcastInDim S481280x1 ![0] bcast_S481280_S481280x1_0 (guardIdx bcast_S_S481280 481280#32 (V26 m outs c main_v97 : S481280.Idx → BitVec 32))

theorem v57_eq (e : ℕ) (he : e < 481280) (hp : p2 m outs c e < 481280) :
    atRow (V31 m outs c main_v117 : (⟨2, ![1, 481280]⟩ : Shape).Idx → BitVec 32) e = at1 (V24 m outs c main_v81 : (⟨1, ![481280]⟩ : Shape).Idx → BitVec 32) (p2 m outs c e) := by
  have h1 : (V31 m outs c main_v117 : S1x481280.Idx → BitVec 32) = shapeCast S1x481280 (V30 m outs c main_v104 : S481280.Idx → BitVec 32) shapeCasts_S481280_S1x481280 := by
    dsimp only [V31]; after_results_simp
    all_goals rfl
  have h2 : (V27 m outs c main_v104 : S481280.Idx → BitVec 32) =
      Host.gather gather_S481280_S481280x1_S481280_n_0_n_n_0_1_1 (V26 m outs c main_v81 : S481280.Idx → BitVec 32) (idx2 m outs c) := by
    dsimp only [V27, idx2]; after_results_simp
    all_goals rfl
  unfold p2 at hp ⊢
  rw [v37_at] at hp ⊢
  rw [h1, reshapeRow_atRow _ _ e he, V30_of m outs c main_v104 (by decide), V29_of m outs c main_v104 (by decide), V28_of m outs c main_v104 (by decide), h2,
    V26_of m outs c main_v81 (by decide), V25_of m outs c main_v81 (by decide)]
  exact take_at1 _ rfl rfl rfl rfl _ _ _ _ _ e he hp (by decide)

theorem v51_eq (e : ℕ) (he : e < 481280) (hp : p2 m outs c e < 481280) (d : Fin 64) :
    at2 (V31 m outs c main_v111 : (⟨2, ![481280, 64]⟩ : Shape).Idx → EReal) e d = at2 (outs 25 main_v96 c : (⟨2, ![481280, 64]⟩ : Shape).Idx → EReal) (p2 m outs c e) d := by
  have h1 : (V27 m outs c main_v111 : S481280x64.Idx → EReal) =
      Host.gather (rowDims 481280 481280 64 gather_S481280x64_S481280x1_S481280x64_1_0_n_n_0_1_164_wf) (V26 m outs c main_v96 : S481280x64.Idx → EReal) (idx2 m outs c) := by
    dsimp only [V27, idx2]; after_results_simp
    all_goals rfl
  have h2 : (V26 m outs c main_v96 : S481280x64.Idx → EReal) = outs 25 main_v96 c := by
    rw [V26_of m outs c main_v96 (by decide)]
    dsimp only [V25]; exact Function.update_self ..
  unfold p2 at hp ⊢
  rw [v37_at] at hp ⊢
  rw [V31_of m outs c main_v111 (by decide), V30_of m outs c main_v111 (by decide), V29_of m outs c main_v111 (by decide), V28_of m outs c main_v111 (by decide), h1, h2]
  exact rows_at2 _ _ _ _ _ _ e he d hp (by decide)

theorem v59_eq (r : ℕ) (hr : r < 40000) (d : Fin 64) :
    at2 (V33 m outs c main_v119 : (⟨2, ![40000, 64]⟩ : Shape).Idx → EReal) r d = at2 (outs 32 main_v118 c : (⟨2, ![40960, 64]⟩ : Shape).Idx → EReal) r d := by
  have h1 : (V33 m outs c main_v119 : S40000x64.Idx → EReal) =
      extractStridedSlice S40000x64 ![0, 0] (V32 m outs c main_v118 : S40960x64.Idx → EReal) slices_S40960x64_S40000x64_0_0 := by
    dsimp only [V33]; after_results_simp
    all_goals rfl
  have h2 : (V32 m outs c main_v118 : S40960x64.Idx → EReal) = outs 32 main_v118 c := by
    dsimp only [V32]; exact Function.update_self ..
  rw [h1, h2]
  exact sliceRows_at2 _ _ r hr (by decide) d

end Cert.KernelIdeal.HostI

end
-- ==== Proof.KI.Reg2Value.lean ====
import proofs.«430818_j23493471109148_2_alg».proof.Proof.KI.Reg2Defs
import proofs.«430818_j23493471109148_2_alg».proof.Proof.ValueLib
import Idealize.ShloMosaic.Lib.Pipeline.Value
import Idealize.ShloMosaic.Lib.ValueLayout

set_option maxRecDepth 16384

noncomputable section

namespace Cert.KernelIdeal.R2

open Cert.KernelIdeal Cert.KernelIdeal.Gen
open Idealize.ShloMosaic Idealize.ShloMosaic.TcCoe
open Idealize.ShloMosaic.ValueIdx
open Idealize.ShloMosaic.Pipeline (Dat Cfg Window)
open scoped BigOperators

namespace Value

open Cert.Acc Cert.VLib

theorem pay1_apply (j : S2048x64.Idx) : k2_pay1 (F := Ideal) j = (0 : EReal) := by
  unfold k2_pay1
  rw [shapeCast_self]
  exact Ideal.ofBits_zero_f32

theorem pay3_apply (acc : Vec Ideal S2048x64 .f32) (v : Vec Ideal S2048x1 .f32) (p : Fin 2048) (q : Fin 64) :
    k2_pay3 acc v (ValueIdx.ix2 p q) = (acc (ValueIdx.ix2 p q) : EReal) * v (ValueIdx.ix2 p (0 : Fin 1)) := by
  unfold k2_pay3
  rw [mulf_apply, shapeCast_self, broadcastTo_apply v _ (ValueIdx.ix2 p q) (ValueIdx.ix2 p (0 : Fin 1)) (Fin.forall_fin_two.2 ⟨rfl, rfl⟩)]

-- One point's product added to the accumulator: the one-hot row of the source index against the table's row tile.
theorem pay2_apply (i : grid2.Coords) (x4 : Vec Ideal S2048x1 .i32) (x6 : Vec Ideal S4096x64 .f32) (base : Vec Ideal S2048x64 .f32)
    (p : Fin 2048) (q : Fin 64) :
    k2_pay2 i x4 x6 base (ValueIdx.ix2 p q)
      = (base (ValueIdx.ix2 p q) : EReal) + ∑ j : Fin 4096,
          Cert.Abs.oh (x4 (ValueIdx.ix2 p (0 : Fin 1)) = BitVec.ofNat 32 j.val + BitVec.ofNat 32 (i 1).val * 4096#32)
            * (x6 (ValueIdx.ix2 j q) : EReal) := by
  unfold k2_pay2
  rw [shapeCast_self, addf_apply]
  refine congrArg ((base (ValueIdx.ix2 p q) : EReal) + ·) ?_
  simp only [matmul]
  rw [matmul2 dot_S2048x4096_S4096x64_S2048x64_1_0_0_1_n_n rfl rfl (fun _ _ _ => Shape.idx_ext₂ rfl rfl) (fun _ _ _ => Shape.idx_ext₂ rfl rfl)]
  refine Finset.sum_congr rfl fun j _ => ?_
  rw [truncf_apply, truncf_apply, shapeCast_self, shapeCast_self, sitofp_apply, extui_apply]
  simp only [cmpi]
  rw [broadcastTo_apply x4 _ (ValueIdx.ix2 p j) (ValueIdx.ix2 p (0 : Fin 1)) (Fin.forall_fin_two.2 ⟨rfl, rfl⟩),
    broadcastTo_apply _ broadcasts_S1x4096_S2048x4096 (ValueIdx.ix2 p j) (ValueIdx.ix2 (0 : Fin 1) j) (Fin.forall_fin_two.2 ⟨rfl, rfl⟩), onehot_eq]
  show Cert.Abs.oh (_ = IntOp.addi (iota _ _ _ _ _ _) _) * _ = _
  rw [iota_single_apply]
  rfl

theorem toNat_c0 (i : grid2.Coords) : (BitVec.ofNat 32 (i 0).val).toNat = (i 0).val :=
  toNat_ofNat_lt (lt_trans (i 0).isLt (by decide))

theorem toNat_c1 (i : grid2.Coords) : (BitVec.ofNat 32 (i 1).val).toNat = (i 1).val :=
  toNat_ofNat_lt (lt_trans (i 1).isLt (by decide))

def fl (t : Fin grid2.N) : Bool :=
  (t.val + 1 = grid2.N || decide (∃ h : t.val + 1 < grid2.N, cc2_transform_3 (grid2.coords ⟨t.val + 1, h⟩) ≠ cc2_transform_3 (grid2.coords t)))

theorem fl_eq : ∀ t : Fin grid2.N, fl t = decide (t.val % 10 = 9) := by decide +kernel

section Pass

variable (a : (pcfgs (F := Ideal) 2).Adm)
variable (V : (c : Dev nD) → (b : Ref sig .tc) → Buf (Elt Ideal) ((c : Thread nD τ).loc b))
variable (c : Dev nD) (t : ℕ) (ht : t < (cfg a).N)

theorem N_eq : (cfg a).N = 2350 := N_2

theorem tbl_eq (T : (⟨1, ![235]⟩ : Shape).Idx → BitVec 32) (i : grid2.Coords) :
    T ((Rect.unit (s := S235) (k2_off1 i) S1.size (k2_off1_inb i)).idx (Shape.Idx.first (s := S1) (numel1_S1.symm ▸ Nat.one_pos)))
      = at1 T (i 0).val :=
  at1_eq T _ (by show (BitVec.ofNat 32 (i 0).val).toNat + 1 * 0 = _; rw [toNat_c0]; rfl)

theorem coords0 : (((cfg a).grid.coords ⟨t, ht⟩) 0).val = t / 10 % 235 := rfl
theorem coords1 : (((cfg a).grid.coords ⟨t, ht⟩) 1).val = t % 10 := by
  show t / 1 % 10 = _
  rw [Nat.div_one]

-- The array offset of the blocks indexed by the edge tile.
theorem eoff (p : ℕ) : (BitVec.ofNat 32 (((cfg a).grid.coords ⟨t, ht⟩) 0).val).toNat * 2048 + 1 * p = t / 10 % 235 * 2048 + p := by
  rw [toNat_c0, coords0]; omega

theorem srcblk_apply (p : Fin 2048) :
    srcblk a V c ⟨t, ht⟩ (ValueIdx.ix2 p (0 : Fin 1))
      = at2 (V c main_v94 : (⟨2, ![481280, 1]⟩ : Shape).Idx → BitVec 32) (t / 10 % 235 * 2048 + p.val) 0 :=
  at2_eq (V c main_v94) ((((cfg a).win 0).blk ⟨t, ht⟩).view.emb (ValueIdx.ix2 p (0 : Fin 1))) (eoff a t ht p.val) rfl

theorem valblk_apply (p : Fin 2048) :
    valblk a V c ⟨t, ht⟩ (ValueIdx.ix2 p (0 : Fin 1))
      = at2 (V c main_v95 : (⟨2, ![481280, 1]⟩ : Shape).Idx → EReal) (t / 10 % 235 * 2048 + p.val) 0 :=
  at2_eq (V c main_v95) ((((cfg a).win 1).blk ⟨t, ht⟩).view.emb (ValueIdx.ix2 p (0 : Fin 1))) (eoff a t ht p.val) rfl

theorem embblk_apply (j : Fin 4096) (q : Fin 64) :
    embblk a V c ⟨t, ht⟩ (ValueIdx.ix2 j q)
      = at2 (V c main_v66 : (⟨2, ![40960, 64]⟩ : Shape).Idx → EReal) (t % 10 * 4096 + j.val) q :=
  at2_eq (V c main_v66) ((((cfg a).win 2).blk ⟨t, ht⟩).view.emb (ValueIdx.ix2 j q))
    (by show (BitVec.ofNat 32 _).toNat * 4096 + 1 * j.val = _; rw [toNat_c1, coords1]; omega)
    (show 0 * 64 + 1 * q.val = q.val by omega)

-- What row tile n contributes to edge e at column q.
def bandTerm (e n : ℕ) (q : Fin 64) : EReal :=
  if (at1 (a.1 0 : (⟨1, ![235]⟩ : Shape).Idx → BitVec 32) (e / 2048)).toInt ≤ (n : Int)
      ∧ (n : Int) ≤ (at1 (a.1 1 : (⟨1, ![235]⟩ : Shape).Idx → BitVec 32) (e / 2048)).toInt then
    ∑ j ∈ Finset.range 4096,
      Cert.Abs.oh (at2 (V c main_v94 : (⟨2, ![481280, 1]⟩ : Shape).Idx → BitVec 32) e 0 = BitVec.ofNat 32 j + BitVec.ofNat 32 n * 4096#32)
        * at2 (V c main_v66 : (⟨2, ![40960, 64]⟩ : Shape).Idx → EReal) (n * 4096 + j) q
  else 0

-- The accumulator after point t: what the point before left (nothing at row tile 0) plus the point's band term.
theorem accAt_apply (h : t < (cfg a).N) (p : Fin 2048) (q : Fin 64) :
    accAt a V c t h (ValueIdx.ix2 p q)
      = (if t % 10 = 0 then (0 : EReal) else accAt a V c (t - 1) (Nat.lt_of_le_of_lt (Nat.sub_le t 1) h) (ValueIdx.ix2 p q))
        + bandTerm a V c (t / 10 % 235 * 2048 + p.val) (t % 10) q := by
  have step : ∀ prev : Vec Ideal S2048x64 .f32,
      accStep ((cfg a).grid.coords ⟨t, h⟩) (lo a ((cfg a).grid.coords ⟨t, h⟩)) (hi a ((cfg a).grid.coords ⟨t, h⟩))
          (srcblk a V c ⟨t, h⟩) (embblk a V c ⟨t, h⟩) prev (ValueIdx.ix2 p q)
        = (if t % 10 = 0 then (0 : EReal) else prev (ValueIdx.ix2 p q)) + bandTerm a V c (t / 10 % 235 * 2048 + p.val) (t % 10) q := by
    intro prev
    refine (guarded_step (k2_pay2 _ (srcblk a V c ⟨t, h⟩) (embblk a V c ⟨t, h⟩)) (k2_pay1 (F := Ideal)) prev (ValueIdx.ix2 p q) _ (pay1_apply _)
      fun b => pay2_apply _ _ _ b p q).trans ?_
    rw [coords1 a t h]
    refine congrArg ((if t % 10 = 0 then (0 : EReal) else prev (ValueIdx.ix2 p q)) + ·) ?_
    unfold bandTerm
    refine if_congr ((band_iff (t % 10) (by omega) _ _).trans ?_) ?_ rfl
    · rw [show lo a _ = _ from tbl_eq _ _, show hi a _ = _ from tbl_eq _ _, coords0 a t h,
        show (t / 10 % 235 * 2048 + p.val) / 2048 = t / 10 % 235 by omega]
      exact Iff.rfl
    · rw [srcblk_apply]
      refine Eq.trans ?_ (Finset.sum_range _).symm
      exact Finset.sum_congr rfl fun j _ => by rw [embblk_apply]
  cases t with
  | zero => rw [accAt, step, if_pos (by decide), if_pos (by decide)]
  | succ m => rw [accAt]; exact step _

-- Along an edge tile's row of the grid the accumulator sums the band terms of the row tiles passed.
theorem accRow (r : ℕ) (hr : r < 235) (p : Fin 2048) (q : Fin 64) :
    ∀ (n : ℕ) (hn : n < 10) (h : r * 10 + n < (cfg a).N),
      accAt a V c (r * 10 + n) h (ValueIdx.ix2 p q) = ∑ n' ∈ Finset.range (n + 1), bandTerm a V c (r * 2048 + p.val) n' q
  | 0, _, h => by
    rw [accAt_apply, if_pos (by omega), show (r * 10 + 0) / 10 % 235 = r by omega, show (r * 10 + 0) % 10 = 0 by omega,
      Finset.sum_range_one, zero_add]
  | n + 1, hn, h => by
    rw [accAt_apply, if_neg (by omega), Finset.sum_range_succ, ← accRow r hr p q n (by omega) (Nat.lt_of_succ_lt h),
      show (r * 10 + (n + 1)) / 10 % 235 = r by omega, show (r * 10 + (n + 1)) % 10 = n + 1 by omega]
    rfl

-- The closed form: at edge e and column d, e's band terms summed, times e's weight.
def G : S481280x64.Idx → EReal := fun i =>
  (∑ n ∈ Finset.range 10, bandTerm a V c (i 0).val n (i 1))
    * at2 (V c main_v95 : (⟨2, ![481280, 1]⟩ : Shape).Idx → EReal) (i 0).val 0

-- The array index of an element of the block of a row's last point.
theorem emb3 (r : ℕ) (hr : r < 235) (h : r * 10 + 9 < (cfg a).N) (p : Fin 2048) (q : Fin 64) (hb : r * 2048 + p.val < 481280) :
    (((cfg a).win 3).blk ⟨r * 10 + 9, h⟩).view.emb (ValueIdx.ix2 p q) = ValueIdx.ix2 (⟨r * 2048 + p.val, hb⟩ : Fin 481280) q :=
  Shape.idx_ext₂ ((eoff a _ h p.val).trans (show (r * 10 + 9) / 10 % 235 * 2048 + p.val = r * 2048 + p.val by omega))
    (show 0 * 64 + 1 * q.val = q.val by omega)

-- The last point of an edge tile's row holds its block of that array.
theorem flushed_eq (t : Fin (cfg a).N) (hf : ((cfg a).win 3).flush t = true) :
    (dat a V c).flushed 3 t = (((cfg a).win 3).blk t).view.read (Elt Ideal) (G a V c) := by
  have hN : (cfg a).N = 2350 := N_eq a
  have h14 : t.val % 10 = 9 := of_decide_eq_true ((fl_eq t).symm.trans hf)
  obtain ⟨r, hr, h, rfl⟩ : ∃ (r : ℕ) (hr : r < 235) (h : r * 10 + 9 < (cfg a).N), t = ⟨r * 10 + 9, h⟩ :=
    ⟨t.val / 10, by have := t.isLt; omega, by have := t.isLt; omega, Fin.ext (by show t.val = t.val / 10 * 10 + 9; omega)⟩
  refine funext fun (y : S2048x64.Idx) => ?_
  obtain ⟨p, q, rfl⟩ : ∃ (p : Fin 2048) (q : Fin 64), y = ValueIdx.ix2 p q := ⟨y 0, y 1, eq_ix2 y⟩
  show k2_pay3 (accAt a V c (r * 10 + 9) h) (valblk a V c ⟨r * 10 + 9, h⟩) (ValueIdx.ix2 p q)
    = G a V c ((((cfg a).win 3).blk ⟨r * 10 + 9, h⟩).view.emb (ValueIdx.ix2 p q))
  rw [emb3 a r hr h p q (by omega), pay3_apply, accRow a V c r hr p q 9 (by decide) h, valblk_apply, show (r * 10 + 9) / 10 % 235 = r by omega]
  rfl

end Pass

end Value

open Value in
theorem arrAt_out (a : (pcfgs (F := Ideal) 2).Adm) (V : (c : Dev nD) → (b : Ref sig .tc) → Buf (Elt Ideal) ((c : Thread nD τ).loc b)) (c : Dev nD)
    (e : ℕ) (he : e < 481280) (d : Fin 64) :
    (dat (F := Ideal) a V c).arrAt 3 (cfg a).N (ValueIdx.ix2 (⟨e, he⟩ : Fin 481280) d)
      = (∑ n ∈ Finset.range 10,
          if (Cert.Acc.at1 (a.1 0 : (⟨1, ![235]⟩ : Shape).Idx → BitVec 32) (e / 2048)).toInt ≤ (n : Int)
              ∧ (n : Int) ≤ (Cert.Acc.at1 (a.1 1 : (⟨1, ![235]⟩ : Shape).Idx → BitVec 32) (e / 2048)).toInt then
            ∑ j ∈ Finset.range 4096,
              Cert.Abs.oh (Cert.Acc.at2 (V c main_v94 : (⟨2, ![481280, 1]⟩ : Shape).Idx → BitVec 32) e 0 = BitVec.ofNat 32 j + BitVec.ofNat 32 n * 4096#32)
                * Cert.Acc.at2 (V c main_v66 : (⟨2, ![40960, 64]⟩ : Shape).Idx → EReal) (n * 4096 + j) d
          else 0) * Cert.Acc.at2 (V c main_v95 : (⟨2, ![481280, 1]⟩ : Shape).Idx → EReal) e 0 := by
  have hN : (cfg a).N = 2350 := N_eq a
  obtain ⟨r, p, rfl⟩ : ∃ (r : ℕ) (p : Fin 2048), e = r * 2048 + p.val :=
    ⟨e / 2048, ⟨e % 2048, Nat.mod_lt _ (by decide)⟩, by show e = e / 2048 * 2048 + e % 2048; omega⟩
  have ht : r * 10 + 9 < (cfg a).N := by omega
  have hm := View.emb_mem_set (((cfg a).win 3).blk ⟨r * 10 + 9, ht⟩).view (ValueIdx.ix2 p d)
  rw [emb3 a r (by omega) ht p d he] at hm
  exact (dat a V c).arrAt_apply_of_mem 3 (G a V c) (flushed_eq a V c) (cfg a).N ⟨r * 10 + 9, ht⟩ _ ht
    ((fl_eq ⟨r * 10 + 9, ht⟩).trans (decide_eq_true (by show (r * 10 + 9) % 10 = 9; omega))) hm

end Cert.KernelIdeal.R2

end
-- ==== Proof.KI.Reg3Value.lean ====
import proofs.«430818_j23493471109148_2_alg».proof.Proof.KI.Reg3Defs
import proofs.«430818_j23493471109148_2_alg».proof.Proof.ValueLib
import Idealize.ShloMosaic.Lib.Pipeline.Value
import Idealize.ShloMosaic.Lib.ValueLayout

set_option maxRecDepth 16384

noncomputable section

namespace Cert.KernelIdeal.R3.Value

open Cert.KernelIdeal Cert.KernelIdeal.Gen
open Idealize.ShloMosaic Idealize.ShloMosaic.TcCoe Idealize.ShloMosaic.ValueIdx
open Idealize.ShloMosaic.Pipeline (Dat Cfg Window)
open scoped BigOperators

section Pass

open Cert.Acc Cert.VLib

theorem pay1_at (j : S4096x64.Idx) : k3_pay1 (F := Ideal) j = 0 := by
  unfold k3_pay1
  rw [shapeCast_self]
  exact Ideal.ofBits_zero_f32

-- One point's product added to the accumulator: the one-hot column of the destination indices against the scaled rows.
theorem pay2_at (i : grid3.Coords) (x4 : Vec Ideal S1x2048 .i32) (x5 : Vec Ideal S2048x64 .f32) (base : Vec Ideal S4096x64 .f32)
    (p : Fin 4096) (q : Fin 64) :
    k3_pay2 (F := Ideal) i x4 x5 base (ValueIdx.ix2 p q)
      = base (ValueIdx.ix2 p q) + ∑ k : Fin 2048,
          Cert.Abs.oh (BitVec.ofNat 32 p.val + BitVec.ofNat 32 (i 0).val * 4096#32 = x4 (ValueIdx.ix2 (0 : Fin 1) k)) * x5 (ValueIdx.ix2 k q) := by
  unfold k3_pay2
  rw [shapeCast_self, addf_apply]
  refine congrArg (base (ValueIdx.ix2 p q) + ·) ?_
  simp only [matmul]
  rw [matmul2 dot_S4096x2048_S2048x64_S4096x64_1_0_0_1_n_n rfl rfl (fun _ _ _ => Shape.idx_ext₂ rfl rfl) (fun _ _ _ => Shape.idx_ext₂ rfl rfl)]
  refine Finset.sum_congr rfl fun k _ => ?_
  rw [truncf_apply, truncf_apply, shapeCast_self, shapeCast_self, sitofp_apply, extui_apply]
  simp only [cmpi]
  rw [broadcastTo_apply _ broadcasts_S4096x1_S4096x2048 (ValueIdx.ix2 p k) (ValueIdx.ix2 p (0 : Fin 1)) (Fin.forall_fin_two.2 ⟨rfl, rfl⟩),
    broadcastTo_apply x4 _ (ValueIdx.ix2 p k) (ValueIdx.ix2 (0 : Fin 1) k) (Fin.forall_fin_two.2 ⟨rfl, rfl⟩), onehot_eq]
  show Cert.Abs.oh (IntOp.addi (iota _ _ _ _ _ _) _ = _) * _ = _
  rw [iota_single_apply]
  rfl

theorem toNat_c0 (i : grid3.Coords) : (BitVec.ofNat 32 (i 0).val).toNat = (i 0).val :=
  toNat_ofNat_lt (lt_trans (i 0).isLt (by decide))

theorem toNat_c1 (i : grid3.Coords) : (BitVec.ofNat 32 (i 1).val).toNat = (i 1).val :=
  toNat_ofNat_lt (lt_trans (i 1).isLt (by decide))

theorem tbl_eq (T : (⟨1, ![235]⟩ : Shape).Idx → BitVec 32) (i : grid3.Coords) :
    T ((Rect.unit (s := S235) (k3_off1 i) S1.size (k3_off1_inb i)).idx (Shape.Idx.first (s := S1) (numel1_S1.symm ▸ Nat.one_pos)))
      = at1 T (i 1).val :=
  at1_eq T _ (by show (BitVec.ofNat 32 (i 1).val).toNat + 1 * 0 = _; rw [toNat_c1]; rfl)

variable (a : (pcfgs (F := Ideal) 3).Adm)
variable (V : (c : Dev nD) → (b : Ref sig .tc) → Buf (Elt Ideal) ((c : Thread nD τ).loc b))
variable (c : Dev nD) (t : Fin (cfg a).N)

theorem N_eq : (cfg a).N = 2350 := N_3

theorem coords0 : (((cfg a).grid.coords t) 0).val = t.val / 235 := by
  have := t.isLt
  have := N_eq a
  show t.val / 235 % 10 = _
  omega

theorem coords1 : (((cfg a).grid.coords t) 1).val = t.val % 235 := by
  show t.val / 1 % 235 = _
  omega

-- The array offsets of the blocks indexed by the edge tile and by the row tile.
theorem eoff (k : ℕ) : (BitVec.ofNat 32 (((cfg a).grid.coords t) 1).val).toNat * 2048 + 1 * k = t.val % 235 * 2048 + k := by
  rw [toNat_c1, coords1]; omega

theorem roff (p : ℕ) : (BitVec.ofNat 32 (((cfg a).grid.coords t) 0).val).toNat * 4096 + 1 * p = t.val / 235 * 4096 + p := by
  rw [toNat_c0, coords0]; omega

theorem idx2 : ((cfg a).win 2).index t = ![t.val / 235, 0] := by
  show ![(BitVec.ofNat 32 ((cfg a).grid.coords t 0).val).toNat, (0#32).toNat] = _
  rw [toNat_c0, coords0]
  rfl

theorem flush_iff : ((cfg a).win 2).flush t = true ↔ t.val % 235 = 234 := by
  have hN := N_eq a
  have hN' : (cfg a).grid.N = 2350 := N_3
  have ht := t.isLt
  rw [Pipeline.Window.flush_out _ rfl]
  constructor
  · rintro (h | ⟨h, hne⟩)
    · have : t.val + 1 = (cfg a).N := h
      omega
    · by_contra hc
      apply hne
      rw [idx2, idx2]
      show ![(t.val + 1) / 235, 0] = ![t.val / 235, 0]
      rw [show (t.val + 1) / 235 = t.val / 235 by omega]
  · intro h
    by_cases hl : t.val + 1 = (cfg a).N
    · exact Or.inl hl
    · refine Or.inr ⟨by omega, fun he => ?_⟩
      rw [idx2, idx2] at he
      have h2 : (t.val + 1) / 235 = t.val / 235 := congrFun he 0
      omega

theorem dstblk_at (k : Fin 2048) :
    dstblk a V c t (ValueIdx.ix2 (0 : Fin 1) k)
      = atRow (V c main_v117 : (⟨2, ![1, 481280]⟩ : Shape).Idx → BitVec 32) (t.val % 235 * 2048 + k.val) :=
  atRow_eq (V c main_v117) ((((cfg a).win 0).blk t).view.emb (ValueIdx.ix2 (0 : Fin 1) k)) (eoff a t k.val)

theorem sclblk_at (k : Fin 2048) (q : Fin 64) :
    sclblk a V c t (ValueIdx.ix2 k q)
      = at2 (V c main_v111 : (⟨2, ![481280, 64]⟩ : Shape).Idx → EReal) (t.val % 235 * 2048 + k.val) q :=
  at2_eq (V c main_v111) ((((cfg a).win 1).blk t).view.emb (ValueIdx.ix2 k q)) (eoff a t k.val) (show 0 * 64 + 1 * q.val = q.val by omega)

-- Edge tile e's contribution to row p of row tile r at column q.
def term (r e p : ℕ) (q : Fin 64) : EReal :=
  if (at1 (a.1 0 : (⟨1, ![235]⟩ : Shape).Idx → BitVec 32) e).toInt ≤ (r : Int)
      ∧ (r : Int) ≤ (at1 (a.1 1 : (⟨1, ![235]⟩ : Shape).Idx → BitVec 32) e).toInt then
    ∑ k ∈ Finset.range 2048,
      Cert.Abs.oh (BitVec.ofNat 32 p + BitVec.ofNat 32 r * 4096#32
          = atRow (V c main_v117 : (⟨2, ![1, 481280]⟩ : Shape).Idx → BitVec 32) (e * 2048 + k))
        * at2 (V c main_v111 : (⟨2, ![481280, 64]⟩ : Shape).Idx → EReal) (e * 2048 + k) q
  else 0

-- One step of the recurrence at point t, at (p, q): zero at the row tile's first edge tile, plus the edge tile's contribution.
theorem step_at (prev : Vec Ideal S4096x64 .f32) (p : Fin 4096) (q : Fin 64) :
    accStep ((cfg a).grid.coords t) (lo a ((cfg a).grid.coords t)) (hi a ((cfg a).grid.coords t)) (dstblk a V c t) (sclblk a V c t) prev
        (ValueIdx.ix2 p q)
      = (if t.val % 235 = 0 then 0 else prev (ValueIdx.ix2 p q)) + term a V c (t.val / 235) (t.val % 235) p.val q := by
  have hN := N_eq a
  have ht := t.isLt
  refine (guarded_step (k3_pay2 _ (dstblk a V c t) (sclblk a V c t)) (k3_pay1 (F := Ideal)) prev (ValueIdx.ix2 p q) _ (pay1_at _)
    fun b => pay2_at _ _ _ b p q).trans ?_
  rw [coords1, coords0]
  refine congrArg ((if t.val % 235 = 0 then 0 else prev (ValueIdx.ix2 p q)) + ·) ?_
  unfold term
  refine if_congr ((band_iff (t.val / 235) (by omega) _ _).trans ?_) ?_ rfl
  · rw [show lo a _ = _ from tbl_eq _ _, show hi a _ = _ from tbl_eq _ _, coords1]
    exact Iff.rfl
  · refine Eq.trans ?_ (Finset.sum_range _).symm
    exact Finset.sum_congr rfl fun k _ => by rw [dstblk_at, sclblk_at]

-- The accumulator after position n: the contributions of the edge tiles up to n's to n's row tile.
theorem accAt_row (p : Fin 4096) (q : Fin 64) : ∀ (n : ℕ) (h : n < (cfg a).N),
    accAt a V c n h (ValueIdx.ix2 p q) = ∑ e ∈ Finset.range (n % 235 + 1), term a V c (n / 235) e p.val q
  | 0, h => by
    rw [accAt, step_at a V c ⟨0, h⟩, if_pos (show (⟨0, h⟩ : Fin (cfg a).N).val % 235 = 0 from rfl)]
    exact (zero_add _).trans (Finset.sum_range_one (fun e => term a V c (0 / 235) e p.val q)).symm
  | n + 1, h => by
    rw [accAt, step_at a V c ⟨n + 1, h⟩]
    show (if (n + 1) % 235 = 0 then 0 else accAt a V c n _ (ValueIdx.ix2 p q)) + term a V c ((n + 1) / 235) ((n + 1) % 235) p.val q = _
    by_cases h0 : (n + 1) % 235 = 0
    · rw [if_pos h0, zero_add, h0]
      exact (Finset.sum_range_one (fun e => term a V c ((n + 1) / 235) e p.val q)).symm
    · rw [if_neg h0, accAt_row p q n _, show (n + 1) / 235 = n / 235 by omega, show (n + 1) % 235 = n % 235 + 1 by omega,
        Finset.sum_range_succ (fun e => term a V c (n / 235) e p.val q) (n % 235 + 1)]

-- The closed form: row r, column d sums the contributions of all edge tiles.
def target : (⟨2, ![40960, 64]⟩ : Shape).Idx → EReal := fun i =>
  ∑ et ∈ Finset.range 235, term a V c ((i 0).val / 4096) et ((i 0).val % 4096) (i 1)

-- The array index of an element of the block of a row tile's last point.
theorem emb2 (n : ℕ) (hn : n < 10) (h : n * 235 + 234 < (cfg a).N) (p : Fin 4096) (q : Fin 64) (hb : n * 4096 + p.val < 40960) :
    (((cfg a).win 2).blk ⟨n * 235 + 234, h⟩).view.emb (ValueIdx.ix2 p q) = ValueIdx.ix2 (⟨n * 4096 + p.val, hb⟩ : Fin 40960) q :=
  Shape.idx_ext₂ ((roff a ⟨_, h⟩ p.val).trans (show (n * 235 + 234) / 235 * 4096 + p.val = n * 4096 + p.val by omega))
    (show 0 * 64 + 1 * q.val = q.val by omega)

-- The last point of a row tile holds its block of that array.
theorem flushed_target (hf : ((cfg a).win 2).flush t = true)
    (y : (((cfg a).win 2).xblock ((cfg a).grid.coords t)).Idx) :
    _root_.cast (congrArg (Elt Ideal) (((cfg a).win 2).blk t).view.elt_eq.symm) ((dat (F := Ideal) a V c).flushed 2 t y)
      = target a V c ((((cfg a).win 2).blk t).view.emb y) := by
  have h351 := (flush_iff a t).mp hf
  have hN := N_eq a
  obtain ⟨n, hn, h, rfl⟩ : ∃ (n : ℕ) (hn : n < 10) (h : n * 235 + 234 < (cfg a).N), t = ⟨n * 235 + 234, h⟩ :=
    ⟨t.val / 235, by have := t.isLt; omega, by have := t.isLt; omega, Fin.ext (by show t.val = t.val / 235 * 235 + 234; omega)⟩
  obtain ⟨p, q, rfl⟩ : ∃ (p : Fin 4096) (q : Fin 64), y = ValueIdx.ix2 p q := ⟨y (0 : Fin 2), y (1 : Fin 2), ValueIdx.eq_ix2 y⟩
  show accAt a V c (n * 235 + 234) h (ValueIdx.ix2 p q) = _
  rw [emb2 a n hn h p q (by omega), accAt_row]
  show _ = ∑ et ∈ Finset.range 235, term a V c ((n * 4096 + p.val) / 4096) et ((n * 4096 + p.val) % 4096) q
  rw [show (n * 235 + 234) % 235 + 1 = 235 by omega, show (n * 235 + 234) / 235 = n by omega,
    show (n * 4096 + p.val) / 4096 = n by omega, show (n * 4096 + p.val) % 4096 = p.val by omega]

end Pass

theorem arrAt_out (a : (pcfgs (F := Ideal) 3).Adm) (V : (c : Dev nD) → (b : Ref sig .tc) → Buf (Elt Ideal) ((c : Thread nD τ).loc b)) (c : Dev nD)
    (r : ℕ) (hr : r < 40960) (d : Fin 64) :
    (dat (F := Ideal) a V c).arrAt 2 (cfg a).N (ValueIdx.ix2 (⟨r, hr⟩ : Fin 40960) d)
      = ∑ et ∈ Finset.range 235,
          if (Cert.Acc.at1 (a.1 0 : (⟨1, ![235]⟩ : Shape).Idx → BitVec 32) et).toInt ≤ ((r / 4096 : ℕ) : Int)
              ∧ ((r / 4096 : ℕ) : Int) ≤ (Cert.Acc.at1 (a.1 1 : (⟨1, ![235]⟩ : Shape).Idx → BitVec 32) et).toInt then
            ∑ k ∈ Finset.range 2048,
              Cert.Abs.oh (BitVec.ofNat 32 (r % 4096) + BitVec.ofNat 32 (r / 4096) * 4096#32
                  = Cert.Acc.atRow (V c main_v117 : (⟨2, ![1, 481280]⟩ : Shape).Idx → BitVec 32) (et * 2048 + k))
                * Cert.Acc.at2 (V c main_v111 : (⟨2, ![481280, 64]⟩ : Shape).Idx → EReal) (et * 2048 + k) d
          else 0 := by
  have hN := N_eq a
  obtain ⟨n, p, rfl⟩ : ∃ (n : ℕ) (p : Fin 4096), r = n * 4096 + p.val :=
    ⟨r / 4096, ⟨r % 4096, Nat.mod_lt _ (by decide)⟩, by show r = r / 4096 * 4096 + r % 4096; omega⟩
  have ht : n * 235 + 234 < (cfg a).N := by omega
  have hm := View.emb_mem_set (((cfg a).win 2).blk ⟨n * 235 + 234, ht⟩).view (ValueIdx.ix2 p d)
  rw [emb2 a n (by omega) ht p d hr] at hm
  exact (dat (F := Ideal) a V c).arrAt_forall_of_flushed 2 (fun i v => v = target a V c i)
    (fun t hf y => flushed_target a V c t hf y) (cfg a).N ⟨n * 235 + 234, ht⟩ _ ht
    ((flush_iff a _).mpr (by show (n * 235 + 234) % 235 = 234; omega)) hm

end Cert.KernelIdeal.R3.Value

end
-- ==== Proof.KI.ItemsValue.lean ====
import proofs.«430818_j23493471109148_2_alg».proof.Proof.KI.Stage
import proofs.«430818_j23493471109148_2_alg».proof.Proof.KI.HostAI
import proofs.«430818_j23493471109148_2_alg».proof.Proof.KI.HostSI
import proofs.«430818_j23493471109148_2_alg».proof.Proof.KI.HostBI
import proofs.«430818_j23493471109148_2_alg».proof.Proof.KI.HostCI
import proofs.«430818_j23493471109148_2_alg».proof.Proof.KI.Reg2Value
import proofs.«430818_j23493471109148_2_alg».proof.Proof.KI.Reg3Value
import proofs.«430818_j23493471109148_2_alg».proof.Proof.KI.ValueGen

namespace Cert.KernelIdeal.ValI

open Cert.KernelIdeal.Gen Cert.KernelIdeal.GenP Cert.KernelIdeal.St Cert.KernelIdeal.HostI Cert.Acc Idealize.ShloMosaic Idealize.ShloMosaic.TcCoe

-- The items' result is the sparse product of the items' arguments: the general two-pass lemma at regions 2 and 3.
theorem result_eq (m : (ℓ : Loc nD τ sig) → Buf (Elt Ideal) ℓ) (c : Dev nD)
    (hs : ∀ e : Fin 480000, 0 ≤ ((m ((c : Thread nD τ).loc main_arg5) : (⟨1, ![480000]⟩ : Shape).Idx → BitVec 32) (ValueIdx.ix1 e)).toInt
      ∧ ((m ((c : Thread nD τ).loc main_arg5) : (⟨1, ![480000]⟩ : Shape).Idx → BitVec 32) (ValueIdx.ix1 e)).toInt < 40000)
    (hd : ∀ e : Fin 480000, 0 ≤ ((m ((c : Thread nD τ).loc main_arg6) : (⟨1, ![480000]⟩ : Shape).Idx → BitVec 32) (ValueIdx.ix1 e)).toInt
      ∧ ((m ((c : Thread nD τ).loc main_arg6) : (⟨1, ![480000]⟩ : Shape).Idx → BitVec 32) (ValueIdx.ix1 e)).toInt < 40000) :
    (V33 m (outs m) c main_v119 : (⟨2, ![40000, 64]⟩ : Shape).Idx → EReal)
      = Cert.Spec.spmm (m ((c : Thread nD τ).loc main_arg1)) (m ((c : Thread nD τ).loc main_arg5))
          (m ((c : Thread nD τ).loc main_arg6)) (m ((c : Thread nD τ).loc main_arg7)) := by
  obtain rfl := eq_c0 c
  have h3 : V24 m (outs3 m) c0 = V24 m (outs2 m) c0 :=
    V24_congr m _ _ c0 ((outs3_9 m c0).trans (outs2_9 m c0).symm) ((outs3_16 m c0).trans (outs2_16 m c0).symm)
  exact Cert.Abs.spmm_of_passes 235 10 40000 rfl rfl (by norm_num) (by norm_num) (by norm_num) hs hd
    (fun e he d => (at2_eval (o25 m c0) e d he).trans (R2.arrAt_out (a2 m) (W24 m) c0 e he d))
    (fun r hr d => (at2_eval (o32 m c0) r d hr).trans (R3.Value.arrAt_out (a3 m) (W31 m) c0 r hr d))
    (srcP_eq m (outs2 m) c0) (dstP_eq m (outs2 m) c0) (valsP_eq m (outs2 m) c0)
    (fun k hk d => (at2_inst _ k d (by omega)).trans (embP_eq m (outs2 m) c0 k hk d))
    (p1_lt m (outs2 m) c0) (p1_inj m (outs2 m) c0) (p2_lt m (outs3 m) c0) (p2_inj m (outs3 m) c0)
    (v34_eq m (outs2 m) c0) (fun e he hp => (at2_inst _ e 0 he).trans (v35_eq m (outs2 m) c0 e he hp))
    (v21_eq m (outs2 m) c0) (fun e he hp => (v57_eq m (outs3 m) c0 e he hp).trans (by rw [h3]))
    (fun e he hp d => (at2_inst _ e d he).trans ((v51_eq m (outs3 m) c0 e he hp d).trans (by rw [outs3_25])))
    (band1 m (outs2 m) c0) (band2 m (outs3 m) c0)
    (fun r hr d => (v59_eq m (outs m) c0 r hr d).trans (by rw [outs_32]))

end Cert.KernelIdeal.ValI
-- ==== Proof.LibScatterSum.lean ====
import Idealize.ShloMosaic.PureOps.Ideal
import Idealize.ShloMosaic.Lib.ValueIdx
import Mathlib.Algebra.BigOperators.Group.Finset.Basic

noncomputable section

open scoped BigOperators

namespace Idealize.ShloMosaic.ScatterSum

open Idealize.ShloMosaic Idealize.ShloMosaic.ValueIdx

theorem getElem_of_eq_singleton {α : Type*} {l : List α} {a : α} (h : l = [a]) (k : Nat) (hk : k < l.length) :
    l[k] = a := by
  subst h
  have hk0 : k = 0 := by simpa using hk
  subst hk0
  rfl

theorem mem_kept {s : Shape} (axes : List (Fin s.rank)) (a : Fin s.rank) : a ∈ s.kept axes ↔ a ∉ axes := by
  unfold Shape.kept
  rw [List.mem_filter]
  constructor
  · intro h; simpa using h.2
  · intro h; exact ⟨List.mem_finRange a, by simpa using h⟩

section General
variable {s si u : Shape} (d : ScatterDims s si u)

theorem start_of_mem {w : Nat} (j : u.Idx) (idx : IVec si w) (a : Fin s.rank) (ha : a ∈ d.scatterDimsToOperandDims) :
    d.start j idx a
      = (idx (d.siIdx j ⟨d.scatterDimsToOperandDims.idxOf a, List.idxOf_lt_length_iff.2 ha⟩)).toInt := by
  unfold ScatterDims.start
  rw [dif_pos ha]

theorem start_of_not_mem {w : Nat} (j : u.Idx) (idx : IVec si w) (a : Fin s.rank)
    (ha : a ∉ d.scatterDimsToOperandDims) : d.start j idx a = 0 := by
  unfold ScatterDims.start
  rw [dif_neg ha]

theorem window_of_not_mem (j : u.Idx) (a : Fin s.rank) (ha : a ∉ d.sKept) : d.window j a = 0 := by
  unfold ScatterDims.window
  rw [dif_neg ha]

theorem window_of_singleton (j : u.Idx) (a : Fin s.rank) (ha : a ∈ d.sKept) (b : Fin u.rank)
    (hb : d.updateWindowDims = [b]) : d.window j a = (j b).val := by
  unfold ScatterDims.window
  rw [dif_pos ha]
  exact congrArg (fun e => (j e).val) (getElem_of_eq_singleton hb _ _)

theorem siIdx_val_of_ne (j : u.Idx) (c : Fin d.scatterDimsToOperandDims.length) (b : Fin si.rank)
    (hb : ¬ b.val = d.indexVectorDim) (a : Fin u.rank) (ha : d.uScatter = [a]) :
    (d.siIdx j c b).val = (j a).val := by
  unfold ScatterDims.siIdx
  rw [dif_neg hb]
  unfold ScatterDims.siCoord
  exact congrArg (fun e => (j e).val) (getElem_of_eq_singleton ha _ _)

theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  split_ifs with h
  · rw [Option.some.injEq]
    constructor
    · intro hf a
      have hv : (d.start j idx a + (d.window j a : Int)).toNat = (i a).val :=
        congrArg (fun f : s.Idx => (f a).val) hf
      have h0 := (h a).1
      omega
    · intro hf
      funext a
      refine Fin.ext ?_
      show (d.start j idx a + (d.window j a : Int)).toNat = (i a).val
      have := hf a
      omega
  · constructor
    · intro hn
      exact absurd hn (by simp)
    · intro hf
      exact absurd (fun a => by have := hf a; have := (i a).isLt; omega) h

end General

theorem siIdx_one {s u : Shape} {N : Nat} (d : ScatterDims s (⟨2, ![N, 1]⟩ : Shape) u) (hiv : d.indexVectorDim = 1)
    (a : Fin u.rank) (ha : d.uScatter = [a]) (j : u.Idx) (c : Fin d.scatterDimsToOperandDims.length) (n : Fin N)
    (hn : (j a).val = n.val) : d.siIdx j c = ix2 n (0 : Fin 1) := by
  funext b
  refine Fin.ext ?_
  match b with
  | ⟨0, hb⟩ =>
    rw [siIdx_val_of_ne d j c ⟨0, hb⟩ (by rw [hiv]; exact Nat.zero_ne_one) a ha, hn]
  | ⟨1, hb⟩ =>
    have h1 : (d.siIdx j c ⟨1, hb⟩).val < 1 := (d.siIdx j c ⟨1, hb⟩).isLt
    show (d.siIdx j c ⟨1, hb⟩).val = 0
    omega

section Rows
variable {P C N w : Nat}

theorem resultIdx_rows (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (idx : IVec (⟨2, ![N, 1]⟩ : Shape) w) (n : Fin N) (ch : Fin C) (p : Fin P)
    (ch' : Fin C) :
    d.resultIdx? (ix2 n ch) idx = some (ix2 p ch') ↔ ((idx (ix2 n (0 : Fin 1))).toInt = (p.val : Int) ∧ ch = ch') := by
  have huS : d.uScatter = [0] := by
    show Shape.kept _ d.updateWindowDims = [0]
    rw [huw]; rfl
  have h0mem : (0 : Fin 2) ∈ d.scatterDimsToOperandDims := by rw [hsd]; exact List.mem_singleton.2 rfl
  have h10 : ¬ (1 : Fin 2) = 0 := fun h => absurd (congrArg Fin.val h) Nat.one_ne_zero
  have h1nmem : (1 : Fin 2) ∉ d.scatterDimsToOperandDims := by
    rw [hsd]; exact fun h => h10 (List.mem_singleton.1 h)
  have h0k : (0 : Fin 2) ∉ d.sKept := by
    show _ ∉ Shape.kept _ d.insertedWindowDims
    rw [hiw, mem_kept]; exact fun h => h (List.mem_singleton.2 rfl)
  have h1k : (1 : Fin 2) ∈ d.sKept := by
    show _ ∈ Shape.kept _ d.insertedWindowDims
    rw [hiw, mem_kept]; exact fun h => h10 (List.mem_singleton.1 h)
  have hs0 : d.start (ix2 n ch) idx 0 = (idx (ix2 n (0 : Fin 1))).toInt := by
    rw [start_of_mem d _ _ _ h0mem, siIdx_one d hiv 0 huS (ix2 n ch) _ n rfl]
  have hs1 : d.start (ix2 n ch) idx 1 = 0 := start_of_not_mem d _ _ _ h1nmem
  have hw0 : d.window (ix2 n ch) 0 = 0 := window_of_not_mem d _ _ h0k
  have hw1 : d.window (ix2 n ch) 1 = ch.val := window_of_singleton d _ _ h1k 1 huw
  rw [resultIdx?_eq_some_iff]
  constructor
  · intro h
    have a0 : d.start (ix2 n ch) idx 0 + (d.window (ix2 n ch) 0 : Int) = (p.val : Int) := h 0
    have a1 : d.start (ix2 n ch) idx 1 + (d.window (ix2 n ch) 1 : Int) = (ch'.val : Int) := h 1
    rw [hs0, hw0] at a0
    rw [hs1, hw1] at a1
    refine ⟨by omega, Fin.ext (by omega)⟩
  · rintro ⟨h0, rfl⟩ a
    match a with
    | ⟨0, _⟩ =>
      show d.start (ix2 n ch) idx 0 + (d.window (ix2 n ch) 0 : Int) = (p.val : Int)
      rw [hs0, hw0, h0]; omega
    | ⟨1, _⟩ =>
      show d.start (ix2 n ch) idx 1 + (d.window (ix2 n ch) 1 : Int) = (ch.val : Int)
      rw [hs1, hw1]; omega

theorem scatterAdd_rows_apply (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (x : (⟨2, ![P, C]⟩ : Shape).Idx → EReal) (idx : IVec (⟨2, ![N, 1]⟩ : Shape) w)
    (upd : (⟨2, ![N, C]⟩ : Shape).Idx → EReal) (p : Fin P) (ch : Fin C) :
    Ideal.hostScatterAdd d x idx upd (ix2 p ch)
      = x (ix2 p ch)
        + ∑ n ∈ Finset.univ.filter (fun n : Fin N => (idx (ix2 n (0 : Fin 1))).toInt = (p.val : Int)),
            upd (ix2 n ch) := by
  unfold Ideal.hostScatterAdd
  congr 1
  rw [Finset.sum_filter, Finset.sum_filter, sum_idx2]
  refine Finset.sum_congr rfl fun n _ => ?_
  by_cases hA : (idx (ix2 n (0 : Fin 1))).toInt = (p.val : Int)
  · rw [if_pos hA, Finset.sum_eq_single ch]
    · rw [if_pos ((resultIdx_rows d huw hiw hsd hiv idx n ch p ch).2 ⟨hA, rfl⟩)]
    · intro c _ hc
      exact if_neg fun h => hc ((resultIdx_rows d huw hiw hsd hiv idx n c p ch).1 h).2
    · intro h
      exact absurd (Finset.mem_univ _) h
  · rw [if_neg hA]
    exact Finset.sum_eq_zero fun c _ =>
      if_neg fun h => hA ((resultIdx_rows d huw hiw hsd hiv idx n c p ch).1 h).1

end Rows

end Idealize.ShloMosaic.ScatterSum

end
-- ==== Proof.RefSide.lean ====
import Idealize.ShloMosaic.PureOps.Ideal
import Idealize.ShloMosaic.PureOps.Ideal.Laws
import Idealize.ShloMosaic.Lib.ValueIdx
import proofs.«430818_j23493471109148_2_alg».proof.Proof.Gen.ReferenceIdeal.Run
import proofs.«430818_j23493471109148_2_alg».proof.Proof.Gen.ReferenceIdeal.Read
import proofs.«430818_j23493471109148_2_alg».proof.Proof.Spec
import proofs.«430818_j23493471109148_2_alg».proof.Proof.LibScatterSum
import proofs.«430818_j23493471109148_2_alg».proof.Proof.GatherRows

noncomputable section

open scoped BigOperators

namespace Cert.RefSide

open Idealize.ShloMosaic Idealize.ShloMosaic.ValueIdx Idealize.ShloMosaic.StableHlo.Predicate Cert.HostRead

section Product
variable {N C E : Nat}

theorem select_of_nonneg (s n : BitVec 32) (h0 : 0 ≤ s.toInt) :
    Scalar.select (IntOp.cmpi .slt s 0#32) (IntOp.addi s n) s = s := by
  have hc : IntOp.cmpi .slt s 0#32 = 0#1 := by
    show BitVec.ofBool (s.slt 0#32) = 0#1
    have hs : s.slt 0#32 = false := by
      rw [BitVec.slt_eq_decide]
      simp only [BitVec.toInt_zero, decide_eq_false_iff_not, not_lt]
      exact h0
    rw [hs]; rfl
  rw [hc]; exact select_zero _ _

theorem row_of_range (x : (⟨2, ![N, C]⟩ : Shape).Idx → EReal) (s : BitVec 32) (ch : Fin C) (h0 : 0 ≤ s.toInt)
    (hlt : s.toInt < (N : Int)) (hp : min s.toInt.toNat (N - 1) < N) :
    x (ix2 (⟨min s.toInt.toNat (N - 1), hp⟩ : Fin N) ch) = Cert.Spec.rowAt x s.toNat ch := by
  have hk : s.toInt.toNat = s.toNat := by
    have h1 := BitVec.toInt_eq_toNat_cond s
    have h2 := s.isLt
    omega
  have hkN : s.toNat < N := by omega
  have hfin : (⟨min s.toInt.toNat (N - 1), hp⟩ : Fin N) = ⟨s.toNat, hkN⟩ := Fin.ext (show min s.toInt.toNat (N - 1) = s.toNat by omega)
  unfold Cert.Spec.rowAt
  rw [dif_pos hkN, hfin]

theorem scatter_mul_gather (hN : 0 < N)
    (wf : GatherDims.WF ⟨2, ![N, C]⟩ ⟨2, ![E, 1]⟩ ⟨2, ![E, C]⟩ [1] [0] [] [0] [] 1 ![1, C])
    (ds : ScatterDims (⟨2, ![N, C]⟩ : Shape) (⟨2, ![E, 1]⟩ : Shape) (⟨2, ![E, C]⟩ : Shape))
    (huw : ds.updateWindowDims = [1]) (hiw : ds.insertedWindowDims = [0]) (hsd : ds.scatterDimsToOperandDims = [0])
    (hiv : ds.indexVectorDim = 1)
    (emb : (⟨2, ![N, C]⟩ : Shape).Idx → EReal) (src dst : (⟨1, ![E]⟩ : Shape).Idx → BitVec 32)
    (vals : (⟨1, ![E]⟩ : Shape).Idx → EReal)
    (hsrc : ∀ e : Fin E, 0 ≤ (src (ix1 e)).toInt ∧ (src (ix1 e)).toInt < (N : Int))
    (zero : (⟨2, ![N, C]⟩ : Shape).Idx → EReal) (hz : ∀ i, zero i = 0)
    (idxG idxS : IVec (⟨2, ![E, 1]⟩ : Shape) 32)
    (hG : ∀ e : Fin E, idxG (ixP e) = src (ix1 e))
    (hS : ∀ e : Fin E, idxS (ix2 e (0 : Fin 1)) = dst (ix1 e))
    (valsB : (⟨2, ![E, C]⟩ : Shape).Idx → EReal) (hV : ∀ (e : Fin E) (ch : Fin C), valsB (ix2 e ch) = vals (ix1 e))
    (upd : (⟨2, ![E, C]⟩ : Shape).Idx → EReal)
    (hupd : ∀ i, upd i = valsB i * Host.gather (rowDims N E C wf) emb idxG i) :
    Ideal.hostScatterAdd ds zero idxS upd = Cert.Spec.spmm emb src dst vals := by
  funext i
  obtain ⟨p, ch, rfl⟩ : ∃ (p : Fin N) (ch : Fin C), i = ix2 p ch := ⟨i 0, i 1, eq_ix2 i⟩
  rw [Idealize.ShloMosaic.ScatterSum.scatterAdd_rows_apply ds huw hiw hsd hiv, hz, zero_add,
    Cert.Spec.spmm_apply]
  unfold Cert.Spec.spmmAt
  simp only [hS]
  refine Finset.sum_congr rfl fun e _ => ?_
  rw [hupd, hV, gather_rows_apply hN wf,
    row_of_range emb (idxG (ixP e)) ch (by rw [hG]; exact (hsrc e).1) (by rw [hG]; exact (hsrc e).2) _, hG]

end Product

section Reference

open Cert.ReferenceIdeal Cert.ReferenceIdeal.Gen Cert.ReferenceIdeal.Read Idealize.ShloMosaic.TcCoe Idealize.SL.Sem
  Idealize.ShloMosaic.StableHlo

theorem ix1_ext {n : Nat} {j k : (⟨1, ![n]⟩ : Shape).Idx} (h : (j 0).val = (k 0).val) : j = k := by
  funext a
  match a with
  | ⟨0, _⟩ => exact Fin.ext h

theorem users_eq (x0 : (⟨S60000x64, .f32⟩ : BufTy).Contents (Elt Ideal))
    (x2 x3 : (⟨S720000, .i32⟩ : BufTy).Contents (Elt Ideal)) (x4 : (⟨S720000, .f32⟩ : BufTy).Contents (Elt Ideal))
    (h : ∀ e : Fin 720000, 0 ≤ (x2 (ix1 e)).toInt ∧ (x2 (ix1 e)).toInt < 60000) :
    val_main_v12 (F := Ideal) x0 x2 x3 x4 = Cert.Spec.spmm x0 x2 x3 x4 := by
  refine scatter_mul_gather (N := 60000) (C := 64) (E := 720000) (by decide)
    gather_S60000x64_S720000x1_S720000x64_1_0_n_n_0_1_164_wf scatter_S60000x64_S720000x1_S720000x64_1_0_0_1
    rfl rfl rfl rfl x0 x2 x3 x4 h (val_main_v10 (F := Ideal)) (fun i => ?_)
    (val_main_v6 (F := Ideal) x2) (val_main_v11 (F := Ideal) x3) (fun e => ?_) (fun e => ?_)
    (val_main_v8 (F := Ideal) x4) (fun e ch => ?_) (val_main_v9 (F := Ideal) x0 x2 x4) (fun i => ?_)
  · rw [val_main_v10_apply, val_main_cst_apply]
    exact Ideal.ofBits_zero_f32
  · rw [val_main_v6_apply, val_main_v5_apply, val_main_v2_apply, val_main_v4_apply, val_main_v1_apply, val_main_c_apply,
      show idx_main_v6 (ixP e) = ix1 e from ix1_ext rfl]
    exact select_of_nonneg _ _ (h e).1
  · rw [val_main_v11_apply, show idx_main_v11 (ix2 e (0 : Fin 1)) = ix1 e from ix1_ext rfl]
  · rw [val_main_v8_apply, val_main_v0_apply, show idx_main_v0 (idx_main_v8 (ix2 e ch)) = ix1 e from ix1_ext rfl]
  · rw [val_main_v9_apply]
    rfl

theorem items_eq (x1 : (⟨S40000x64, .f32⟩ : BufTy).Contents (Elt Ideal))
    (x5 x6 : (⟨S480000, .i32⟩ : BufTy).Contents (Elt Ideal)) (x7 : (⟨S480000, .f32⟩ : BufTy).Contents (Elt Ideal))
    (h : ∀ e : Fin 480000, 0 ≤ (x5 (ix1 e)).toInt ∧ (x5 (ix1 e)).toInt < 40000) :
    val_main_v25 (F := Ideal) x1 x5 x6 x7 = Cert.Spec.spmm x1 x5 x6 x7 := by
  refine scatter_mul_gather (N := 40000) (C := 64) (E := 480000) (by decide)
    gather_S40000x64_S480000x1_S480000x64_1_0_n_n_0_1_164_wf scatter_S40000x64_S480000x1_S480000x64_1_0_0_1
    rfl rfl rfl rfl x1 x5 x6 x7 h (val_main_v23 (F := Ideal)) (fun i => ?_)
    (val_main_v19 (F := Ideal) x5) (val_main_v24 (F := Ideal) x6) (fun e => ?_) (fun e => ?_)
    (val_main_v21 (F := Ideal) x7) (fun e ch => ?_) (val_main_v22 (F := Ideal) x1 x5 x7) (fun i => ?_)
  · rw [val_main_v23_apply, val_main_cst_3_apply]
    exact Ideal.ofBits_zero_f32
  · rw [val_main_v19_apply, val_main_v18_apply, val_main_v15_apply, val_main_v17_apply, val_main_v14_apply,
      val_main_c_1_apply, show idx_main_v19 (ixP e) = ix1 e from ix1_ext rfl]
    exact select_of_nonneg _ _ (h e).1
  · rw [val_main_v24_apply, show idx_main_v24 (ix2 e (0 : Fin 1)) = ix1 e from ix1_ext rfl]
  · rw [val_main_v21_apply, val_main_v13_apply, show idx_main_v13 (idx_main_v21 (ix2 e ch)) = ix1 e from ix1_ext rfl]
  · rw [val_main_v22_apply]
    rfl

abbrev arr (m : (ℓ : Loc nD τ sig) → Buf (Elt Ideal) ℓ) (c : Dev nD) (b : Ref sig .tc) : Buf (Elt Ideal) ((c.tc : Thread nD τ).loc b) :=
  m ((c.tc : Thread nD τ).loc b)

theorem run_spmm (m' : (ℓ : Loc nD τ sig) → Buf (Elt Ideal) ℓ) (g' : Dev nD → PrngReg)
    (hU : ∀ (c : Dev nD) (e : Fin 720000), 0 ≤ (arr m' c main_arg2 (ix1 e)).toInt ∧ (arr m' c main_arg2 (ix1 e)).toInt < 60000)
    (hI : ∀ (c : Dev nD) (e : Fin 480000), 0 ≤ (arr m' c main_arg5 (ix1 e)).toInt ∧ (arr m' c main_arg5 (ix1 e)).toInt < 40000) :
    θ_run (defs (F := Ideal)) (onTc (τ := τ) (main (F := Ideal))) ⟨m', fun _ => 0, g'⟩ (fun r => ∀ c : Dev nD,
      arr r.2.mem c main_v12 = Cert.Spec.spmm (arr m' c main_arg0) (arr m' c main_arg2) (arr m' c main_arg3) (arr m' c main_arg4)
      ∧ arr r.2.mem c main_v25 = Cert.Spec.spmm (arr m' c main_arg1) (arr m' c main_arg5) (arr m' c main_arg6) (arr m' c main_arg7)
      ∧ arr r.2.mem c main_arg0 = arr m' c main_arg0 ∧ arr r.2.mem c main_arg1 = arr m' c main_arg1
      ∧ arr r.2.mem c main_arg2 = arr m' c main_arg2 ∧ arr r.2.mem c main_arg3 = arr m' c main_arg3
      ∧ arr r.2.mem c main_arg4 = arr m' c main_arg4 ∧ arr r.2.mem c main_arg5 = arr m' c main_arg5
      ∧ arr r.2.mem c main_arg6 = arr m' c main_arg6 ∧ arr r.2.mem c main_arg7 = arr m' c main_arg7
      ∧ arr r.2.mem c main_arg8 = arr m' c main_arg8 ∧ arr r.2.mem c main_arg9 = arr m' c main_arg9
      ∧ arr r.2.mem c main_arg10 = arr m' c main_arg10) := by
  refine (θ_run (defs (F := Ideal)) _ _).mono (fun _ h c => ?_) (Value.run (F := Ideal) m' g')
  obtain ⟨h12, h25, hrest⟩ := h c
  exact ⟨h12.trans ((val_main_v12_eq (F := Ideal) _ _ _ _).trans (users_eq _ _ _ _ (hU c))),
    h25.trans ((val_main_v25_eq (F := Ideal) _ _ _ _).trans (items_eq _ _ _ _ (hI c))), hrest⟩

end Reference

end Cert.RefSide

end
-- ==== Proof.PreDecode.lean ====
import proofs.«430818_j23493471109148_2_alg».proof.Pre_finite_inputs
import proofs.«430818_j23493471109148_2_alg».proof.Proof.Gen.Pre_finite_inputs
import Idealize.ShloMosaic.Lib.ReduceAll
import Idealize.ShloMosaic.Lib.ValueIdx

noncomputable section

namespace Cert.PreDecode

open Idealize.ShloMosaic Cert.Pre_finite_inputs

local instance : Subsingleton S_.Idx := ⟨fun a b => funext fun d => d.elim0⟩

theorem toInt_lit (n : Nat) (hn : n < 2 ^ 31) : (BitVec.ofNat 32 n).toInt = n := by
  rw [BitVec.toInt_ofNat']
  exact Int.bmod_eq_of_le (by omega) (by omega)

theorem range_of_word (w : BitVec 32) (n : Nat) (hn : n < 2 ^ 31)
    (h : IntOp.andi (IntOp.cmpi .sge w (BitVec.ofNat 32 0)) (IntOp.cmpi .slt w (BitVec.ofNat 32 n)) = 1#1) :
    0 ≤ w.toInt ∧ w.toInt < n := by
  obtain ⟨h0, h1⟩ := IntOp.andi_eq_one.1 h
  have a := IntOp.cmpi_sge.1 h0
  have b := IntOp.cmpi_slt.1 h1
  rw [toInt_lit 0 (by omega)] at a
  rw [toInt_lit n hn] at b
  exact ⟨by exact_mod_cast a, b⟩

theorem ranges {F : FTy → Type} [FloatOps F]
    (x0 : FVec F S60000x64 .f32) (x1 : FVec F S40000x64 .f32)
    (x2 x3 : IVec S720000 32) (x4 : FVec F S720000 .f32)
    (x5 x6 : IVec S480000 32) (x7 : FVec F S480000 .f32)
    (x8 x9 : IVec S1200000 32) (x10 : FVec F S1200000 .f32)
    (h : Cert.Pre_finite_inputs.fn (F := F) x0 x1 x2 x3 x4 x5 x6 x7 x8 x9 x10 = fun _ => 1#1) :
    (∀ e : Fin 720000, 0 ≤ (x2 (ValueIdx.ix1 e)).toInt ∧ (x2 (ValueIdx.ix1 e)).toInt < 60000)
    ∧ (∀ e : Fin 720000, 0 ≤ (x3 (ValueIdx.ix1 e)).toInt ∧ (x3 (ValueIdx.ix1 e)).toInt < 60000)
    ∧ (∀ e : Fin 480000, 0 ≤ (x5 (ValueIdx.ix1 e)).toInt ∧ (x5 (ValueIdx.ix1 e)).toInt < 40000)
    ∧ (∀ e : Fin 480000, 0 ≤ (x6 (ValueIdx.ix1 e)).toInt ∧ (x6 (ValueIdx.ix1 e)).toInt < 40000) := by
  have e := congrFun h ValueIdx.ix0
  dsimp only [fn, fn_part1, fn_part2, fn_part3] at e

  obtain ⟨e44, e50⟩ := IntOp.andi_eq_one.1 e
  obtain ⟨e37, e43⟩ := IntOp.andi_eq_one.1 e44
  obtain ⟨e30, e36⟩ := IntOp.andi_eq_one.1 e37
  obtain ⟨-, e29⟩ := IntOp.andi_eq_one.1 e30
  refine ⟨fun i => ?_, fun i => ?_, fun i => ?_, fun i => ?_⟩
  · exact range_of_word _ 60000 (by norm_num) (Host.reduce_andi_all _ _ _ _ _ e29 (ValueIdx.ix1 i))
  · exact range_of_word _ 60000 (by norm_num) (Host.reduce_andi_all _ _ _ _ _ e36 (ValueIdx.ix1 i))
  · exact range_of_word _ 40000 (by norm_num) (Host.reduce_andi_all _ _ _ _ _ e43 (ValueIdx.ix1 i))
  · exact range_of_word _ 40000 (by norm_num) (Host.reduce_andi_all _ _ _ _ _ e50 (ValueIdx.ix1 i))

end Cert.PreDecode

end
-- ==== Proof.lean ====
import proofs.«430818_j23493471109148_2_alg».proof.Defs
import proofs.«430818_j23493471109148_2_alg».proof.Proof.Gen.Kernel
import proofs.«430818_j23493471109148_2_alg».proof.Proof.Gen.KernelIdeal
import proofs.«430818_j23493471109148_2_alg».proof.Proof.Gen.ReferenceIdeal
import proofs.«430818_j23493471109148_2_alg».proof.Proof.Gen.Pre_finite_inputs
import proofs.«430818_j23493471109148_2_alg».proof.Proof.K.Stage
import proofs.«430818_j23493471109148_2_alg».proof.Proof.KI.Stage
import proofs.«430818_j23493471109148_2_alg».proof.Proof.KI.UsersValue
import proofs.«430818_j23493471109148_2_alg».proof.Proof.KI.ItemsValue
import proofs.«430818_j23493471109148_2_alg».proof.Proof.RefSide
import proofs.«430818_j23493471109148_2_alg».proof.Proof.PreDecode
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => (θ_run (Cert.Kernel.defs (F := Bits)) _ _).mono (fun _ h c => (h c).2.2) (Cert.Kernel.St.run (F := Bits) m ρ)

theorem frame_ki : Cert.frame_KernelIdeal (hKernelIdeal := Cert.KernelIdeal.Gen.facts) (hPre_finite_inputs := Cert.Pre_finite_inputs.Gen.facts) :=
  fun m ρ _ => (θ_run (Cert.KernelIdeal.defs (F := Ideal)) _ _).mono (fun _ h c => (h c).2.2) (Cert.KernelIdeal.St.run (F := Ideal) m ρ)

theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2.2) (Cert.ReferenceIdeal.Value.run (F := Ideal) m ρ)

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hr := fun c => Cert.PreDecode.ranges (F := Ideal) _ _ _ _ _ _ _ _ _ _ _ (hpre c)
  refine ⟨_, _, (θ_run (Cert.KernelIdeal.defs (F := Ideal)) _ _).mono (fun _ h c =>
      ⟨(h c).1.trans (Cert.KernelIdeal.ValU.result_eq m c (hr c).1 (hr c).2.1),
        (h c).2.1.trans (Cert.KernelIdeal.ValI.result_eq m c (hr c).2.2.1 (hr c).2.2.2), (h c).2.2⟩)
    (Cert.KernelIdeal.St.run (F := Ideal) m ρ), ?_⟩
  refine (θ_run (Cert.ReferenceIdeal.defs (F := Ideal)) _ _).mono (fun _ h c => ⟨(h c).1.trans ?_, (h c).2.1.trans ?_, (h c).2.2⟩)
    (Cert.RefSide.run_spmm m' ρ' (fun c e => by dsimp only [Cert.RefSide.arr]; rw [(hagree c).2.2.1]; exact (hr c).1 e)
      (fun c e => by dsimp only [Cert.RefSide.arr]; rw [(hagree c).2.2.2.2.2.1]; exact (hr c).2.2.1 e))
  · dsimp only [Cert.RefSide.arr]; rw [(hagree c).1, (hagree c).2.2.1, (hagree c).2.2.2.1, (hagree c).2.2.2.2.1]
  · dsimp only [Cert.RefSide.arr]; rw [(hagree c).2.1, (hagree c).2.2.2.2.2.1, (hagree c).2.2.2.2.2.2.1, (hagree c).2.2.2.2.2.2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
